-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S256x3 : Shape := ⟨2, ![256, 3]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S134x1024 : Shape := ⟨2, ![134, 1024]⟩
abbrev S1024 : Shape := ⟨1, ![1024]⟩
abbrev S1024x1024 : Shape := ⟨2, ![1024, 1024]⟩
abbrev S1024x3 : Shape := ⟨2, ![1024, 3]⟩
abbrev S3 : Shape := ⟨1, ![3]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S256x3 : S_.BroadcastsInDim S256x3 (![] : Fin 0 → Fin S256x3.rank)
  reducesTo_S256x3_S_d0_1 : S256x3.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S134x1024 : S_.BroadcastsInDim S134x1024 (![] : Fin 0 → Fin S134x1024.rank)
  reducesTo_S134x1024_S_d0_1 : S134x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x3 : S_.BroadcastsInDim S1024x3 (![] : Fin 0 → Fin S1024x3.rank)
  reducesTo_S1024x3_S_d0_1 : S1024x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg23 : FVec F S1024x3 .f32) (main_arg24 : FVec F S3 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024x3 .f32 := Host.absf main_arg23
  let main_cst_40 : FVec F S_ .f32 := constant S_ .f32 0x7F800000#32
  let main_v105 : FVec F S1024x3 .f32 := broadcastInDim S1024x3 ![] bcast_S_S1024x3 main_cst_40
  let main_v106 : IVec S1024x3 1 := cmpf .olt main_v104 main_v105
  let main_c_41 : IVec S_ 1 := constantI S_ 1 1#1
  let main_v107 : IVec S_ 1 := (fun x v => Host.reduce IntOp.andi x v reducesTo_S1024x3_S_d0_1 h_S_) main_v106 main_c_41
  let main_v108 : IVec S_ 1 := andi main_v103 main_v107
  let main_v109 : FVec F S3 .f32 := Host.absf main_arg24
  let main_cst_42 : FVec F S_ .f32 := constant S_ .f32 0x7F800000#32
  let main_v110 : FVec F S3 .f32 := broadcastInDim S3 ![] bcast_S_S3 main_cst_42
  let main_v111 : IVec S3 1 := cmpf .olt main_v109 main_v110
  let main_c_43 : IVec S_ 1 := constantI S_ 1 1#1
  let main_v112 : IVec S_ 1 := (fun x v => Host.reduce IntOp.andi x v reducesTo_S3_S_d0 h_S_) main_v111 main_c_43
  let main_v113 : IVec S_ 1 := andi main_v108 main_v112
  main_v113

def fn_part5 {F : FTy → Type} [FloatOps F] (main_arg20 : FVec F S1024 .f32) (main_arg21 : FVec F S1024x1024 .f32) (main_arg22 : FVec F S1024 .f32) (main_arg23 : FVec F S1024x3 .f32) (main_arg24 : FVec F S3 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg20
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x1024 .f32 := Host.absf main_arg21
  let main_cst_36 : FVec F S_ .f32 := constant S_ .f32 0x7F800000#32
  let main_v95 : FVec F S1024x1024 .f32 := broadcastInDim S1024x1024 ![] bcast_S_S1024x1024 main_cst_36
  let main_v96 : IVec S1024x1024 1 := cmpf .olt main_v94 main_v95
  let main_c_37 : IVec S_ 1 := constantI S_ 1 1#1
  let main_v97 : IVec S_ 1 := (fun x v => Host.reduce IntOp.andi x v reducesTo_S1024x1024_S_d0_1 h_S_) main_v96 main_c_37
  let main_v98 : IVec S_ 1 := andi main_v93 main_v97
  let main_v99 : FVec F S1024 .f32 := Host.absf main_arg22
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S128 .f32) (main_arg17 : FVec F S134x1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024x3 .f32) (main_arg24 : FVec F S3 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S134x1024 .f32 := Host.absf main_arg17
  let main_cst_28 : FVec F S_ .f32 := constant S_ .f32 0x7F800000#32
  let main_v75 : FVec F S134x1024 .f32 := broadcastInDim S134x1024 ![] bcast_S_S134x1024 main_cst_28
  let main_v76 : IVec S134x1024 1 := cmpf .olt main_v74 main_v75
  let main_c_29 : IVec S_ 1 := constantI S_ 1 1#1
  let main_v77 : IVec S_ 1 := (fun x v => Host.reduce IntOp.andi x v reducesTo_S134x1024_S_d0_1 h_S_) main_v76 main_c_29
  let main_v78 : IVec S_ 1 := andi main_v73 main_v77
  let main_v79 : FVec F S1024 .f32 := Host.absf main_arg18
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S134x1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024x3 .f32) (main_arg24 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S134x1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024x3 .f32) (main_arg24 : FVec F S3 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S134x1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024x3 .f32) (main_arg24 : FVec F S3 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x64 .f32) (main_arg1 : FVec F S256x3 .f32) (main_arg2 : FVec F S256x3 .f32) (main_arg3 : IVec S2x800000 32) (main_arg4 : IVec S50000 32) (main_arg5 : FVec F S64x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S134x1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024x3 .f32) (main_arg24 : FVec F S3 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S256x3 .f32 := Host.absf main_arg1
  let main_cst_0 : FVec F S_ .f32 := constant S_ .f32 0x7F800000#32
  let main_v5 : FVec F S256x3 .f32 := broadcastInDim S256x3 ![] bcast_S_S256x3 main_cst_0
  let main_v6 : IVec S256x3 1 := cmpf .olt main_v4 main_v5
  let main_c_1 : IVec S_ 1 := constantI S_ 1 1#1
  let main_v7 : IVec S_ 1 := (fun x v => Host.reduce IntOp.andi x v reducesTo_S256x3_S_d0_1 h_S_) main_v6 main_c_1
  let main_v8 : IVec S_ 1 := andi main_v3 main_v7
  let main_v9 : FVec F S256x3 .f32 := Host.absf main_arg2
  let main_cst_2 : FVec F S_ .f32 := constant S_ .f32 0x7F800000#32
  let main_v10 : FVec F S256x3 .f32 := broadcastInDim S256x3 ![] bcast_S_S256x3 main_cst_2
  let main_v11 : IVec S256x3 1 := cmpf .olt main_v9 main_v10
  let main_c_3 : IVec S_ 1 := constantI S_ 1 1#1
  let main_v12 : IVec S_ 1 := (fun x v => Host.reduce IntOp.andi x v reducesTo_S256x3_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x64 : Shape := ⟨2, ![50000, 64]⟩
abbrev S256x3 : Shape := ⟨2, ![256, 3]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S134x1024 : Shape := ⟨2, ![134, 1024]⟩
abbrev S1024 : Shape := ⟨1, ![1024]⟩
abbrev S1024x1024 : Shape := ⟨2, ![1024, 1024]⟩
abbrev S1024x3 : Shape := ⟨2, ![1024, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S5000x64 : Shape := ⟨2, ![5000, 64]⟩
abbrev S5000x1 : Shape := ⟨2, ![5000, 1]⟩
abbrev S5000x128 : Shape := ⟨2, ![5000, 128]⟩
abbrev S800000x128 : Shape := ⟨2, ![800000, 128]⟩
abbrev S50176x128 : Shape := ⟨2, ![50176, 128]⟩
abbrev S50176 : Shape := ⟨1, ![50176]⟩
abbrev S1x50176 : Shape := ⟨2, ![1, 50176]⟩
abbrev S256x128 : Shape := ⟨2, ![256, 128]⟩
abbrev S3584x128 : Shape := ⟨2, ![3584, 128]⟩
abbrev S1x3584 : Shape := ⟨2, ![1, 3584]⟩
abbrev S256x1 : Shape := ⟨2, ![256, 1]⟩
abbrev S256x3584 : Shape := ⟨2, ![256, 3584]⟩
abbrev S256 : Shape := ⟨1, ![256]⟩
abbrev S256x134 : Shape := ⟨2, ![256, 134]⟩
abbrev S1x1024 : Shape := ⟨2, ![1, 1024]⟩
abbrev S1x3 : Shape := ⟨2, ![1, 3]⟩
abbrev S256x1024 : Shape := ⟨2, ![256, 1024]⟩

abbrev nBuf : Space → Nat
  | .hbm => 118
  | .vmem => 99
  | .smem => 0
  | _ => 0

abbrev bufTy : (tb : Table) → Fin (tcTables nBuf tb) → BufTy
  | .hbm, ⟨0, _⟩ => ⟨S50000x64, .f32⟩
  | .hbm, ⟨1, _⟩ => ⟨S256x3, .f32⟩
  | .hbm, ⟨2, _⟩ => ⟨S256x3, .f32⟩
  | .hbm, ⟨3, _⟩ => ⟨S2x800000, .i32⟩
  | .hbm, ⟨4, _⟩ => ⟨S50000, .i32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S134x1024, .f32⟩
  | .hbm, ⟨18, _⟩ => ⟨S1024, .f32⟩
  | .hbm, ⟨19, _⟩ => ⟨S1024x1024, .f32⟩
  | .hbm, ⟨20, _⟩ => ⟨S1024, .f32⟩
  | .hbm, ⟨21, _⟩ => ⟨S1024x1024, .f32⟩
  | .hbm, ⟨22, _⟩ => ⟨S1024, .f32⟩
  | .hbm, ⟨23, _⟩ => ⟨S1024x3, .f32⟩
  | .hbm, ⟨24, _⟩ => ⟨S3, .f32⟩
  | .hbm, ⟨25, _⟩ => ⟨S1x800000, .i32⟩
  | .hbm, ⟨26, _⟩ => ⟨S800000, .i32⟩
  | .hbm, ⟨27, _⟩ => ⟨S1x800000, .i32⟩
  | .hbm, ⟨28, _⟩ => ⟨S800000, .i32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S50000x128, .f32⟩
  | .hbm, ⟨101, _⟩ => ⟨S1x128, .f32⟩
  | .hbm, ⟨102, _⟩ => ⟨S1x128, .f32⟩
  | .hbm, ⟨103, _⟩ => ⟨S50000x128, .f32⟩
  | .hbm, ⟨104, _⟩ => ⟨S_, .i32⟩
  | .hbm, ⟨105, _⟩ => ⟨S_, .f32⟩
  | .hbm, ⟨106, _⟩ => ⟨S50176x128, .f32⟩
  | .hbm, ⟨107, _⟩ => ⟨S_, .i32⟩
  | .hbm, ⟨108, _⟩ => ⟨S_, .i32⟩
  | .hbm, ⟨109, _⟩ => ⟨S50176, .i32⟩
  | .hbm, ⟨110, _⟩ => ⟨S1x50176, .i32⟩
  | .hbm, ⟨111, _⟩ => ⟨S256x128, .f32⟩
  | .hbm, ⟨112, _⟩ => ⟨S256x134, .f32⟩
  | .hbm, ⟨113, _⟩ => ⟨S1x1024, .f32⟩
  | .hbm, ⟨114, _⟩ => ⟨S1x1024, .f32⟩
  | .hbm, ⟨115, _⟩ => ⟨S1x1024, .f32⟩
  | .hbm, ⟨116, _⟩ => ⟨S1x3, .f32⟩
  | .hbm, ⟨117, _⟩ => ⟨S256x3, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x128, .f32⟩
  | .local _ .vmem, ⟨29, _⟩ => ⟨S5000x1, .f32⟩
  | .local _ .vmem, ⟨30, _⟩ => ⟨S5000x1, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S5000x128, .f32⟩
  | .local _ .vmem, ⟨40, _⟩ => ⟨S5000x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S128x128, .f32⟩
  | .local _ .vmem, ⟨55, _⟩ => ⟨S5000x1, .f32⟩
  | .local _ .vmem, ⟨56, _⟩ => ⟨S5000x1, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x1, .f32⟩
  | .local _ .vmem, ⟨64, _⟩ => ⟨S5000x1, .f32⟩
  | .local _ .vmem, ⟨65, _⟩ => ⟨S5000x128, .f32⟩
  | .local _ .vmem, ⟨66, _⟩ => ⟨S5000x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S1x128, .f32⟩
  | .local _ .vmem, ⟨77, _⟩ => ⟨S1x128, .f32⟩
  | .local _ .vmem, ⟨78, _⟩ => ⟨S1x128, .f32⟩
  | .local _ .vmem, ⟨79, _⟩ => ⟨S1x128, .f32⟩
  | .local _ .vmem, ⟨80, _⟩ => ⟨S5000x128, .f32⟩
  | .local _ .vmem, ⟨81, _⟩ => ⟨S5000x128, .f32⟩
  | .local _ .vmem, ⟨82, _⟩ => ⟨S3584x128, .f32⟩
  | .local _ .vmem, ⟨83, _⟩ => ⟨S3584x128, .f32⟩
  | .local _ .vmem, ⟨84, _⟩ => ⟨S1x3584, .i32⟩
  | .local _ .vmem, ⟨85, _⟩ => ⟨S1x3584, .i32⟩
  | .local _ .vmem, ⟨86, _⟩ => ⟨S256x128, .f32⟩
  | .local _ .vmem, ⟨87, _⟩ => ⟨S256x128, .f32⟩
  | .local _ .vmem, ⟨88, _⟩ => ⟨S256x1, .f32⟩
  | .local _ .vmem, ⟨89, _⟩ => ⟨S256x134, .f32⟩
  | .local _ .vmem, ⟨90, _⟩ => ⟨S134x1024, .f32⟩
  | .local _ .vmem, ⟨91, _⟩ => ⟨S1x1024, .f32⟩
  | .local _ .vmem, ⟨92, _⟩ => ⟨S1024x1024, .f32⟩
  | .local _ .vmem, ⟨93, _⟩ => ⟨S1x1024, .f32⟩
  | .local _ .vmem, ⟨94, _⟩ => ⟨S1024x1024, .f32⟩
  | .local _ .vmem, ⟨95, _⟩ => ⟨S1x1024, .f32⟩
  | .local _ .vmem, ⟨96, _⟩ => ⟨S1024x3, .f32⟩
  | .local _ .vmem, ⟨97, _⟩ => ⟨S1x3, .f32⟩
  | .local _ .vmem, ⟨98, _⟩ => ⟨S256x3, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21_0 : Ref sig .tc := ⟨.hbm, 49, rfl⟩
abbrev main_v21_1 : Ref sig .tc := ⟨.hbm, 50, rfl⟩
abbrev main_c : Ref sig .tc := ⟨.hbm, 51, rfl⟩
abbrev main_v22 : Ref sig .tc := ⟨.hbm, 52, rfl⟩
abbrev main_v23 : Ref sig .tc := ⟨.hbm, 53, rfl⟩
abbrev main_c_2 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_3 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32_0 : Ref sig .tc := ⟨.hbm, 64, rfl⟩
abbrev main_v32_1 : Ref sig .tc := ⟨.hbm, 65, rfl⟩
abbrev main_v32_2 : Ref sig .tc := ⟨.hbm, 66, rfl⟩
abbrev main_v33_0 : Ref sig .tc := ⟨.hbm, 67, rfl⟩
abbrev main_v33_1 : Ref sig .tc := ⟨.hbm, 68, rfl⟩
abbrev main_c_4 : Ref sig .tc := ⟨.hbm, 69, rfl⟩
abbrev main_v34 : Ref sig .tc := ⟨.hbm, 70, rfl⟩
abbrev main_v35 : Ref sig .tc := ⟨.hbm, 71, rfl⟩
abbrev main_c_5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_6 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44_0 : Ref sig .tc := ⟨.hbm, 82, rfl⟩
abbrev main_v44_1 : Ref sig .tc := ⟨.hbm, 83, rfl⟩
abbrev main_v44_2 : Ref sig .tc := ⟨.hbm, 84, rfl⟩
abbrev main_v45_0 : Ref sig .tc := ⟨.hbm, 85, rfl⟩
abbrev main_v45_1 : Ref sig .tc := ⟨.hbm, 86, rfl⟩
abbrev main_c_7 : Ref sig .tc := ⟨.hbm, 87, rfl⟩
abbrev main_v46 : Ref sig .tc := ⟨.hbm, 88, rfl⟩
abbrev main_v47 : Ref sig .tc := ⟨.hbm, 89, rfl⟩
abbrev main_c_8 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_9 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56_0 : Ref sig .tc := ⟨.hbm, 100, rfl⟩
abbrev main_v56_1 : Ref sig .tc := ⟨.hbm, 101, rfl⟩
abbrev main_v56_2 : Ref sig .tc := ⟨.hbm, 102, rfl⟩
abbrev main_v57 : Ref sig .tc := ⟨.hbm, 103, rfl⟩
abbrev main_c_10 : Ref sig .tc := ⟨.hbm, 104, rfl⟩
abbrev main_call0_v0 : Ref sig .tc := ⟨.hbm, 105, rfl⟩
abbrev main_v58 : Ref sig .tc := ⟨.hbm, 106, rfl⟩
abbrev main_c_11 : Ref sig .tc := ⟨.hbm, 107, rfl⟩
abbrev main_call1_v0 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc2_stg8_0 : Ref sig .tc := ⟨.vmem, 33, rfl⟩
abbrev cc2_stg8_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg6_0 : Ref sig .tc := ⟨.vmem, 45, rfl⟩
abbrev cc3_scratch0 : Ref sig .tc := ⟨.vmem, 46, rfl⟩
abbrev cc3_scratch1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg6_1 : Ref sig .tc := ⟨.vmem, 56, rfl⟩
abbrev cc4_stg7_0 : Ref sig .tc := ⟨.vmem, 57, rfl⟩
abbrev cc4_stg7_1 : Ref sig .tc := ⟨.vmem, 58, rfl⟩
abbrev cc4_stg8_0 : Ref sig .tc := ⟨.vmem, 59, rfl⟩
abbrev cc4_stg8_1 : Ref sig .tc := ⟨.vmem, 60, rfl⟩
abbrev cc5_stg0_0 : Ref sig .tc := ⟨.vmem, 61, rfl⟩
abbrev cc5_stg0_1 : Ref sig .tc := ⟨.vmem, 62, rfl⟩
abbrev cc5_stg1_0 : Ref sig .tc := ⟨.vmem, 63, rfl⟩
abbrev cc5_stg1_1 : Ref sig .tc := ⟨.vmem, 64, rfl⟩
abbrev cc5_stg2_0 : Ref sig .tc := ⟨.vmem, 65, rfl⟩
abbrev cc5_stg2_1 : Ref sig .tc := ⟨.vmem, 66, rfl⟩
abbrev cc5_stg3_0 : Ref sig .tc := ⟨.vmem, 67, rfl⟩
abbrev cc5_stg4_0 : Ref sig .tc := ⟨.vmem, 68, rfl⟩
abbrev cc5_stg4_1 : Ref sig .tc := ⟨.vmem, 69, rfl⟩
abbrev cc5_stg5_0 : Ref sig .tc := ⟨.vmem, 70, rfl⟩
abbrev cc5_stg6_0 : Ref sig .tc := ⟨.vmem, 71, rfl⟩
abbrev cc5_scratch0 : Ref sig .tc := ⟨.vmem, 72, rfl⟩
abbrev cc5_scratch1 : Ref sig .tc := ⟨.vmem, 73, rfl⟩
abbrev cc6_stg0_0 : Ref sig .tc := ⟨.vmem, 74, rfl⟩
abbrev cc6_stg0_1 : Ref sig .tc := ⟨.vmem, 75, rfl⟩
abbrev cc6_stg1_0 : Ref sig .tc := ⟨.vmem, 76, rfl⟩
abbrev cc6_stg2_0 : Ref sig .tc := ⟨.vmem, 77, rfl⟩
abbrev cc6_stg3_0 : Ref sig .tc := ⟨.vmem, 78, rfl⟩
abbrev cc6_stg4_0 : Ref sig .tc := ⟨.vmem, 79, rfl⟩
abbrev cc6_stg5_0 : Ref sig .tc := ⟨.vmem, 80, rfl⟩
abbrev cc6_stg5_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg1_1 : Ref sig .tc := ⟨.vmem, 85, rfl⟩
abbrev cc7_stg2_0 : Ref sig .tc := ⟨.vmem, 86, rfl⟩
abbrev cc7_scratch0 : Ref sig .tc := ⟨.vmem, 87, rfl⟩
abbrev cc7_scratch1 : Ref sig .tc := ⟨.vmem, 88, rfl⟩
abbrev cc8_stg0_0 : Ref sig .tc := ⟨.vmem, 89, rfl⟩
abbrev cc8_stg1_0 : Ref sig .tc := ⟨.vmem, 90, rfl⟩
abbrev cc8_stg2_0 : Ref sig .tc := ⟨.vmem, 91, rfl⟩
abbrev cc8_stg3_0 : Ref sig .tc := ⟨.vmem, 92, rfl⟩
abbrev cc8_stg4_0 : Ref sig .tc := ⟨.vmem, 93, rfl⟩
abbrev cc8_stg5_0 : Ref sig .tc := ⟨.vmem, 94, rfl⟩
abbrev cc8_stg6_0 : Ref sig .tc := ⟨.vmem, 95, rfl⟩
abbrev cc8_stg7_0 : Ref sig .tc := ⟨.vmem, 96, rfl⟩
abbrev cc8_stg8_0 : Ref sig .tc := ⟨.vmem, 97, rfl⟩
abbrev cc8_stg9_0 : Ref sig .tc := ⟨.vmem, 98, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem6_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28
abbrev cc2_sem7_0 : DmaSem sig := 29
abbrev cc2_sem7_1 : DmaSem sig := 30
abbrev cc2_sem8_0 : DmaSem sig := 31
abbrev cc2_sem8_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem4_1 : DmaSem sig := 41
abbrev cc3_sem5_0 : DmaSem sig := 42
abbrev cc3_sem6_0 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem6_1 : DmaSem sig := 52
abbrev cc4_sem7_0 : DmaSem sig := 53
abbrev cc4_sem7_1 : DmaSem sig := 54
abbrev cc4_sem8_0 : DmaSem sig := 55
abbrev cc4_sem8_1 : DmaSem sig := 56
abbrev cc5_sem0_0 : DmaSem sig := 57
abbrev cc5_sem0_1 : DmaSem sig := 58
abbrev cc5_sem1_0 : DmaSem sig := 59
abbrev cc5_sem1_1 : DmaSem sig := 60
abbrev cc5_sem2_0 : DmaSem sig := 61
abbrev cc5_sem2_1 : DmaSem sig := 62
abbrev cc5_sem3_0 : DmaSem sig := 63
abbrev cc5_sem4_0 : DmaSem sig := 64
abbrev cc5_sem4_1 : DmaSem sig := 65
abbrev cc5_sem5_0 : DmaSem sig := 66
abbrev cc5_sem6_0 : DmaSem sig := 67
abbrev cc6_sem0_0 : DmaSem sig := 68
abbrev cc6_sem0_1 : DmaSem sig := 69
abbrev cc6_sem1_0 : DmaSem sig := 70
abbrev cc6_sem2_0 : DmaSem sig := 71
abbrev cc6_sem3_0 : DmaSem sig := 72
abbrev cc6_sem4_0 : DmaSem sig := 73
abbrev cc6_sem5_0 : DmaSem sig := 74
abbrev cc6_sem5_1 : DmaSem sig := 75
abbrev cc7_sem0_0 : DmaSem sig := 76
abbrev cc7_sem0_1 : DmaSem sig := 77
abbrev cc7_sem1_0 : DmaSem sig := 78
abbrev cc7_sem1_1 : DmaSem sig := 79
abbrev cc7_sem2_0 : DmaSem sig := 80
abbrev cc8_sem0_0 : DmaSem sig := 81
abbrev cc8_sem1_0 : DmaSem sig := 82
abbrev cc8_sem2_0 : DmaSem sig := 83
abbrev cc8_sem3_0 : DmaSem sig := 84
abbrev cc8_sem4_0 : DmaSem sig := 85
abbrev cc8_sem5_0 : DmaSem sig := 86
abbrev cc8_sem6_0 : DmaSem sig := 87
abbrev cc8_sem7_0 : DmaSem sig := 88
abbrev cc8_sem8_0 : DmaSem sig := 89
abbrev cc8_sem9_0 : DmaSem sig := 90

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_19 : BitVec 32 := 0#32
  let v37 : BitVec 1 := Scalar.cmpi .ne v36 c0_i32_19
  v37

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_19 : BitVec 32 := 0#32
  let v37 : BitVec 1 := Scalar.cmpi .ne v36 c0_i32_19
  v37

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_19 : BitVec 32 := 0#32
  let v37 : BitVec 1 := Scalar.cmpi .ne v36 c0_i32_19
  v37

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![14], ![false]⟩

def k7_cond2 (i : grid7.Coords) : BitVec 1 :=
  let arg0 : BitVec 32 := BitVec.ofNat 32 (i 0).val
  let c13_i32 : BitVec 32 := 13#32
  let v33 : BitVec 1 := Scalar.cmpi .eq arg0 c13_i32
  let v34 : BitVec 32 := Scalar.extui v33
  let c0_i32_14 : BitVec 32 := 0#32
  let v35 : BitVec 1 := Scalar.cmpi .ne v34 c0_i32_14
  v35

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S3584x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x3584 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S256x134 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S134x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1024x1024 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1024 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1024x1024 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x1024 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1024x3 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x3 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S256x3 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  inb_S128x128_S128x128_0_0 : ∀ a, (![0, 0] : Fin 2 → Nat) a + S128x128.size a ≤ S128x128.size a
  h_S128x128 : 0 < S128x128.numel
  pads_S50000x128_S50176x128_01760_000 : S50000x128.Pads (![0, 0] : Fin 2 → Nat) ![176, 0] ![0, 0] S50176x128
  h_S_ : 0 < S_.numel
  pads_S50000_S50176_01760 : S50000.Pads (![0] : Fin 1 → Nat) ![176] ![0] S50176
  shapeCasts_S50176_S1x50176 : S50176.ShapeCasts S1x50176
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x3584_d0_w32 : S256x3584.Iotas .tc 32 [0]
  inb_S1x3584_S1x3584_0_0 : ∀ a, (![0, 0] : Fin 2 → Nat) a + S1x3584.size a ≤ S1x3584.size a
  h_S1x3584 : 0 < S1x3584.numel
  shapeCasts_S1x3584_S1x3584 : S1x3584.ShapeCasts S1x3584
  broadcasts_S1x3584_S256x3584 : S1x3584.Broadcasts S256x3584
  natLt_1_32 : 1 < 32
  inb_S3584x128_S3584x128_0_0 : ∀ a, (![0, 0] : Fin 2 → Nat) a + S3584x128.size a ≤ S3584x128.size a
  h_S3584x128 : 0 < S3584x128.numel
  shapeCasts_S3584x128_S3584x128 : S3584x128.ShapeCasts S3584x128
  reduces_S256x3584_S256 : S256x3584.Reduces [1] S256
  shapeCasts_S256_S256x1 : S256.ShapeCasts S256x1
  broadcasts_S256x1_S256x128 : S256x1.Broadcasts S256x128
  concatenates_S256x128_S256x3_S256x3_S256x134_d1 : Shape.Concatenates [S256x128, S256x3, S256x3] S256x134 1
  shapeCasts_S1024_S1x1024 : S1024.ShapeCasts S1x1024
  shapeCasts_S3_S1x3 : S3.ShapeCasts S1x3
  inb_S256x134_S256x134_0_0 : ∀ a, (![0, 0] : Fin 2 → Nat) a + S256x134.size a ≤ S256x134.size a
  h_S256x134 : 0 < S256x134.numel
  shapeCasts_S256x134_S256x134 : S256x134.ShapeCasts S256x134
  inb_S134x1024_S134x1024_0_0 : ∀ a, (![0, 0] : Fin 2 → Nat) a + S134x1024.size a ≤ S134x1024.size a
  h_S134x1024 : 0 < S134x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  inb_S1024x3_S1024x3_0_0 : ∀ a, (![0, 0] : Fin 2 → Nat) a + S1024x3.size a ≤ S1024x3.size a
  h_S1024x3 : 0 < S1024x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S256x3 : S1x3.Broadcasts S256x3
  inb_S256x3_S256x3_0_0 : ∀ a, (![0, 0] : Fin 2 → Nat) a + S256x3.size a ≤ S256x3.size a
  h_S256x3 : 0 < S256x3.numel
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S256x3584_S3584x128_S256x128_1_0_0_1_n_n_wf : DotDims.WF S256x3584 S3584x128 S256x128 [1] [0] [0] [1] [] []
  dot_S256x134_S134x1024_S256x1024_1_0_0_1_n_n_wf : DotDims.WF S256x134 S134x1024 S256x1024 [1] [0] [0] [1] [] []
  dot_S256x1024_S1024x1024_S256x1024_1_0_0_1_n_n_wf : DotDims.WF S256x1024 S1024x1024 S256x1024 [1] [0] [0] [1] [] []
  dot_S256x1024_S1024x3_S256x3_1_0_0_1_n_n_wf : DotDims.WF S256x1024 S1024x3 S256x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S50000x1.size a
  hwx2_6 : ∀ i : grid2.Coords, EltTy.bits .f32 = 32 ∨ (Rect.block (s := S50000x1) S5000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x1.size a ≤ S50000x1.size a
  hwx4_6 : ∀ i : grid4.Coords, EltTy.bits .f32 = 32 ∨ (Rect.block (s := S50000x1) S5000x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x128.size a ≤ S50000x128.size a
  hwx4_8 : ∀ i : grid4.Coords, EltTy.bits .f32 = 32 ∨ (Rect.block (s := S50000x128) S5000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S3584x128.size a ≤ S50176x128.size a
  hwx7_0 : ∀ i : grid7.Coords, EltTy.bits .f32 = 32 ∨ (Rect.block (s := S50176x128) S3584x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x3584.size a ≤ S1x50176.size a
  hwx7_1 : ∀ i : grid7.Coords, EltTy.bits .i32 = 32 ∨ (Rect.block (s := S1x50176) S1x3584.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x128.size a ≤ S256x128.size a
  hwx7_2 : ∀ i : grid7.Coords, EltTy.bits .f32 = 32 ∨ (Rect.block (s := S256x128) S256x128.size (cc7_transform_2 i) (hinb7_2 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S256x134.size a ≤ S256x134.size a
  hwx8_0 : ∀ i : grid8.Coords, EltTy.bits .f32 = 32 ∨ (Rect.block (s := S256x134) S256x134.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S134x1024.size a ≤ S134x1024.size a
  hwx8_1 : ∀ i : grid8.Coords, EltTy.bits .f32 = 32 ∨ (Rect.block (s := S134x1024) S134x1024.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1024.size a ≤ S1x1024.size a
  hwx8_2 : ∀ i : grid8.Coords, EltTy.bits .f32 = 32 ∨ (Rect.block (s := S1x1024) S1x1024.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1024x1024.size a ≤ S1024x1024.size a
  hwx8_3 : ∀ i : grid8.Coords, EltTy.bits .f32 = 32 ∨ (Rect.block (s := S1024x1024) S1024x1024.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1024.size a ≤ S1x1024.size a
  hwx8_4 : ∀ i : grid8.Coords, EltTy.bits .f32 = 32 ∨ (Rect.block (s := S1x1024) S1x1024.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1024x1024.size a ≤ S1024x1024.size a
  hwx8_5 : ∀ i : grid8.Coords, EltTy.bits .f32 = 32 ∨ (Rect.block (s := S1024x1024) S1024x1024.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x1024.size a ≤ S1x1024.size a
  hwx8_6 : ∀ i : grid8.Coords, EltTy.bits .f32 = 32 ∨ (Rect.block (s := S1x1024) S1x1024.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1024x3.size a ≤ S1024x3.size a
  hwx8_7 : ∀ i : grid8.Coords, EltTy.bits .f32 = 32 ∨ (Rect.block (s := S1024x3) S1024x3.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x3.size a ≤ S1x3.size a
  hwx8_8 : ∀ i : grid8.Coords, EltTy.bits .f32 = 32 ∨ (Rect.block (s := S1x3) S1x3.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S256x3.size a ≤ S256x3.size a
  hwx8_9 : ∀ i : grid8.Coords, EltTy.bits .f32 = 32 ∨ (Rect.block (s := S256x3) S256x3.size (cc8_transform_9 i) (hinb8_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S256x3584_S3584x128_S256x128_1_0_0_1_n_n : DotDims S256x3584 S3584x128 S256x128 where
  lhsContracting := [1]
  rhsContracting := [0]
  lhsNonContracting := [0]
  rhsNonContracting := [1]
  lhsBatch := []
  rhsBatch := []
  wf := dot_S256x3584_S3584x128_S256x128_1_0_0_1_n_n_wf
def dot_S256x134_S134x1024_S256x1024_1_0_0_1_n_n : DotDims S256x134 S134x1024 S256x1024 where
  lhsContracting := [1]
  rhsContracting := [0]
  lhsNonContracting := [0]
  rhsNonContracting := [1]
  lhsBatch := []
  rhsBatch := []
  wf := dot_S256x134_S134x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x3_S256x3_1_0_0_1_n_n : DotDims S256x1024 S1024x3 S256x3 where
  lhsContracting := [1]
  rhsContracting := [0]
  lhsNonContracting := [0]
  rhsNonContracting := [1]
  lhsBatch := []
  rhsBatch := []
  wf := dot_S256x1024_S1024x3_S256x3_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v32_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v32_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32_1) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32_2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S5000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v33_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v33_1) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v43) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33_0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v44_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v44_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v44_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44_1) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44_2) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v17) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v18) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg9) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v11) S5000x1.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v45_0) S5000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v45_1) S5000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v55) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v11) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v45_0) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v14) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56_0) S5000x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v56_1) S1x128.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v56_2) S1x128.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun i => !(k5_cond2 i == 1#1) | 6 => fun i => !(k5_cond2 i == 1#1) | ⟨_ + 7, h⟩ => absurd h (Nat.not_lt.2 (Nat.le_add_left _ _))

abbrev win6_0 : Pipeline.Window sig grid6 :=
  Pipeline.Window.ofSpec (Memref.whole main_v56_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56_1) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v56_2) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v19) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v20) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v57) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v58) S3584x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v60) S1x3584.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v61) S256x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v62) S256x134.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg17) S134x1024.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v63) S1x1024.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg19) S1024x1024.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v64) S1x1024.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg21) S1024x1024.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v65) S1x1024.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_arg23) S1024x3.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v66) S1x3.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v67) S256x3.size cc8_transform_9 reads8_9 true true 1 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

class Facts : Prop extends Facts₀ where

variable [Facts]
-- ==== ReferenceIdeal.lean ====
abbrev S50000x64 : Shape := ⟨2, ![50000, 64]⟩
abbrev S256x3 : Shape := ⟨2, ![256, 3]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S134x1024 : Shape := ⟨2, ![134, 1024]⟩
abbrev S1024 : Shape := ⟨1, ![1024]⟩
abbrev S1024x1024 : Shape := ⟨2, ![1024, 1024]⟩
abbrev S1024x3 : Shape := ⟨2, ![1024, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x128 : Shape := ⟨2, ![50000, 128]⟩
abbrev S800000x128 : Shape := ⟨2, ![800000, 128]⟩
abbrev S50000x1 : Shape := ⟨2, ![50000, 1]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S256x134 : Shape := ⟨2, ![256, 134]⟩
abbrev S256x1024 : Shape := ⟨2, ![256, 1024]⟩
abbrev S1x1024 : Shape := ⟨2, ![1, 1024]⟩
abbrev S1x3 : Shape := ⟨2, ![1, 3]⟩

abbrev nBuf : Space → Nat
  | .hbm => 309
  | .vmem => 0
  | .smem => 0
  | _ => 0

abbrev hbmTy0_0 (i : Nat) : BufTy := match i % 128 with
  | 0 => ⟨S50000x64, .f32⟩
  | 1 => ⟨S256x3, .f32⟩
  | 2 => ⟨S256x3, .f32⟩
  | 3 => ⟨S2x800000, .i32⟩
  | 4 => ⟨S50000, .i32⟩
  | 5 => ⟨S64x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S134x1024, .f32⟩
  | 18 => ⟨S1024, .f32⟩
  | 19 => ⟨S1024x1024, .f32⟩
  | 20 => ⟨S1024, .f32⟩
  | 21 => ⟨S1024x1024, .f32⟩
  | 22 => ⟨S1024, .f32⟩
  | 23 => ⟨S1024x3, .f32⟩
  | 24 => ⟨S3, .f32⟩
  | 25 => ⟨S1x800000, .i32⟩
  | 26 => ⟨S800000, .i32⟩
  | 27 => ⟨S1x800000, .i32⟩
  | 28 => ⟨S800000, .i32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000, .f32⟩
  | 39 => ⟨S50000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x1, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S50000, .f32⟩
  | 76 => ⟨S50000x1, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S50000x128, .f32⟩
  | 92 => ⟨S_, .f32⟩
  | 93 => ⟨S128, .f32⟩
  | 94 => ⟨S_, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000, .f32⟩
  | 126 => ⟨S_, .i32⟩
  | 127 => ⟨S800000, .i32⟩
  | _ => ⟨S50000x64, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x128, .f32⟩
  | 17 => ⟨S800000x1, .f32⟩
  | 18 => ⟨S800000x128, .f32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000, .f32⟩
  | 25 => ⟨S50000x1, .f32⟩
  | 26 => ⟨S50000x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S128, .f32⟩
  | 34 => ⟨S_, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S50000x128, .f32⟩
  | 41 => ⟨S_, .f32⟩
  | 42 => ⟨S128, .f32⟩
  | 43 => ⟨S_, .f32⟩
  | 44 => ⟨S128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S128, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000, .f32⟩
  | 84 => ⟨S800000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S800000x1, .f32⟩
  | 95 => ⟨S800000x128, .f32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S50000, .f32⟩
  | 102 => ⟨S50000x1, .f32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S128, .f32⟩
  | 111 => ⟨S_, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S_, .f32⟩
  | 127 => ⟨S128, .f32⟩
  | _ => ⟨S50000x64, .f32⟩

abbrev hbmTy0_2 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S256x128, .f32⟩
  | 13 => ⟨S50000x1, .i32⟩
  | 14 => ⟨S256x128, .f32⟩
  | 15 => ⟨S_, .f32⟩
  | 16 => ⟨S50000, .f32⟩
  | 17 => ⟨S_, .f32⟩
  | 18 => ⟨S256, .f32⟩
  | 19 => ⟨S50000x1, .i32⟩
  | 20 => ⟨S256, .f32⟩
  | 21 => ⟨S_, .f32⟩
  | 22 => ⟨S256, .f32⟩
  | 23 => ⟨S256, .f32⟩
  | 24 => ⟨S256x1, .f32⟩
  | 25 => ⟨S256x128, .f32⟩
  | 26 => ⟨S256x128, .f32⟩
  | 27 => ⟨S256x134, .f32⟩
  | 28 => ⟨S256x1024, .f32⟩
  | 29 => ⟨S1x1024, .f32⟩
  | 30 => ⟨S256x1024, .f32⟩
  | 31 => ⟨S256x1024, .f32⟩
  | 32 => ⟨S_, .f32⟩
  | 33 => ⟨S256x1024, .f32⟩
  | 34 => ⟨S256x1024, .f32⟩
  | 35 => ⟨S256x1024, .f32⟩
  | 36 => ⟨S1x1024, .f32⟩
  | 37 => ⟨S256x1024, .f32⟩
  | 38 => ⟨S256x1024, .f32⟩
  | 39 => ⟨S_, .f32⟩
  | 40 => ⟨S256x1024, .f32⟩
  | 41 => ⟨S256x1024, .f32⟩
  | 42 => ⟨S256x1024, .f32⟩
  | 43 => ⟨S1x1024, .f32⟩
  | 44 => ⟨S256x1024, .f32⟩
  | 45 => ⟨S256x1024, .f32⟩
  | 46 => ⟨S_, .f32⟩
  | 47 => ⟨S256x1024, .f32⟩
  | 48 => ⟨S256x1024, .f32⟩
  | 49 => ⟨S256x3, .f32⟩
  | 50 => ⟨S1x3, .f32⟩
  | 51 => ⟨S256x3, .f32⟩
  | 52 => ⟨S256x3, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_3 : Ref sig .tc := ⟨.hbm, 49, rfl⟩
abbrev main_v19 : Ref sig .tc := ⟨.hbm, 50, rfl⟩
abbrev main_v20 : Ref sig .tc := ⟨.hbm, 51, rfl⟩
abbrev main_c_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_5 : Ref sig .tc := ⟨.hbm, 59, rfl⟩
abbrev main_v27 : Ref sig .tc := ⟨.hbm, 60, rfl⟩
abbrev main_v28 : Ref sig .tc := ⟨.hbm, 61, rfl⟩
abbrev main_c_6 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_7 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_8 : Ref sig .tc := ⟨.hbm, 83, rfl⟩
abbrev main_v48 : Ref sig .tc := ⟨.hbm, 84, rfl⟩
abbrev main_cst_9 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_10 : Ref sig .tc := ⟨.hbm, 92, rfl⟩
abbrev main_v55 : Ref sig .tc := ⟨.hbm, 93, rfl⟩
abbrev main_cst_11 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_12 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_call0_cst : Ref sig .tc := ⟨.hbm, 113, rfl⟩
abbrev main_call0_v0 : Ref sig .tc := ⟨.hbm, 114, rfl⟩
abbrev main_v73 : Ref sig .tc := ⟨.hbm, 115, rfl⟩
abbrev main_v74 : Ref sig .tc := ⟨.hbm, 116, rfl⟩
abbrev main_c_13 : Ref sig .tc := ⟨.hbm, 117, rfl⟩
abbrev main_v75 : Ref sig .tc := ⟨.hbm, 118, rfl⟩
abbrev main_v76 : Ref sig .tc := ⟨.hbm, 119, rfl⟩
abbrev main_c_14 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c_15 : Ref sig .tc := ⟨.hbm, 126, rfl⟩
abbrev main_v82 : Ref sig .tc := ⟨.hbm, 127, rfl⟩
abbrev main_v83 : Ref sig .tc := ⟨.hbm, 128, rfl⟩
abbrev main_c_16 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_c_17 : Ref sig .tc := ⟨.hbm, 136, rfl⟩
abbrev main_v90 : Ref sig .tc := ⟨.hbm, 137, rfl⟩
abbrev main_v91 : Ref sig .tc := ⟨.hbm, 138, rfl⟩
abbrev main_c_18 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_19 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_20 : Ref sig .tc := ⟨.hbm, 160, rfl⟩
abbrev main_v111 : Ref sig .tc := ⟨.hbm, 161, rfl⟩
abbrev main_cst_21 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_22 : Ref sig .tc := ⟨.hbm, 169, rfl⟩
abbrev main_v118 : Ref sig .tc := ⟨.hbm, 170, rfl⟩
abbrev main_cst_23 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_24 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_call1_cst : Ref sig .tc := ⟨.hbm, 190, rfl⟩
abbrev main_call1_v0 : Ref sig .tc := ⟨.hbm, 191, rfl⟩
abbrev main_v136 : Ref sig .tc := ⟨.hbm, 192, rfl⟩
abbrev main_v137 : Ref sig .tc := ⟨.hbm, 193, rfl⟩
abbrev main_c_25 : Ref sig .tc := ⟨.hbm, 194, rfl⟩
abbrev main_v138 : Ref sig .tc := ⟨.hbm, 195, rfl⟩
abbrev main_v139 : Ref sig .tc := ⟨.hbm, 196, rfl⟩
abbrev main_c_26 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_c_27 : Ref sig .tc := ⟨.hbm, 203, rfl⟩
abbrev main_v145 : Ref sig .tc := ⟨.hbm, 204, rfl⟩
abbrev main_v146 : Ref sig .tc := ⟨.hbm, 205, rfl⟩
abbrev main_c_28 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_c_29 : Ref sig .tc := ⟨.hbm, 213, rfl⟩
abbrev main_v153 : Ref sig .tc := ⟨.hbm, 214, rfl⟩
abbrev main_v154 : Ref sig .tc := ⟨.hbm, 215, rfl⟩
abbrev main_c_30 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_cst_31 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_cst_32 : Ref sig .tc := ⟨.hbm, 237, rfl⟩
abbrev main_v174 : Ref sig .tc := ⟨.hbm, 238, rfl⟩
abbrev main_cst_33 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_cst_34 : Ref sig .tc := ⟨.hbm, 246, rfl⟩
abbrev main_v181 : Ref sig .tc := ⟨.hbm, 247, rfl⟩
abbrev main_cst_35 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_cst_36 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_cst_37 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_cst_38 : Ref sig .tc := ⟨.hbm, 271, rfl⟩
abbrev main_v202 : Ref sig .tc := ⟨.hbm, 272, rfl⟩
abbrev main_cst_39 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_cst_40 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_call2_cst : Ref sig .tc := ⟨.hbm, 288, rfl⟩
abbrev main_call2_v0 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_call3_cst : Ref sig .tc := ⟨.hbm, 295, rfl⟩
abbrev main_call3_v0 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_call4_cst : Ref sig .tc := ⟨.hbm, 302, rfl⟩
abbrev main_call4_v0 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  concatenates_S256x128_S256x3_S256x3_S256x134_d1 : Shape.Concatenates [S256x128, S256x3, S256x3] S256x134 1
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S_S256x1024 : S_.BroadcastsInDim S256x1024 (![] : Fin 0 → Fin S256x1024.rank)
  bcast_S3_S1x3_1 : S3.BroadcastsInDim S1x3 (![1] : Fin 1 → Fin S1x3.rank)
  bcast_S1x3_S256x3_0_1 : S1x3.BroadcastsInDim S256x3 (![0, 1] : Fin 2 → Fin S256x3.rank)
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x134_S134x1024_S256x1024_1_0_0_1_n_n_wf : DotDims.WF S256x134 S134x1024 S256x1024 [1] [0] [0] [1] [] []
  dot_S256x1024_S1024x1024_S256x1024_1_0_0_1_n_n_wf : DotDims.WF S256x1024 S1024x1024 S256x1024 [1] [0] [0] [1] [] []
  dot_S256x1024_S1024x3_S256x3_1_0_0_1_n_n_wf : DotDims.WF S256x1024 S1024x3 S256x3 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x134_S134x1024_S256x1024_1_0_0_1_n_n : DotDims S256x134 S134x1024 S256x1024 where
  lhsContracting := [1]
  rhsContracting := [0]
  lhsNonContracting := [0]
  rhsNonContracting := [1]
  lhsBatch := []
  rhsBatch := []
  wf := dot_S256x134_S134x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x3_S256x3_1_0_0_1_n_n : DotDims S256x1024 S1024x3 S256x3 where
  lhsContracting := [1]
  rhsContracting := [0]
  lhsNonContracting := [0]
  rhsNonContracting := [1]
  lhsBatch := []
  rhsBatch := []
  wf := dot_S256x1024_S1024x3_S256x3_1_0_0_1_n_n_wf

class Facts : Prop extends Facts₀ where

variable [Facts]
-- ==== Proof.KB.R0.lean ====
import proofs.«412806_j54228257079467_3_alg».proof.Proof.Gen.Kernel.Launch
import proofs.«412806_j54228257079467_3_alg».proof.Proof.Gen.Kernel.Skeleton
import proofs.«412806_j54228257079467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev featAll0 : Rect S5000x64 := Rect.unit (s := S5000x64) ![0, 0] S5000x64.size inb_S5000x64_S5000x64_0_0
abbrev weightAll0 : Rect S64x128 := Rect.unit (s := S64x128) ![0, 0] S64x128.size inb_S64x128_S64x128_0_0
abbrev scaleAll0 : Rect S5000x1 := Rect.unit (s := S5000x1) ![0, 0] S5000x1.size inb_S5000x1_S5000x1_0_0
abbrev prodAll0 : Rect S5000x128 := Rect.unit (s := S5000x128) ![0, 0] S5000x128.size inb_S5000x128_S5000x128_0_0

def prodBlock0 (x : Vec F S5000x64 .f32) (w : Vec F S64x128 .f32) : Vec F S5000x128 .f32 :=
  View.canon [⟨prodAll0, k0_pay1 (View.ld x featAll0) (View.ld w weightAll0)⟩]

def scaledBlock0 (x : Vec F S5000x64 .f32) (w : Vec F S64x128 .f32) (s : Vec F S5000x1 .f32) : Vec F S5000x128 .f32 :=
  View.canon [⟨prodAll0, k0_pay2 (View.ld x featAll0) (View.ld w weightAll0) (View.ld s scaleAll0)⟩]

set_option maxHeartbeats 1000000 in
-- a buffer filled by one store over its whole rectangle reads as that store's payload
theorem sound_kernel0 (c : Dev nD) (E : Set ℕ) {i : grid0.Coords}
    {arg1 : Memref sig .tc .vmem S5000x64 .f32} {arg2 : Memref sig .tc .vmem S64x128 .f32} {arg3 : Memref sig .tc .vmem S5000x1 .f32}
    {arg4 arg5 : Memref sig .tc .vmem S5000x128 .f32} {harg1 : arg1.IsWhole} {harg2 : arg2.IsWhole} {harg3 : arg3.IsWhole}
    {harg4 : arg4.IsWhole} {harg5 : arg5.IsWhole}
    {x : Vec F S5000x64 .f32} {w : Vec F S64x128 .f32} {s : Vec F S5000x1 .f32} {dp dq : Vec F S5000x128 .f32} {K : PUnit → sProp 𝕄} :
    iprop(owns c.tc arg4 fullShare dp ∗ owns c.tc arg5 fullShare dq
        ∗ owns c.tc arg1 fullShare x ∗ owns c.tc arg2 fullShare w ∗ owns c.tc arg3 fullShare s
        ∗ (iprop(owns c.tc arg4 fullShare (prodBlock0 x w) ∗ owns c.tc arg5 fullShare (scaledBlock0 x w s)
            ∗ owns c.tc arg1 fullShare x ∗ owns c.tc arg2 fullShare w ∗ owns c.tc arg3 fullShare s) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%fp, -, Hp⟩, ⟨%fq, -, Hq⟩, ⟨%fx, %hfx, Hx⟩, ⟨%fw, %hfw, Hw⟩, ⟨%fs, %hfs, Hs⟩, Hk⟩
  subst hfx hfw hfs
  sl_exec!
  sl_step
  iapply Hk
  isplitl [Hp]
  · iexists _; isplitr [Hp]; · ipureintro; exact View.read_writes_junk_eq_canon _ _
    iexact Hp
  isplitl [Hq]
  · iexists _; isplitr [Hq]; · ipureintro; exact View.read_writes_junk_eq_canon _ _
    iexact Hq
  sl_close

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => prodBlock0 (iblk0 V c 0 t) (iblk0 V c 1 t)
    | ⟨4, _⟩ => scaledBlock0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = prodBlock0 (iblk0 V c 0 t) (iblk0 V c 1 t) := by dsimp only [dat0]
theorem after0_4 (c : Dev nD) (t : Fin cfg0.N) :
    (dat0 V c).after 4 t = scaledBlock0 (iblk0 V c 0 t) (iblk0 V c 1 t) (iblk0 V c 2 t) := by dsimp only [dat0]

-- the body leaves an input window's contents as it finds them
theorem before0 (c : Dev nD) (t : Fin cfg0.N) :
    ∀ w : Fin cfg0.W, (cfg0.win w).isOut = false → ∀ d, (dat0 V c).before w t d = (dat0 V c).after w t
  | ⟨0, _⟩, _, d | ⟨1, _⟩, _, d | ⟨2, _⟩, _, d =>
    (dat0 V c).before_in_eq_fetched _ rfl (fun _ => rfl) (fun _ _ _ => rfl) (fun _ => rfl) t d
  | ⟨3, _⟩, h, _ | ⟨4, _⟩, h, _ => Bool.noConfusion h

theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl, after0_3, after0_4]
  simp (disch := exact rfl) only [before0 V c t]
  sl_whnfR [defs₀, Defs.onTc]
  iintro ⟨HΦ, Ho, ⟨%_, H0⟩, ⟨%_, H1⟩, ⟨%_, H2⟩, ⟨%_, H3⟩, ⟨%_, H4⟩⟩
  iapply sound_kernel0 c Set.univ
  iframe
  iintro ⟨H3, H4, H0, H1, H2⟩
  iframe
  isplitl [H3]; · iexact H3
  iexact H4

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Frm
-- ==== Proof.KB.R1.lean ====
import proofs.«412806_j54228257079467_3_alg».proof.Proof.Gen.Kernel.Launch
import proofs.«412806_j54228257079467_3_alg».proof.Proof.Gen.Kernel.Skeleton
import proofs.«412806_j54228257079467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

theorem idle1_out : ∀ t : Fin cfg1.N, t.val ≠ 9 → (cfg1.idle 5 (grid1.coords t) = true ∧ (cfg1.win 5).flush t = false)
    ∧ cfg1.idle 6 (grid1.coords t) = true ∧ (cfg1.win 6).flush t = false := by decide +kernel
theorem live1_out : ∀ t : Fin cfg1.N, t.val = 9 → cfg1.idle 5 (grid1.coords t) = false ∧ cfg1.idle 6 (grid1.coords t) = false := by decide +kernel

theorem hz1 : (![0, 0] : Fin 2 → Nat) = fun _ => 0 := funext fun a => by fin_cases a <;> rfl

-- A buffer whose last store covers it whole reads as that store's payload.
theorem read_last1 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

abbrev blk1 (xa : Vec F S5000x128 .f32) (xd : Vec F S5000x1 .f32) (xw : Vec F S5000x128 .f32) (xb : Vec F S1x128 .f32) : Vec F S5000x128 .f32 :=
  k1_pay6 xd xa xw xb
abbrev sum1 (xa : Vec F S5000x128 .f32) (xd : Vec F S5000x1 .f32) (xw : Vec F S5000x128 .f32) (xb : Vec F S1x128 .f32) (s : Vec F S1x128 .f32) : Vec F S1x128 .f32 :=
  k1_pay7 xd xa xw xb s
abbrev sqs1 (xa : Vec F S5000x128 .f32) (xd : Vec F S5000x1 .f32) (xw : Vec F S5000x128 .f32) (xb : Vec F S1x128 .f32) (q : Vec F S1x128 .f32) : Vec F S1x128 .f32 :=
  k1_pay1 (k1_pay8 xd xa xw xb q)
abbrev mean1 (s : Vec F S1x128 .f32) : Vec F S1x128 .f32 := k1_pay2 s
abbrev var1 (s q : Vec F S1x128 .f32) : Vec F S1x128 .f32 := k1_pay3 s q

set_option maxHeartbeats 2000000 in
-- One triple for every point: the sums restart from the zero rows under the first condition, the statistics are written under the second.
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hx : ¬(cond1_0 i ∧ cond1_1 i))
    (xa : Vec F S5000x128 .f32) (xd : Vec F S5000x1 .f32) (xw : Vec F S5000x128 .f32) (xb : Vec F S1x128 .f32) (xo : Vec F S5000x128 .f32)
    (xm xv s q S Q : Vec F S1x128 .f32) (hS : S = sum1 xa xd xw xb (if cond1_0 i then k1_pay4 else s))
    (hQ : Q = sqs1 xa xd xw xb (if cond1_0 i then k1_pay5 else q)) (K : PUnit → sProp 𝕄) :
    iprop(owns c.tc arg1 fullShare xa ∗ owns c.tc arg2 fullShare xd ∗ owns c.tc arg3 fullShare xw ∗ owns c.tc arg4 fullShare xb ∗ owns c.tc arg5 fullShare xo
        ∗ owns c.tc arg6 fullShare xm ∗ owns c.tc arg7 fullShare xv ∗ owns c.tc arg8 fullShare s ∗ owns c.tc arg9 fullShare q
        ∗ (owns c.tc arg1 fullShare xa -∗ owns c.tc arg2 fullShare xd -∗ owns c.tc arg3 fullShare xw -∗ owns c.tc arg4 fullShare xb
            -∗ owns c.tc arg5 fullShare (blk1 xa xd xw xb) -∗ owns c.tc arg6 fullShare (if cond1_1 i then mean1 S else xm)
            -∗ owns c.tc arg7 fullShare (if cond1_1 i then var1 S Q else xv) -∗ owns c.tc arg8 fullShare S -∗ owns c.tc arg9 fullShare Q -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9) K := by
  subst hS hQ
  by_cases hc0 : cond1_0 i <;> by_cases hc1 : cond1_1 i
  · exact absurd ⟨hc0, hc1⟩ hx
  all_goals
    first | rw [if_pos hc0, if_pos hc0] | rw [if_neg hc0, if_neg hc0]
    first | rw [if_pos hc1, if_pos hc1] | rw [if_neg hc1, if_neg hc1]
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    subst hf0 hf1 hf2 hf3 hf5 hf6 hf7 hf8
    sl_exec (disch := first | exact hc0 | exact hc1)
    sl_step
    iapply Hk $$ [H0] [H1] [H2] [H3] [H4] [H5] [H6] [H7] [H8] <;>
      (iexists _; isplitr; swap; · iassumption
       ipureintro
       first | (sl_unfold_words; rw [read_last1 _ _ hz1]; simp only [View.readAt_eq_ld, View.ld_unit_zero (S := S5000x128) hz1, View.ld_unit_zero (S := S5000x1) hz1, View.ld_unit_zero (S := S1x128) hz1, View.readCov_unit_zero (S := S1x128) _ hz1]) | rfl)

def scr1 (c : Dev nD) : (n : ℕ) → n < cfg1.N → Vec F S1x128 .f32 × Vec F S1x128 .f32
  | 0, hn => (sum1 (iblk1 V c 0 ⟨0, hn⟩) (iblk1 V c 1 ⟨0, hn⟩) (iblk1 V c 2 ⟨0, hn⟩) (iblk1 V c 3 ⟨0, hn⟩) k1_pay4, sqs1 (iblk1 V c 0 ⟨0, hn⟩) (iblk1 V c 1 ⟨0, hn⟩) (iblk1 V c 2 ⟨0, hn⟩) (iblk1 V c 3 ⟨0, hn⟩) k1_pay5)
  | n + 1, hn => (sum1 (iblk1 V c 0 ⟨n + 1, hn⟩) (iblk1 V c 1 ⟨n + 1, hn⟩) (iblk1 V c 2 ⟨n + 1, hn⟩) (iblk1 V c 3 ⟨n + 1, hn⟩) (scr1 c n (Nat.lt_of_succ_lt hn)).1,
      sqs1 (iblk1 V c 0 ⟨n + 1, hn⟩) (iblk1 V c 1 ⟨n + 1, hn⟩) (iblk1 V c 2 ⟨n + 1, hn⟩) (iblk1 V c 3 ⟨n + 1, hn⟩) (scr1 c n (Nat.lt_of_succ_lt hn)).2)

-- The carried rows after point `t`, from the rows `p` the point found: the zero rows at the first point.
theorem scr1_eq (c : Dev nD) (t : Fin cfg1.N) (p : Vec F S1x128 .f32 × Vec F S1x128 .f32) (hp : ∀ m hm, t.val = m + 1 → p = scr1 V c m hm) :
    scr1 V c t.val t.isLt = (sum1 (iblk1 V c 0 t) (iblk1 V c 1 t) (iblk1 V c 2 t) (iblk1 V c 3 t) (if cond1_0 (grid1.coords t) then k1_pay4 else p.1),
      sqs1 (iblk1 V c 0 t) (iblk1 V c 1 t) (iblk1 V c 2 t) (iblk1 V c 3 t) (if cond1_0 (grid1.coords t) then k1_pay5 else p.2)) := by
  obtain ⟨n, hn⟩ := t
  cases n with
  | zero => simp only [if_pos ((hcond1_0 ⟨0, hn⟩).mpr rfl)]; rfl
  | succ n => simp only [if_neg fun h => Nat.succ_ne_zero n ((hcond1_0 ⟨n + 1, hn⟩).mp h), hp n (Nat.lt_of_succ_lt hn) rfl]; rfl

abbrev scM1_0 : Memref sig .tc .vmem S1x128 .f32 := Memref.whole cc1_scratch0
abbrev scM1_1 : Memref sig .tc .vmem S1x128 .f32 := Memref.whole cc1_scratch1
abbrev rest1 (c : Dev nD) : sProp 𝕄 :=
  Pipeline.scopedRestBut (Ix := Unit) (Name := ℕ) (U := UR sig nD τ) (Lvl := ℕ) (Val := Elt F) spec1 c [cc1_scratch0, cc1_scratch1]

-- Before position `n` the two carried rows hold what the point before left, anything before the first point.
def PhiS1 (c : Dev nD) (n : ℕ) : sProp 𝕄 :=
  iprop(∃ p : Vec F S1x128 .f32 × Vec F S1x128 .f32, ⌜∀ m hm, n = m + 1 → p = scr1 V c m hm⌝
    ∗ iprop(iprop(iprop(owns c.tc scM1_0 fullShare p.1 ∗ owns c.tc scM1_1 fullShare p.2) ∗ rest1 c) ∗ (∃ r, prngReg c r)))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => blk1 (iblk1 V c 0 t) (iblk1 V c 1 t) (iblk1 V c 2 t) (iblk1 V c 3 t)
    | ⟨5, _⟩ => mean1 (scr1 V c t.val t.isLt).1
    | ⟨6, _⟩ => var1 (scr1 V c t.val t.isLt).1 (scr1 V c t.val t.isLt).2
  Φ t := PhiS1 V c t.val
  q _ := fullShare
  owed _ := 0

theorem A_eq1 (c : Dev nD) (w : Fin cfg1.W) : (dat1 V c).A w = V c (Pipeline.arrRef spec1 w) := rfl
theorem after1_4 (c : Dev nD) (t : Fin cfg1.N) : (dat1 V c).after 4 t = blk1 (iblk1 V c 0 t) (iblk1 V c 1 t) (iblk1 V c 2 t) (iblk1 V c 3 t) := rfl
theorem after1_5 (c : Dev nD) (t : Fin cfg1.N) : (dat1 V c).after 5 t = mean1 (scr1 V c t.val t.isLt).1 := rfl
theorem after1_6 (c : Dev nD) (t : Fin cfg1.N) : (dat1 V c).after 6 t = var1 (scr1 V c t.val t.isLt).1 (scr1 V c t.val t.isLt).2 := rfl

-- At every point the body finds each input window at its block of the array.
theorem before1 (c : Dev nD) (t : Fin cfg1.N) : (∀ d, (dat1 V c).before 0 t d = iblk1 V c 0 t) ∧ (∀ d, (dat1 V c).before 1 t d = iblk1 V c 1 t)
    ∧ (∀ d, (dat1 V c).before 2 t d = iblk1 V c 2 t) ∧ ∀ d, (dat1 V c).before 3 t d = iblk1 V c 3 t := by
  refine ⟨?_, ?_, ?_, ?_⟩ <;> exact fun d => (Dat.before_in_eq_fetched (dat1 V c) _ rfl (fun _ => rfl) (fun _ _ _ => rfl) (fun _ => rfl) t d).trans rfl

-- The statistics rows are written at the last point only; before it they are left as found.
theorem leaves1_out (c : Dev nD) (t : Fin cfg1.N) (d5 d6) :
    iprop(owns c.tc (st1_5 t) fullShare (if cond1_1 (grid1.coords t) then mean1 (scr1 V c t.val t.isLt).1 else (dat1 V c).before 5 t d5)
      ∗ owns c.tc (st1_6 t) fullShare (if cond1_1 (grid1.coords t) then var1 (scr1 V c t.val t.isLt).1 (scr1 V c t.val t.isLt).2 else (dat1 V c).before 6 t d6))
    ⊢ iprop((dat1 V c).leavesExact 5 t ∗ (dat1 V c).leavesExact 6 t) := by
  by_cases h : t.val = 9
  · simp only [if_pos ((hcond1_1 t).mpr h)]; unfold Dat.leavesExact; rw [(live1_out t h).1]; try rw [(live1_out t h).2]
    iintro ⟨H5, H6⟩; isplitl [H5]; · iexact H5
    iexact H6
  · simp only [if_neg fun hc => h ((hcond1_1 t).mp hc)]
    rw [Dat.leavesExact_idle _ 5 t (idle1_out t h).1.1 (idle1_out t h).1.2, Dat.leavesExact_idle _ 6 t (idle1_out t h).2.1 (idle1_out t h).2.2]
    iintro ⟨H5, H6⟩; isplitl [H5] <;> (iexists _; iassumption)

set_option maxHeartbeats 2000000 in
-- The body at any point: the invariant lends the carried rows, the one triple applies, and they go back at this point's.
theorem sound_body1 (c : Dev nD) (t : Fin cfg1.N) :
    iprop(PhiS1 V c t.val ∗ (dat1 V c).owesAt () t.castSucc
      ∗ (∃ d, owns c.tc (st1_0 t) fullShare ((dat1 V c).before 0 t d))
      ∗ (∃ d, owns c.tc (st1_1 t) fullShare ((dat1 V c).before 1 t d))
      ∗ (∃ d, owns c.tc (st1_2 t) fullShare ((dat1 V c).before 2 t d))
      ∗ (∃ d, owns c.tc (st1_3 t) fullShare ((dat1 V c).before 3 t d))
      ∗ (∃ d, owns c.tc (st1_4 t) fullShare ((dat1 V c).before 4 t d))
      ∗ (∃ d, owns c.tc (st1_5 t) fullShare ((dat1 V c).before 5 t d))
      ∗ (∃ d, owns c.tc (st1_6 t) fullShare ((dat1 V c).before 6 t d)))
    ⊢ wp frame (wpE (defs₀ (F := F)) Variants.none c none) Set.univ (bodyAt1 t) fun _ =>
      iprop(PhiS1 V c (t.val + 1) ∗ (dat1 V c).owesAt () t.castSucc
        ∗ owns c.tc (st1_0 t) fullShare (iblk1 V c 0 t)
        ∗ owns c.tc (st1_1 t) fullShare (iblk1 V c 1 t)
        ∗ owns c.tc (st1_2 t) fullShare (iblk1 V c 2 t)
        ∗ owns c.tc (st1_3 t) fullShare (iblk1 V c 3 t)
        ∗ owns c.tc (st1_4 t) fullShare (blk1 (iblk1 V c 0 t) (iblk1 V c 1 t) (iblk1 V c 2 t) (iblk1 V c 3 t))
        ∗ (dat1 V c).leavesExact 5 t ∗ (dat1 V c).leavesExact 6 t) := by
  obtain ⟨b0, b1, b2, b3⟩ := before1 V c t
  simp only [b0, b1, b2, b3]
  unfold PhiS1
  iintro ⟨⟨%p, %hp, ⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  have hs := scr1_eq V c t p hp
  iapply (sound_kernel1 c Set.univ (grid1.coords t) _ _ _ _ _ _ _ _ _ _ _ _ _ _ _ _ _ _
    (fun h => by have := (hcond1_0 t).mp h.1; have := (hcond1_1 t).mp h.2; omega)
    (iblk1 V c 0 t) (iblk1 V c 1 t) (iblk1 V c 2 t) (iblk1 V c 3 t) _ _ _ p.1 p.2 _ _ (congrArg Prod.fst hs) (congrArg Prod.snd hs) _)
  iframe H0 H1 H2 H3 H4 H5 H6 HS0 HS1
  iintro H0 H1 H2 H3 H4 H5 H6 HS0 HS1
  ihave HL := leaves1_out V c t d5 d6 $$ [H5 H6]; · iframe
  iframe Ho H0 H1 H2 H3 H4 HL
  iexists _; iframe HS0 HS1 HR Hg
  ipureintro; exact fun m hm h => by obtain rfl := Nat.succ.inj h; rfl

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  show _ ⊢ PhiS1 V c 0
  unfold Pipeline.ΦA PhiS1; rw [scopedRest1_split]; simp only [owns_whole]
  iintro ⟨⟨⟨⟨%d0, H0⟩, ⟨%d1, H1⟩⟩, HR⟩, Hg⟩
  iexists (d0, d1); iframe H0 H1 HR Hg
  ipureintro; exact fun m _ h => absurd h.symm (Nat.succ_ne_zero m)

theorem hout1 (c : Dev nD) : (dat1 V c).Φ (Fin.last cfg1.N) ⊢ Pipeline.ΦA spec1 c := by
  show PhiS1 V c _ ⊢ _
  unfold Pipeline.ΦA PhiS1; rw [scopedRest1_split]; simp only [owns_whole]
  iintro ⟨%p, -, ⟨⟨H0, H1⟩, HR⟩, Hg⟩
  iframe HR Hg
  isplitl [H0] <;> (iexists _; iassumption)

end Cert.Kernel.Frm

end
-- ==== Proof.KB.R2.lean ====
import proofs.«412806_j54228257079467_3_alg».proof.Proof.Gen.Kernel.Launch
import proofs.«412806_j54228257079467_3_alg».proof.Proof.Gen.Kernel.Skeleton
import proofs.«412806_j54228257079467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rowsRect2 : Rect S5000x128 := Rect.unit (s := S5000x128) ![0, 0] S5000x128.size inb_S5000x128_S5000x128_0_0
abbrev featRect2 : Rect S1x128 := Rect.unit (s := S1x128) ![0, 0] S1x128.size inb_S1x128_S1x128_0_0
abbrev wgtRect2 : Rect S128x128 := Rect.unit (s := S128x128) ![0, 0] S128x128.size inb_S128x128_S128x128_0_0
abbrev colRect2 : Rect S5000x1 := Rect.unit (s := S5000x1) ![0, 0] S5000x1.size inb_S5000x1_S5000x1_0_0

def out2_7 (xs : Vec F S5000x128 .f32) (mean var gam bet : Vec F S1x128 .f32) (wgt : Vec F S128x128 .f32) : Vec F S5000x128 .f32 :=
  View.canon [⟨rowsRect2, k2_pay1 (View.ld var featRect2) (View.ld xs rowsRect2) (View.ld mean featRect2) (View.ld gam featRect2)
    (View.ld bet featRect2) (View.ld wgt wgtRect2)⟩]

def out2_8 (xs : Vec F S5000x128 .f32) (mean var gam bet : Vec F S1x128 .f32) (wgt : Vec F S128x128 .f32) (col : Vec F S5000x1 .f32) :
    Vec F S5000x128 .f32 :=
  View.canon [⟨rowsRect2, k2_pay2 (View.ld var featRect2) (View.ld xs rowsRect2) (View.ld mean featRect2) (View.ld gam featRect2)
    (View.ld bet featRect2) (View.ld wgt wgtRect2) (View.ld col colRect2)⟩]

set_option maxHeartbeats 1000000 in
-- a buffer filled by one store over its whole rectangle reads as that store's payload
theorem sound_kernel2 (c : Dev nD) (E : Set ℕ) {i : grid2.Coords}
    {bX bY bZ : Memref sig .tc .vmem S5000x128 .f32} {bMean bVar bGam bBet : Memref sig .tc .vmem S1x128 .f32}
    {bWgt : Memref sig .tc .vmem S128x128 .f32} {bCol : Memref sig .tc .vmem S5000x1 .f32}
    {wX : bX.IsWhole} {wMean : bMean.IsWhole} {wVar : bVar.IsWhole} {wGam : bGam.IsWhole} {wBet : bBet.IsWhole} {wWgt : bWgt.IsWhole}
    {wCol : bCol.IsWhole} {wY : bY.IsWhole} {wZ : bZ.IsWhole}
    {xs dY dZ : Vec F S5000x128 .f32} {mean var gam bet : Vec F S1x128 .f32} {wgt : Vec F S128x128 .f32} {col : Vec F S5000x1 .f32}
    {K : PUnit → sProp 𝕄} :
    iprop(owns c.tc bY fullShare dY ∗ owns c.tc bZ fullShare dZ
        ∗ owns c.tc bX fullShare xs ∗ owns c.tc bMean fullShare mean ∗ owns c.tc bVar fullShare var
        ∗ owns c.tc bGam fullShare gam ∗ owns c.tc bBet fullShare bet ∗ owns c.tc bWgt fullShare wgt
        ∗ owns c.tc bCol fullShare col
        ∗ (iprop(owns c.tc bY fullShare (out2_7 xs mean var gam bet wgt)
            ∗ owns c.tc bZ fullShare (out2_8 xs mean var gam bet wgt col)
            ∗ owns c.tc bX fullShare xs ∗ owns c.tc bMean fullShare mean ∗ owns c.tc bVar fullShare var
            ∗ owns c.tc bGam fullShare gam ∗ owns c.tc bBet fullShare bet ∗ owns c.tc bWgt fullShare wgt
            ∗ owns c.tc bCol fullShare col) -∗ K ⟨⟩))
      ⊢ wp frame (wpE (defs₀ (F := F)) Variants.none c none) E
          (cc2_kernel i bX wX bMean wMean bVar wVar bGam wGam bBet wBet bWgt wWgt bCol wCol bY wY bZ wZ) K := by
  simp only [cc2_kernel_eq_skeleton]; unfold cc2_kernel_skel
  unfold owns
  iintro ⟨⟨%cY, -, HY⟩, ⟨%cZ, -, HZ⟩, ⟨%cX, %eX, HX⟩, ⟨%cMean, %eMean, HMean⟩, ⟨%cVar, %eVar, HVar⟩, ⟨%cGam, %eGam, HGam⟩, ⟨%cBet, %eBet, HBet⟩,
    ⟨%cWgt, %eWgt, HWgt⟩, ⟨%cCol, %eCol, HCol⟩, Hk⟩
  subst eX eMean eVar eGam eBet eWgt eCol
  sl_exec!
  sl_step
  iapply Hk
  isplitl [HY]
  · iexists _; isplitr [HY]; · ipureintro; exact View.read_writes_junk_eq_canon _ _
    iexact HY
  isplitl [HZ]
  · iexists _; isplitr [HZ]; · ipureintro; exact View.read_writes_junk_eq_canon _ _
    iexact HZ
  sl_close

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) : (dat2 V c).after 8 t =
    out2_8 (iblk2 V c 0 t) (iblk2 V c 1 t) (iblk2 V c 2 t) (iblk2 V c 3 t) (iblk2 V c 4 t) (iblk2 V c 5 t) (iblk2 V c 6 t) := by dsimp only [dat2]

-- the body leaves an input window's contents as it finds them
theorem before2 (c : Dev nD) (t : Fin cfg2.N) :
    ∀ w : Fin cfg2.W, (cfg2.win w).isOut = false → ∀ d, (dat2 V c).before w t d = (dat2 V c).after w t
  | ⟨0, _⟩, _, d | ⟨1, _⟩, _, d | ⟨2, _⟩, _, d | ⟨3, _⟩, _, d | ⟨4, _⟩, _, d | ⟨5, _⟩, _, d | ⟨6, _⟩, _, d =>
    (dat2 V c).before_in_eq_fetched _ rfl (fun _ => rfl) (fun _ _ _ => rfl) (fun _ => rfl) t d
  | ⟨7, _⟩, h, _ | ⟨8, _⟩, h, _ => Bool.noConfusion h

theorem body_obligation2 (c : Dev nD) : BodyObligation (dat2 (F := F) V c) (defs₀ (F := F)) Variants.none () Set.univ := fun t => by
  rw [bigSep_W2, bigSep_W2, show (dat2 V c).Φ t.succ = (dat2 V c).Φ t.castSucc from rfl,
    show (dat2 V c).owesAt () t.succ = (dat2 V c).owesAt () t.castSucc from rfl, after2_7, after2_8]
  simp (disch := exact rfl) only [before2 V c t]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel2 c Set.univ
  iframe
  iintro ⟨H7, H8, H0, H1, H2, H3, H4, H5, H6⟩
  iframe
  isplitl [H7]; · iexact H7
  iexact H8

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.Kernel.Frm
-- ==== Proof.KB.R3.lean ====
import proofs.«412806_j54228257079467_3_alg».proof.Proof.Gen.Kernel.Launch
import proofs.«412806_j54228257079467_3_alg».proof.Proof.Gen.Kernel.Skeleton
import proofs.«412806_j54228257079467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
abbrev cond3_1 (i : grid3.Coords) : Prop := k3_cond2 i = 1#1
theorem hcond3_1 : ∀ t : Fin cfg3.N, cond3_1 (grid3.coords t) ↔ t.val = 9 :=
  (by decide +kernel : ∀ t : Fin grid3.N, cond3_1 (grid3.coords t) ↔ t.val = 9)

theorem idle3_out : ∀ t : Fin cfg3.N, t.val ≠ 9 → (cfg3.idle 5 (grid3.coords t) = true ∧ (cfg3.win 5).flush t = false)
    ∧ cfg3.idle 6 (grid3.coords t) = true ∧ (cfg3.win 6).flush t = false := by decide +kernel
theorem live3_out : ∀ t : Fin cfg3.N, t.val = 9 → cfg3.idle 5 (grid3.coords t) = false ∧ cfg3.idle 6 (grid3.coords t) = false := by decide +kernel

theorem hz3 : (![0, 0] : Fin 2 → Nat) = fun _ => 0 := funext fun a => by fin_cases a <;> rfl

-- A buffer whose last store covers it whole reads as that store's payload.
theorem read_last3 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

abbrev blk3 (xa : Vec F S5000x128 .f32) (xd : Vec F S5000x1 .f32) (xw : Vec F S5000x128 .f32) (xb : Vec F S1x128 .f32) : Vec F S5000x128 .f32 :=
  k3_pay6 xd xa xw xb
abbrev sum3 (xa : Vec F S5000x128 .f32) (xd : Vec F S5000x1 .f32) (xw : Vec F S5000x128 .f32) (xb : Vec F S1x128 .f32) (s : Vec F S1x128 .f32) : Vec F S1x128 .f32 :=
  k3_pay7 xd xa xw xb s
abbrev sqs3 (xa : Vec F S5000x128 .f32) (xd : Vec F S5000x1 .f32) (xw : Vec F S5000x128 .f32) (xb : Vec F S1x128 .f32) (q : Vec F S1x128 .f32) : Vec F S1x128 .f32 :=
  k3_pay1 (k3_pay8 xd xa xw xb q)
abbrev mean3 (s : Vec F S1x128 .f32) : Vec F S1x128 .f32 := k3_pay2 s
abbrev var3 (s q : Vec F S1x128 .f32) : Vec F S1x128 .f32 := k3_pay3 s q

set_option maxHeartbeats 2000000 in
-- One triple for every point: the sums restart from the zero rows under the first condition, the statistics are written under the second.
theorem sound_kernel3 (c : Dev nD) (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hx : ¬(cond3_0 i ∧ cond3_1 i))
    (xa : Vec F S5000x128 .f32) (xd : Vec F S5000x1 .f32) (xw : Vec F S5000x128 .f32) (xb : Vec F S1x128 .f32) (xo : Vec F S5000x128 .f32)
    (xm xv s q S Q : Vec F S1x128 .f32) (hS : S = sum3 xa xd xw xb (if cond3_0 i then k3_pay4 else s))
    (hQ : Q = sqs3 xa xd xw xb (if cond3_0 i then k3_pay5 else q)) (K : PUnit → sProp 𝕄) :
    iprop(owns c.tc arg1 fullShare xa ∗ owns c.tc arg2 fullShare xd ∗ owns c.tc arg3 fullShare xw ∗ owns c.tc arg4 fullShare xb ∗ owns c.tc arg5 fullShare xo
        ∗ owns c.tc arg6 fullShare xm ∗ owns c.tc arg7 fullShare xv ∗ owns c.tc arg8 fullShare s ∗ owns c.tc arg9 fullShare q
        ∗ (owns c.tc arg1 fullShare xa -∗ owns c.tc arg2 fullShare xd -∗ owns c.tc arg3 fullShare xw -∗ owns c.tc arg4 fullShare xb
            -∗ owns c.tc arg5 fullShare (blk3 xa xd xw xb) -∗ owns c.tc arg6 fullShare (if cond3_1 i then mean3 S else xm)
            -∗ owns c.tc arg7 fullShare (if cond3_1 i then var3 S Q else xv) -∗ owns c.tc arg8 fullShare S -∗ owns c.tc arg9 fullShare Q -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9) K := by
  subst hS hQ
  by_cases hc0 : cond3_0 i <;> by_cases hc1 : cond3_1 i
  · exact absurd ⟨hc0, hc1⟩ hx
  all_goals
    first | rw [if_pos hc0, if_pos hc0] | rw [if_neg hc0, if_neg hc0]
    first | rw [if_pos hc1, if_pos hc1] | rw [if_neg hc1, if_neg hc1]
    simp only [cc3_kernel_eq_skeleton]; unfold cc3_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    subst hf0 hf1 hf2 hf3 hf5 hf6 hf7 hf8
    sl_exec (disch := first | exact hc0 | exact hc1)
    sl_step
    iapply Hk $$ [H0] [H1] [H2] [H3] [H4] [H5] [H6] [H7] [H8] <;>
      (iexists _; isplitr; swap; · iassumption
       ipureintro
       first | (sl_unfold_words; rw [read_last3 _ _ hz3]; simp only [View.readAt_eq_ld, View.ld_unit_zero (S := S5000x128) hz3, View.ld_unit_zero (S := S5000x1) hz3, View.ld_unit_zero (S := S1x128) hz3, View.readCov_unit_zero (S := S1x128) _ hz3]) | rfl)

def scr3 (c : Dev nD) : (n : ℕ) → n < cfg3.N → Vec F S1x128 .f32 × Vec F S1x128 .f32
  | 0, hn => (sum3 (iblk3 V c 0 ⟨0, hn⟩) (iblk3 V c 1 ⟨0, hn⟩) (iblk3 V c 2 ⟨0, hn⟩) (iblk3 V c 3 ⟨0, hn⟩) k3_pay4, sqs3 (iblk3 V c 0 ⟨0, hn⟩) (iblk3 V c 1 ⟨0, hn⟩) (iblk3 V c 2 ⟨0, hn⟩) (iblk3 V c 3 ⟨0, hn⟩) k3_pay5)
  | n + 1, hn => (sum3 (iblk3 V c 0 ⟨n + 1, hn⟩) (iblk3 V c 1 ⟨n + 1, hn⟩) (iblk3 V c 2 ⟨n + 1, hn⟩) (iblk3 V c 3 ⟨n + 1, hn⟩) (scr3 c n (Nat.lt_of_succ_lt hn)).1,
      sqs3 (iblk3 V c 0 ⟨n + 1, hn⟩) (iblk3 V c 1 ⟨n + 1, hn⟩) (iblk3 V c 2 ⟨n + 1, hn⟩) (iblk3 V c 3 ⟨n + 1, hn⟩) (scr3 c n (Nat.lt_of_succ_lt hn)).2)

-- The carried rows after point `t`, from the rows `p` the point found: the zero rows at the first point.
theorem scr3_eq (c : Dev nD) (t : Fin cfg3.N) (p : Vec F S1x128 .f32 × Vec F S1x128 .f32) (hp : ∀ m hm, t.val = m + 1 → p = scr3 V c m hm) :
    scr3 V c t.val t.isLt = (sum3 (iblk3 V c 0 t) (iblk3 V c 1 t) (iblk3 V c 2 t) (iblk3 V c 3 t) (if cond3_0 (grid3.coords t) then k3_pay4 else p.1),
      sqs3 (iblk3 V c 0 t) (iblk3 V c 1 t) (iblk3 V c 2 t) (iblk3 V c 3 t) (if cond3_0 (grid3.coords t) then k3_pay5 else p.2)) := by
  obtain ⟨n, hn⟩ := t
  cases n with
  | zero => simp only [if_pos ((hcond3_0 ⟨0, hn⟩).mpr rfl)]; rfl
  | succ n => simp only [if_neg fun h => Nat.succ_ne_zero n ((hcond3_0 ⟨n + 1, hn⟩).mp h), hp n (Nat.lt_of_succ_lt hn) rfl]; rfl

abbrev scM3_0 : Memref sig .tc .vmem S1x128 .f32 := Memref.whole cc3_scratch0
abbrev scM3_1 : Memref sig .tc .vmem S1x128 .f32 := Memref.whole cc3_scratch1
abbrev rest3 (c : Dev nD) : sProp 𝕄 :=
  Pipeline.scopedRestBut (Ix := Unit) (Name := ℕ) (U := UR sig nD τ) (Lvl := ℕ) (Val := Elt F) spec3 c [cc3_scratch0, cc3_scratch1]

-- Before position `n` the two carried rows hold what the point before left, anything before the first point.
def PhiS3 (c : Dev nD) (n : ℕ) : sProp 𝕄 :=
  iprop(∃ p : Vec F S1x128 .f32 × Vec F S1x128 .f32, ⌜∀ m hm, n = m + 1 → p = scr3 V c m hm⌝
    ∗ iprop(iprop(iprop(owns c.tc scM3_0 fullShare p.1 ∗ owns c.tc scM3_1 fullShare p.2) ∗ rest3 c) ∗ (∃ r, prngReg c r)))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => blk3 (iblk3 V c 0 t) (iblk3 V c 1 t) (iblk3 V c 2 t) (iblk3 V c 3 t)
    | ⟨5, _⟩ => mean3 (scr3 V c t.val t.isLt).1
    | ⟨6, _⟩ => var3 (scr3 V c t.val t.isLt).1 (scr3 V c t.val t.isLt).2
  Φ t := PhiS3 V c t.val
  q _ := fullShare
  owed _ := 0

theorem A_eq3 (c : Dev nD) (w : Fin cfg3.W) : (dat3 V c).A w = V c (Pipeline.arrRef spec3 w) := rfl
theorem after3_4 (c : Dev nD) (t : Fin cfg3.N) : (dat3 V c).after 4 t = blk3 (iblk3 V c 0 t) (iblk3 V c 1 t) (iblk3 V c 2 t) (iblk3 V c 3 t) := rfl
theorem after3_5 (c : Dev nD) (t : Fin cfg3.N) : (dat3 V c).after 5 t = mean3 (scr3 V c t.val t.isLt).1 := rfl
theorem after3_6 (c : Dev nD) (t : Fin cfg3.N) : (dat3 V c).after 6 t = var3 (scr3 V c t.val t.isLt).1 (scr3 V c t.val t.isLt).2 := rfl

-- At every point the body finds each input window at its block of the array.
theorem before3 (c : Dev nD) (t : Fin cfg3.N) : (∀ d, (dat3 V c).before 0 t d = iblk3 V c 0 t) ∧ (∀ d, (dat3 V c).before 1 t d = iblk3 V c 1 t)
    ∧ (∀ d, (dat3 V c).before 2 t d = iblk3 V c 2 t) ∧ ∀ d, (dat3 V c).before 3 t d = iblk3 V c 3 t := by
  refine ⟨?_, ?_, ?_, ?_⟩ <;> exact fun d => (Dat.before_in_eq_fetched (dat3 V c) _ rfl (fun _ => rfl) (fun _ _ _ => rfl) (fun _ => rfl) t d).trans rfl

-- The statistics rows are written at the last point only; before it they are left as found.
theorem leaves3_out (c : Dev nD) (t : Fin cfg3.N) (d5 d6) :
    iprop(owns c.tc (st3_5 t) fullShare (if cond3_1 (grid3.coords t) then mean3 (scr3 V c t.val t.isLt).1 else (dat3 V c).before 5 t d5)
      ∗ owns c.tc (st3_6 t) fullShare (if cond3_1 (grid3.coords t) then var3 (scr3 V c t.val t.isLt).1 (scr3 V c t.val t.isLt).2 else (dat3 V c).before 6 t d6))
    ⊢ iprop((dat3 V c).leavesExact 5 t ∗ (dat3 V c).leavesExact 6 t) := by
  by_cases h : t.val = 9
  · simp only [if_pos ((hcond3_1 t).mpr h)]; unfold Dat.leavesExact; rw [(live3_out t h).1]; try rw [(live3_out t h).2]
    iintro ⟨H5, H6⟩; isplitl [H5]; · iexact H5
    iexact H6
  · simp only [if_neg fun hc => h ((hcond3_1 t).mp hc)]
    rw [Dat.leavesExact_idle _ 5 t (idle3_out t h).1.1 (idle3_out t h).1.2, Dat.leavesExact_idle _ 6 t (idle3_out t h).2.1 (idle3_out t h).2.2]
    iintro ⟨H5, H6⟩; isplitl [H5] <;> (iexists _; iassumption)

set_option maxHeartbeats 2000000 in
-- The body at any point: the invariant lends the carried rows, the one triple applies, and they go back at this point's.
theorem sound_body3 (c : Dev nD) (t : Fin cfg3.N) :
    iprop(PhiS3 V c t.val ∗ (dat3 V c).owesAt () t.castSucc
      ∗ (∃ d, owns c.tc (st3_0 t) fullShare ((dat3 V c).before 0 t d))
      ∗ (∃ d, owns c.tc (st3_1 t) fullShare ((dat3 V c).before 1 t d))
      ∗ (∃ d, owns c.tc (st3_2 t) fullShare ((dat3 V c).before 2 t d))
      ∗ (∃ d, owns c.tc (st3_3 t) fullShare ((dat3 V c).before 3 t d))
      ∗ (∃ d, owns c.tc (st3_4 t) fullShare ((dat3 V c).before 4 t d))
      ∗ (∃ d, owns c.tc (st3_5 t) fullShare ((dat3 V c).before 5 t d))
      ∗ (∃ d, owns c.tc (st3_6 t) fullShare ((dat3 V c).before 6 t d)))
    ⊢ wp frame (wpE (defs₀ (F := F)) Variants.none c none) Set.univ (bodyAt3 t) fun _ =>
      iprop(PhiS3 V c (t.val + 1) ∗ (dat3 V c).owesAt () t.castSucc
        ∗ owns c.tc (st3_0 t) fullShare (iblk3 V c 0 t)
        ∗ owns c.tc (st3_1 t) fullShare (iblk3 V c 1 t)
        ∗ owns c.tc (st3_2 t) fullShare (iblk3 V c 2 t)
        ∗ owns c.tc (st3_3 t) fullShare (iblk3 V c 3 t)
        ∗ owns c.tc (st3_4 t) fullShare (blk3 (iblk3 V c 0 t) (iblk3 V c 1 t) (iblk3 V c 2 t) (iblk3 V c 3 t))
        ∗ (dat3 V c).leavesExact 5 t ∗ (dat3 V c).leavesExact 6 t) := by
  obtain ⟨b0, b1, b2, b3⟩ := before3 V c t
  simp only [b0, b1, b2, b3]
  unfold PhiS3
  iintro ⟨⟨%p, %hp, ⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  have hs := scr3_eq V c t p hp
  iapply (sound_kernel3 c Set.univ (grid3.coords t) _ _ _ _ _ _ _ _ _ _ _ _ _ _ _ _ _ _
    (fun h => by have := (hcond3_0 t).mp h.1; have := (hcond3_1 t).mp h.2; omega)
    (iblk3 V c 0 t) (iblk3 V c 1 t) (iblk3 V c 2 t) (iblk3 V c 3 t) _ _ _ p.1 p.2 _ _ (congrArg Prod.fst hs) (congrArg Prod.snd hs) _)
  iframe H0 H1 H2 H3 H4 H5 H6 HS0 HS1
  iintro H0 H1 H2 H3 H4 H5 H6 HS0 HS1
  ihave HL := leaves3_out V c t d5 d6 $$ [H5 H6]; · iframe
  iframe Ho H0 H1 H2 H3 H4 HL
  iexists _; iframe HS0 HS1 HR Hg
  ipureintro; exact fun m hm h => by obtain rfl := Nat.succ.inj h; rfl

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  show _ ⊢ PhiS3 V c 0
  unfold Pipeline.ΦA PhiS3; rw [scopedRest3_split]; simp only [owns_whole]
  iintro ⟨⟨⟨⟨%d0, H0⟩, ⟨%d1, H1⟩⟩, HR⟩, Hg⟩
  iexists (d0, d1); iframe H0 H1 HR Hg
  ipureintro; exact fun m _ h => absurd h.symm (Nat.succ_ne_zero m)

theorem hout3 (c : Dev nD) : (dat3 V c).Φ (Fin.last cfg3.N) ⊢ Pipeline.ΦA spec3 c := by
  show PhiS3 V c _ ⊢ _
  unfold Pipeline.ΦA PhiS3; rw [scopedRest3_split]; simp only [owns_whole]
  iintro ⟨%p, -, ⟨⟨H0, H1⟩, HR⟩, Hg⟩
  iframe HR Hg
  isplitl [H0] <;> (iexists _; iassumption)

end Cert.Kernel.Frm

end
-- ==== Proof.KB.R4.lean ====
import proofs.«412806_j54228257079467_3_alg».proof.Proof.Gen.Kernel.Launch
import proofs.«412806_j54228257079467_3_alg».proof.Proof.Gen.Kernel.Skeleton
import proofs.«412806_j54228257079467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rowsRect4 : Rect S5000x128 := Rect.unit (s := S5000x128) ![0, 0] S5000x128.size inb_S5000x128_S5000x128_0_0
abbrev featRect4 : Rect S1x128 := Rect.unit (s := S1x128) ![0, 0] S1x128.size inb_S1x128_S1x128_0_0
abbrev wgtRect4 : Rect S128x128 := Rect.unit (s := S128x128) ![0, 0] S128x128.size inb_S128x128_S128x128_0_0
abbrev colRect4 : Rect S5000x1 := Rect.unit (s := S5000x1) ![0, 0] S5000x1.size inb_S5000x1_S5000x1_0_0

def out4_7 (xs : Vec F S5000x128 .f32) (mean var gam bet : Vec F S1x128 .f32) (wgt : Vec F S128x128 .f32) : Vec F S5000x128 .f32 :=
  View.canon [⟨rowsRect4, k4_pay1 (View.ld var featRect4) (View.ld xs rowsRect4) (View.ld mean featRect4) (View.ld gam featRect4)
    (View.ld bet featRect4) (View.ld wgt wgtRect4)⟩]

def out4_8 (xs : Vec F S5000x128 .f32) (mean var gam bet : Vec F S1x128 .f32) (wgt : Vec F S128x128 .f32) (col : Vec F S5000x1 .f32) :
    Vec F S5000x128 .f32 :=
  View.canon [⟨rowsRect4, k4_pay2 (View.ld var featRect4) (View.ld xs rowsRect4) (View.ld mean featRect4) (View.ld gam featRect4)
    (View.ld bet featRect4) (View.ld wgt wgtRect4) (View.ld col colRect4)⟩]

set_option maxHeartbeats 1000000 in
-- a buffer filled by one store over its whole rectangle reads as that store's payload
theorem sound_kernel4 (c : Dev nD) (E : Set ℕ) {i : grid4.Coords}
    {bX bY bZ : Memref sig .tc .vmem S5000x128 .f32} {bMean bVar bGam bBet : Memref sig .tc .vmem S1x128 .f32}
    {bWgt : Memref sig .tc .vmem S128x128 .f32} {bCol : Memref sig .tc .vmem S5000x1 .f32}
    {wX : bX.IsWhole} {wMean : bMean.IsWhole} {wVar : bVar.IsWhole} {wGam : bGam.IsWhole} {wBet : bBet.IsWhole} {wWgt : bWgt.IsWhole}
    {wCol : bCol.IsWhole} {wY : bY.IsWhole} {wZ : bZ.IsWhole}
    {xs dY dZ : Vec F S5000x128 .f32} {mean var gam bet : Vec F S1x128 .f32} {wgt : Vec F S128x128 .f32} {col : Vec F S5000x1 .f32}
    {K : PUnit → sProp 𝕄} :
    iprop(owns c.tc bY fullShare dY ∗ owns c.tc bZ fullShare dZ
        ∗ owns c.tc bX fullShare xs ∗ owns c.tc bMean fullShare mean ∗ owns c.tc bVar fullShare var
        ∗ owns c.tc bGam fullShare gam ∗ owns c.tc bBet fullShare bet ∗ owns c.tc bWgt fullShare wgt
        ∗ owns c.tc bCol fullShare col
        ∗ (iprop(owns c.tc bY fullShare (out4_7 xs mean var gam bet wgt)
            ∗ owns c.tc bZ fullShare (out4_8 xs mean var gam bet wgt col)
            ∗ owns c.tc bX fullShare xs ∗ owns c.tc bMean fullShare mean ∗ owns c.tc bVar fullShare var
            ∗ owns c.tc bGam fullShare gam ∗ owns c.tc bBet fullShare bet ∗ owns c.tc bWgt fullShare wgt
            ∗ owns c.tc bCol fullShare col) -∗ K ⟨⟩))
      ⊢ wp frame (wpE (defs₀ (F := F)) Variants.none c none) E
          (cc4_kernel i bX wX bMean wMean bVar wVar bGam wGam bBet wBet bWgt wWgt bCol wCol bY wY bZ wZ) K := by
  simp only [cc4_kernel_eq_skeleton]; unfold cc4_kernel_skel
  unfold owns
  iintro ⟨⟨%cY, -, HY⟩, ⟨%cZ, -, HZ⟩, ⟨%cX, %eX, HX⟩, ⟨%cMean, %eMean, HMean⟩, ⟨%cVar, %eVar, HVar⟩, ⟨%cGam, %eGam, HGam⟩, ⟨%cBet, %eBet, HBet⟩,
    ⟨%cWgt, %eWgt, HWgt⟩, ⟨%cCol, %eCol, HCol⟩, Hk⟩
  subst eX eMean eVar eGam eBet eWgt eCol
  sl_exec!
  sl_step
  iapply Hk
  isplitl [HY]
  · iexists _; isplitr [HY]; · ipureintro; exact View.read_writes_junk_eq_canon _ _
    iexact HY
  isplitl [HZ]
  · iexists _; isplitr [HZ]; · ipureintro; exact View.read_writes_junk_eq_canon _ _
    iexact HZ
  sl_close

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t)
    | ⟨8, _⟩ => out4_8 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := rfl

theorem after4_7 (c : Dev nD) (t : Fin cfg4.N) : (dat4 V c).after 7 t =
    out4_7 (iblk4 V c 0 t) (iblk4 V c 1 t) (iblk4 V c 2 t) (iblk4 V c 3 t) (iblk4 V c 4 t) (iblk4 V c 5 t) := by dsimp only [dat4]
theorem after4_8 (c : Dev nD) (t : Fin cfg4.N) : (dat4 V c).after 8 t =
    out4_8 (iblk4 V c 0 t) (iblk4 V c 1 t) (iblk4 V c 2 t) (iblk4 V c 3 t) (iblk4 V c 4 t) (iblk4 V c 5 t) (iblk4 V c 6 t) := by dsimp only [dat4]

-- the body leaves an input window's contents as it finds them
theorem before4 (c : Dev nD) (t : Fin cfg4.N) :
    ∀ w : Fin cfg4.W, (cfg4.win w).isOut = false → ∀ d, (dat4 V c).before w t d = (dat4 V c).after w t
  | ⟨0, _⟩, _, d | ⟨1, _⟩, _, d | ⟨2, _⟩, _, d | ⟨3, _⟩, _, d | ⟨4, _⟩, _, d | ⟨5, _⟩, _, d | ⟨6, _⟩, _, d =>
    (dat4 V c).before_in_eq_fetched _ rfl (fun _ => rfl) (fun _ _ _ => rfl) (fun _ => rfl) t d
  | ⟨7, _⟩, h, _ | ⟨8, _⟩, h, _ => Bool.noConfusion h

theorem body_obligation4 (c : Dev nD) : BodyObligation (dat4 (F := F) V c) (defs₀ (F := F)) Variants.none () Set.univ := fun t => by
  rw [bigSep_W4, bigSep_W4, show (dat4 V c).Φ t.succ = (dat4 V c).Φ t.castSucc from rfl,
    show (dat4 V c).owesAt () t.succ = (dat4 V c).owesAt () t.castSucc from rfl, after4_7, after4_8]
  simp (disch := exact rfl) only [before4 V c t]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel4 c Set.univ
  iframe
  iintro ⟨H7, H8, H0, H1, H2, H3, H4, H5, H6⟩
  iframe
  isplitl [H7]; · iexact H7
  iexact H8

theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Cert.Kernel.Frm
-- ==== Proof.KB.R5.lean ====
import proofs.«412806_j54228257079467_3_alg».proof.Proof.Gen.Kernel.Launch
import proofs.«412806_j54228257079467_3_alg».proof.Proof.Gen.Kernel.Skeleton
import proofs.«412806_j54228257079467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)
abbrev cond5_1 (i : grid5.Coords) : Prop := k5_cond2 i = 1#1
theorem hcond5_1 : ∀ t : Fin cfg5.N, cond5_1 (grid5.coords t) ↔ t.val = 9 :=
  (by decide +kernel : ∀ t : Fin grid5.N, cond5_1 (grid5.coords t) ↔ t.val = 9)

theorem idle5_out : ∀ t : Fin cfg5.N, t.val ≠ 9 → (cfg5.idle 5 (grid5.coords t) = true ∧ (cfg5.win 5).flush t = false)
    ∧ cfg5.idle 6 (grid5.coords t) = true ∧ (cfg5.win 6).flush t = false := by decide +kernel
theorem live5_out : ∀ t : Fin cfg5.N, t.val = 9 → cfg5.idle 5 (grid5.coords t) = false ∧ cfg5.idle 6 (grid5.coords t) = false := by decide +kernel

theorem hz5 : (![0, 0] : Fin 2 → Nat) = fun _ => 0 := funext fun a => by fin_cases a <;> rfl

-- A buffer whose last store covers it whole reads as that store's payload.
theorem read_last5 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

abbrev blk5 (xa : Vec F S5000x128 .f32) (xd : Vec F S5000x1 .f32) (xw : Vec F S5000x128 .f32) (xb : Vec F S1x128 .f32) : Vec F S5000x128 .f32 :=
  k5_pay6 xd xa xw xb
abbrev sum5 (xa : Vec F S5000x128 .f32) (xd : Vec F S5000x1 .f32) (xw : Vec F S5000x128 .f32) (xb : Vec F S1x128 .f32) (s : Vec F S1x128 .f32) : Vec F S1x128 .f32 :=
  k5_pay7 xd xa xw xb s
abbrev sqs5 (xa : Vec F S5000x128 .f32) (xd : Vec F S5000x1 .f32) (xw : Vec F S5000x128 .f32) (xb : Vec F S1x128 .f32) (q : Vec F S1x128 .f32) : Vec F S1x128 .f32 :=
  k5_pay1 (k5_pay8 xd xa xw xb q)
abbrev mean5 (s : Vec F S1x128 .f32) : Vec F S1x128 .f32 := k5_pay2 s
abbrev var5 (s q : Vec F S1x128 .f32) : Vec F S1x128 .f32 := k5_pay3 s q

set_option maxHeartbeats 2000000 in
-- One triple for every point: the sums restart from the zero rows under the first condition, the statistics are written under the second.
theorem sound_kernel5 (c : Dev nD) (E : Set ℕ) (i : grid5.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hx : ¬(cond5_0 i ∧ cond5_1 i))
    (xa : Vec F S5000x128 .f32) (xd : Vec F S5000x1 .f32) (xw : Vec F S5000x128 .f32) (xb : Vec F S1x128 .f32) (xo : Vec F S5000x128 .f32)
    (xm xv s q S Q : Vec F S1x128 .f32) (hS : S = sum5 xa xd xw xb (if cond5_0 i then k5_pay4 else s))
    (hQ : Q = sqs5 xa xd xw xb (if cond5_0 i then k5_pay5 else q)) (K : PUnit → sProp 𝕄) :
    iprop(owns c.tc arg1 fullShare xa ∗ owns c.tc arg2 fullShare xd ∗ owns c.tc arg3 fullShare xw ∗ owns c.tc arg4 fullShare xb ∗ owns c.tc arg5 fullShare xo
        ∗ owns c.tc arg6 fullShare xm ∗ owns c.tc arg7 fullShare xv ∗ owns c.tc arg8 fullShare s ∗ owns c.tc arg9 fullShare q
        ∗ (owns c.tc arg1 fullShare xa -∗ owns c.tc arg2 fullShare xd -∗ owns c.tc arg3 fullShare xw -∗ owns c.tc arg4 fullShare xb
            -∗ owns c.tc arg5 fullShare (blk5 xa xd xw xb) -∗ owns c.tc arg6 fullShare (if cond5_1 i then mean5 S else xm)
            -∗ owns c.tc arg7 fullShare (if cond5_1 i then var5 S Q else xv) -∗ owns c.tc arg8 fullShare S -∗ owns c.tc arg9 fullShare Q -∗ K ⟨⟩))
      ⊢ wp frame (wpE (defs₀ (F := F)) Variants.none c none) E (cc5_kernel i arg1 harg1 arg2 harg2 arg3 harg3 arg4 harg4 arg5 harg5 arg6 harg6 arg7 harg7 arg8 harg8 arg9 harg9) K := by
  subst hS hQ
  by_cases hc0 : cond5_0 i <;> by_cases hc1 : cond5_1 i
  · exact absurd ⟨hc0, hc1⟩ hx
  all_goals
    first | rw [if_pos hc0, if_pos hc0] | rw [if_neg hc0, if_neg hc0]
    first | rw [if_pos hc1, if_pos hc1] | rw [if_neg hc1, if_neg hc1]
    simp only [cc5_kernel_eq_skeleton]; unfold cc5_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    subst hf0 hf1 hf2 hf3 hf5 hf6 hf7 hf8
    sl_exec (disch := first | exact hc0 | exact hc1)
    sl_step
    iapply Hk $$ [H0] [H1] [H2] [H3] [H4] [H5] [H6] [H7] [H8] <;>
      (iexists _; isplitr; swap; · iassumption
       ipureintro
       first | (sl_unfold_words; rw [read_last5 _ _ hz5]; simp only [View.readAt_eq_ld, View.ld_unit_zero (S := S5000x128) hz5, View.ld_unit_zero (S := S5000x1) hz5, View.ld_unit_zero (S := S1x128) hz5, View.readCov_unit_zero (S := S1x128) _ hz5]) | rfl)

def scr5 (c : Dev nD) : (n : ℕ) → n < cfg5.N → Vec F S1x128 .f32 × Vec F S1x128 .f32
  | 0, hn => (sum5 (iblk5 V c 0 ⟨0, hn⟩) (iblk5 V c 1 ⟨0, hn⟩) (iblk5 V c 2 ⟨0, hn⟩) (iblk5 V c 3 ⟨0, hn⟩) k5_pay4, sqs5 (iblk5 V c 0 ⟨0, hn⟩) (iblk5 V c 1 ⟨0, hn⟩) (iblk5 V c 2 ⟨0, hn⟩) (iblk5 V c 3 ⟨0, hn⟩) k5_pay5)
  | n + 1, hn => (sum5 (iblk5 V c 0 ⟨n + 1, hn⟩) (iblk5 V c 1 ⟨n + 1, hn⟩) (iblk5 V c 2 ⟨n + 1, hn⟩) (iblk5 V c 3 ⟨n + 1, hn⟩) (scr5 c n (Nat.lt_of_succ_lt hn)).1,
      sqs5 (iblk5 V c 0 ⟨n + 1, hn⟩) (iblk5 V c 1 ⟨n + 1, hn⟩) (iblk5 V c 2 ⟨n + 1, hn⟩) (iblk5 V c 3 ⟨n + 1, hn⟩) (scr5 c n (Nat.lt_of_succ_lt hn)).2)

-- The carried rows after point `t`, from the rows `p` the point found: the zero rows at the first point.
theorem scr5_eq (c : Dev nD) (t : Fin cfg5.N) (p : Vec F S1x128 .f32 × Vec F S1x128 .f32) (hp : ∀ m hm, t.val = m + 1 → p = scr5 V c m hm) :
    scr5 V c t.val t.isLt = (sum5 (iblk5 V c 0 t) (iblk5 V c 1 t) (iblk5 V c 2 t) (iblk5 V c 3 t) (if cond5_0 (grid5.coords t) then k5_pay4 else p.1),
      sqs5 (iblk5 V c 0 t) (iblk5 V c 1 t) (iblk5 V c 2 t) (iblk5 V c 3 t) (if cond5_0 (grid5.coords t) then k5_pay5 else p.2)) := by
  obtain ⟨n, hn⟩ := t
  cases n with
  | zero => simp only [if_pos ((hcond5_0 ⟨0, hn⟩).mpr rfl)]; rfl
  | succ n => simp only [if_neg fun h => Nat.succ_ne_zero n ((hcond5_0 ⟨n + 1, hn⟩).mp h), hp n (Nat.lt_of_succ_lt hn) rfl]; rfl

abbrev scM5_0 : Memref sig .tc .vmem S1x128 .f32 := Memref.whole cc5_scratch0
abbrev scM5_1 : Memref sig .tc .vmem S1x128 .f32 := Memref.whole cc5_scratch1
abbrev rest5 (c : Dev nD) : sProp 𝕄 :=
  Pipeline.scopedRestBut (Ix := Unit) (Name := ℕ) (U := UR sig nD τ) (Lvl := ℕ) (Val := Elt F) spec5 c [cc5_scratch0, cc5_scratch1]

-- Before position `n` the two carried rows hold what the point before left, anything before the first point.
def PhiS5 (c : Dev nD) (n : ℕ) : sProp 𝕄 :=
  iprop(∃ p : Vec F S1x128 .f32 × Vec F S1x128 .f32, ⌜∀ m hm, n = m + 1 → p = scr5 V c m hm⌝
    ∗ iprop(iprop(iprop(owns c.tc scM5_0 fullShare p.1 ∗ owns c.tc scM5_1 fullShare p.2) ∗ rest5 c) ∗ (∃ r, prngReg c r)))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => blk5 (iblk5 V c 0 t) (iblk5 V c 1 t) (iblk5 V c 2 t) (iblk5 V c 3 t)
    | ⟨5, _⟩ => mean5 (scr5 V c t.val t.isLt).1
    | ⟨6, _⟩ => var5 (scr5 V c t.val t.isLt).1 (scr5 V c t.val t.isLt).2
  Φ t := PhiS5 V c t.val
  q _ := fullShare
  owed _ := 0

theorem A_eq5 (c : Dev nD) (w : Fin cfg5.W) : (dat5 V c).A w = V c (Pipeline.arrRef spec5 w) := rfl
theorem after5_4 (c : Dev nD) (t : Fin cfg5.N) : (dat5 V c).after 4 t = blk5 (iblk5 V c 0 t) (iblk5 V c 1 t) (iblk5 V c 2 t) (iblk5 V c 3 t) := rfl
theorem after5_5 (c : Dev nD) (t : Fin cfg5.N) : (dat5 V c).after 5 t = mean5 (scr5 V c t.val t.isLt).1 := rfl
theorem after5_6 (c : Dev nD) (t : Fin cfg5.N) : (dat5 V c).after 6 t = var5 (scr5 V c t.val t.isLt).1 (scr5 V c t.val t.isLt).2 := rfl

-- At every point the body finds each input window at its block of the array.
theorem before5 (c : Dev nD) (t : Fin cfg5.N) : (∀ d, (dat5 V c).before 0 t d = iblk5 V c 0 t) ∧ (∀ d, (dat5 V c).before 1 t d = iblk5 V c 1 t)
    ∧ (∀ d, (dat5 V c).before 2 t d = iblk5 V c 2 t) ∧ ∀ d, (dat5 V c).before 3 t d = iblk5 V c 3 t := by
  refine ⟨?_, ?_, ?_, ?_⟩ <;> exact fun d => (Dat.before_in_eq_fetched (dat5 V c) _ rfl (fun _ => rfl) (fun _ _ _ => rfl) (fun _ => rfl) t d).trans rfl

-- The statistics rows are written at the last point only; before it they are left as found.
theorem leaves5_out (c : Dev nD) (t : Fin cfg5.N) (d5 d6) :
    iprop(owns c.tc (st5_5 t) fullShare (if cond5_1 (grid5.coords t) then mean5 (scr5 V c t.val t.isLt).1 else (dat5 V c).before 5 t d5)
      ∗ owns c.tc (st5_6 t) fullShare (if cond5_1 (grid5.coords t) then var5 (scr5 V c t.val t.isLt).1 (scr5 V c t.val t.isLt).2 else (dat5 V c).before 6 t d6))
    ⊢ iprop((dat5 V c).leavesExact 5 t ∗ (dat5 V c).leavesExact 6 t) := by
  by_cases h : t.val = 9
  · simp only [if_pos ((hcond5_1 t).mpr h)]; unfold Dat.leavesExact; rw [(live5_out t h).1]; try rw [(live5_out t h).2]
    iintro ⟨H5, H6⟩; isplitl [H5]; · iexact H5
    iexact H6
  · simp only [if_neg fun hc => h ((hcond5_1 t).mp hc)]
    rw [Dat.leavesExact_idle _ 5 t (idle5_out t h).1.1 (idle5_out t h).1.2, Dat.leavesExact_idle _ 6 t (idle5_out t h).2.1 (idle5_out t h).2.2]
    iintro ⟨H5, H6⟩; isplitl [H5] <;> (iexists _; iassumption)

set_option maxHeartbeats 2000000 in
-- The body at any point: the invariant lends the carried rows, the one triple applies, and they go back at this point's.
theorem sound_body5 (c : Dev nD) (t : Fin cfg5.N) :
    iprop(PhiS5 V c t.val ∗ (dat5 V c).owesAt () t.castSucc
      ∗ (∃ d, owns c.tc (st5_0 t) fullShare ((dat5 V c).before 0 t d))
      ∗ (∃ d, owns c.tc (st5_1 t) fullShare ((dat5 V c).before 1 t d))
      ∗ (∃ d, owns c.tc (st5_2 t) fullShare ((dat5 V c).before 2 t d))
      ∗ (∃ d, owns c.tc (st5_3 t) fullShare ((dat5 V c).before 3 t d))
      ∗ (∃ d, owns c.tc (st5_4 t) fullShare ((dat5 V c).before 4 t d))
      ∗ (∃ d, owns c.tc (st5_5 t) fullShare ((dat5 V c).before 5 t d))
      ∗ (∃ d, owns c.tc (st5_6 t) fullShare ((dat5 V c).before 6 t d)))
    ⊢ wp frame (wpE (defs₀ (F := F)) Variants.none c none) Set.univ (bodyAt5 t) fun _ =>
      iprop(PhiS5 V c (t.val + 1) ∗ (dat5 V c).owesAt () t.castSucc
        ∗ owns c.tc (st5_0 t) fullShare (iblk5 V c 0 t)
        ∗ owns c.tc (st5_1 t) fullShare (iblk5 V c 1 t)
        ∗ owns c.tc (st5_2 t) fullShare (iblk5 V c 2 t)
        ∗ owns c.tc (st5_3 t) fullShare (iblk5 V c 3 t)
        ∗ owns c.tc (st5_4 t) fullShare (blk5 (iblk5 V c 0 t) (iblk5 V c 1 t) (iblk5 V c 2 t) (iblk5 V c 3 t))
        ∗ (dat5 V c).leavesExact 5 t ∗ (dat5 V c).leavesExact 6 t) := by
  obtain ⟨b0, b1, b2, b3⟩ := before5 V c t
  simp only [b0, b1, b2, b3]
  unfold PhiS5
  iintro ⟨⟨%p, %hp, ⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  have hs := scr5_eq V c t p hp
  iapply (sound_kernel5 c Set.univ (grid5.coords t) _ _ _ _ _ _ _ _ _ _ _ _ _ _ _ _ _ _
    (fun h => by have := (hcond5_0 t).mp h.1; have := (hcond5_1 t).mp h.2; omega)
    (iblk5 V c 0 t) (iblk5 V c 1 t) (iblk5 V c 2 t) (iblk5 V c 3 t) _ _ _ p.1 p.2 _ _ (congrArg Prod.fst hs) (congrArg Prod.snd hs) _)
  iframe H0 H1 H2 H3 H4 H5 H6 HS0 HS1
  iintro H0 H1 H2 H3 H4 H5 H6 HS0 HS1
  ihave HL := leaves5_out V c t d5 d6 $$ [H5 H6]; · iframe
  iframe Ho H0 H1 H2 H3 H4 HL
  iexists _; iframe HS0 HS1 HR Hg
  ipureintro; exact fun m hm h => by obtain rfl := Nat.succ.inj h; rfl

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  show _ ⊢ PhiS5 V c 0
  unfold Pipeline.ΦA PhiS5; rw [scopedRest5_split]; simp only [owns_whole]
  iintro ⟨⟨⟨⟨%d0, H0⟩, ⟨%d1, H1⟩⟩, HR⟩, Hg⟩
  iexists (d0, d1); iframe H0 H1 HR Hg
  ipureintro; exact fun m _ h => absurd h.symm (Nat.succ_ne_zero m)

theorem hout5 (c : Dev nD) : (dat5 V c).Φ (Fin.last cfg5.N) ⊢ Pipeline.ΦA spec5 c := by
  show PhiS5 V c _ ⊢ _
  unfold Pipeline.ΦA PhiS5; rw [scopedRest5_split]; simp only [owns_whole]
  iintro ⟨%p, -, ⟨⟨H0, H1⟩, HR⟩, Hg⟩
  iframe HR Hg
  isplitl [H0] <;> (iexists _; iassumption)

end Cert.Kernel.Frm

end
-- ==== Proof.KB.R6.lean ====
import proofs.«412806_j54228257079467_3_alg».proof.Proof.Gen.Kernel.Launch
import proofs.«412806_j54228257079467_3_alg».proof.Proof.Gen.Kernel.Skeleton
import proofs.«412806_j54228257079467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev blk6 : Rect S5000x128 := Rect.unit (s := S5000x128) ![0, 0] S5000x128.size inb_S5000x128_S5000x128_0_0
abbrev row6 : Rect S1x128 := Rect.unit (s := S1x128) ![0, 0] S1x128.size inb_S1x128_S1x128_0_0

def out6_5 (xv : Vec F S5000x128 .f32) (xmean xvar xgamma xbeta : Vec F S1x128 .f32) : Vec F S5000x128 .f32 :=
  View.canon [⟨blk6, k6_pay1 (View.ld xvar row6) (View.ld xv blk6) (View.ld xmean row6) (View.ld xgamma row6) (View.ld xbeta row6)⟩]

set_option maxHeartbeats 1000000 in
-- The body only loads from the five inputs, and its one store overwrites the whole output block.
theorem sound_kernel6 (c : Dev nD) (E : Set ℕ) (i : grid6.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (xv : Vec F S5000x128 .f32) (xmean xvar xgamma xbeta : Vec F S1x128 .f32) (K : PUnit → sProp 𝕄) :
    iprop(owns (c : Thread nD τ) arg1 fullShare xv ∗ owns (c : Thread nD τ) arg2 fullShare xmean ∗ owns (c : Thread nD τ) arg3 fullShare xvar
        ∗ owns (c : Thread nD τ) arg4 fullShare xgamma ∗ owns (c : Thread nD τ) arg5 fullShare xbeta ∗ (∃ d, owns (c : Thread nD τ) arg6 fullShare d)
        ∗ (iprop(owns (c : Thread nD τ) arg1 fullShare xv ∗ owns (c : Thread nD τ) arg2 fullShare xmean ∗ owns (c : Thread nD τ) arg3 fullShare xvar
            ∗ owns (c : Thread nD τ) arg4 fullShare xgamma ∗ owns (c : Thread nD τ) arg5 fullShare xbeta
            ∗ owns (c : Thread nD τ) arg6 fullShare (out6_5 xv xmean xvar xgamma xbeta)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel
  unfold owns
  iintro ⟨⟨%fv, %hfv, Hv⟩, ⟨%fm, %hfm, Hm⟩, ⟨%fs, %hfs, Hs⟩, ⟨%fg, %hfg, Hg⟩, ⟨%fb, %hfb, Hb⟩, ⟨%d, %fy, -, Hy⟩, Hk⟩
  subst hfv hfm hfs hfg hfb
  sl_exec
  sl_step
  iapply Hk
  isplitl [Hv]
  · iexists fv; isplitr; · ipureintro; rfl
    iexact Hv
  isplitl [Hm]
  · iexists fm; isplitr; · ipureintro; rfl
    iexact Hm
  isplitl [Hs]
  · iexists fs; isplitr; · ipureintro; rfl
    iexact Hs
  isplitl [Hg]
  · iexists fg; isplitr; · ipureintro; rfl
    iexact Hg
  isplitl [Hb]
  · iexists fb; isplitr; · ipureintro; rfl
    iexact Hb
  iexists _; isplitr
  swap; · iexact Hy
  ipureintro
  exact View.read_writes_eq_canon _ _ _ (View.cover_of_tiled _ S5000x128.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

-- The body leaves every input block as it finds it, so what an input's buffer holds before the body is what it holds after.
theorem before6 (c : Dev nD) (t : Fin cfg6.N) : ∀ (w : Fin cfg6.W) (_ : w ≠ 5) (d), (dat6 V c).before w t d = (dat6 V c).after w t
  | ⟨5, _⟩, h, _ => absurd rfl h
  | ⟨0, _⟩, _, d | ⟨1, _⟩, _, d | ⟨2, _⟩, _, d | ⟨3, _⟩, _, d | ⟨4, _⟩, _, d =>
    (dat6 V c).before_in_eq_fetched _ rfl (fun _ => rfl) (fun _ _ _ => rfl) (fun _ => rfl) t d

-- Everything but the buffers is framed; the buffers go through the kernel's triple.
theorem body_obligation6 (c : Dev nD) : BodyObligation (dat6 (F := F) V c) (defs₀ (F := F)) Variants.none () Set.univ := fun t => by
  rw [bigSep_W6, bigSep_W6]
  simp (disch := decide) only [before6, after6_5, show ∀ i, (dat6 V c).Φ i = Pipeline.ΦA spec6 c from fun _ => rfl]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    ((dat6 V c).after 0 t) ((dat6 V c).after 1 t) ((dat6 V c).after 2 t) ((dat6 V c).after 3 t) ((dat6 V c).after 4 t) _)
  iframe H0 H1 H2 H3 H4
  isplitl [H5]; · iexists _; iexact H5
  iintro ⟨H0, H1, H2, H3, H4, H5⟩
  iframe HΦ H0 H1 H2 H3 H4
  isplitl [Ho]; · iexact Ho
  iexact H5

theorem hin6 (c : Dev nD) : Pipeline.ΦA spec6 c ⊢ (dat6 V c).Φ 0 := .rfl
theorem hout6 (c : Dev nD) : (dat6 V c).Φ (Fin.last cfg6.N) ⊢ Pipeline.ΦA spec6 c := .rfl

end Cert.Kernel.Frm
-- ==== Proof.KB.R7.lean ====
import proofs.«412806_j54228257079467_3_alg».proof.Proof.Gen.Kernel.Launch
import proofs.«412806_j54228257079467_3_alg».proof.Proof.Gen.Kernel.Skeleton
import proofs.«412806_j54228257079467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first7 (i : grid7.Coords) : Prop :=
  (Scalar.cmpi .ne (Scalar.extui (Scalar.cmpi .eq (BitVec.ofNat 32 (i 0).val) 0#32)) 0#32) = 1#1
abbrev last7 (i : grid7.Coords) : Prop := k7_cond2 i = 1#1

theorem first7_iff_zero : ∀ t : Fin cfg7.N, first7 (grid7.coords t) ↔ t.val = 0 := by decide +kernel
theorem last7_iff_end : ∀ t : Fin cfg7.N, last7 (grid7.coords t) ↔ t.val = 13 := by decide +kernel

theorem live7_0 : ∀ t : Fin cfg7.N, cfg7.idle 0 (grid7.coords t) = false := by decide +kernel
theorem live7_1 : ∀ t : Fin cfg7.N, cfg7.idle 1 (grid7.coords t) = false := by decide +kernel
theorem idle7_2 : ∀ t : Fin cfg7.N, ¬last7 (grid7.coords t) → cfg7.idle 2 (grid7.coords t) = true ∧ (cfg7.win 2).flush t = false := by decide +kernel
theorem live7_2 : ∀ t : Fin cfg7.N, last7 (grid7.coords t) → cfg7.idle 2 (grid7.coords t) = false := by decide +kernel

abbrev mRows7 (t : Fin cfg7.N) : Memref sig .tc .vmem S3584x128 .f32 := win7_0.stage (cfg7.slots t 0)
abbrev hRows7 (t : Fin cfg7.N) : (mRows7 t).IsWhole := hstage7_0 ((cfg7.slots t 0).cast nbuf7_0)
abbrev mIds7 (t : Fin cfg7.N) : Memref sig .tc .vmem S1x3584 .i32 := win7_1.stage (cfg7.slots t 1)
abbrev hIds7 (t : Fin cfg7.N) : (mIds7 t).IsWhole := hstage7_1 ((cfg7.slots t 1).cast nbuf7_1)
abbrev mOut7 (t : Fin cfg7.N) : Memref sig .tc .vmem S256x128 .f32 := win7_2.stage (cfg7.slots t 2)
abbrev hOut7 (t : Fin cfg7.N) : (mOut7 t).IsWhole := hstage7_2 ((cfg7.slots t 2).cast nbuf7_2)
abbrev mAcc7 : Memref sig .tc .vmem S256x128 .f32 := Memref.whole cc7_scratch0
abbrev mCnt7 : Memref sig .tc .vmem S256x1 .f32 := Memref.whole cc7_scratch1

abbrev rest7 (c : Dev nD) : sProp 𝕄 :=
  Pipeline.scopedRestBut (Ix := Unit) (Name := ℕ) (U := UR sig nD τ) (Lvl := ℕ) (Val := Elt F) spec7 c [cc7_scratch0, cc7_scratch1]

theorem phiA7_eq (c : Dev nD) :
    (Pipeline.ΦA spec7 c : sProp 𝕄)
      = iprop(iprop(iprop((∃ d, owns (c : Thread nD τ) mAcc7 fullShare d) ∗ (∃ d, owns (c : Thread nD τ) mCnt7 fullShare d)) ∗ rest7 (F := F) c)
          ∗ (∃ r, prngReg c r)) := by
  unfold Pipeline.ΦA; rw [scopedRest7_split]; simp only [mAcc7, mCnt7, owns_whole]; try rfl

-- Stores that tile a buffer leave it at their canonical contents, whatever it held before.
theorem owns_canon (c : Dev nD) {S : Shape} {e : EltTy} (m : Memref sig .tc .vmem S e) (L : List (View.Piece (Elt F) S e))
    (hL : View.Piece.tiledL L S.size = true) :
    (iprop(∃ f, m.view.loc (c : Thread nD τ) ↦[m.view.set]{fullShare} m.view.writes (Elt F) f L) : sProp 𝕄)
      ⊢ owns (c : Thread nD τ) m fullShare (View.canon L) := by
  iintro ⟨%f, H⟩; unfold owns; iexists m.view.writes (Elt F) f L; isplitr
  · ipureintro; exact View.read_writes_eq_canon _ _ _ (View.cover_of_tiledL L _ hL)
  · iexact H

section Body

variable (c : Dev nD) (i : grid7.Coords) (rows : Memref sig .tc .vmem S3584x128 .f32) (hrows : rows.IsWhole) (ids : Memref sig .tc .vmem S1x3584 .i32) (hids : ids.IsWhole)
  (outb : Memref sig .tc .vmem S256x128 .f32) (houtb : outb.IsWhole) (acc : Memref sig .tc .vmem S256x128 .f32) (hacc : acc.IsWhole)
  (cnt : Memref sig .tc .vmem S256x1 .f32) (hcnt : cnt.IsWhole)

section First

variable (hf : first7 i) (hl : ¬last7 i) (xh : Vec F S3584x128 .f32) (xb : Vec F S1x3584 .i32)

set_option maxHeartbeats 1000000 in
noncomputable def run7_first :
    Σ' (LA : List (View.Piece (Elt F) S256x128 .f32)), { LC : List (View.Piece (Elt F) S256x1 .f32) //
      ∀ (xo : Vec F S256x128 .f32) (E : Set ℕ) (K : PUnit → sProp 𝕄),
        iprop(owns (c : Thread nD τ) rows fullShare xh ∗ owns (c : Thread nD τ) ids fullShare xb ∗ owns (c : Thread nD τ) outb fullShare xo
            ∗ (∃ d, owns (c : Thread nD τ) acc fullShare d) ∗ (∃ d, owns (c : Thread nD τ) cnt fullShare d)
            ∗ (iprop(owns (c : Thread nD τ) rows fullShare xh ∗ owns (c : Thread nD τ) ids fullShare xb ∗ owns (c : Thread nD τ) outb fullShare xo
                ∗ (∃ f, acc.view.loc (c : Thread nD τ) ↦[acc.view.set]{fullShare} acc.view.writes (Elt F) f LA)
                ∗ (∃ f, cnt.view.loc (c : Thread nD τ) ↦[cnt.view.set]{fullShare} cnt.view.writes (Elt F) f LC)) -∗ K ⟨⟩))
          ⊢ wp frame (wpE (defs₀ (F := F)) Variants.none c none) E (cc7_kernel i rows hrows ids hids outb houtb acc hacc cnt hcnt) K } := by
  refine ⟨?_, ?_, fun xo E K => ?run⟩
  case run =>
    simp only [cc7_kernel_eq_skeleton]; unfold cc7_kernel_skel
    simp only [k7_part1_eq_skeleton]; unfold k7_part1_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := hrows.eq_unread hf1; obtain rfl := hids.eq_unread hf2; obtain rfl := houtb.eq_unread hf3
    sl_exec (disch := first | exact hf | exact hl)
    sl_step
    iapply Hk
    isplitl [H1]
    · iexists _; isplitr; · ipureintro; exact hrows.read_unread _
      iexact H1
    isplitl [H2]
    · iexists _; isplitr; · ipureintro; exact hids.read_unread _
      iexact H2
    isplitl [H3]
    · iexists _; isplitr; · ipureintro; exact houtb.read_unread _
      iexact H3
    isplitl [H4]; · iexists _; iexact H4
    iexists _; iexact H5

def acc7_first : Vec F S256x128 .f32 := View.canon (run7_first c i rows hrows ids hids outb houtb acc hacc cnt hcnt hf hl xh xb).1
def cnt7_first : Vec F S256x1 .f32 := View.canon (run7_first c i rows hrows ids hids outb houtb acc hacc cnt hcnt hf hl xh xb).2.1

end First

section Mid

variable (hf : ¬first7 i) (hl : ¬last7 i) (xh : Vec F S3584x128 .f32) (xb : Vec F S1x3584 .i32) (sa : Vec F S256x128 .f32) (sc : Vec F S256x1 .f32)

set_option maxHeartbeats 1000000 in
noncomputable def run7_mid :
    Σ' (LA : List (View.Piece (Elt F) S256x128 .f32)), { LC : List (View.Piece (Elt F) S256x1 .f32) //
      ∀ (xo : Vec F S256x128 .f32) (E : Set ℕ) (K : PUnit → sProp 𝕄),
        iprop(owns (c : Thread nD τ) rows fullShare xh ∗ owns (c : Thread nD τ) ids fullShare xb ∗ owns (c : Thread nD τ) outb fullShare xo
            ∗ owns (c : Thread nD τ) acc fullShare sa ∗ owns (c : Thread nD τ) cnt fullShare sc
            ∗ (iprop(owns (c : Thread nD τ) rows fullShare xh ∗ owns (c : Thread nD τ) ids fullShare xb ∗ owns (c : Thread nD τ) outb fullShare xo
                ∗ (∃ f, acc.view.loc (c : Thread nD τ) ↦[acc.view.set]{fullShare} acc.view.writes (Elt F) f LA)
                ∗ (∃ f, cnt.view.loc (c : Thread nD τ) ↦[cnt.view.set]{fullShare} cnt.view.writes (Elt F) f LC)) -∗ K ⟨⟩))
          ⊢ wp frame (wpE (defs₀ (F := F)) Variants.none c none) E (cc7_kernel i rows hrows ids hids outb houtb acc hacc cnt hcnt) K } := by
  refine ⟨?_, ?_, fun xo E K => ?run⟩
  case run =>
    simp only [cc7_kernel_eq_skeleton]; unfold cc7_kernel_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := hrows.eq_unread hf1; obtain rfl := hids.eq_unread hf2; obtain rfl := houtb.eq_unread hf3
    obtain rfl := hacc.eq_unread hf4; obtain rfl := hcnt.eq_unread hf5
    sl_exec (disch := first | exact hf | exact hl)
    sl_step
    iapply Hk
    isplitl [H1]
    · iexists _; isplitr; · ipureintro; exact hrows.read_unread _
      iexact H1
    isplitl [H2]
    · iexists _; isplitr; · ipureintro; exact hids.read_unread _
      iexact H2
    isplitl [H3]
    · iexists _; isplitr; · ipureintro; exact houtb.read_unread _
      iexact H3
    isplitl [H4]; · iexists _; iexact H4
    iexists _; iexact H5

def acc7_mid : Vec F S256x128 .f32 := View.canon (run7_mid c i rows hrows ids hids outb houtb acc hacc cnt hcnt hf hl xh xb sa sc).1
def cnt7_mid : Vec F S256x1 .f32 := View.canon (run7_mid c i rows hrows ids hids outb houtb acc hacc cnt hcnt hf hl xh xb sa sc).2.1

end Mid

section Last

variable (hf : ¬first7 i) (hl : last7 i) (xh : Vec F S3584x128 .f32) (xb : Vec F S1x3584 .i32) (sa : Vec F S256x128 .f32) (sc : Vec F S256x1 .f32)

set_option maxHeartbeats 1000000 in
noncomputable def run7_last :
    Σ' (LO : List (View.Piece (Elt F) S256x128 .f32)) (LA : List (View.Piece (Elt F) S256x128 .f32)), { LC : List (View.Piece (Elt F) S256x1 .f32) //
      ∀ (E : Set ℕ) (K : PUnit → sProp 𝕄),
        iprop(owns (c : Thread nD τ) rows fullShare xh ∗ owns (c : Thread nD τ) ids fullShare xb ∗ (∃ d, owns (c : Thread nD τ) outb fullShare d)
            ∗ owns (c : Thread nD τ) acc fullShare sa ∗ owns (c : Thread nD τ) cnt fullShare sc
            ∗ (iprop(owns (c : Thread nD τ) rows fullShare xh ∗ owns (c : Thread nD τ) ids fullShare xb
                ∗ (∃ f, outb.view.loc (c : Thread nD τ) ↦[outb.view.set]{fullShare} outb.view.writes (Elt F) f LO)
                ∗ (∃ f, acc.view.loc (c : Thread nD τ) ↦[acc.view.set]{fullShare} acc.view.writes (Elt F) f LA)
                ∗ (∃ f, cnt.view.loc (c : Thread nD τ) ↦[cnt.view.set]{fullShare} cnt.view.writes (Elt F) f LC)) -∗ K ⟨⟩))
          ⊢ wp frame (wpE (defs₀ (F := F)) Variants.none c none) E (cc7_kernel i rows hrows ids hids outb houtb acc hacc cnt hcnt) K } := by
  refine ⟨?_, ?_, ?_, fun E K => ?run⟩
  case run =>
    simp only [cc7_kernel_eq_skeleton]; unfold cc7_kernel_skel
    simp only [k7_part1_eq_skeleton]; unfold k7_part1_skel
    unfold owns
    iintro ⟨⟨%f1, %hf1, H1⟩, ⟨%f2, %hf2, H2⟩, ⟨%d3, %f3, -, H3⟩, ⟨%f4, %hf4, H4⟩, ⟨%f5, %hf5, H5⟩, Hk⟩
    obtain rfl := hrows.eq_unread hf1; obtain rfl := hids.eq_unread hf2
    obtain rfl := hacc.eq_unread hf4; obtain rfl := hcnt.eq_unread hf5
    sl_exec (disch := first | exact hf | exact hl)
    sl_step
    iapply Hk
    isplitl [H1]
    · iexists _; isplitr; · ipureintro; exact hrows.read_unread _
      iexact H1
    isplitl [H2]
    · iexists _; isplitr; · ipureintro; exact hids.read_unread _
      iexact H2
    isplitl [H3]; · iexists _; iexact H3
    isplitl [H4]; · iexists _; iexact H4
    iexists _; iexact H5

def out7_last : Vec F S256x128 .f32 := View.canon (run7_last c i rows hrows ids hids outb houtb acc hacc cnt hcnt hf hl xh xb sa sc).1
def acc7_last : Vec F S256x128 .f32 := View.canon (run7_last c i rows hrows ids hids outb houtb acc hacc cnt hcnt hf hl xh xb sa sc).2.1
def cnt7_last : Vec F S256x1 .f32 := View.canon (run7_last c i rows hrows ids hids outb houtb acc hacc cnt hcnt hf hl xh xb sa sc).2.2.1

end Last

end Body

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

-- The two scratch buffers after point `n`: that point's run, applied to what the point before left.
def scr7 (c : Dev nD) : (n : ℕ) → n < cfg7.N → Vec F S256x128 .f32 × Vec F S256x1 .f32
  | 0, hn =>
    let t : Fin cfg7.N := ⟨0, hn⟩
    have hf := (first7_iff_zero t).mpr rfl
    have hl := mt (last7_iff_end t).mp (by decide : (0 : ℕ) ≠ 13)
    (acc7_first c _ _ (hRows7 t) _ (hIds7 t) _ (hOut7 t) mAcc7 (Memref.isWhole_whole _) mCnt7 (Memref.isWhole_whole _) hf hl (iblk7 V c 0 t) (iblk7 V c 1 t), cnt7_first c _ _ (hRows7 t) _ (hIds7 t) _ (hOut7 t) mAcc7 (Memref.isWhole_whole _) mCnt7 (Memref.isWhole_whole _) hf hl (iblk7 V c 0 t) (iblk7 V c 1 t))
  | n + 1, hn =>
    let t : Fin cfg7.N := ⟨n + 1, hn⟩
    have hf := mt (first7_iff_zero t).mp (Nat.succ_ne_zero n)
    let s := scr7 c n (Nat.lt_of_succ_lt hn)
    if hL : n + 1 = 13 then
      have hl := (last7_iff_end t).mpr hL
      (acc7_last c _ _ (hRows7 t) _ (hIds7 t) _ (hOut7 t) mAcc7 (Memref.isWhole_whole _) mCnt7 (Memref.isWhole_whole _) hf hl (iblk7 V c 0 t) (iblk7 V c 1 t) s.1 s.2, cnt7_last c _ _ (hRows7 t) _ (hIds7 t) _ (hOut7 t) mAcc7 (Memref.isWhole_whole _) mCnt7 (Memref.isWhole_whole _) hf hl (iblk7 V c 0 t) (iblk7 V c 1 t) s.1 s.2)
    else
      have hl := mt (last7_iff_end t).mp hL
      (acc7_mid c _ _ (hRows7 t) _ (hIds7 t) _ (hOut7 t) mAcc7 (Memref.isWhole_whole _) mCnt7 (Memref.isWhole_whole _) hf hl (iblk7 V c 0 t) (iblk7 V c 1 t) s.1 s.2, cnt7_mid c _ _ (hRows7 t) _ (hIds7 t) _ (hOut7 t) mAcc7 (Memref.isWhole_whole _) mCnt7 (Memref.isWhole_whole _) hf hl (iblk7 V c 0 t) (iblk7 V c 1 t) s.1 s.2)

theorem scr7_first (c : Dev nD) (t : Fin cfg7.N) (h0 : t.val = 0) (hf : first7 (grid7.coords t)) (hl : ¬last7 (grid7.coords t)) :
    scr7 V c t.val t.isLt =
      (acc7_first c _ _ (hRows7 t) _ (hIds7 t) _ (hOut7 t) mAcc7 (Memref.isWhole_whole _) mCnt7 (Memref.isWhole_whole _) hf hl (iblk7 V c 0 t) (iblk7 V c 1 t),
       cnt7_first c _ _ (hRows7 t) _ (hIds7 t) _ (hOut7 t) mAcc7 (Memref.isWhole_whole _) mCnt7 (Memref.isWhole_whole _) hf hl (iblk7 V c 0 t) (iblk7 V c 1 t)) := by
  obtain ⟨_ | n, hn⟩ := t
  · exact rfl
  · exact absurd h0 (Nat.succ_ne_zero n)

theorem scr7_mid (c : Dev nD) (t : Fin cfg7.N) (h0 : t.val ≠ 0) (hL : t.val ≠ 13) (hf : ¬first7 (grid7.coords t)) (hl : ¬last7 (grid7.coords t)) :
    scr7 V c t.val t.isLt =
      (acc7_mid c _ _ (hRows7 t) _ (hIds7 t) _ (hOut7 t) mAcc7 (Memref.isWhole_whole _) mCnt7 (Memref.isWhole_whole _) hf hl (iblk7 V c 0 t) (iblk7 V c 1 t) (scr7 V c (t.val - 1) (Nat.lt_of_le_of_lt (Nat.sub_le _ _) t.isLt)).1 (scr7 V c (t.val - 1) (Nat.lt_of_le_of_lt (Nat.sub_le _ _) t.isLt)).2,
       cnt7_mid c _ _ (hRows7 t) _ (hIds7 t) _ (hOut7 t) mAcc7 (Memref.isWhole_whole _) mCnt7 (Memref.isWhole_whole _) hf hl (iblk7 V c 0 t) (iblk7 V c 1 t) (scr7 V c (t.val - 1) (Nat.lt_of_le_of_lt (Nat.sub_le _ _) t.isLt)).1 (scr7 V c (t.val - 1) (Nat.lt_of_le_of_lt (Nat.sub_le _ _) t.isLt)).2) := by
  obtain ⟨_ | n, hn⟩ := t
  · exact absurd rfl h0
  · exact (dif_neg hL).trans rfl

theorem scr7_last (c : Dev nD) (t : Fin cfg7.N) (h0 : t.val ≠ 0) (hL : t.val = 13) (hf : ¬first7 (grid7.coords t)) (hl : last7 (grid7.coords t)) :
    scr7 V c t.val t.isLt =
      (acc7_last c _ _ (hRows7 t) _ (hIds7 t) _ (hOut7 t) mAcc7 (Memref.isWhole_whole _) mCnt7 (Memref.isWhole_whole _) hf hl (iblk7 V c 0 t) (iblk7 V c 1 t) (scr7 V c (t.val - 1) (Nat.lt_of_le_of_lt (Nat.sub_le _ _) t.isLt)).1 (scr7 V c (t.val - 1) (Nat.lt_of_le_of_lt (Nat.sub_le _ _) t.isLt)).2,
       cnt7_last c _ _ (hRows7 t) _ (hIds7 t) _ (hOut7 t) mAcc7 (Memref.isWhole_whole _) mCnt7 (Memref.isWhole_whole _) hf hl (iblk7 V c 0 t) (iblk7 V c 1 t) (scr7 V c (t.val - 1) (Nat.lt_of_le_of_lt (Nat.sub_le _ _) t.isLt)).1 (scr7 V c (t.val - 1) (Nat.lt_of_le_of_lt (Nat.sub_le _ _) t.isLt)).2) := by
  obtain ⟨_ | n, hn⟩ := t
  · exact absurd rfl h0
  · exact (dif_pos hL).trans rfl

def res7 (c : Dev nD) (t : Fin cfg7.N) : Vec F S256x128 .f32 :=
  if hL : t.val = 13 then
    out7_last c _ _ (hRows7 t) _ (hIds7 t) _ (hOut7 t) mAcc7 (Memref.isWhole_whole _) mCnt7 (Memref.isWhole_whole _) (mt (first7_iff_zero t).mp (by omega)) ((last7_iff_end t).mpr hL) (iblk7 V c 0 t) (iblk7 V c 1 t) (scr7 V c (t.val - 1) (Nat.lt_of_le_of_lt (Nat.sub_le _ _) t.isLt)).1 (scr7 V c (t.val - 1) (Nat.lt_of_le_of_lt (Nat.sub_le _ _) t.isLt)).2
  else View.canon []

theorem res7_last (c : Dev nD) (t : Fin cfg7.N) (hL : t.val = 13) (hf : ¬first7 (grid7.coords t)) (hl : last7 (grid7.coords t)) :
    res7 V c t = out7_last c _ _ (hRows7 t) _ (hIds7 t) _ (hOut7 t) mAcc7 (Memref.isWhole_whole _) mCnt7 (Memref.isWhole_whole _) hf hl (iblk7 V c 0 t) (iblk7 V c 1 t) (scr7 V c (t.val - 1) (Nat.lt_of_le_of_lt (Nat.sub_le _ _) t.isLt)).1 (scr7 V c (t.val - 1) (Nat.lt_of_le_of_lt (Nat.sub_le _ _) t.isLt)).2 :=
  (dif_pos hL).trans rfl

def held7 (c : Dev nD) (s : Vec F S256x128 .f32 × Vec F S256x1 .f32) : sProp 𝕄 :=
  iprop(iprop(iprop(owns (c : Thread nD τ) mAcc7 fullShare s.1 ∗ owns (c : Thread nD τ) mCnt7 fullShare s.2) ∗ rest7 (F := F) c)
      ∗ (∃ r, prngReg c r))

-- Before point `n` the scratch holds what point `n - 1` left; before the first point, anything.
def inv7 (c : Dev nD) : (n : ℕ) → n ≤ cfg7.N → sProp 𝕄
  | 0, _ => Pipeline.ΦA spec7 c
  | n + 1, hn => held7 c (scr7 V c n hn)

theorem inv7_pos (c : Dev nD) (n : ℕ) (h : n ≤ cfg7.N) (hz : n ≠ 0) :
    inv7 V c n h = held7 c (scr7 V c (n - 1) (by omega)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => res7 V c t
  Φ t := inv7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_2 (c : Dev nD) (t : Fin cfg7.N) : (dat7 V c).after 2 t = res7 V c t := by dsimp only [dat7]

theorem inv7_zero (c : Dev nD) (n : ℕ) (h : n ≤ cfg7.N) (hz : n = 0) : inv7 V c n h = Pipeline.ΦA spec7 c := by
  subst hz; rfl

theorem inv7_castSucc (c : Dev nD) (t : Fin cfg7.N) :
    (dat7 V c).Φ t.castSucc = inv7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)

set_option maxHeartbeats 4800000 in
theorem sound_body7 (c : Dev nD) (t : Fin cfg7.N) :
    iprop((dat7 V c).Φ t.castSucc ∗ (dat7 V c).owesAt () t.castSucc
      ∗ (∃ d, owns (c : Thread nD τ) (mRows7 t) fullShare ((dat7 V c).before 0 t d))
      ∗ (∃ d, owns (c : Thread nD τ) (mIds7 t) fullShare ((dat7 V c).before 1 t d))
      ∗ (∃ d, owns (c : Thread nD τ) (mOut7 t) fullShare ((dat7 V c).before 2 t d)))
      ⊢ wp frame (wpE (defs₀ (F := F)) Variants.none c none) Set.univ (bodyAt7 t) fun _ =>
        iprop((dat7 V c).Φ t.succ ∗ (dat7 V c).owesAt () t.succ
        ∗ (dat7 V c).leavesExact 0 t ∗ (dat7 V c).leavesExact 1 t ∗ (dat7 V c).leavesExact 2 t) := by
  unfold bodyAt7
  simp only [before7_0, before7_1]
  rw [show (dat7 V c).owesAt () t.succ = (dat7 V c).owesAt () t.castSucc from rfl,
    show (dat7 V c).Φ t.succ = held7 c (scr7 V c t.val t.isLt) from rfl, inv7_castSucc V c t]
  rw [show (dat7 V c).leavesExact 0 t = owns (c : Thread nD τ) (mRows7 t) fullShare ((dat7 V c).after 0 t) from by
    unfold Dat.leavesExact; rw [live7_0 t], after7_0]
  rw [show (dat7 V c).leavesExact 1 t = owns (c : Thread nD τ) (mIds7 t) fullShare ((dat7 V c).after 1 t) from by
    unfold Dat.leavesExact; rw [live7_1 t], after7_1]
  by_cases hL : t.val = 13
  · have h0 : t.val ≠ 0 := by omega
    have hf : ¬first7 (grid7.coords t) := mt (first7_iff_zero t).mp h0
    have hl : last7 (grid7.coords t) := (last7_iff_end t).mpr hL
    rw [show (dat7 V c).leavesExact 2 t = owns (c : Thread nD τ) (mOut7 t) fullShare ((dat7 V c).after 2 t) from by
      unfold Dat.leavesExact; rw [live7_2 t hl], after7_2, res7_last V c t hL hf hl]
    rw [scr7_last V c t h0 hL hf hl, inv7_pos V c _ _ h0]
    unfold held7; dsimp only; unfold out7_last acc7_last cnt7_last
    iintro ⟨⟨⟨⟨HA, HC⟩, HR⟩, Hg⟩, Ho, ⟨%d0, H0⟩, ⟨%d1, H1⟩, ⟨%d2, H2⟩⟩
    iapply ((run7_last c (grid7.coords t) _ _ _ _ _ _ _ _ _ _ hf hl (iblk7 V c 0 t) (iblk7 V c 1 t) _ _).2.2.2 Set.univ _)
    iframe H0 H1 HA HC
    isplitl [H2]; · iexists _; iexact H2
    iintro ⟨H0, H1, H2, HA, HC⟩
    iframe HR Hg Ho H0 H1
    isplitl [HA HC]
    · isplitl [HA]
      · iapply owns_canon c _ _ (by sl_kernel_rfl) $$ HA
      · iapply owns_canon c _ _ (by sl_kernel_rfl) $$ HC
    iapply owns_canon c _ _ (by sl_kernel_rfl) $$ H2
  have hl : ¬last7 (grid7.coords t) := mt (last7_iff_end t).mp hL
  rw [Dat.leavesExact_idle (dat7 V c) 2 t (idle7_2 t hl).1 (idle7_2 t hl).2]
  by_cases h0 : t.val = 0
  · have hf : first7 (grid7.coords t) := (first7_iff_zero t).mpr h0
    rw [scr7_first V c t h0 hf hl, inv7_zero V c _ _ h0, phiA7_eq]
    unfold held7; dsimp only; unfold acc7_first cnt7_first
    iintro ⟨⟨⟨⟨HA, HC⟩, HR⟩, Hg⟩, Ho, ⟨%d0, H0⟩, ⟨%d1, H1⟩, ⟨%d2, H2⟩⟩
    iapply ((run7_first c (grid7.coords t) _ _ _ _ _ _ _ _ _ _ hf hl (iblk7 V c 0 t) (iblk7 V c 1 t)).2.2 _ Set.univ _)
    iframe H0 H1 H2 HA HC
    iintro ⟨H0, H1, H2, HA, HC⟩
    iframe HR Hg Ho H0 H1
    isplitl [HA HC]
    · isplitl [HA]
      · iapply owns_canon c _ _ (by sl_kernel_rfl) $$ HA
      · iapply owns_canon c _ _ (by sl_kernel_rfl) $$ HC
    iexists _; iexact H2
  · have hf : ¬first7 (grid7.coords t) := mt (first7_iff_zero t).mp h0
    rw [scr7_mid V c t h0 hL hf hl, inv7_pos V c _ _ h0]
    unfold held7; dsimp only; unfold acc7_mid cnt7_mid
    iintro ⟨⟨⟨⟨HA, HC⟩, HR⟩, Hg⟩, Ho, ⟨%d0, H0⟩, ⟨%d1, H1⟩, ⟨%d2, H2⟩⟩
    iapply ((run7_mid c (grid7.coords t) _ _ _ _ _ _ _ _ _ _ hf hl (iblk7 V c 0 t) (iblk7 V c 1 t) _ _).2.2 _ Set.univ _)
    iframe H0 H1 H2 HA HC
    iintro ⟨H0, H1, H2, HA, HC⟩
    iframe HR Hg Ho H0 H1
    isplitl [HA HC]
    · isplitl [HA]
      · iapply owns_canon c _ _ (by sl_kernel_rfl) $$ HA
      · iapply owns_canon c _ _ (by sl_kernel_rfl) $$ HC
    iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := Idealize.SL.BI.Entails.refl _

theorem hout7 (c : Dev nD) : (dat7 V c).Φ (Fin.last cfg7.N) ⊢ Pipeline.ΦA spec7 c := by
  rw [show (dat7 V c).Φ (Fin.last cfg7.N) = inv7 V c cfg7.N (Nat.le_refl _) from rfl, inv7_pos V c cfg7.N _ (by have : cfg7.N = 14 := N_7; omega), phiA7_eq]
  unfold held7
  iintro ⟨⟨⟨HA, HC⟩, HR⟩, Hg⟩
  iframe HR Hg
  isplitl [HA]
  · iexists _; iexact HA
  · iexists _; iexact HC

end Cert.Kernel.Frm

end
-- ==== Proof.KB.R8.lean ====
import proofs.«412806_j54228257079467_3_alg».proof.Proof.Gen.Kernel.Launch
import proofs.«412806_j54228257079467_3_alg».proof.Proof.Gen.Kernel.Skeleton
import proofs.«412806_j54228257079467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev whole8_256x134 : Rect S256x134 := Rect.unit (s := S256x134) ![0, 0] S256x134.size inb_S256x134_S256x134_0_0
abbrev whole8_134x1024 : Rect S134x1024 := Rect.unit (s := S134x1024) ![0, 0] S134x1024.size inb_S134x1024_S134x1024_0_0
abbrev whole8_1x1024 : Rect S1x1024 := Rect.unit (s := S1x1024) ![0, 0] S1x1024.size inb_S1x1024_S1x1024_0_0
abbrev whole8_1024x1024 : Rect S1024x1024 := Rect.unit (s := S1024x1024) ![0, 0] S1024x1024.size inb_S1024x1024_S1024x1024_0_0
abbrev whole8_1024x3 : Rect S1024x3 := Rect.unit (s := S1024x3) ![0, 0] S1024x3.size inb_S1024x3_S1024x3_0_0
abbrev whole8_1x3 : Rect S1x3 := Rect.unit (s := S1x3) ![0, 0] S1x3.size inb_S1x3_S1x3_0_0
abbrev whole8_256x3 : Rect S256x3 := Rect.unit (s := S256x3) ![0, 0] S256x3.size inb_S256x3_S256x3_0_0

def out8_9 (z : Vec F S256x134 .f32) (W1 : Vec F S134x1024 .f32) (b1 : Vec F S1x1024 .f32) (W2 : Vec F S1024x1024 .f32) (b2 : Vec F S1x1024 .f32) (W3 : Vec F S1024x1024 .f32) (b3 : Vec F S1x1024 .f32) (Wo : Vec F S1024x3 .f32) (bo : Vec F S1x3 .f32) : Vec F S256x3 .f32 :=
  View.canon [⟨whole8_256x3, k8_pay1 (k8_pay2 (View.ld z whole8_256x134) (View.ld W1 whole8_134x1024) (View.ld b1 whole8_1x1024) (View.ld W2 whole8_1024x1024) (View.ld b2 whole8_1x1024) (View.ld W3 whole8_1024x1024) (View.ld b3 whole8_1x1024) (View.ld Wo whole8_1024x3)) (View.ld bo whole8_1x3)⟩]

set_option maxHeartbeats 4000000 in
-- The body only loads from the nine inputs, and its one store overwrites the whole output block.
theorem sound_kernel8 (c : Dev nD) (E : Set ℕ) (i : grid8.Coords) (arg1 : Memref sig .tc .vmem S256x134 .f32) (harg1 : arg1.IsWhole) (arg2 : Memref sig .tc .vmem S134x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x3 .f32) (harg8 : arg8.IsWhole) (arg9 : Memref sig .tc .vmem S1x3 .f32) (harg9 : arg9.IsWhole) (arg10 : Memref sig .tc .vmem S256x3 .f32) (harg10 : arg10.IsWhole)
    (z : Vec F S256x134 .f32) (W1 : Vec F S134x1024 .f32) (b1 : Vec F S1x1024 .f32) (W2 : Vec F S1024x1024 .f32) (b2 : Vec F S1x1024 .f32) (W3 : Vec F S1024x1024 .f32) (b3 : Vec F S1x1024 .f32) (Wo : Vec F S1024x3 .f32) (bo : Vec F S1x3 .f32) (K : PUnit → sProp 𝕄) :
    iprop(owns (c : Thread nD τ) arg1 fullShare z ∗ owns (c : Thread nD τ) arg2 fullShare W1 ∗ owns (c : Thread nD τ) arg3 fullShare b1 ∗ owns (c : Thread nD τ) arg4 fullShare W2 ∗ owns (c : Thread nD τ) arg5 fullShare b2 ∗ owns (c : Thread nD τ) arg6 fullShare W3 ∗ owns (c : Thread nD τ) arg7 fullShare b3 ∗ owns (c : Thread nD τ) arg8 fullShare Wo ∗ owns (c : Thread nD τ) arg9 fullShare bo ∗ (∃ d, owns (c : Thread nD τ) arg10 fullShare d)
        ∗ (iprop(owns (c : Thread nD τ) arg1 fullShare z ∗ owns (c : Thread nD τ) arg2 fullShare W1 ∗ owns (c : Thread nD τ) arg3 fullShare b1 ∗ owns (c : Thread nD τ) arg4 fullShare W2 ∗ owns (c : Thread nD τ) arg5 fullShare b2 ∗ owns (c : Thread nD τ) arg6 fullShare W3 ∗ owns (c : Thread nD τ) arg7 fullShare b3 ∗ owns (c : Thread nD τ) arg8 fullShare Wo ∗ owns (c : Thread nD τ) arg9 fullShare bo ∗ owns (c : Thread nD τ) arg10 fullShare (out8_9 z W1 b1 W2 b2 W3 b3 Wo bo)) -∗ K ⟨⟩))
      ⊢ wp frame (wpE (defs₀ (F := F)) Variants.none c none) E (cc8_kernel i arg1 harg1 arg2 harg2 arg3 harg3 arg4 harg4 arg5 harg5 arg6 harg6 arg7 harg7 arg8 harg8 arg9 harg9 arg10 harg10) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (View.cover_of_tiled _ S256x3.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

-- The body leaves every input block as it finds it, so what an input's buffer holds before the body is what it holds after.
theorem before8 (c : Dev nD) (t : Fin cfg8.N) : ∀ (w : Fin cfg8.W) (_ : w ≠ 9) (d), (dat8 V c).before w t d = (dat8 V c).fetched w t d
  | ⟨9, _⟩, h, _ => absurd rfl h
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat8 V c).before_in_eq_fetched _ rfl (fun _ => rfl) (fun _ _ _ => rfl) (fun _ => rfl) t d

-- Everything but the buffers is framed; the buffers go through the kernel's triple.
theorem body_obligation8 (c : Dev nD) : BodyObligation (dat8 (F := F) V c) (defs₀ (F := F)) Variants.none () Set.univ := fun t => by
  rw [bigSep_W8, bigSep_W8]
  simp (disch := decide) only [before8, after8_9, show ∀ i, (dat8 V c).Φ i = Pipeline.ΦA spec8 c from fun _ => rfl]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _
    ((dat8 V c).after 0 t) ((dat8 V c).after 1 t) ((dat8 V c).after 2 t) ((dat8 V c).after 3 t) ((dat8 V c).after 4 t) ((dat8 V c).after 5 t) ((dat8 V c).after 6 t) ((dat8 V c).after 7 t) ((dat8 V c).after 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  iframe HΦ H0 H1 H2 H3 H4 H5 H6 H7 H8
  isplitl [Ho]; · iexact Ho
  iexact H9

theorem hin8 (c : Dev nD) : Pipeline.ΦA spec8 c ⊢ (dat8 V c).Φ 0 := .rfl
theorem hout8 (c : Dev nD) : (dat8 V c).Φ (Fin.last cfg8.N) ⊢ Pipeline.ΦA spec8 c := .rfl

end Cert.Kernel.Frm

end
-- ==== Proof.KB.Chain.lean ====
import proofs.«412806_j54228257079467_3_alg».proof.Proof.KB.RunCond
import proofs.«412806_j54228257079467_3_alg».proof.Proof.KB.R0
import proofs.«412806_j54228257079467_3_alg».proof.Proof.KB.R1
import proofs.«412806_j54228257079467_3_alg».proof.Proof.KB.R2
import proofs.«412806_j54228257079467_3_alg».proof.Proof.KB.R3
import proofs.«412806_j54228257079467_3_alg».proof.Proof.KB.R4
import proofs.«412806_j54228257079467_3_alg».proof.Proof.KB.R5
import proofs.«412806_j54228257079467_3_alg».proof.Proof.KB.R6
import proofs.«412806_j54228257079467_3_alg».proof.Proof.KB.R7
import proofs.«412806_j54228257079467_3_alg».proof.Proof.KB.R8
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- `V` with each array of the region at its final contents. -/
def leaves {cfg : Cfg sig Λ₀} (c : Dev nD) (V : Valuation τ sig (Elt F)) (D : Dat τ (Elt F) Unit ℕ (UR sig nD τ) ℕ cfg c) :
    Valuation τ sig (Elt F) :=
  Pipeline.withArrays cfg.spec c V fun w => D.arrAt w cfg.N

/-- `V` overwritten with `g` at each reference of a list. -/
def updAt (g : Valuation τ sig (Elt F)) : List (Ref sig .tc) → Valuation τ sig (Elt F) → Valuation τ sig (Elt F)
  | [], V => V
  | r :: l, V => updAt g l (Function.update V r (g r))

theorem updAt_of_not_mem (g : Valuation τ sig (Elt F)) (b : Ref sig .tc) :
    ∀ (l : List (Ref sig .tc)) (V : Valuation τ sig (Elt F)), b ∉ l → updAt g l V b = V b
  | [], _, _ => rfl
  | _ :: l, _, h => (updAt_of_not_mem g b l _ (List.not_mem_of_not_mem_cons h)).trans
      (Function.update_of_ne (StableHlo.devRef_ne_of_ne (List.ne_of_not_mem_cons h)) _ _)

/-- The last overwrite at a listed reference wins, and every overwrite there writes `g`. -/
theorem updAt_of_mem (g : Valuation τ sig (Elt F)) (b : Ref sig .tc) :
    ∀ (l : List (Ref sig .tc)) (V : Valuation τ sig (Elt F)), b ∈ l → updAt g l V b = g b
  | [], _, h => nomatch h
  | r :: l, _, h => by
    by_cases hb : b ∈ l
    · exact updAt_of_mem g b l _ hb
    · obtain rfl : b = r := (List.mem_cons.mp h).resolve_right hb
      exact (updAt_of_not_mem g b l _ hb).trans (Function.update_self _ _ _)

/-- The arrays of the output windows, in window order. -/
def outRefs (cfg : Cfg sig Λ₀) : List (Ref sig .tc) :=
  ((List.finRange cfg.W).filter fun w => (cfg.win w).isOut).map (Pipeline.arrRef cfg.spec)

section Exit

variable {cfg : Cfg sig Λ₀} {c : Dev nD} (D : Dat τ (Elt F) Unit ℕ (UR sig nD τ) ℕ cfg c) (V : Valuation τ sig (Elt F))

/-- An output array holds its final contents by the overwrite; an input array's contents never change. -/
theorem exit_arr (hinj : Function.Injective (Pipeline.arrRef cfg.spec)) (hA : ∀ w, D.A w = V (Pipeline.arrRef cfg.spec w))
    (w : Fin cfg.W) : D.arrAt w cfg.N = updAt (leaves c V D) (outRefs cfg) V (Pipeline.arrRef cfg.spec w) := by
  by_cases h : Pipeline.arrRef cfg.spec w ∈ outRefs cfg
  · exact ((updAt_of_mem (leaves c V D) _ _ _ h).trans (Pipeline.withArrays_arr cfg.spec hinj c _ _ w)).symm
  · exact ((D.arrAt_in w (Bool.eq_false_iff.mpr fun hw =>
      h (List.mem_map.mpr ⟨w, List.mem_filter.mpr ⟨List.mem_finRange w, hw⟩, rfl⟩)) _).trans (hA w)).trans
      (updAt_of_not_mem (leaves c V D) _ _ _ h).symm

theorem exit_rest (b : Ref sig .tc) (hb : b ∉ Finset.univ.image (Pipeline.arrRef cfg.spec)) :
    updAt (leaves c V D) (outRefs cfg) V b = V b :=
  updAt_of_not_mem (leaves c V D) _ _ _ fun h =>
    let ⟨w, _, e⟩ := List.mem_map.mp h
    hb (Finset.mem_image.mpr ⟨w, Finset.mem_univ _, e⟩)

end Exit

variable (m : (ℓ : Loc nD τ sig) → Buf (Elt F) ℓ)

abbrev U1 (c : Dev nD) : Valuation τ sig (Elt F) := Gen.V1 m c
abbrev T1 : (c : Dev nD) → (b : Ref sig .tc) → Buf (Elt F) ((c : Thread nD τ).loc b) := fun c b => U1 m c b
def o2 (c : Dev nD) : Valuation τ sig (Elt F) := leaves c (U1 m c) (dat0 (T1 m) c)
abbrev U2 (c : Dev nD) : Valuation τ sig (Elt F) := Function.update (Function.update (U1 m c) main_v21_0 (o2 m c main_v21_0)) main_v21_1 (o2 m c main_v21_1)
abbrev U3 (c : Dev nD) : Valuation τ sig (Elt F) := StableHlo.after hostOps1 (U2 m c)
abbrev T3 : (c : Dev nD) → (b : Ref sig .tc) → Buf (Elt F) ((c : Thread nD τ).loc b) := fun c b => U3 m c b
def o4 (c : Dev nD) : Valuation τ sig (Elt F) := leaves c (U3 m c) (dat1 (T3 m) c)
abbrev U4 (c : Dev nD) : Valuation τ sig (Elt F) := Function.update (Function.update (Function.update (U3 m c) main_v32_0 (o4 m c main_v32_0)) main_v32_1 (o4 m c main_v32_1)) main_v32_2 (o4 m c main_v32_2)
abbrev T4 : (c : Dev nD) → (b : Ref sig .tc) → Buf (Elt F) ((c : Thread nD τ).loc b) := fun c b => U4 m c b
def o5 (c : Dev nD) : Valuation τ sig (Elt F) := leaves c (U4 m c) (dat2 (T4 m) c)
abbrev U5 (c : Dev nD) : Valuation τ sig (Elt F) := Function.update (Function.update (U4 m c) main_v33_0 (o5 m c main_v33_0)) main_v33_1 (o5 m c main_v33_1)
abbrev U6 (c : Dev nD) : Valuation τ sig (Elt F) := StableHlo.after hostOps3 (U5 m c)
abbrev T6 : (c : Dev nD) → (b : Ref sig .tc) → Buf (Elt F) ((c : Thread nD τ).loc b) := fun c b => U6 m c b
def o7 (c : Dev nD) : Valuation τ sig (Elt F) := leaves c (U6 m c) (dat3 (T6 m) c)
abbrev U7 (c : Dev nD) : Valuation τ sig (Elt F) := Function.update (Function.update (Function.update (U6 m c) main_v44_0 (o7 m c main_v44_0)) main_v44_1 (o7 m c main_v44_1)) main_v44_2 (o7 m c main_v44_2)
abbrev T7 : (c : Dev nD) → (b : Ref sig .tc) → Buf (Elt F) ((c : Thread nD τ).loc b) := fun c b => U7 m c b
def o8 (c : Dev nD) : Valuation τ sig (Elt F) := leaves c (U7 m c) (dat4 (T7 m) c)
abbrev U8 (c : Dev nD) : Valuation τ sig (Elt F) := Function.update (Function.update (U7 m c) main_v45_0 (o8 m c main_v45_0)) main_v45_1 (o8 m c main_v45_1)
abbrev U9 (c : Dev nD) : Valuation τ sig (Elt F) := StableHlo.after hostOps5 (U8 m c)
abbrev T9 : (c : Dev nD) → (b : Ref sig .tc) → Buf (Elt F) ((c : Thread nD τ).loc b) := fun c b => U9 m c b
def o10 (c : Dev nD) : Valuation τ sig (Elt F) := leaves c (U9 m c) (dat5 (T9 m) c)
abbrev U10 (c : Dev nD) : Valuation τ sig (Elt F) := Function.update (Function.update (Function.update (U9 m c) main_v56_0 (o10 m c main_v56_0)) main_v56_1 (o10 m c main_v56_1)) main_v56_2 (o10 m c main_v56_2)
abbrev T10 : (c : Dev nD) → (b : Ref sig .tc) → Buf (Elt F) ((c : Thread nD τ).loc b) := fun c b => U10 m c b
def o11 (c : Dev nD) : Valuation τ sig (Elt F) := leaves c (U10 m c) (dat6 (T10 m) c)
abbrev U11 (c : Dev nD) : Valuation τ sig (Elt F) := Function.update (U10 m c) main_v57 (o11 m c main_v57)
abbrev U12 (c : Dev nD) : Valuation τ sig (Elt F) := StableHlo.after hostOps7 (U11 m c)
abbrev U13 (c : Dev nD) : Valuation τ sig (Elt F) := StableHlo.after hostOps7_1 (U12 m c)
abbrev U14 (c : Dev nD) : Valuation τ sig (Elt F) := StableHlo.after hostOps7_2 (U13 m c)
abbrev U15 (c : Dev nD) : Valuation τ sig (Elt F) := StableHlo.after hostOps7_3 (U14 m c)
abbrev U16 (c : Dev nD) : Valuation τ sig (Elt F) := StableHlo.after hostOps7_4 (U15 m c)
abbrev T16 : (c : Dev nD) → (b : Ref sig .tc) → Buf (Elt F) ((c : Thread nD τ).loc b) := fun c b => U16 m c b
def o17 (c : Dev nD) : Valuation τ sig (Elt F) := leaves c (U16 m c) (dat7 (T16 m) c)
abbrev U17 (c : Dev nD) : Valuation τ sig (Elt F) := Function.update (U16 m c) main_v61 (o17 m c main_v61)
abbrev U18 (c : Dev nD) : Valuation τ sig (Elt F) := StableHlo.after hostOps8 (U17 m c)
abbrev T18 : (c : Dev nD) → (b : Ref sig .tc) → Buf (Elt F) ((c : Thread nD τ).loc b) := fun c b => U18 m c b
def o19 (c : Dev nD) : Valuation τ sig (Elt F) := leaves c (U18 m c) (dat8 (T18 m) c)
abbrev U19 (c : Dev nD) : Valuation τ sig (Elt F) := Function.update (U18 m c) main_v67 (o19 m c main_v67)
abbrev outsK : Gen.Outs (F := F) := fun J r c => match J with
  | 2 => o2 m c r
  | 4 => o4 m c r
  | 5 => o5 m c r
  | 7 => o7 m c r
  | 8 => o8 m c r
  | 10 => o10 m c r
  | 11 => o11 m c r
  | 17 => o17 m c r
  | 19 => o19 m c r
  | _ => Gen.V0 m c r

theorem V2_eq (c : Dev nD) : Gen.V2 m (outsK m) c = U2 m c := rfl
theorem V3_eq (c : Dev nD) : Gen.V3 m (outsK m) c = U3 m c := rfl
theorem V4_eq (c : Dev nD) : Gen.V4 m (outsK m) c = U4 m c := rfl
theorem V5_eq (c : Dev nD) : Gen.V5 m (outsK m) c = U5 m c := rfl
theorem V6_eq (c : Dev nD) : Gen.V6 m (outsK m) c = U6 m c := rfl
theorem V7_eq (c : Dev nD) : Gen.V7 m (outsK m) c = U7 m c := rfl
theorem V8_eq (c : Dev nD) : Gen.V8 m (outsK m) c = U8 m c := rfl
theorem V9_eq (c : Dev nD) : Gen.V9 m (outsK m) c = U9 m c := rfl
theorem V10_eq (c : Dev nD) : Gen.V10 m (outsK m) c = U10 m c := rfl
theorem V11_eq (c : Dev nD) : Gen.V11 m (outsK m) c = U11 m c := rfl
theorem V12_eq (c : Dev nD) : Gen.V12 m (outsK m) c = U12 m c := rfl
theorem V13_eq (c : Dev nD) : Gen.V13 m (outsK m) c = U13 m c := rfl
theorem V14_eq (c : Dev nD) : Gen.V14 m (outsK m) c = U14 m c := rfl
theorem V15_eq (c : Dev nD) : Gen.V15 m (outsK m) c = U15 m c := rfl
theorem V16_eq (c : Dev nD) : Gen.V16 m (outsK m) c = U16 m c := rfl
theorem V17_eq (c : Dev nD) : Gen.V17 m (outsK m) c = U17 m c := rfl
theorem V18_eq (c : Dev nD) : Gen.V18 m (outsK m) c = U18 m c := rfl
theorem V19_eq (c : Dev nD) : Gen.V19 m (outsK m) c = U19 m c := rfl

theorem hF0 (c : Dev nD) (w : Fin cfg0.W) :
    (dat0 (T1 m) c).arrAt w cfg0.N = (fun b : Ref sig .tc => Gen.V2 m (outsK m) c b) (Pipeline.arrRef spec0 w) :=
  exit_arr (dat0 (T1 m) c) (U1 m c) launch0.win.arr_inj (fun _ => rfl) w

theorem hF1 (c : Dev nD) (w : Fin cfg1.W) :
    (dat1 (T3 m) c).arrAt w cfg1.N = (fun b : Ref sig .tc => Gen.V4 m (outsK m) c b) (Pipeline.arrRef spec1 w) :=
  exit_arr (dat1 (T3 m) c) (U3 m c) launch1.win.arr_inj (fun _ => rfl) w

theorem hF2 (c : Dev nD) (w : Fin cfg2.W) :
    (dat2 (T4 m) c).arrAt w cfg2.N = (fun b : Ref sig .tc => Gen.V5 m (outsK m) c b) (Pipeline.arrRef spec2 w) :=
  exit_arr (dat2 (T4 m) c) (U4 m c) launch2.win.arr_inj (fun _ => rfl) w

theorem hF3 (c : Dev nD) (w : Fin cfg3.W) :
    (dat3 (T6 m) c).arrAt w cfg3.N = (fun b : Ref sig .tc => Gen.V7 m (outsK m) c b) (Pipeline.arrRef spec3 w) :=
  exit_arr (dat3 (T6 m) c) (U6 m c) launch3.win.arr_inj (fun _ => rfl) w

theorem hF4 (c : Dev nD) (w : Fin cfg4.W) :
    (dat4 (T7 m) c).arrAt w cfg4.N = (fun b : Ref sig .tc => Gen.V8 m (outsK m) c b) (Pipeline.arrRef spec4 w) :=
  exit_arr (dat4 (T7 m) c) (U7 m c) launch4.win.arr_inj (fun _ => rfl) w

theorem hF5 (c : Dev nD) (w : Fin cfg5.W) :
    (dat5 (T9 m) c).arrAt w cfg5.N = (fun b : Ref sig .tc => Gen.V10 m (outsK m) c b) (Pipeline.arrRef spec5 w) :=
  exit_arr (dat5 (T9 m) c) (U9 m c) launch5.win.arr_inj (fun _ => rfl) w

theorem hF6 (c : Dev nD) (w : Fin cfg6.W) :
    (dat6 (T10 m) c).arrAt w cfg6.N = (fun b : Ref sig .tc => Gen.V11 m (outsK m) c b) (Pipeline.arrRef spec6 w) :=
  exit_arr (dat6 (T10 m) c) (U10 m c) launch6.win.arr_inj (fun _ => rfl) w

theorem hF7 (c : Dev nD) (w : Fin cfg7.W) :
    (dat7 (T16 m) c).arrAt w cfg7.N = (fun b : Ref sig .tc => Gen.V17 m (outsK m) c b) (Pipeline.arrRef spec7 w) :=
  exit_arr (dat7 (T16 m) c) (U16 m c) launch7.win.arr_inj (fun _ => rfl) w

theorem hF8 (c : Dev nD) (w : Fin cfg8.W) :
    (dat8 (T18 m) c).arrAt w cfg8.N = (fun b : Ref sig .tc => Gen.V19 m (outsK m) c b) (Pipeline.arrRef spec8 w) :=
  exit_arr (dat8 (T18 m) c) (U18 m c) launch8.win.arr_inj (fun _ => rfl) w

def pdats : (p : Fin 9) → (c : Dev nD) → Dat τ (Elt F) Unit ℕ (UR sig nD τ) ℕ (Pipeline.pin (pcfgs (F := F)) Gen.adm p) c
  | ⟨0, _⟩ => fun c => dat0 (T1 m) c
  | ⟨1, _⟩ => fun c => dat1 (T3 m) c
  | ⟨2, _⟩ => fun c => dat2 (T4 m) c
  | ⟨3, _⟩ => fun c => dat3 (T6 m) c
  | ⟨4, _⟩ => fun c => dat4 (T7 m) c
  | ⟨5, _⟩ => fun c => dat5 (T9 m) c
  | ⟨6, _⟩ => fun c => dat6 (T10 m) c
  | ⟨7, _⟩ => fun c => dat7 (T16 m) c
  | ⟨8, _⟩ => fun c => dat8 (T18 m) c
abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The region between valuations `Vi` and `Vo` that differ only at its arrays, which hold their final contents in `Vo`. -/
def regAt (p : Fin 9) (lch : Pipeline.LaunchFacts (nD := nD) (τ := τ) cfgs p) (Vi Vo : Dev nD → Valuation τ sig (Elt F))
    (hb : ∀ c, BodyObligation (pdats m p c) (defs₀ (F := F)) Variants.none () Set.univ)
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (hq : ∀ c w, (pdats m p c).q w = fullShare) (h0 : ∀ c t, (pdats m p c).owed t = 0)
    (hr : ∀ c, (pdats m p c).recorded 0 = Set.univ)
    (hA : ∀ c w, (pdats m p c).A w = Vi c (Pipeline.arrRef (cfgs p).spec w))
    (hF : ∀ c w, (pdats m p c).arrAt w (cfgs p).N = Vo c (Pipeline.arrRef (cfgs p).spec w))
    (hrest : ∀ c (b : Ref sig .tc), b ∉ Finset.univ.image (Pipeline.arrRef (cfgs p).spec) → Vo c b = Vi c b) :
    Pipeline.RegionSeg (pcfgs (F := F)) Gen.adm (pdats m) () defs₀ 𝒱₀ L lv p where
  win := lch.win.to₀
  block_pos := lch.block_pos
  stage_whole := lch.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Vi c) ∗ Rr c)
  post c := iprop(StableHlo.held (c : Thread nD τ) (Pipeline.ucRefs τ sig) (Vo c) ∗ Rr c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) Gen.adm (pdats m) lch.win lch.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [h0 c]
      icases HO with ⟨%W, HO⟩; iexists W; isplitr; · ipureintro; exact fun _ _ => Or.inl ((hr c).symm ▸ Set.mem_univ _)
      iexact HO
    isplitl [Hp]; · iexact Hp
    iexact Hrest
  hin c :=
    (show _ ⊢ (Pipeline.ΦA (cfgs p).spec c : sProp 𝕄) from by
      unfold Pipeline.ΦA
      iintro ⟨Hp, -, Hr⟩
      isplitl [Hr]; · iexact Hr
      iexact Hp).trans (hin c)
  hout c := by
    rw [Pipeline.ownSems0_none]
    exact (hout c).trans (show (Pipeline.ΦA (cfgs p).spec c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := p) (pcfgs (F := F)) Gen.adm (Ix := Unit) (Name := ℕ) (U := UR sig nD τ) (Lvl := ℕ)
      lch.win lch.arr_whole c (pdats m) ((pdats m p c).share_full (hq c))
      (fun b => Vi c b) (fun b : Ref sig .tc => Vo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c]
    icases HO with ⟨%W, -, HO⟩; iexists W; iexact HO

def reg0 :=
  regAt m 0 launch0 (U1 m) (Gen.V2 m (outsK m)) (body_obligation0 (T1 m)) (hin0 (T1 m)) (hout0 (T1 m))
    (fun _ _ => rfl) (fun _ _ => rfl) (fun _ => rfl) (fun _ _ => rfl) (hF0 m)
    fun c => exit_rest (dat0 (T1 m) c) (U1 m c)

def reg1 :=
  regAt m 1 launch1 (U3 m) (Gen.V4 m (outsK m)) (body_obligation1 (T3 m)) (hin1 (T3 m)) (hout1 (T3 m))
    (fun _ _ => rfl) (fun _ _ => rfl) (fun _ => rfl) (fun _ _ => rfl) (hF1 m)
    fun c => exit_rest (dat1 (T3 m) c) (U3 m c)

def reg2 :=
  regAt m 2 launch2 (U4 m) (Gen.V5 m (outsK m)) (body_obligation2 (T4 m)) (hin2 (T4 m)) (hout2 (T4 m))
    (fun _ _ => rfl) (fun _ _ => rfl) (fun _ => rfl) (fun _ _ => rfl) (hF2 m)
    fun c => exit_rest (dat2 (T4 m) c) (U4 m c)

def reg3 :=
  regAt m 3 launch3 (U6 m) (Gen.V7 m (outsK m)) (body_obligation3 (T6 m)) (hin3 (T6 m)) (hout3 (T6 m))
    (fun _ _ => rfl) (fun _ _ => rfl) (fun _ => rfl) (fun _ _ => rfl) (hF3 m)
    fun c => exit_rest (dat3 (T6 m) c) (U6 m c)

def reg4 :=
  regAt m 4 launch4 (U7 m) (Gen.V8 m (outsK m)) (body_obligation4 (T7 m)) (hin4 (T7 m)) (hout4 (T7 m))
    (fun _ _ => rfl) (fun _ _ => rfl) (fun _ => rfl) (fun _ _ => rfl) (hF4 m)
    fun c => exit_rest (dat4 (T7 m) c) (U7 m c)

def reg5 :=
  regAt m 5 launch5 (U9 m) (Gen.V10 m (outsK m)) (body_obligation5 (T9 m)) (hin5 (T9 m)) (hout5 (T9 m))
    (fun _ _ => rfl) (fun _ _ => rfl) (fun _ => rfl) (fun _ _ => rfl) (hF5 m)
    fun c => exit_rest (dat5 (T9 m) c) (U9 m c)

def reg6 :=
  regAt m 6 launch6 (U10 m) (Gen.V11 m (outsK m)) (body_obligation6 (T10 m)) (hin6 (T10 m)) (hout6 (T10 m))
    (fun _ _ => rfl) (fun _ _ => rfl) (fun _ => rfl) (fun _ _ => rfl) (hF6 m)
    fun c => exit_rest (dat6 (T10 m) c) (U10 m c)

def reg7 :=
  regAt m 7 launch7 (U16 m) (Gen.V17 m (outsK m)) (body_obligation7 (T16 m)) (hin7 (T16 m)) (hout7 (T16 m))
    (fun _ _ => rfl) (fun _ _ => rfl) (fun _ => rfl) (fun _ _ => rfl) (hF7 m)
    fun c => exit_rest (dat7 (T16 m) c) (U16 m c)

def reg8 :=
  regAt m 8 launch8 (U18 m) (Gen.V19 m (outsK m)) (body_obligation8 (T18 m)) (hin8 (T18 m)) (hout8 (T18 m))
    (fun _ _ => rfl) (fun _ _ => rfl) (fun _ => rfl) (fun _ _ => rfl) (hF8 m)
    fun c => exit_rest (dat8 (T18 m) c) (U18 m c)

end Cert.Kernel.Frm

end
-- ==== Proof.KB.Run.lean ====
import proofs.«412806_j54228257079467_3_alg».proof.Proof.KB.Chain

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V19 m (outsK m) c b) :=
  run_cond m (Ix := Unit) (U := UR sig nD τ) (Lvl := ℕ) emb₁ () 𝒱₀ L lv (fun _ _ => rfl) ρ (outsK m) (pdats m)
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      have hcore : ∀ c : Dev nD, iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) ⊢ (Rr c : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => Rr c) : sProp 𝕄) :=
        bigSep_mono fun c _ => hcore c
      iintro ⟨H, -⟩
      imodintro
      iapply hmono
      iexact H)
    (fun c => by
      iintro ⟨-, HO⟩
      iexact HO)
    (reg0 m) (fun c => .rfl) (fun c => .rfl)
    (reg1 m) (fun c => by rw [V3_eq m c]; exact .rfl) (fun c => .rfl)
    (reg2 m) (fun c => by rw [V4_eq m c]; exact .rfl) (fun c => .rfl)
    (reg3 m) (fun c => by rw [V6_eq m c]; exact .rfl) (fun c => .rfl)
    (reg4 m) (fun c => by rw [V7_eq m c]; exact .rfl) (fun c => .rfl)
    (reg5 m) (fun c => by rw [V9_eq m c]; exact .rfl) (fun c => .rfl)
    (reg6 m) (fun c => by rw [V10_eq m c]; exact .rfl) (fun c => .rfl)
    (reg7 m) (fun c => by rw [V16_eq m c]; exact .rfl) (fun c => .rfl)
    (reg8 m) (fun c => by rw [V18_eq m c]; exact .rfl) (fun c => .rfl)

theorem run_value (ρ : Dev nD → PrngReg) :
    θ_run defs (onTc (τ := τ) (main (F := F))) ⟨m, fun _ => 0, ρ⟩ (fun r => ∀ c : Dev nD,
      r.2.mem ((c.tc : Thread nD τ).loc main_v67) = (dat8 (T18 m) c).arrAt (⟨9, Nat.lt_succ_self 9⟩ : Fin cfg8.W) cfg8.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    have a : ∀ (b : Ref sig .tc) {v : Buf (Elt F) ((c.tc : Thread nD τ).loc b)}, ¬ (Proc.devRef .tc b : DevRef τ sig).isScoped →
        Gen.V19 m (outsK m) c b = v → r.2.mem ((c.tc : Thread nD τ).loc b) = v :=
      fun b _ hb hv => (h c _ (mem_uc b hb)).trans hv
    ⟨a (Pipeline.arrRef spec8 ⟨9, Nat.lt_succ_self 9⟩) (by decide) (hF8 m c _).symm,
     a main_arg0 (by decide) (Gen.V19_main_arg0 m (outsK m) c),
     a main_arg1 (by decide) (Gen.V19_main_arg1 m (outsK m) c),
     a main_arg2 (by decide) (Gen.V19_main_arg2 m (outsK m) c),
     a main_arg3 (by decide) (Gen.V19_main_arg3 m (outsK m) c),
     a main_arg4 (by decide) (Gen.V19_main_arg4 m (outsK m) c),
     a main_arg5 (by decide) (Gen.V19_main_arg5 m (outsK m) c),
     a main_arg6 (by decide) (Gen.V19_main_arg6 m (outsK m) c),
     a main_arg7 (by decide) (Gen.V19_main_arg7 m (outsK m) c),
     a main_arg8 (by decide) (Gen.V19_main_arg8 m (outsK m) c),
     a main_arg9 (by decide) (Gen.V19_main_arg9 m (outsK m) c),
     a main_arg10 (by decide) (Gen.V19_main_arg10 m (outsK m) c),
     a main_arg11 (by decide) (Gen.V19_main_arg11 m (outsK m) c),
     a main_arg12 (by decide) (Gen.V19_main_arg12 m (outsK m) c),
     a main_arg13 (by decide) (Gen.V19_main_arg13 m (outsK m) c),
     a main_arg14 (by decide) (Gen.V19_main_arg14 m (outsK m) c),
     a main_arg15 (by decide) (Gen.V19_main_arg15 m (outsK m) c),
     a main_arg16 (by decide) (Gen.V19_main_arg16 m (outsK m) c),
     a main_arg17 (by decide) (Gen.V19_main_arg17 m (outsK m) c),
     a main_arg18 (by decide) (Gen.V19_main_arg18 m (outsK m) c),
     a main_arg19 (by decide) (Gen.V19_main_arg19 m (outsK m) c),
     a main_arg20 (by decide) (Gen.V19_main_arg20 m (outsK m) c),
     a main_arg21 (by decide) (Gen.V19_main_arg21 m (outsK m) c),
     a main_arg22 (by decide) (Gen.V19_main_arg22 m (outsK m) c),
     a main_arg23 (by decide) (Gen.V19_main_arg23 m (outsK m) c),
     a main_arg24 (by decide) (Gen.V19_main_arg24 m (outsK m) c)⟩)
    (run_all m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => (h c).2) (run_value m ρ)

end Cert.Kernel.Frm

end
-- ==== Proof.KI.R0.lean ====
import proofs.«412806_j54228257079467_3_alg».proof.Proof.Gen.KernelIdeal.Launch
import proofs.«412806_j54228257079467_3_alg».proof.Proof.Gen.KernelIdeal.Skeleton
import proofs.«412806_j54228257079467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev featAll0 : Rect S5000x64 := Rect.unit (s := S5000x64) ![0, 0] S5000x64.size inb_S5000x64_S5000x64_0_0
abbrev weightAll0 : Rect S64x128 := Rect.unit (s := S64x128) ![0, 0] S64x128.size inb_S64x128_S64x128_0_0
abbrev scaleAll0 : Rect S5000x1 := Rect.unit (s := S5000x1) ![0, 0] S5000x1.size inb_S5000x1_S5000x1_0_0
abbrev prodAll0 : Rect S5000x128 := Rect.unit (s := S5000x128) ![0, 0] S5000x128.size inb_S5000x128_S5000x128_0_0

def prodBlock0 (x : Vec F S5000x64 .f32) (w : Vec F S64x128 .f32) : Vec F S5000x128 .f32 :=
  View.canon [⟨prodAll0, k0_pay1 (View.ld x featAll0) (View.ld w weightAll0)⟩]

def scaledBlock0 (x : Vec F S5000x64 .f32) (w : Vec F S64x128 .f32) (s : Vec F S5000x1 .f32) : Vec F S5000x128 .f32 :=
  View.canon [⟨prodAll0, k0_pay2 (View.ld x featAll0) (View.ld w weightAll0) (View.ld s scaleAll0)⟩]

set_option maxHeartbeats 1000000 in
-- a buffer filled by one store over its whole rectangle reads as that store's payload
theorem sound_kernel0 (c : Dev nD) (E : Set ℕ) {i : grid0.Coords}
    {arg1 : Memref sig .tc .vmem S5000x64 .f32} {arg2 : Memref sig .tc .vmem S64x128 .f32} {arg3 : Memref sig .tc .vmem S5000x1 .f32}
    {arg4 arg5 : Memref sig .tc .vmem S5000x128 .f32} {harg1 : arg1.IsWhole} {harg2 : arg2.IsWhole} {harg3 : arg3.IsWhole}
    {harg4 : arg4.IsWhole} {harg5 : arg5.IsWhole}
    {x : Vec F S5000x64 .f32} {w : Vec F S64x128 .f32} {s : Vec F S5000x1 .f32} {dp dq : Vec F S5000x128 .f32} {K : PUnit → sProp 𝕄} :
    iprop(owns c.tc arg4 fullShare dp ∗ owns c.tc arg5 fullShare dq
        ∗ owns c.tc arg1 fullShare x ∗ owns c.tc arg2 fullShare w ∗ owns c.tc arg3 fullShare s
        ∗ (iprop(owns c.tc arg4 fullShare (prodBlock0 x w) ∗ owns c.tc arg5 fullShare (scaledBlock0 x w s)
            ∗ owns c.tc arg1 fullShare x ∗ owns c.tc arg2 fullShare w ∗ owns c.tc arg3 fullShare s) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%fp, -, Hp⟩, ⟨%fq, -, Hq⟩, ⟨%fx, %hfx, Hx⟩, ⟨%fw, %hfw, Hw⟩, ⟨%fs, %hfs, Hs⟩, Hk⟩
  subst hfx hfw hfs
  sl_exec!
  sl_step
  iapply Hk
  isplitl [Hp]
  · iexists _; isplitr [Hp]; · ipureintro; exact View.read_writes_junk_eq_canon _ _
    iexact Hp
  isplitl [Hq]
  · iexists _; isplitr [Hq]; · ipureintro; exact View.read_writes_junk_eq_canon _ _
    iexact Hq
  sl_close

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => prodBlock0 (iblk0 V c 0 t) (iblk0 V c 1 t)
    | ⟨4, _⟩ => scaledBlock0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = prodBlock0 (iblk0 V c 0 t) (iblk0 V c 1 t) := by dsimp only [dat0]
theorem after0_4 (c : Dev nD) (t : Fin cfg0.N) :
    (dat0 V c).after 4 t = scaledBlock0 (iblk0 V c 0 t) (iblk0 V c 1 t) (iblk0 V c 2 t) := by dsimp only [dat0]

-- the body leaves an input window's contents as it finds them
theorem before0 (c : Dev nD) (t : Fin cfg0.N) :
    ∀ w : Fin cfg0.W, (cfg0.win w).isOut = false → ∀ d, (dat0 V c).before w t d = (dat0 V c).after w t
  | ⟨0, _⟩, _, d | ⟨1, _⟩, _, d | ⟨2, _⟩, _, d =>
    (dat0 V c).before_in_eq_fetched _ rfl (fun _ => rfl) (fun _ _ _ => rfl) (fun _ => rfl) t d
  | ⟨3, _⟩, h, _ | ⟨4, _⟩, h, _ => Bool.noConfusion h

theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl, after0_3, after0_4]
  simp (disch := exact rfl) only [before0 V c t]
  sl_whnfR [defs₀, Defs.onTc]
  iintro ⟨HΦ, Ho, ⟨%_, H0⟩, ⟨%_, H1⟩, ⟨%_, H2⟩, ⟨%_, H3⟩, ⟨%_, H4⟩⟩
  iapply sound_kernel0 c Set.univ
  iframe
  iintro ⟨H3, H4, H0, H1, H2⟩
  iframe
  isplitl [H3]; · iexact H3
  iexact H4

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Frm
-- ==== Proof.KI.R1.lean ====
import proofs.«412806_j54228257079467_3_alg».proof.Proof.Gen.KernelIdeal.Launch
import proofs.«412806_j54228257079467_3_alg».proof.Proof.Gen.KernelIdeal.Skeleton
import proofs.«412806_j54228257079467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

theorem idle1_out : ∀ t : Fin cfg1.N, t.val ≠ 9 → (cfg1.idle 5 (grid1.coords t) = true ∧ (cfg1.win 5).flush t = false)
    ∧ cfg1.idle 6 (grid1.coords t) = true ∧ (cfg1.win 6).flush t = false := by decide +kernel
theorem live1_out : ∀ t : Fin cfg1.N, t.val = 9 → cfg1.idle 5 (grid1.coords t) = false ∧ cfg1.idle 6 (grid1.coords t) = false := by decide +kernel

theorem hz1 : (![0, 0] : Fin 2 → Nat) = fun _ => 0 := funext fun a => by fin_cases a <;> rfl

-- A buffer whose last store covers it whole reads as that store's payload.
theorem read_last1 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

abbrev blk1 (xa : Vec F S5000x128 .f32) (xd : Vec F S5000x1 .f32) (xw : Vec F S5000x128 .f32) (xb : Vec F S1x128 .f32) : Vec F S5000x128 .f32 :=
  k1_pay6 xd xa xw xb
abbrev sum1 (xa : Vec F S5000x128 .f32) (xd : Vec F S5000x1 .f32) (xw : Vec F S5000x128 .f32) (xb : Vec F S1x128 .f32) (s : Vec F S1x128 .f32) : Vec F S1x128 .f32 :=
  k1_pay7 xd xa xw xb s
abbrev sqs1 (xa : Vec F S5000x128 .f32) (xd : Vec F S5000x1 .f32) (xw : Vec F S5000x128 .f32) (xb : Vec F S1x128 .f32) (q : Vec F S1x128 .f32) : Vec F S1x128 .f32 :=
  k1_pay1 (k1_pay8 xd xa xw xb q)
abbrev mean1 (s : Vec F S1x128 .f32) : Vec F S1x128 .f32 := k1_pay2 s
abbrev var1 (s q : Vec F S1x128 .f32) : Vec F S1x128 .f32 := k1_pay3 s q

set_option maxHeartbeats 2000000 in
-- One triple for every point: the sums restart from the zero rows under the first condition, the statistics are written under the second.
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hx : ¬(cond1_0 i ∧ cond1_1 i))
    (xa : Vec F S5000x128 .f32) (xd : Vec F S5000x1 .f32) (xw : Vec F S5000x128 .f32) (xb : Vec F S1x128 .f32) (xo : Vec F S5000x128 .f32)
    (xm xv s q S Q : Vec F S1x128 .f32) (hS : S = sum1 xa xd xw xb (if cond1_0 i then k1_pay4 else s))
    (hQ : Q = sqs1 xa xd xw xb (if cond1_0 i then k1_pay5 else q)) (K : PUnit → sProp 𝕄) :
    iprop(owns c.tc arg1 fullShare xa ∗ owns c.tc arg2 fullShare xd ∗ owns c.tc arg3 fullShare xw ∗ owns c.tc arg4 fullShare xb ∗ owns c.tc arg5 fullShare xo
        ∗ owns c.tc arg6 fullShare xm ∗ owns c.tc arg7 fullShare xv ∗ owns c.tc arg8 fullShare s ∗ owns c.tc arg9 fullShare q
        ∗ (owns c.tc arg1 fullShare xa -∗ owns c.tc arg2 fullShare xd -∗ owns c.tc arg3 fullShare xw -∗ owns c.tc arg4 fullShare xb
            -∗ owns c.tc arg5 fullShare (blk1 xa xd xw xb) -∗ owns c.tc arg6 fullShare (if cond1_1 i then mean1 S else xm)
            -∗ owns c.tc arg7 fullShare (if cond1_1 i then var1 S Q else xv) -∗ owns c.tc arg8 fullShare S -∗ owns c.tc arg9 fullShare Q -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9) K := by
  subst hS hQ
  by_cases hc0 : cond1_0 i <;> by_cases hc1 : cond1_1 i
  · exact absurd ⟨hc0, hc1⟩ hx
  all_goals
    first | rw [if_pos hc0, if_pos hc0] | rw [if_neg hc0, if_neg hc0]
    first | rw [if_pos hc1, if_pos hc1] | rw [if_neg hc1, if_neg hc1]
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    subst hf0 hf1 hf2 hf3 hf5 hf6 hf7 hf8
    sl_exec (disch := first | exact hc0 | exact hc1)
    sl_step
    iapply Hk $$ [H0] [H1] [H2] [H3] [H4] [H5] [H6] [H7] [H8] <;>
      (iexists _; isplitr; swap; · iassumption
       ipureintro
       first | (sl_unfold_words; rw [read_last1 _ _ hz1]; simp only [View.readAt_eq_ld, View.ld_unit_zero (S := S5000x128) hz1, View.ld_unit_zero (S := S5000x1) hz1, View.ld_unit_zero (S := S1x128) hz1, View.readCov_unit_zero (S := S1x128) _ hz1]) | rfl)

def scr1 (c : Dev nD) : (n : ℕ) → n < cfg1.N → Vec F S1x128 .f32 × Vec F S1x128 .f32
  | 0, hn => (sum1 (iblk1 V c 0 ⟨0, hn⟩) (iblk1 V c 1 ⟨0, hn⟩) (iblk1 V c 2 ⟨0, hn⟩) (iblk1 V c 3 ⟨0, hn⟩) k1_pay4, sqs1 (iblk1 V c 0 ⟨0, hn⟩) (iblk1 V c 1 ⟨0, hn⟩) (iblk1 V c 2 ⟨0, hn⟩) (iblk1 V c 3 ⟨0, hn⟩) k1_pay5)
  | n + 1, hn => (sum1 (iblk1 V c 0 ⟨n + 1, hn⟩) (iblk1 V c 1 ⟨n + 1, hn⟩) (iblk1 V c 2 ⟨n + 1, hn⟩) (iblk1 V c 3 ⟨n + 1, hn⟩) (scr1 c n (Nat.lt_of_succ_lt hn)).1,
      sqs1 (iblk1 V c 0 ⟨n + 1, hn⟩) (iblk1 V c 1 ⟨n + 1, hn⟩) (iblk1 V c 2 ⟨n + 1, hn⟩) (iblk1 V c 3 ⟨n + 1, hn⟩) (scr1 c n (Nat.lt_of_succ_lt hn)).2)

-- The carried rows after point `t`, from the rows `p` the point found: the zero rows at the first point.
theorem scr1_eq (c : Dev nD) (t : Fin cfg1.N) (p : Vec F S1x128 .f32 × Vec F S1x128 .f32) (hp : ∀ m hm, t.val = m + 1 → p = scr1 V c m hm) :
    scr1 V c t.val t.isLt = (sum1 (iblk1 V c 0 t) (iblk1 V c 1 t) (iblk1 V c 2 t) (iblk1 V c 3 t) (if cond1_0 (grid1.coords t) then k1_pay4 else p.1),
      sqs1 (iblk1 V c 0 t) (iblk1 V c 1 t) (iblk1 V c 2 t) (iblk1 V c 3 t) (if cond1_0 (grid1.coords t) then k1_pay5 else p.2)) := by
  obtain ⟨n, hn⟩ := t
  cases n with
  | zero => simp only [if_pos ((hcond1_0 ⟨0, hn⟩).mpr rfl)]; rfl
  | succ n => simp only [if_neg fun h => Nat.succ_ne_zero n ((hcond1_0 ⟨n + 1, hn⟩).mp h), hp n (Nat.lt_of_succ_lt hn) rfl]; rfl

abbrev scM1_0 : Memref sig .tc .vmem S1x128 .f32 := Memref.whole cc1_scratch0
abbrev scM1_1 : Memref sig .tc .vmem S1x128 .f32 := Memref.whole cc1_scratch1
abbrev rest1 (c : Dev nD) : sProp 𝕄 :=
  Pipeline.scopedRestBut (Ix := Unit) (Name := ℕ) (U := UR sig nD τ) (Lvl := ℕ) (Val := Elt F) spec1 c [cc1_scratch0, cc1_scratch1]

-- Before position `n` the two carried rows hold what the point before left, anything before the first point.
def PhiS1 (c : Dev nD) (n : ℕ) : sProp 𝕄 :=
  iprop(∃ p : Vec F S1x128 .f32 × Vec F S1x128 .f32, ⌜∀ m hm, n = m + 1 → p = scr1 V c m hm⌝
    ∗ iprop(iprop(iprop(owns c.tc scM1_0 fullShare p.1 ∗ owns c.tc scM1_1 fullShare p.2) ∗ rest1 c) ∗ (∃ r, prngReg c r)))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => blk1 (iblk1 V c 0 t) (iblk1 V c 1 t) (iblk1 V c 2 t) (iblk1 V c 3 t)
    | ⟨5, _⟩ => mean1 (scr1 V c t.val t.isLt).1
    | ⟨6, _⟩ => var1 (scr1 V c t.val t.isLt).1 (scr1 V c t.val t.isLt).2
  Φ t := PhiS1 V c t.val
  q _ := fullShare
  owed _ := 0

theorem A_eq1 (c : Dev nD) (w : Fin cfg1.W) : (dat1 V c).A w = V c (Pipeline.arrRef spec1 w) := rfl
theorem after1_4 (c : Dev nD) (t : Fin cfg1.N) : (dat1 V c).after 4 t = blk1 (iblk1 V c 0 t) (iblk1 V c 1 t) (iblk1 V c 2 t) (iblk1 V c 3 t) := rfl
theorem after1_5 (c : Dev nD) (t : Fin cfg1.N) : (dat1 V c).after 5 t = mean1 (scr1 V c t.val t.isLt).1 := rfl
theorem after1_6 (c : Dev nD) (t : Fin cfg1.N) : (dat1 V c).after 6 t = var1 (scr1 V c t.val t.isLt).1 (scr1 V c t.val t.isLt).2 := rfl

-- At every point the body finds each input window at its block of the array.
theorem before1 (c : Dev nD) (t : Fin cfg1.N) : (∀ d, (dat1 V c).before 0 t d = iblk1 V c 0 t) ∧ (∀ d, (dat1 V c).before 1 t d = iblk1 V c 1 t)
    ∧ (∀ d, (dat1 V c).before 2 t d = iblk1 V c 2 t) ∧ ∀ d, (dat1 V c).before 3 t d = iblk1 V c 3 t := by
  refine ⟨?_, ?_, ?_, ?_⟩ <;> exact fun d => (Dat.before_in_eq_fetched (dat1 V c) _ rfl (fun _ => rfl) (fun _ _ _ => rfl) (fun _ => rfl) t d).trans rfl

-- The statistics rows are written at the last point only; before it they are left as found.
theorem leaves1_out (c : Dev nD) (t : Fin cfg1.N) (d5 d6) :
    iprop(owns c.tc (st1_5 t) fullShare (if cond1_1 (grid1.coords t) then mean1 (scr1 V c t.val t.isLt).1 else (dat1 V c).before 5 t d5)
      ∗ owns c.tc (st1_6 t) fullShare (if cond1_1 (grid1.coords t) then var1 (scr1 V c t.val t.isLt).1 (scr1 V c t.val t.isLt).2 else (dat1 V c).before 6 t d6))
    ⊢ iprop((dat1 V c).leavesExact 5 t ∗ (dat1 V c).leavesExact 6 t) := by
  by_cases h : t.val = 9
  · simp only [if_pos ((hcond1_1 t).mpr h)]; unfold Dat.leavesExact; rw [(live1_out t h).1]; try rw [(live1_out t h).2]
    iintro ⟨H5, H6⟩; isplitl [H5]; · iexact H5
    iexact H6
  · simp only [if_neg fun hc => h ((hcond1_1 t).mp hc)]
    rw [Dat.leavesExact_idle _ 5 t (idle1_out t h).1.1 (idle1_out t h).1.2, Dat.leavesExact_idle _ 6 t (idle1_out t h).2.1 (idle1_out t h).2.2]
    iintro ⟨H5, H6⟩; isplitl [H5] <;> (iexists _; iassumption)

set_option maxHeartbeats 2000000 in
-- The body at any point: the invariant lends the carried rows, the one triple applies, and they go back at this point's.
theorem sound_body1 (c : Dev nD) (t : Fin cfg1.N) :
    iprop(PhiS1 V c t.val ∗ (dat1 V c).owesAt () t.castSucc
      ∗ (∃ d, owns c.tc (st1_0 t) fullShare ((dat1 V c).before 0 t d))
      ∗ (∃ d, owns c.tc (st1_1 t) fullShare ((dat1 V c).before 1 t d))
      ∗ (∃ d, owns c.tc (st1_2 t) fullShare ((dat1 V c).before 2 t d))
      ∗ (∃ d, owns c.tc (st1_3 t) fullShare ((dat1 V c).before 3 t d))
      ∗ (∃ d, owns c.tc (st1_4 t) fullShare ((dat1 V c).before 4 t d))
      ∗ (∃ d, owns c.tc (st1_5 t) fullShare ((dat1 V c).before 5 t d))
      ∗ (∃ d, owns c.tc (st1_6 t) fullShare ((dat1 V c).before 6 t d)))
    ⊢ wp frame (wpE (defs₀ (F := F)) Variants.none c none) Set.univ (bodyAt1 t) fun _ =>
      iprop(PhiS1 V c (t.val + 1) ∗ (dat1 V c).owesAt () t.castSucc
        ∗ owns c.tc (st1_0 t) fullShare (iblk1 V c 0 t)
        ∗ owns c.tc (st1_1 t) fullShare (iblk1 V c 1 t)
        ∗ owns c.tc (st1_2 t) fullShare (iblk1 V c 2 t)
        ∗ owns c.tc (st1_3 t) fullShare (iblk1 V c 3 t)
        ∗ owns c.tc (st1_4 t) fullShare (blk1 (iblk1 V c 0 t) (iblk1 V c 1 t) (iblk1 V c 2 t) (iblk1 V c 3 t))
        ∗ (dat1 V c).leavesExact 5 t ∗ (dat1 V c).leavesExact 6 t) := by
  obtain ⟨b0, b1, b2, b3⟩ := before1 V c t
  simp only [b0, b1, b2, b3]
  unfold PhiS1
  iintro ⟨⟨%p, %hp, ⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  have hs := scr1_eq V c t p hp
  iapply (sound_kernel1 c Set.univ (grid1.coords t) _ _ _ _ _ _ _ _ _ _ _ _ _ _ _ _ _ _
    (fun h => by have := (hcond1_0 t).mp h.1; have := (hcond1_1 t).mp h.2; omega)
    (iblk1 V c 0 t) (iblk1 V c 1 t) (iblk1 V c 2 t) (iblk1 V c 3 t) _ _ _ p.1 p.2 _ _ (congrArg Prod.fst hs) (congrArg Prod.snd hs) _)
  iframe H0 H1 H2 H3 H4 H5 H6 HS0 HS1
  iintro H0 H1 H2 H3 H4 H5 H6 HS0 HS1
  ihave HL := leaves1_out V c t d5 d6 $$ [H5 H6]; · iframe
  iframe Ho H0 H1 H2 H3 H4 HL
  iexists _; iframe HS0 HS1 HR Hg
  ipureintro; exact fun m hm h => by obtain rfl := Nat.succ.inj h; rfl

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  show _ ⊢ PhiS1 V c 0
  unfold Pipeline.ΦA PhiS1; rw [scopedRest1_split]; simp only [owns_whole]
  iintro ⟨⟨⟨⟨%d0, H0⟩, ⟨%d1, H1⟩⟩, HR⟩, Hg⟩
  iexists (d0, d1); iframe H0 H1 HR Hg
  ipureintro; exact fun m _ h => absurd h.symm (Nat.succ_ne_zero m)

theorem hout1 (c : Dev nD) : (dat1 V c).Φ (Fin.last cfg1.N) ⊢ Pipeline.ΦA spec1 c := by
  show PhiS1 V c _ ⊢ _
  unfold Pipeline.ΦA PhiS1; rw [scopedRest1_split]; simp only [owns_whole]
  iintro ⟨%p, -, ⟨⟨H0, H1⟩, HR⟩, Hg⟩
  iframe HR Hg
  isplitl [H0] <;> (iexists _; iassumption)

end Cert.KernelIdeal.Frm

end
-- ==== Proof.KI.R2.lean ====
import proofs.«412806_j54228257079467_3_alg».proof.Proof.Gen.KernelIdeal.Launch
import proofs.«412806_j54228257079467_3_alg».proof.Proof.Gen.KernelIdeal.Skeleton
import proofs.«412806_j54228257079467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rowsRect2 : Rect S5000x128 := Rect.unit (s := S5000x128) ![0, 0] S5000x128.size inb_S5000x128_S5000x128_0_0
abbrev featRect2 : Rect S1x128 := Rect.unit (s := S1x128) ![0, 0] S1x128.size inb_S1x128_S1x128_0_0
abbrev wgtRect2 : Rect S128x128 := Rect.unit (s := S128x128) ![0, 0] S128x128.size inb_S128x128_S128x128_0_0
abbrev colRect2 : Rect S5000x1 := Rect.unit (s := S5000x1) ![0, 0] S5000x1.size inb_S5000x1_S5000x1_0_0

def out2_7 (xs : Vec F S5000x128 .f32) (mean var gam bet : Vec F S1x128 .f32) (wgt : Vec F S128x128 .f32) : Vec F S5000x128 .f32 :=
  View.canon [⟨rowsRect2, k2_pay1 (View.ld var featRect2) (View.ld xs rowsRect2) (View.ld mean featRect2) (View.ld gam featRect2)
    (View.ld bet featRect2) (View.ld wgt wgtRect2)⟩]

def out2_8 (xs : Vec F S5000x128 .f32) (mean var gam bet : Vec F S1x128 .f32) (wgt : Vec F S128x128 .f32) (col : Vec F S5000x1 .f32) :
    Vec F S5000x128 .f32 :=
  View.canon [⟨rowsRect2, k2_pay2 (View.ld var featRect2) (View.ld xs rowsRect2) (View.ld mean featRect2) (View.ld gam featRect2)
    (View.ld bet featRect2) (View.ld wgt wgtRect2) (View.ld col colRect2)⟩]

set_option maxHeartbeats 1000000 in
-- a buffer filled by one store over its whole rectangle reads as that store's payload
theorem sound_kernel2 (c : Dev nD) (E : Set ℕ) {i : grid2.Coords}
    {bX bY bZ : Memref sig .tc .vmem S5000x128 .f32} {bMean bVar bGam bBet : Memref sig .tc .vmem S1x128 .f32}
    {bWgt : Memref sig .tc .vmem S128x128 .f32} {bCol : Memref sig .tc .vmem S5000x1 .f32}
    {wX : bX.IsWhole} {wMean : bMean.IsWhole} {wVar : bVar.IsWhole} {wGam : bGam.IsWhole} {wBet : bBet.IsWhole} {wWgt : bWgt.IsWhole}
    {wCol : bCol.IsWhole} {wY : bY.IsWhole} {wZ : bZ.IsWhole}
    {xs dY dZ : Vec F S5000x128 .f32} {mean var gam bet : Vec F S1x128 .f32} {wgt : Vec F S128x128 .f32} {col : Vec F S5000x1 .f32}
    {K : PUnit → sProp 𝕄} :
    iprop(owns c.tc bY fullShare dY ∗ owns c.tc bZ fullShare dZ
        ∗ owns c.tc bX fullShare xs ∗ owns c.tc bMean fullShare mean ∗ owns c.tc bVar fullShare var
        ∗ owns c.tc bGam fullShare gam ∗ owns c.tc bBet fullShare bet ∗ owns c.tc bWgt fullShare wgt
        ∗ owns c.tc bCol fullShare col
        ∗ (iprop(owns c.tc bY fullShare (out2_7 xs mean var gam bet wgt)
            ∗ owns c.tc bZ fullShare (out2_8 xs mean var gam bet wgt col)
            ∗ owns c.tc bX fullShare xs ∗ owns c.tc bMean fullShare mean ∗ owns c.tc bVar fullShare var
            ∗ owns c.tc bGam fullShare gam ∗ owns c.tc bBet fullShare bet ∗ owns c.tc bWgt fullShare wgt
            ∗ owns c.tc bCol fullShare col) -∗ K ⟨⟩))
      ⊢ wp frame (wpE (defs₀ (F := F)) Variants.none c none) E
          (cc2_kernel i bX wX bMean wMean bVar wVar bGam wGam bBet wBet bWgt wWgt bCol wCol bY wY bZ wZ) K := by
  simp only [cc2_kernel_eq_skeleton]; unfold cc2_kernel_skel
  unfold owns
  iintro ⟨⟨%cY, -, HY⟩, ⟨%cZ, -, HZ⟩, ⟨%cX, %eX, HX⟩, ⟨%cMean, %eMean, HMean⟩, ⟨%cVar, %eVar, HVar⟩, ⟨%cGam, %eGam, HGam⟩, ⟨%cBet, %eBet, HBet⟩,
    ⟨%cWgt, %eWgt, HWgt⟩, ⟨%cCol, %eCol, HCol⟩, Hk⟩
  subst eX eMean eVar eGam eBet eWgt eCol
  sl_exec!
  sl_step
  iapply Hk
  isplitl [HY]
  · iexists _; isplitr [HY]; · ipureintro; exact View.read_writes_junk_eq_canon _ _
    iexact HY
  isplitl [HZ]
  · iexists _; isplitr [HZ]; · ipureintro; exact View.read_writes_junk_eq_canon _ _
    iexact HZ
  sl_close

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) : (dat2 V c).after 8 t =
    out2_8 (iblk2 V c 0 t) (iblk2 V c 1 t) (iblk2 V c 2 t) (iblk2 V c 3 t) (iblk2 V c 4 t) (iblk2 V c 5 t) (iblk2 V c 6 t) := by dsimp only [dat2]

-- the body leaves an input window's contents as it finds them
theorem before2 (c : Dev nD) (t : Fin cfg2.N) :
    ∀ w : Fin cfg2.W, (cfg2.win w).isOut = false → ∀ d, (dat2 V c).before w t d = (dat2 V c).after w t
  | ⟨0, _⟩, _, d | ⟨1, _⟩, _, d | ⟨2, _⟩, _, d | ⟨3, _⟩, _, d | ⟨4, _⟩, _, d | ⟨5, _⟩, _, d | ⟨6, _⟩, _, d =>
    (dat2 V c).before_in_eq_fetched _ rfl (fun _ => rfl) (fun _ _ _ => rfl) (fun _ => rfl) t d
  | ⟨7, _⟩, h, _ | ⟨8, _⟩, h, _ => Bool.noConfusion h

theorem body_obligation2 (c : Dev nD) : BodyObligation (dat2 (F := F) V c) (defs₀ (F := F)) Variants.none () Set.univ := fun t => by
  rw [bigSep_W2, bigSep_W2, show (dat2 V c).Φ t.succ = (dat2 V c).Φ t.castSucc from rfl,
    show (dat2 V c).owesAt () t.succ = (dat2 V c).owesAt () t.castSucc from rfl, after2_7, after2_8]
  simp (disch := exact rfl) only [before2 V c t]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel2 c Set.univ
  iframe
  iintro ⟨H7, H8, H0, H1, H2, H3, H4, H5, H6⟩
  iframe
  isplitl [H7]; · iexact H7
  iexact H8

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.KernelIdeal.Frm
-- ==== Proof.KI.R3.lean ====
import proofs.«412806_j54228257079467_3_alg».proof.Proof.Gen.KernelIdeal.Launch
import proofs.«412806_j54228257079467_3_alg».proof.Proof.Gen.KernelIdeal.Skeleton
import proofs.«412806_j54228257079467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
abbrev cond3_1 (i : grid3.Coords) : Prop := k3_cond2 i = 1#1
theorem hcond3_1 : ∀ t : Fin cfg3.N, cond3_1 (grid3.coords t) ↔ t.val = 9 :=
  (by decide +kernel : ∀ t : Fin grid3.N, cond3_1 (grid3.coords t) ↔ t.val = 9)

theorem idle3_out : ∀ t : Fin cfg3.N, t.val ≠ 9 → (cfg3.idle 5 (grid3.coords t) = true ∧ (cfg3.win 5).flush t = false)
    ∧ cfg3.idle 6 (grid3.coords t) = true ∧ (cfg3.win 6).flush t = false := by decide +kernel
theorem live3_out : ∀ t : Fin cfg3.N, t.val = 9 → cfg3.idle 5 (grid3.coords t) = false ∧ cfg3.idle 6 (grid3.coords t) = false := by decide +kernel

theorem hz3 : (![0, 0] : Fin 2 → Nat) = fun _ => 0 := funext fun a => by fin_cases a <;> rfl

-- A buffer whose last store covers it whole reads as that store's payload.
theorem read_last3 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

abbrev blk3 (xa : Vec F S5000x128 .f32) (xd : Vec F S5000x1 .f32) (xw : Vec F S5000x128 .f32) (xb : Vec F S1x128 .f32) : Vec F S5000x128 .f32 :=
  k3_pay6 xd xa xw xb
abbrev sum3 (xa : Vec F S5000x128 .f32) (xd : Vec F S5000x1 .f32) (xw : Vec F S5000x128 .f32) (xb : Vec F S1x128 .f32) (s : Vec F S1x128 .f32) : Vec F S1x128 .f32 :=
  k3_pay7 xd xa xw xb s
abbrev sqs3 (xa : Vec F S5000x128 .f32) (xd : Vec F S5000x1 .f32) (xw : Vec F S5000x128 .f32) (xb : Vec F S1x128 .f32) (q : Vec F S1x128 .f32) : Vec F S1x128 .f32 :=
  k3_pay1 (k3_pay8 xd xa xw xb q)
abbrev mean3 (s : Vec F S1x128 .f32) : Vec F S1x128 .f32 := k3_pay2 s
abbrev var3 (s q : Vec F S1x128 .f32) : Vec F S1x128 .f32 := k3_pay3 s q

set_option maxHeartbeats 2000000 in
-- One triple for every point: the sums restart from the zero rows under the first condition, the statistics are written under the second.
theorem sound_kernel3 (c : Dev nD) (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hx : ¬(cond3_0 i ∧ cond3_1 i))
    (xa : Vec F S5000x128 .f32) (xd : Vec F S5000x1 .f32) (xw : Vec F S5000x128 .f32) (xb : Vec F S1x128 .f32) (xo : Vec F S5000x128 .f32)
    (xm xv s q S Q : Vec F S1x128 .f32) (hS : S = sum3 xa xd xw xb (if cond3_0 i then k3_pay4 else s))
    (hQ : Q = sqs3 xa xd xw xb (if cond3_0 i then k3_pay5 else q)) (K : PUnit → sProp 𝕄) :
    iprop(owns c.tc arg1 fullShare xa ∗ owns c.tc arg2 fullShare xd ∗ owns c.tc arg3 fullShare xw ∗ owns c.tc arg4 fullShare xb ∗ owns c.tc arg5 fullShare xo
        ∗ owns c.tc arg6 fullShare xm ∗ owns c.tc arg7 fullShare xv ∗ owns c.tc arg8 fullShare s ∗ owns c.tc arg9 fullShare q
        ∗ (owns c.tc arg1 fullShare xa -∗ owns c.tc arg2 fullShare xd -∗ owns c.tc arg3 fullShare xw -∗ owns c.tc arg4 fullShare xb
            -∗ owns c.tc arg5 fullShare (blk3 xa xd xw xb) -∗ owns c.tc arg6 fullShare (if cond3_1 i then mean3 S else xm)
            -∗ owns c.tc arg7 fullShare (if cond3_1 i then var3 S Q else xv) -∗ owns c.tc arg8 fullShare S -∗ owns c.tc arg9 fullShare Q -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9) K := by
  subst hS hQ
  by_cases hc0 : cond3_0 i <;> by_cases hc1 : cond3_1 i
  · exact absurd ⟨hc0, hc1⟩ hx
  all_goals
    first | rw [if_pos hc0, if_pos hc0] | rw [if_neg hc0, if_neg hc0]
    first | rw [if_pos hc1, if_pos hc1] | rw [if_neg hc1, if_neg hc1]
    simp only [cc3_kernel_eq_skeleton]; unfold cc3_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    subst hf0 hf1 hf2 hf3 hf5 hf6 hf7 hf8
    sl_exec (disch := first | exact hc0 | exact hc1)
    sl_step
    iapply Hk $$ [H0] [H1] [H2] [H3] [H4] [H5] [H6] [H7] [H8] <;>
      (iexists _; isplitr; swap; · iassumption
       ipureintro
       first | (sl_unfold_words; rw [read_last3 _ _ hz3]; simp only [View.readAt_eq_ld, View.ld_unit_zero (S := S5000x128) hz3, View.ld_unit_zero (S := S5000x1) hz3, View.ld_unit_zero (S := S1x128) hz3, View.readCov_unit_zero (S := S1x128) _ hz3]) | rfl)

def scr3 (c : Dev nD) : (n : ℕ) → n < cfg3.N → Vec F S1x128 .f32 × Vec F S1x128 .f32
  | 0, hn => (sum3 (iblk3 V c 0 ⟨0, hn⟩) (iblk3 V c 1 ⟨0, hn⟩) (iblk3 V c 2 ⟨0, hn⟩) (iblk3 V c 3 ⟨0, hn⟩) k3_pay4, sqs3 (iblk3 V c 0 ⟨0, hn⟩) (iblk3 V c 1 ⟨0, hn⟩) (iblk3 V c 2 ⟨0, hn⟩) (iblk3 V c 3 ⟨0, hn⟩) k3_pay5)
  | n + 1, hn => (sum3 (iblk3 V c 0 ⟨n + 1, hn⟩) (iblk3 V c 1 ⟨n + 1, hn⟩) (iblk3 V c 2 ⟨n + 1, hn⟩) (iblk3 V c 3 ⟨n + 1, hn⟩) (scr3 c n (Nat.lt_of_succ_lt hn)).1,
      sqs3 (iblk3 V c 0 ⟨n + 1, hn⟩) (iblk3 V c 1 ⟨n + 1, hn⟩) (iblk3 V c 2 ⟨n + 1, hn⟩) (iblk3 V c 3 ⟨n + 1, hn⟩) (scr3 c n (Nat.lt_of_succ_lt hn)).2)

-- The carried rows after point `t`, from the rows `p` the point found: the zero rows at the first point.
theorem scr3_eq (c : Dev nD) (t : Fin cfg3.N) (p : Vec F S1x128 .f32 × Vec F S1x128 .f32) (hp : ∀ m hm, t.val = m + 1 → p = scr3 V c m hm) :
    scr3 V c t.val t.isLt = (sum3 (iblk3 V c 0 t) (iblk3 V c 1 t) (iblk3 V c 2 t) (iblk3 V c 3 t) (if cond3_0 (grid3.coords t) then k3_pay4 else p.1),
      sqs3 (iblk3 V c 0 t) (iblk3 V c 1 t) (iblk3 V c 2 t) (iblk3 V c 3 t) (if cond3_0 (grid3.coords t) then k3_pay5 else p.2)) := by
  obtain ⟨n, hn⟩ := t
  cases n with
  | zero => simp only [if_pos ((hcond3_0 ⟨0, hn⟩).mpr rfl)]; rfl
  | succ n => simp only [if_neg fun h => Nat.succ_ne_zero n ((hcond3_0 ⟨n + 1, hn⟩).mp h), hp n (Nat.lt_of_succ_lt hn) rfl]; rfl

abbrev scM3_0 : Memref sig .tc .vmem S1x128 .f32 := Memref.whole cc3_scratch0
abbrev scM3_1 : Memref sig .tc .vmem S1x128 .f32 := Memref.whole cc3_scratch1
abbrev rest3 (c : Dev nD) : sProp 𝕄 :=
  Pipeline.scopedRestBut (Ix := Unit) (Name := ℕ) (U := UR sig nD τ) (Lvl := ℕ) (Val := Elt F) spec3 c [cc3_scratch0, cc3_scratch1]

-- Before position `n` the two carried rows hold what the point before left, anything before the first point.
def PhiS3 (c : Dev nD) (n : ℕ) : sProp 𝕄 :=
  iprop(∃ p : Vec F S1x128 .f32 × Vec F S1x128 .f32, ⌜∀ m hm, n = m + 1 → p = scr3 V c m hm⌝
    ∗ iprop(iprop(iprop(owns c.tc scM3_0 fullShare p.1 ∗ owns c.tc scM3_1 fullShare p.2) ∗ rest3 c) ∗ (∃ r, prngReg c r)))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => blk3 (iblk3 V c 0 t) (iblk3 V c 1 t) (iblk3 V c 2 t) (iblk3 V c 3 t)
    | ⟨5, _⟩ => mean3 (scr3 V c t.val t.isLt).1
    | ⟨6, _⟩ => var3 (scr3 V c t.val t.isLt).1 (scr3 V c t.val t.isLt).2
  Φ t := PhiS3 V c t.val
  q _ := fullShare
  owed _ := 0

theorem A_eq3 (c : Dev nD) (w : Fin cfg3.W) : (dat3 V c).A w = V c (Pipeline.arrRef spec3 w) := rfl
theorem after3_4 (c : Dev nD) (t : Fin cfg3.N) : (dat3 V c).after 4 t = blk3 (iblk3 V c 0 t) (iblk3 V c 1 t) (iblk3 V c 2 t) (iblk3 V c 3 t) := rfl
theorem after3_5 (c : Dev nD) (t : Fin cfg3.N) : (dat3 V c).after 5 t = mean3 (scr3 V c t.val t.isLt).1 := rfl
theorem after3_6 (c : Dev nD) (t : Fin cfg3.N) : (dat3 V c).after 6 t = var3 (scr3 V c t.val t.isLt).1 (scr3 V c t.val t.isLt).2 := rfl

-- At every point the body finds each input window at its block of the array.
theorem before3 (c : Dev nD) (t : Fin cfg3.N) : (∀ d, (dat3 V c).before 0 t d = iblk3 V c 0 t) ∧ (∀ d, (dat3 V c).before 1 t d = iblk3 V c 1 t)
    ∧ (∀ d, (dat3 V c).before 2 t d = iblk3 V c 2 t) ∧ ∀ d, (dat3 V c).before 3 t d = iblk3 V c 3 t := by
  refine ⟨?_, ?_, ?_, ?_⟩ <;> exact fun d => (Dat.before_in_eq_fetched (dat3 V c) _ rfl (fun _ => rfl) (fun _ _ _ => rfl) (fun _ => rfl) t d).trans rfl

-- The statistics rows are written at the last point only; before it they are left as found.
theorem leaves3_out (c : Dev nD) (t : Fin cfg3.N) (d5 d6) :
    iprop(owns c.tc (st3_5 t) fullShare (if cond3_1 (grid3.coords t) then mean3 (scr3 V c t.val t.isLt).1 else (dat3 V c).before 5 t d5)
      ∗ owns c.tc (st3_6 t) fullShare (if cond3_1 (grid3.coords t) then var3 (scr3 V c t.val t.isLt).1 (scr3 V c t.val t.isLt).2 else (dat3 V c).before 6 t d6))
    ⊢ iprop((dat3 V c).leavesExact 5 t ∗ (dat3 V c).leavesExact 6 t) := by
  by_cases h : t.val = 9
  · simp only [if_pos ((hcond3_1 t).mpr h)]; unfold Dat.leavesExact; rw [(live3_out t h).1]; try rw [(live3_out t h).2]
    iintro ⟨H5, H6⟩; isplitl [H5]; · iexact H5
    iexact H6
  · simp only [if_neg fun hc => h ((hcond3_1 t).mp hc)]
    rw [Dat.leavesExact_idle _ 5 t (idle3_out t h).1.1 (idle3_out t h).1.2, Dat.leavesExact_idle _ 6 t (idle3_out t h).2.1 (idle3_out t h).2.2]
    iintro ⟨H5, H6⟩; isplitl [H5] <;> (iexists _; iassumption)

set_option maxHeartbeats 2000000 in
-- The body at any point: the invariant lends the carried rows, the one triple applies, and they go back at this point's.
theorem sound_body3 (c : Dev nD) (t : Fin cfg3.N) :
    iprop(PhiS3 V c t.val ∗ (dat3 V c).owesAt () t.castSucc
      ∗ (∃ d, owns c.tc (st3_0 t) fullShare ((dat3 V c).before 0 t d))
      ∗ (∃ d, owns c.tc (st3_1 t) fullShare ((dat3 V c).before 1 t d))
      ∗ (∃ d, owns c.tc (st3_2 t) fullShare ((dat3 V c).before 2 t d))
      ∗ (∃ d, owns c.tc (st3_3 t) fullShare ((dat3 V c).before 3 t d))
      ∗ (∃ d, owns c.tc (st3_4 t) fullShare ((dat3 V c).before 4 t d))
      ∗ (∃ d, owns c.tc (st3_5 t) fullShare ((dat3 V c).before 5 t d))
      ∗ (∃ d, owns c.tc (st3_6 t) fullShare ((dat3 V c).before 6 t d)))
    ⊢ wp frame (wpE (defs₀ (F := F)) Variants.none c none) Set.univ (bodyAt3 t) fun _ =>
      iprop(PhiS3 V c (t.val + 1) ∗ (dat3 V c).owesAt () t.castSucc
        ∗ owns c.tc (st3_0 t) fullShare (iblk3 V c 0 t)
        ∗ owns c.tc (st3_1 t) fullShare (iblk3 V c 1 t)
        ∗ owns c.tc (st3_2 t) fullShare (iblk3 V c 2 t)
        ∗ owns c.tc (st3_3 t) fullShare (iblk3 V c 3 t)
        ∗ owns c.tc (st3_4 t) fullShare (blk3 (iblk3 V c 0 t) (iblk3 V c 1 t) (iblk3 V c 2 t) (iblk3 V c 3 t))
        ∗ (dat3 V c).leavesExact 5 t ∗ (dat3 V c).leavesExact 6 t) := by
  obtain ⟨b0, b1, b2, b3⟩ := before3 V c t
  simp only [b0, b1, b2, b3]
  unfold PhiS3
  iintro ⟨⟨%p, %hp, ⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  have hs := scr3_eq V c t p hp
  iapply (sound_kernel3 c Set.univ (grid3.coords t) _ _ _ _ _ _ _ _ _ _ _ _ _ _ _ _ _ _
    (fun h => by have := (hcond3_0 t).mp h.1; have := (hcond3_1 t).mp h.2; omega)
    (iblk3 V c 0 t) (iblk3 V c 1 t) (iblk3 V c 2 t) (iblk3 V c 3 t) _ _ _ p.1 p.2 _ _ (congrArg Prod.fst hs) (congrArg Prod.snd hs) _)
  iframe H0 H1 H2 H3 H4 H5 H6 HS0 HS1
  iintro H0 H1 H2 H3 H4 H5 H6 HS0 HS1
  ihave HL := leaves3_out V c t d5 d6 $$ [H5 H6]; · iframe
  iframe Ho H0 H1 H2 H3 H4 HL
  iexists _; iframe HS0 HS1 HR Hg
  ipureintro; exact fun m hm h => by obtain rfl := Nat.succ.inj h; rfl

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  show _ ⊢ PhiS3 V c 0
  unfold Pipeline.ΦA PhiS3; rw [scopedRest3_split]; simp only [owns_whole]
  iintro ⟨⟨⟨⟨%d0, H0⟩, ⟨%d1, H1⟩⟩, HR⟩, Hg⟩
  iexists (d0, d1); iframe H0 H1 HR Hg
  ipureintro; exact fun m _ h => absurd h.symm (Nat.succ_ne_zero m)

theorem hout3 (c : Dev nD) : (dat3 V c).Φ (Fin.last cfg3.N) ⊢ Pipeline.ΦA spec3 c := by
  show PhiS3 V c _ ⊢ _
  unfold Pipeline.ΦA PhiS3; rw [scopedRest3_split]; simp only [owns_whole]
  iintro ⟨%p, -, ⟨⟨H0, H1⟩, HR⟩, Hg⟩
  iframe HR Hg
  isplitl [H0] <;> (iexists _; iassumption)

end Cert.KernelIdeal.Frm

end
-- ==== Proof.KI.R4.lean ====
import proofs.«412806_j54228257079467_3_alg».proof.Proof.Gen.KernelIdeal.Launch
import proofs.«412806_j54228257079467_3_alg».proof.Proof.Gen.KernelIdeal.Skeleton
import proofs.«412806_j54228257079467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rowsRect4 : Rect S5000x128 := Rect.unit (s := S5000x128) ![0, 0] S5000x128.size inb_S5000x128_S5000x128_0_0
abbrev featRect4 : Rect S1x128 := Rect.unit (s := S1x128) ![0, 0] S1x128.size inb_S1x128_S1x128_0_0
abbrev wgtRect4 : Rect S128x128 := Rect.unit (s := S128x128) ![0, 0] S128x128.size inb_S128x128_S128x128_0_0
abbrev colRect4 : Rect S5000x1 := Rect.unit (s := S5000x1) ![0, 0] S5000x1.size inb_S5000x1_S5000x1_0_0

def out4_7 (xs : Vec F S5000x128 .f32) (mean var gam bet : Vec F S1x128 .f32) (wgt : Vec F S128x128 .f32) : Vec F S5000x128 .f32 :=
  View.canon [⟨rowsRect4, k4_pay1 (View.ld var featRect4) (View.ld xs rowsRect4) (View.ld mean featRect4) (View.ld gam featRect4)
    (View.ld bet featRect4) (View.ld wgt wgtRect4)⟩]

def out4_8 (xs : Vec F S5000x128 .f32) (mean var gam bet : Vec F S1x128 .f32) (wgt : Vec F S128x128 .f32) (col : Vec F S5000x1 .f32) :
    Vec F S5000x128 .f32 :=
  View.canon [⟨rowsRect4, k4_pay2 (View.ld var featRect4) (View.ld xs rowsRect4) (View.ld mean featRect4) (View.ld gam featRect4)
    (View.ld bet featRect4) (View.ld wgt wgtRect4) (View.ld col colRect4)⟩]

set_option maxHeartbeats 1000000 in
-- a buffer filled by one store over its whole rectangle reads as that store's payload
theorem sound_kernel4 (c : Dev nD) (E : Set ℕ) {i : grid4.Coords}
    {bX bY bZ : Memref sig .tc .vmem S5000x128 .f32} {bMean bVar bGam bBet : Memref sig .tc .vmem S1x128 .f32}
    {bWgt : Memref sig .tc .vmem S128x128 .f32} {bCol : Memref sig .tc .vmem S5000x1 .f32}
    {wX : bX.IsWhole} {wMean : bMean.IsWhole} {wVar : bVar.IsWhole} {wGam : bGam.IsWhole} {wBet : bBet.IsWhole} {wWgt : bWgt.IsWhole}
    {wCol : bCol.IsWhole} {wY : bY.IsWhole} {wZ : bZ.IsWhole}
    {xs dY dZ : Vec F S5000x128 .f32} {mean var gam bet : Vec F S1x128 .f32} {wgt : Vec F S128x128 .f32} {col : Vec F S5000x1 .f32}
    {K : PUnit → sProp 𝕄} :
    iprop(owns c.tc bY fullShare dY ∗ owns c.tc bZ fullShare dZ
        ∗ owns c.tc bX fullShare xs ∗ owns c.tc bMean fullShare mean ∗ owns c.tc bVar fullShare var
        ∗ owns c.tc bGam fullShare gam ∗ owns c.tc bBet fullShare bet ∗ owns c.tc bWgt fullShare wgt
        ∗ owns c.tc bCol fullShare col
        ∗ (iprop(owns c.tc bY fullShare (out4_7 xs mean var gam bet wgt)
            ∗ owns c.tc bZ fullShare (out4_8 xs mean var gam bet wgt col)
            ∗ owns c.tc bX fullShare xs ∗ owns c.tc bMean fullShare mean ∗ owns c.tc bVar fullShare var
            ∗ owns c.tc bGam fullShare gam ∗ owns c.tc bBet fullShare bet ∗ owns c.tc bWgt fullShare wgt
            ∗ owns c.tc bCol fullShare col) -∗ K ⟨⟩))
      ⊢ wp frame (wpE (defs₀ (F := F)) Variants.none c none) E
          (cc4_kernel i bX wX bMean wMean bVar wVar bGam wGam bBet wBet bWgt wWgt bCol wCol bY wY bZ wZ) K := by
  simp only [cc4_kernel_eq_skeleton]; unfold cc4_kernel_skel
  unfold owns
  iintro ⟨⟨%cY, -, HY⟩, ⟨%cZ, -, HZ⟩, ⟨%cX, %eX, HX⟩, ⟨%cMean, %eMean, HMean⟩, ⟨%cVar, %eVar, HVar⟩, ⟨%cGam, %eGam, HGam⟩, ⟨%cBet, %eBet, HBet⟩,
    ⟨%cWgt, %eWgt, HWgt⟩, ⟨%cCol, %eCol, HCol⟩, Hk⟩
  subst eX eMean eVar eGam eBet eWgt eCol
  sl_exec!
  sl_step
  iapply Hk
  isplitl [HY]
  · iexists _; isplitr [HY]; · ipureintro; exact View.read_writes_junk_eq_canon _ _
    iexact HY
  isplitl [HZ]
  · iexists _; isplitr [HZ]; · ipureintro; exact View.read_writes_junk_eq_canon _ _
    iexact HZ
  sl_close

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t)
    | ⟨8, _⟩ => out4_8 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := rfl

theorem after4_7 (c : Dev nD) (t : Fin cfg4.N) : (dat4 V c).after 7 t =
    out4_7 (iblk4 V c 0 t) (iblk4 V c 1 t) (iblk4 V c 2 t) (iblk4 V c 3 t) (iblk4 V c 4 t) (iblk4 V c 5 t) := by dsimp only [dat4]
theorem after4_8 (c : Dev nD) (t : Fin cfg4.N) : (dat4 V c).after 8 t =
    out4_8 (iblk4 V c 0 t) (iblk4 V c 1 t) (iblk4 V c 2 t) (iblk4 V c 3 t) (iblk4 V c 4 t) (iblk4 V c 5 t) (iblk4 V c 6 t) := by dsimp only [dat4]

-- the body leaves an input window's contents as it finds them
theorem before4 (c : Dev nD) (t : Fin cfg4.N) :
    ∀ w : Fin cfg4.W, (cfg4.win w).isOut = false → ∀ d, (dat4 V c).before w t d = (dat4 V c).after w t
  | ⟨0, _⟩, _, d | ⟨1, _⟩, _, d | ⟨2, _⟩, _, d | ⟨3, _⟩, _, d | ⟨4, _⟩, _, d | ⟨5, _⟩, _, d | ⟨6, _⟩, _, d =>
    (dat4 V c).before_in_eq_fetched _ rfl (fun _ => rfl) (fun _ _ _ => rfl) (fun _ => rfl) t d
  | ⟨7, _⟩, h, _ | ⟨8, _⟩, h, _ => Bool.noConfusion h

theorem body_obligation4 (c : Dev nD) : BodyObligation (dat4 (F := F) V c) (defs₀ (F := F)) Variants.none () Set.univ := fun t => by
  rw [bigSep_W4, bigSep_W4, show (dat4 V c).Φ t.succ = (dat4 V c).Φ t.castSucc from rfl,
    show (dat4 V c).owesAt () t.succ = (dat4 V c).owesAt () t.castSucc from rfl, after4_7, after4_8]
  simp (disch := exact rfl) only [before4 V c t]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel4 c Set.univ
  iframe
  iintro ⟨H7, H8, H0, H1, H2, H3, H4, H5, H6⟩
  iframe
  isplitl [H7]; · iexact H7
  iexact H8

theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Cert.KernelIdeal.Frm
-- ==== Proof.KI.R5.lean ====
import proofs.«412806_j54228257079467_3_alg».proof.Proof.Gen.KernelIdeal.Launch
import proofs.«412806_j54228257079467_3_alg».proof.Proof.Gen.KernelIdeal.Skeleton
import proofs.«412806_j54228257079467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)
abbrev cond5_1 (i : grid5.Coords) : Prop := k5_cond2 i = 1#1
theorem hcond5_1 : ∀ t : Fin cfg5.N, cond5_1 (grid5.coords t) ↔ t.val = 9 :=
  (by decide +kernel : ∀ t : Fin grid5.N, cond5_1 (grid5.coords t) ↔ t.val = 9)

theorem idle5_out : ∀ t : Fin cfg5.N, t.val ≠ 9 → (cfg5.idle 5 (grid5.coords t) = true ∧ (cfg5.win 5).flush t = false)
    ∧ cfg5.idle 6 (grid5.coords t) = true ∧ (cfg5.win 6).flush t = false := by decide +kernel
theorem live5_out : ∀ t : Fin cfg5.N, t.val = 9 → cfg5.idle 5 (grid5.coords t) = false ∧ cfg5.idle 6 (grid5.coords t) = false := by decide +kernel

theorem hz5 : (![0, 0] : Fin 2 → Nat) = fun _ => 0 := funext fun a => by fin_cases a <;> rfl

-- A buffer whose last store covers it whole reads as that store's payload.
theorem read_last5 {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

abbrev blk5 (xa : Vec F S5000x128 .f32) (xd : Vec F S5000x1 .f32) (xw : Vec F S5000x128 .f32) (xb : Vec F S1x128 .f32) : Vec F S5000x128 .f32 :=
  k5_pay6 xd xa xw xb
abbrev sum5 (xa : Vec F S5000x128 .f32) (xd : Vec F S5000x1 .f32) (xw : Vec F S5000x128 .f32) (xb : Vec F S1x128 .f32) (s : Vec F S1x128 .f32) : Vec F S1x128 .f32 :=
  k5_pay7 xd xa xw xb s
abbrev sqs5 (xa : Vec F S5000x128 .f32) (xd : Vec F S5000x1 .f32) (xw : Vec F S5000x128 .f32) (xb : Vec F S1x128 .f32) (q : Vec F S1x128 .f32) : Vec F S1x128 .f32 :=
  k5_pay1 (k5_pay8 xd xa xw xb q)
abbrev mean5 (s : Vec F S1x128 .f32) : Vec F S1x128 .f32 := k5_pay2 s
abbrev var5 (s q : Vec F S1x128 .f32) : Vec F S1x128 .f32 := k5_pay3 s q

set_option maxHeartbeats 2000000 in
-- One triple for every point: the sums restart from the zero rows under the first condition, the statistics are written under the second.
theorem sound_kernel5 (c : Dev nD) (E : Set ℕ) (i : grid5.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hx : ¬(cond5_0 i ∧ cond5_1 i))
    (xa : Vec F S5000x128 .f32) (xd : Vec F S5000x1 .f32) (xw : Vec F S5000x128 .f32) (xb : Vec F S1x128 .f32) (xo : Vec F S5000x128 .f32)
    (xm xv s q S Q : Vec F S1x128 .f32) (hS : S = sum5 xa xd xw xb (if cond5_0 i then k5_pay4 else s))
    (hQ : Q = sqs5 xa xd xw xb (if cond5_0 i then k5_pay5 else q)) (K : PUnit → sProp 𝕄) :
    iprop(owns c.tc arg1 fullShare xa ∗ owns c.tc arg2 fullShare xd ∗ owns c.tc arg3 fullShare xw ∗ owns c.tc arg4 fullShare xb ∗ owns c.tc arg5 fullShare xo
        ∗ owns c.tc arg6 fullShare xm ∗ owns c.tc arg7 fullShare xv ∗ owns c.tc arg8 fullShare s ∗ owns c.tc arg9 fullShare q
        ∗ (owns c.tc arg1 fullShare xa -∗ owns c.tc arg2 fullShare xd -∗ owns c.tc arg3 fullShare xw -∗ owns c.tc arg4 fullShare xb
            -∗ owns c.tc arg5 fullShare (blk5 xa xd xw xb) -∗ owns c.tc arg6 fullShare (if cond5_1 i then mean5 S else xm)
            -∗ owns c.tc arg7 fullShare (if cond5_1 i then var5 S Q else xv) -∗ owns c.tc arg8 fullShare S -∗ owns c.tc arg9 fullShare Q -∗ K ⟨⟩))
      ⊢ wp frame (wpE (defs₀ (F := F)) Variants.none c none) E (cc5_kernel i arg1 harg1 arg2 harg2 arg3 harg3 arg4 harg4 arg5 harg5 arg6 harg6 arg7 harg7 arg8 harg8 arg9 harg9) K := by
  subst hS hQ
  by_cases hc0 : cond5_0 i <;> by_cases hc1 : cond5_1 i
  · exact absurd ⟨hc0, hc1⟩ hx
  all_goals
    first | rw [if_pos hc0, if_pos hc0] | rw [if_neg hc0, if_neg hc0]
    first | rw [if_pos hc1, if_pos hc1] | rw [if_neg hc1, if_neg hc1]
    simp only [cc5_kernel_eq_skeleton]; unfold cc5_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%f4, -, H4⟩, ⟨%f5, %hf5, H5⟩, ⟨%f6, %hf6, H6⟩, ⟨%f7, %hf7, H7⟩, ⟨%f8, %hf8, H8⟩, Hk⟩
    subst hf0 hf1 hf2 hf3 hf5 hf6 hf7 hf8
    sl_exec (disch := first | exact hc0 | exact hc1)
    sl_step
    iapply Hk $$ [H0] [H1] [H2] [H3] [H4] [H5] [H6] [H7] [H8] <;>
      (iexists _; isplitr; swap; · iassumption
       ipureintro
       first | (sl_unfold_words; rw [read_last5 _ _ hz5]; simp only [View.readAt_eq_ld, View.ld_unit_zero (S := S5000x128) hz5, View.ld_unit_zero (S := S5000x1) hz5, View.ld_unit_zero (S := S1x128) hz5, View.readCov_unit_zero (S := S1x128) _ hz5]) | rfl)

def scr5 (c : Dev nD) : (n : ℕ) → n < cfg5.N → Vec F S1x128 .f32 × Vec F S1x128 .f32
  | 0, hn => (sum5 (iblk5 V c 0 ⟨0, hn⟩) (iblk5 V c 1 ⟨0, hn⟩) (iblk5 V c 2 ⟨0, hn⟩) (iblk5 V c 3 ⟨0, hn⟩) k5_pay4, sqs5 (iblk5 V c 0 ⟨0, hn⟩) (iblk5 V c 1 ⟨0, hn⟩) (iblk5 V c 2 ⟨0, hn⟩) (iblk5 V c 3 ⟨0, hn⟩) k5_pay5)
  | n + 1, hn => (sum5 (iblk5 V c 0 ⟨n + 1, hn⟩) (iblk5 V c 1 ⟨n + 1, hn⟩) (iblk5 V c 2 ⟨n + 1, hn⟩) (iblk5 V c 3 ⟨n + 1, hn⟩) (scr5 c n (Nat.lt_of_succ_lt hn)).1,
      sqs5 (iblk5 V c 0 ⟨n + 1, hn⟩) (iblk5 V c 1 ⟨n + 1, hn⟩) (iblk5 V c 2 ⟨n + 1, hn⟩) (iblk5 V c 3 ⟨n + 1, hn⟩) (scr5 c n (Nat.lt_of_succ_lt hn)).2)

-- The carried rows after point `t`, from the rows `p` the point found: the zero rows at the first point.
theorem scr5_eq (c : Dev nD) (t : Fin cfg5.N) (p : Vec F S1x128 .f32 × Vec F S1x128 .f32) (hp : ∀ m hm, t.val = m + 1 → p = scr5 V c m hm) :
    scr5 V c t.val t.isLt = (sum5 (iblk5 V c 0 t) (iblk5 V c 1 t) (iblk5 V c 2 t) (iblk5 V c 3 t) (if cond5_0 (grid5.coords t) then k5_pay4 else p.1),
      sqs5 (iblk5 V c 0 t) (iblk5 V c 1 t) (iblk5 V c 2 t) (iblk5 V c 3 t) (if cond5_0 (grid5.coords t) then k5_pay5 else p.2)) := by
  obtain ⟨n, hn⟩ := t
  cases n with
  | zero => simp only [if_pos ((hcond5_0 ⟨0, hn⟩).mpr rfl)]; rfl
  | succ n => simp only [if_neg fun h => Nat.succ_ne_zero n ((hcond5_0 ⟨n + 1, hn⟩).mp h), hp n (Nat.lt_of_succ_lt hn) rfl]; rfl

abbrev scM5_0 : Memref sig .tc .vmem S1x128 .f32 := Memref.whole cc5_scratch0
abbrev scM5_1 : Memref sig .tc .vmem S1x128 .f32 := Memref.whole cc5_scratch1
abbrev rest5 (c : Dev nD) : sProp 𝕄 :=
  Pipeline.scopedRestBut (Ix := Unit) (Name := ℕ) (U := UR sig nD τ) (Lvl := ℕ) (Val := Elt F) spec5 c [cc5_scratch0, cc5_scratch1]

-- Before position `n` the two carried rows hold what the point before left, anything before the first point.
def PhiS5 (c : Dev nD) (n : ℕ) : sProp 𝕄 :=
  iprop(∃ p : Vec F S1x128 .f32 × Vec F S1x128 .f32, ⌜∀ m hm, n = m + 1 → p = scr5 V c m hm⌝
    ∗ iprop(iprop(iprop(owns c.tc scM5_0 fullShare p.1 ∗ owns c.tc scM5_1 fullShare p.2) ∗ rest5 c) ∗ (∃ r, prngReg c r)))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => blk5 (iblk5 V c 0 t) (iblk5 V c 1 t) (iblk5 V c 2 t) (iblk5 V c 3 t)
    | ⟨5, _⟩ => mean5 (scr5 V c t.val t.isLt).1
    | ⟨6, _⟩ => var5 (scr5 V c t.val t.isLt).1 (scr5 V c t.val t.isLt).2
  Φ t := PhiS5 V c t.val
  q _ := fullShare
  owed _ := 0

theorem A_eq5 (c : Dev nD) (w : Fin cfg5.W) : (dat5 V c).A w = V c (Pipeline.arrRef spec5 w) := rfl
theorem after5_4 (c : Dev nD) (t : Fin cfg5.N) : (dat5 V c).after 4 t = blk5 (iblk5 V c 0 t) (iblk5 V c 1 t) (iblk5 V c 2 t) (iblk5 V c 3 t) := rfl
theorem after5_5 (c : Dev nD) (t : Fin cfg5.N) : (dat5 V c).after 5 t = mean5 (scr5 V c t.val t.isLt).1 := rfl
theorem after5_6 (c : Dev nD) (t : Fin cfg5.N) : (dat5 V c).after 6 t = var5 (scr5 V c t.val t.isLt).1 (scr5 V c t.val t.isLt).2 := rfl

-- At every point the body finds each input window at its block of the array.
theorem before5 (c : Dev nD) (t : Fin cfg5.N) : (∀ d, (dat5 V c).before 0 t d = iblk5 V c 0 t) ∧ (∀ d, (dat5 V c).before 1 t d = iblk5 V c 1 t)
    ∧ (∀ d, (dat5 V c).before 2 t d = iblk5 V c 2 t) ∧ ∀ d, (dat5 V c).before 3 t d = iblk5 V c 3 t := by
  refine ⟨?_, ?_, ?_, ?_⟩ <;> exact fun d => (Dat.before_in_eq_fetched (dat5 V c) _ rfl (fun _ => rfl) (fun _ _ _ => rfl) (fun _ => rfl) t d).trans rfl

-- The statistics rows are written at the last point only; before it they are left as found.
theorem leaves5_out (c : Dev nD) (t : Fin cfg5.N) (d5 d6) :
    iprop(owns c.tc (st5_5 t) fullShare (if cond5_1 (grid5.coords t) then mean5 (scr5 V c t.val t.isLt).1 else (dat5 V c).before 5 t d5)
      ∗ owns c.tc (st5_6 t) fullShare (if cond5_1 (grid5.coords t) then var5 (scr5 V c t.val t.isLt).1 (scr5 V c t.val t.isLt).2 else (dat5 V c).before 6 t d6))
    ⊢ iprop((dat5 V c).leavesExact 5 t ∗ (dat5 V c).leavesExact 6 t) := by
  by_cases h : t.val = 9
  · simp only [if_pos ((hcond5_1 t).mpr h)]; unfold Dat.leavesExact; rw [(live5_out t h).1]; try rw [(live5_out t h).2]
    iintro ⟨H5, H6⟩; isplitl [H5]; · iexact H5
    iexact H6
  · simp only [if_neg fun hc => h ((hcond5_1 t).mp hc)]
    rw [Dat.leavesExact_idle _ 5 t (idle5_out t h).1.1 (idle5_out t h).1.2, Dat.leavesExact_idle _ 6 t (idle5_out t h).2.1 (idle5_out t h).2.2]
    iintro ⟨H5, H6⟩; isplitl [H5] <;> (iexists _; iassumption)

set_option maxHeartbeats 2000000 in
-- The body at any point: the invariant lends the carried rows, the one triple applies, and they go back at this point's.
theorem sound_body5 (c : Dev nD) (t : Fin cfg5.N) :
    iprop(PhiS5 V c t.val ∗ (dat5 V c).owesAt () t.castSucc
      ∗ (∃ d, owns c.tc (st5_0 t) fullShare ((dat5 V c).before 0 t d))
      ∗ (∃ d, owns c.tc (st5_1 t) fullShare ((dat5 V c).before 1 t d))
      ∗ (∃ d, owns c.tc (st5_2 t) fullShare ((dat5 V c).before 2 t d))
      ∗ (∃ d, owns c.tc (st5_3 t) fullShare ((dat5 V c).before 3 t d))
      ∗ (∃ d, owns c.tc (st5_4 t) fullShare ((dat5 V c).before 4 t d))
      ∗ (∃ d, owns c.tc (st5_5 t) fullShare ((dat5 V c).before 5 t d))
      ∗ (∃ d, owns c.tc (st5_6 t) fullShare ((dat5 V c).before 6 t d)))
    ⊢ wp frame (wpE (defs₀ (F := F)) Variants.none c none) Set.univ (bodyAt5 t) fun _ =>
      iprop(PhiS5 V c (t.val + 1) ∗ (dat5 V c).owesAt () t.castSucc
        ∗ owns c.tc (st5_0 t) fullShare (iblk5 V c 0 t)
        ∗ owns c.tc (st5_1 t) fullShare (iblk5 V c 1 t)
        ∗ owns c.tc (st5_2 t) fullShare (iblk5 V c 2 t)
        ∗ owns c.tc (st5_3 t) fullShare (iblk5 V c 3 t)
        ∗ owns c.tc (st5_4 t) fullShare (blk5 (iblk5 V c 0 t) (iblk5 V c 1 t) (iblk5 V c 2 t) (iblk5 V c 3 t))
        ∗ (dat5 V c).leavesExact 5 t ∗ (dat5 V c).leavesExact 6 t) := by
  obtain ⟨b0, b1, b2, b3⟩ := before5 V c t
  simp only [b0, b1, b2, b3]
  unfold PhiS5
  iintro ⟨⟨%p, %hp, ⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  have hs := scr5_eq V c t p hp
  iapply (sound_kernel5 c Set.univ (grid5.coords t) _ _ _ _ _ _ _ _ _ _ _ _ _ _ _ _ _ _
    (fun h => by have := (hcond5_0 t).mp h.1; have := (hcond5_1 t).mp h.2; omega)
    (iblk5 V c 0 t) (iblk5 V c 1 t) (iblk5 V c 2 t) (iblk5 V c 3 t) _ _ _ p.1 p.2 _ _ (congrArg Prod.fst hs) (congrArg Prod.snd hs) _)
  iframe H0 H1 H2 H3 H4 H5 H6 HS0 HS1
  iintro H0 H1 H2 H3 H4 H5 H6 HS0 HS1
  ihave HL := leaves5_out V c t d5 d6 $$ [H5 H6]; · iframe
  iframe Ho H0 H1 H2 H3 H4 HL
  iexists _; iframe HS0 HS1 HR Hg
  ipureintro; exact fun m hm h => by obtain rfl := Nat.succ.inj h; rfl

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  show _ ⊢ PhiS5 V c 0
  unfold Pipeline.ΦA PhiS5; rw [scopedRest5_split]; simp only [owns_whole]
  iintro ⟨⟨⟨⟨%d0, H0⟩, ⟨%d1, H1⟩⟩, HR⟩, Hg⟩
  iexists (d0, d1); iframe H0 H1 HR Hg
  ipureintro; exact fun m _ h => absurd h.symm (Nat.succ_ne_zero m)

theorem hout5 (c : Dev nD) : (dat5 V c).Φ (Fin.last cfg5.N) ⊢ Pipeline.ΦA spec5 c := by
  show PhiS5 V c _ ⊢ _
  unfold Pipeline.ΦA PhiS5; rw [scopedRest5_split]; simp only [owns_whole]
  iintro ⟨%p, -, ⟨⟨H0, H1⟩, HR⟩, Hg⟩
  iframe HR Hg
  isplitl [H0] <;> (iexists _; iassumption)

end Cert.KernelIdeal.Frm

end
-- ==== Proof.KI.R6.lean ====
import proofs.«412806_j54228257079467_3_alg».proof.Proof.Gen.KernelIdeal.Launch
import proofs.«412806_j54228257079467_3_alg».proof.Proof.Gen.KernelIdeal.Skeleton
import proofs.«412806_j54228257079467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev blk6 : Rect S5000x128 := Rect.unit (s := S5000x128) ![0, 0] S5000x128.size inb_S5000x128_S5000x128_0_0
abbrev row6 : Rect S1x128 := Rect.unit (s := S1x128) ![0, 0] S1x128.size inb_S1x128_S1x128_0_0

def out6_5 (xv : Vec F S5000x128 .f32) (xmean xvar xgamma xbeta : Vec F S1x128 .f32) : Vec F S5000x128 .f32 :=
  View.canon [⟨blk6, k6_pay1 (View.ld xvar row6) (View.ld xv blk6) (View.ld xmean row6) (View.ld xgamma row6) (View.ld xbeta row6)⟩]

set_option maxHeartbeats 1000000 in
-- The body only loads from the five inputs, and its one store overwrites the whole output block.
theorem sound_kernel6 (c : Dev nD) (E : Set ℕ) (i : grid6.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (xv : Vec F S5000x128 .f32) (xmean xvar xgamma xbeta : Vec F S1x128 .f32) (K : PUnit → sProp 𝕄) :
    iprop(owns (c : Thread nD τ) arg1 fullShare xv ∗ owns (c : Thread nD τ) arg2 fullShare xmean ∗ owns (c : Thread nD τ) arg3 fullShare xvar
        ∗ owns (c : Thread nD τ) arg4 fullShare xgamma ∗ owns (c : Thread nD τ) arg5 fullShare xbeta ∗ (∃ d, owns (c : Thread nD τ) arg6 fullShare d)
        ∗ (iprop(owns (c : Thread nD τ) arg1 fullShare xv ∗ owns (c : Thread nD τ) arg2 fullShare xmean ∗ owns (c : Thread nD τ) arg3 fullShare xvar
            ∗ owns (c : Thread nD τ) arg4 fullShare xgamma ∗ owns (c : Thread nD τ) arg5 fullShare xbeta
            ∗ owns (c : Thread nD τ) arg6 fullShare (out6_5 xv xmean xvar xgamma xbeta)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel
  unfold owns
  iintro ⟨⟨%fv, %hfv, Hv⟩, ⟨%fm, %hfm, Hm⟩, ⟨%fs, %hfs, Hs⟩, ⟨%fg, %hfg, Hg⟩, ⟨%fb, %hfb, Hb⟩, ⟨%d, %fy, -, Hy⟩, Hk⟩
  subst hfv hfm hfs hfg hfb
  sl_exec
  sl_step
  iapply Hk
  isplitl [Hv]
  · iexists fv; isplitr; · ipureintro; rfl
    iexact Hv
  isplitl [Hm]
  · iexists fm; isplitr; · ipureintro; rfl
    iexact Hm
  isplitl [Hs]
  · iexists fs; isplitr; · ipureintro; rfl
    iexact Hs
  isplitl [Hg]
  · iexists fg; isplitr; · ipureintro; rfl
    iexact Hg
  isplitl [Hb]
  · iexists fb; isplitr; · ipureintro; rfl
    iexact Hb
  iexists _; isplitr
  swap; · iexact Hy
  ipureintro
  exact View.read_writes_eq_canon _ _ _ (View.cover_of_tiled _ S5000x128.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

-- The body leaves every input block as it finds it, so what an input's buffer holds before the body is what it holds after.
theorem before6 (c : Dev nD) (t : Fin cfg6.N) : ∀ (w : Fin cfg6.W) (_ : w ≠ 5) (d), (dat6 V c).before w t d = (dat6 V c).after w t
  | ⟨5, _⟩, h, _ => absurd rfl h
  | ⟨0, _⟩, _, d | ⟨1, _⟩, _, d | ⟨2, _⟩, _, d | ⟨3, _⟩, _, d | ⟨4, _⟩, _, d =>
    (dat6 V c).before_in_eq_fetched _ rfl (fun _ => rfl) (fun _ _ _ => rfl) (fun _ => rfl) t d

-- Everything but the buffers is framed; the buffers go through the kernel's triple.
theorem body_obligation6 (c : Dev nD) : BodyObligation (dat6 (F := F) V c) (defs₀ (F := F)) Variants.none () Set.univ := fun t => by
  rw [bigSep_W6, bigSep_W6]
  simp (disch := decide) only [before6, after6_5, show ∀ i, (dat6 V c).Φ i = Pipeline.ΦA spec6 c from fun _ => rfl]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    ((dat6 V c).after 0 t) ((dat6 V c).after 1 t) ((dat6 V c).after 2 t) ((dat6 V c).after 3 t) ((dat6 V c).after 4 t) _)
  iframe H0 H1 H2 H3 H4
  isplitl [H5]; · iexists _; iexact H5
  iintro ⟨H0, H1, H2, H3, H4, H5⟩
  iframe HΦ H0 H1 H2 H3 H4
  isplitl [Ho]; · iexact Ho
  iexact H5

theorem hin6 (c : Dev nD) : Pipeline.ΦA spec6 c ⊢ (dat6 V c).Φ 0 := .rfl
theorem hout6 (c : Dev nD) : (dat6 V c).Φ (Fin.last cfg6.N) ⊢ Pipeline.ΦA spec6 c := .rfl

end Cert.KernelIdeal.Frm
-- ==== Proof.KI.R7.lean ====
import proofs.«412806_j54228257079467_3_alg».proof.Proof.Gen.KernelIdeal.Launch
import proofs.«412806_j54228257079467_3_alg».proof.Proof.Gen.KernelIdeal.Skeleton
import proofs.«412806_j54228257079467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first7 (i : grid7.Coords) : Prop :=
  (Scalar.cmpi .ne (Scalar.extui (Scalar.cmpi .eq (BitVec.ofNat 32 (i 0).val) 0#32)) 0#32) = 1#1
abbrev last7 (i : grid7.Coords) : Prop := k7_cond2 i = 1#1

theorem first7_iff_zero : ∀ t : Fin cfg7.N, first7 (grid7.coords t) ↔ t.val = 0 := by decide +kernel
theorem last7_iff_end : ∀ t : Fin cfg7.N, last7 (grid7.coords t) ↔ t.val = 13 := by decide +kernel

theorem live7_0 : ∀ t : Fin cfg7.N, cfg7.idle 0 (grid7.coords t) = false := by decide +kernel
theorem live7_1 : ∀ t : Fin cfg7.N, cfg7.idle 1 (grid7.coords t) = false := by decide +kernel
theorem idle7_2 : ∀ t : Fin cfg7.N, ¬last7 (grid7.coords t) → cfg7.idle 2 (grid7.coords t) = true ∧ (cfg7.win 2).flush t = false := by decide +kernel
theorem live7_2 : ∀ t : Fin cfg7.N, last7 (grid7.coords t) → cfg7.idle 2 (grid7.coords t) = false := by decide +kernel

abbrev mRows7 (t : Fin cfg7.N) : Memref sig .tc .vmem S3584x128 .f32 := win7_0.stage (cfg7.slots t 0)
abbrev hRows7 (t : Fin cfg7.N) : (mRows7 t).IsWhole := hstage7_0 ((cfg7.slots t 0).cast nbuf7_0)
abbrev mIds7 (t : Fin cfg7.N) : Memref sig .tc .vmem S1x3584 .i32 := win7_1.stage (cfg7.slots t 1)
abbrev hIds7 (t : Fin cfg7.N) : (mIds7 t).IsWhole := hstage7_1 ((cfg7.slots t 1).cast nbuf7_1)
abbrev mOut7 (t : Fin cfg7.N) : Memref sig .tc .vmem S256x128 .f32 := win7_2.stage (cfg7.slots t 2)
abbrev hOut7 (t : Fin cfg7.N) : (mOut7 t).IsWhole := hstage7_2 ((cfg7.slots t 2).cast nbuf7_2)
abbrev mAcc7 : Memref sig .tc .vmem S256x128 .f32 := Memref.whole cc7_scratch0
abbrev mCnt7 : Memref sig .tc .vmem S256x1 .f32 := Memref.whole cc7_scratch1

abbrev rest7 (c : Dev nD) : sProp 𝕄 :=
  Pipeline.scopedRestBut (Ix := Unit) (Name := ℕ) (U := UR sig nD τ) (Lvl := ℕ) (Val := Elt F) spec7 c [cc7_scratch0, cc7_scratch1]

theorem phiA7_eq (c : Dev nD) :
    (Pipeline.ΦA spec7 c : sProp 𝕄)
      = iprop(iprop(iprop((∃ d, owns (c : Thread nD τ) mAcc7 fullShare d) ∗ (∃ d, owns (c : Thread nD τ) mCnt7 fullShare d)) ∗ rest7 (F := F) c)
          ∗ (∃ r, prngReg c r)) := by
  unfold Pipeline.ΦA; rw [scopedRest7_split]; simp only [mAcc7, mCnt7, owns_whole]; try rfl

-- Stores that tile a buffer leave it at their canonical contents, whatever it held before.
theorem owns_canon (c : Dev nD) {S : Shape} {e : EltTy} (m : Memref sig .tc .vmem S e) (L : List (View.Piece (Elt F) S e))
    (hL : View.Piece.tiledL L S.size = true) :
    (iprop(∃ f, m.view.loc (c : Thread nD τ) ↦[m.view.set]{fullShare} m.view.writes (Elt F) f L) : sProp 𝕄)
      ⊢ owns (c : Thread nD τ) m fullShare (View.canon L) := by
  iintro ⟨%f, H⟩; unfold owns; iexists m.view.writes (Elt F) f L; isplitr
  · ipureintro; exact View.read_writes_eq_canon _ _ _ (View.cover_of_tiledL L _ hL)
  · iexact H

section Body

variable (c : Dev nD) (i : grid7.Coords) (rows : Memref sig .tc .vmem S3584x128 .f32) (hrows : rows.IsWhole) (ids : Memref sig .tc .vmem S1x3584 .i32) (hids : ids.IsWhole)
  (outb : Memref sig .tc .vmem S256x128 .f32) (houtb : outb.IsWhole) (acc : Memref sig .tc .vmem S256x128 .f32) (hacc : acc.IsWhole)
  (cnt : Memref sig .tc .vmem S256x1 .f32) (hcnt : cnt.IsWhole)

section First

variable (hf : first7 i) (hl : ¬last7 i) (xh : Vec F S3584x128 .f32) (xb : Vec F S1x3584 .i32)

set_option maxHeartbeats 1000000 in
noncomputable def run7_first :
    Σ' (LA : List (View.Piece (Elt F) S256x128 .f32)), { LC : List (View.Piece (Elt F) S256x1 .f32) //
      ∀ (xo : Vec F S256x128 .f32) (E : Set ℕ) (K : PUnit → sProp 𝕄),
        iprop(owns (c : Thread nD τ) rows fullShare xh ∗ owns (c : Thread nD τ) ids fullShare xb ∗ owns (c : Thread nD τ) outb fullShare xo
            ∗ (∃ d, owns (c : Thread nD τ) acc fullShare d) ∗ (∃ d, owns (c : Thread nD τ) cnt fullShare d)
            ∗ (iprop(owns (c : Thread nD τ) rows fullShare xh ∗ owns (c : Thread nD τ) ids fullShare xb ∗ owns (c : Thread nD τ) outb fullShare xo
                ∗ (∃ f, acc.view.loc (c : Thread nD τ) ↦[acc.view.set]{fullShare} acc.view.writes (Elt F) f LA)
                ∗ (∃ f, cnt.view.loc (c : Thread nD τ) ↦[cnt.view.set]{fullShare} cnt.view.writes (Elt F) f LC)) -∗ K ⟨⟩))
          ⊢ wp frame (wpE (defs₀ (F := F)) Variants.none c none) E (cc7_kernel i rows hrows ids hids outb houtb acc hacc cnt hcnt) K } := by
  refine ⟨?_, ?_, fun xo E K => ?run⟩
  case run =>
    simp only [cc7_kernel_eq_skeleton]; unfold cc7_kernel_skel
    simp only [k7_part1_eq_skeleton]; unfold k7_part1_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := hrows.eq_unread hf1; obtain rfl := hids.eq_unread hf2; obtain rfl := houtb.eq_unread hf3
    sl_exec (disch := first | exact hf | exact hl)
    sl_step
    iapply Hk
    isplitl [H1]
    · iexists _; isplitr; · ipureintro; exact hrows.read_unread _
      iexact H1
    isplitl [H2]
    · iexists _; isplitr; · ipureintro; exact hids.read_unread _
      iexact H2
    isplitl [H3]
    · iexists _; isplitr; · ipureintro; exact houtb.read_unread _
      iexact H3
    isplitl [H4]; · iexists _; iexact H4
    iexists _; iexact H5

def acc7_first : Vec F S256x128 .f32 := View.canon (run7_first c i rows hrows ids hids outb houtb acc hacc cnt hcnt hf hl xh xb).1
def cnt7_first : Vec F S256x1 .f32 := View.canon (run7_first c i rows hrows ids hids outb houtb acc hacc cnt hcnt hf hl xh xb).2.1

end First

section Mid

variable (hf : ¬first7 i) (hl : ¬last7 i) (xh : Vec F S3584x128 .f32) (xb : Vec F S1x3584 .i32) (sa : Vec F S256x128 .f32) (sc : Vec F S256x1 .f32)

set_option maxHeartbeats 1000000 in
noncomputable def run7_mid :
    Σ' (LA : List (View.Piece (Elt F) S256x128 .f32)), { LC : List (View.Piece (Elt F) S256x1 .f32) //
      ∀ (xo : Vec F S256x128 .f32) (E : Set ℕ) (K : PUnit → sProp 𝕄),
        iprop(owns (c : Thread nD τ) rows fullShare xh ∗ owns (c : Thread nD τ) ids fullShare xb ∗ owns (c : Thread nD τ) outb fullShare xo
            ∗ owns (c : Thread nD τ) acc fullShare sa ∗ owns (c : Thread nD τ) cnt fullShare sc
            ∗ (iprop(owns (c : Thread nD τ) rows fullShare xh ∗ owns (c : Thread nD τ) ids fullShare xb ∗ owns (c : Thread nD τ) outb fullShare xo
                ∗ (∃ f, acc.view.loc (c : Thread nD τ) ↦[acc.view.set]{fullShare} acc.view.writes (Elt F) f LA)
                ∗ (∃ f, cnt.view.loc (c : Thread nD τ) ↦[cnt.view.set]{fullShare} cnt.view.writes (Elt F) f LC)) -∗ K ⟨⟩))
          ⊢ wp frame (wpE (defs₀ (F := F)) Variants.none c none) E (cc7_kernel i rows hrows ids hids outb houtb acc hacc cnt hcnt) K } := by
  refine ⟨?_, ?_, fun xo E K => ?run⟩
  case run =>
    simp only [cc7_kernel_eq_skeleton]; unfold cc7_kernel_skel
    simp only [k7_part1_eq_skeleton]; unfold k7_part1_skel
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := hrows.eq_unread hf1; obtain rfl := hids.eq_unread hf2; obtain rfl := houtb.eq_unread hf3
    obtain rfl := hacc.eq_unread hf4; obtain rfl := hcnt.eq_unread hf5
    sl_exec (disch := first | exact hf | exact hl)
    sl_step
    iapply Hk
    isplitl [H1]
    · iexists _; isplitr; · ipureintro; exact hrows.read_unread _
      iexact H1
    isplitl [H2]
    · iexists _; isplitr; · ipureintro; exact hids.read_unread _
      iexact H2
    isplitl [H3]
    · iexists _; isplitr; · ipureintro; exact houtb.read_unread _
      iexact H3
    isplitl [H4]; · iexists _; iexact H4
    iexists _; iexact H5

def acc7_mid : Vec F S256x128 .f32 := View.canon (run7_mid c i rows hrows ids hids outb houtb acc hacc cnt hcnt hf hl xh xb sa sc).1
def cnt7_mid : Vec F S256x1 .f32 := View.canon (run7_mid c i rows hrows ids hids outb houtb acc hacc cnt hcnt hf hl xh xb sa sc).2.1

end Mid

section Last

variable (hf : ¬first7 i) (hl : last7 i) (xh : Vec F S3584x128 .f32) (xb : Vec F S1x3584 .i32) (sa : Vec F S256x128 .f32) (sc : Vec F S256x1 .f32)

set_option maxHeartbeats 1000000 in
noncomputable def run7_last :
    Σ' (LO : List (View.Piece (Elt F) S256x128 .f32)) (LA : List (View.Piece (Elt F) S256x128 .f32)), { LC : List (View.Piece (Elt F) S256x1 .f32) //
      ∀ (E : Set ℕ) (K : PUnit → sProp 𝕄),
        iprop(owns (c : Thread nD τ) rows fullShare xh ∗ owns (c : Thread nD τ) ids fullShare xb ∗ (∃ d, owns (c : Thread nD τ) outb fullShare d)
            ∗ owns (c : Thread nD τ) acc fullShare sa ∗ owns (c : Thread nD τ) cnt fullShare sc
            ∗ (iprop(owns (c : Thread nD τ) rows fullShare xh ∗ owns (c : Thread nD τ) ids fullShare xb
                ∗ (∃ f, outb.view.loc (c : Thread nD τ) ↦[outb.view.set]{fullShare} outb.view.writes (Elt F) f LO)
                ∗ (∃ f, acc.view.loc (c : Thread nD τ) ↦[acc.view.set]{fullShare} acc.view.writes (Elt F) f LA)
                ∗ (∃ f, cnt.view.loc (c : Thread nD τ) ↦[cnt.view.set]{fullShare} cnt.view.writes (Elt F) f LC)) -∗ K ⟨⟩))
          ⊢ wp frame (wpE (defs₀ (F := F)) Variants.none c none) E (cc7_kernel i rows hrows ids hids outb houtb acc hacc cnt hcnt) K } := by
  refine ⟨?_, ?_, ?_, fun E K => ?run⟩
  case run =>
    simp only [cc7_kernel_eq_skeleton]; unfold cc7_kernel_skel
    simp only [k7_part1_eq_skeleton]; unfold k7_part1_skel
    unfold owns
    iintro ⟨⟨%f1, %hf1, H1⟩, ⟨%f2, %hf2, H2⟩, ⟨%d3, %f3, -, H3⟩, ⟨%f4, %hf4, H4⟩, ⟨%f5, %hf5, H5⟩, Hk⟩
    obtain rfl := hrows.eq_unread hf1; obtain rfl := hids.eq_unread hf2
    obtain rfl := hacc.eq_unread hf4; obtain rfl := hcnt.eq_unread hf5
    sl_exec (disch := first | exact hf | exact hl)
    sl_step
    iapply Hk
    isplitl [H1]
    · iexists _; isplitr; · ipureintro; exact hrows.read_unread _
      iexact H1
    isplitl [H2]
    · iexists _; isplitr; · ipureintro; exact hids.read_unread _
      iexact H2
    isplitl [H3]; · iexists _; iexact H3
    isplitl [H4]; · iexists _; iexact H4
    iexists _; iexact H5

def out7_last : Vec F S256x128 .f32 := View.canon (run7_last c i rows hrows ids hids outb houtb acc hacc cnt hcnt hf hl xh xb sa sc).1
def acc7_last : Vec F S256x128 .f32 := View.canon (run7_last c i rows hrows ids hids outb houtb acc hacc cnt hcnt hf hl xh xb sa sc).2.1
def cnt7_last : Vec F S256x1 .f32 := View.canon (run7_last c i rows hrows ids hids outb houtb acc hacc cnt hcnt hf hl xh xb sa sc).2.2.1

end Last

end Body

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

-- The two scratch buffers after point `n`: that point's run, applied to what the point before left.
def scr7 (c : Dev nD) : (n : ℕ) → n < cfg7.N → Vec F S256x128 .f32 × Vec F S256x1 .f32
  | 0, hn =>
    let t : Fin cfg7.N := ⟨0, hn⟩
    have hf := (first7_iff_zero t).mpr rfl
    have hl := mt (last7_iff_end t).mp (by decide : (0 : ℕ) ≠ 13)
    (acc7_first c _ _ (hRows7 t) _ (hIds7 t) _ (hOut7 t) mAcc7 (Memref.isWhole_whole _) mCnt7 (Memref.isWhole_whole _) hf hl (iblk7 V c 0 t) (iblk7 V c 1 t), cnt7_first c _ _ (hRows7 t) _ (hIds7 t) _ (hOut7 t) mAcc7 (Memref.isWhole_whole _) mCnt7 (Memref.isWhole_whole _) hf hl (iblk7 V c 0 t) (iblk7 V c 1 t))
  | n + 1, hn =>
    let t : Fin cfg7.N := ⟨n + 1, hn⟩
    have hf := mt (first7_iff_zero t).mp (Nat.succ_ne_zero n)
    let s := scr7 c n (Nat.lt_of_succ_lt hn)
    if hL : n + 1 = 13 then
      have hl := (last7_iff_end t).mpr hL
      (acc7_last c _ _ (hRows7 t) _ (hIds7 t) _ (hOut7 t) mAcc7 (Memref.isWhole_whole _) mCnt7 (Memref.isWhole_whole _) hf hl (iblk7 V c 0 t) (iblk7 V c 1 t) s.1 s.2, cnt7_last c _ _ (hRows7 t) _ (hIds7 t) _ (hOut7 t) mAcc7 (Memref.isWhole_whole _) mCnt7 (Memref.isWhole_whole _) hf hl (iblk7 V c 0 t) (iblk7 V c 1 t) s.1 s.2)
    else
      have hl := mt (last7_iff_end t).mp hL
      (acc7_mid c _ _ (hRows7 t) _ (hIds7 t) _ (hOut7 t) mAcc7 (Memref.isWhole_whole _) mCnt7 (Memref.isWhole_whole _) hf hl (iblk7 V c 0 t) (iblk7 V c 1 t) s.1 s.2, cnt7_mid c _ _ (hRows7 t) _ (hIds7 t) _ (hOut7 t) mAcc7 (Memref.isWhole_whole _) mCnt7 (Memref.isWhole_whole _) hf hl (iblk7 V c 0 t) (iblk7 V c 1 t) s.1 s.2)

theorem scr7_first (c : Dev nD) (t : Fin cfg7.N) (h0 : t.val = 0) (hf : first7 (grid7.coords t)) (hl : ¬last7 (grid7.coords t)) :
    scr7 V c t.val t.isLt =
      (acc7_first c _ _ (hRows7 t) _ (hIds7 t) _ (hOut7 t) mAcc7 (Memref.isWhole_whole _) mCnt7 (Memref.isWhole_whole _) hf hl (iblk7 V c 0 t) (iblk7 V c 1 t),
       cnt7_first c _ _ (hRows7 t) _ (hIds7 t) _ (hOut7 t) mAcc7 (Memref.isWhole_whole _) mCnt7 (Memref.isWhole_whole _) hf hl (iblk7 V c 0 t) (iblk7 V c 1 t)) := by
  obtain ⟨_ | n, hn⟩ := t
  · exact rfl
  · exact absurd h0 (Nat.succ_ne_zero n)

theorem scr7_mid (c : Dev nD) (t : Fin cfg7.N) (h0 : t.val ≠ 0) (hL : t.val ≠ 13) (hf : ¬first7 (grid7.coords t)) (hl : ¬last7 (grid7.coords t)) :
    scr7 V c t.val t.isLt =
      (acc7_mid c _ _ (hRows7 t) _ (hIds7 t) _ (hOut7 t) mAcc7 (Memref.isWhole_whole _) mCnt7 (Memref.isWhole_whole _) hf hl (iblk7 V c 0 t) (iblk7 V c 1 t) (scr7 V c (t.val - 1) (Nat.lt_of_le_of_lt (Nat.sub_le _ _) t.isLt)).1 (scr7 V c (t.val - 1) (Nat.lt_of_le_of_lt (Nat.sub_le _ _) t.isLt)).2,
       cnt7_mid c _ _ (hRows7 t) _ (hIds7 t) _ (hOut7 t) mAcc7 (Memref.isWhole_whole _) mCnt7 (Memref.isWhole_whole _) hf hl (iblk7 V c 0 t) (iblk7 V c 1 t) (scr7 V c (t.val - 1) (Nat.lt_of_le_of_lt (Nat.sub_le _ _) t.isLt)).1 (scr7 V c (t.val - 1) (Nat.lt_of_le_of_lt (Nat.sub_le _ _) t.isLt)).2) := by
  obtain ⟨_ | n, hn⟩ := t
  · exact absurd rfl h0
  · exact (dif_neg hL).trans rfl

theorem scr7_last (c : Dev nD) (t : Fin cfg7.N) (h0 : t.val ≠ 0) (hL : t.val = 13) (hf : ¬first7 (grid7.coords t)) (hl : last7 (grid7.coords t)) :
    scr7 V c t.val t.isLt =
      (acc7_last c _ _ (hRows7 t) _ (hIds7 t) _ (hOut7 t) mAcc7 (Memref.isWhole_whole _) mCnt7 (Memref.isWhole_whole _) hf hl (iblk7 V c 0 t) (iblk7 V c 1 t) (scr7 V c (t.val - 1) (Nat.lt_of_le_of_lt (Nat.sub_le _ _) t.isLt)).1 (scr7 V c (t.val - 1) (Nat.lt_of_le_of_lt (Nat.sub_le _ _) t.isLt)).2,
       cnt7_last c _ _ (hRows7 t) _ (hIds7 t) _ (hOut7 t) mAcc7 (Memref.isWhole_whole _) mCnt7 (Memref.isWhole_whole _) hf hl (iblk7 V c 0 t) (iblk7 V c 1 t) (scr7 V c (t.val - 1) (Nat.lt_of_le_of_lt (Nat.sub_le _ _) t.isLt)).1 (scr7 V c (t.val - 1) (Nat.lt_of_le_of_lt (Nat.sub_le _ _) t.isLt)).2) := by
  obtain ⟨_ | n, hn⟩ := t
  · exact absurd rfl h0
  · exact (dif_pos hL).trans rfl

def res7 (c : Dev nD) (t : Fin cfg7.N) : Vec F S256x128 .f32 :=
  if hL : t.val = 13 then
    out7_last c _ _ (hRows7 t) _ (hIds7 t) _ (hOut7 t) mAcc7 (Memref.isWhole_whole _) mCnt7 (Memref.isWhole_whole _) (mt (first7_iff_zero t).mp (by omega)) ((last7_iff_end t).mpr hL) (iblk7 V c 0 t) (iblk7 V c 1 t) (scr7 V c (t.val - 1) (Nat.lt_of_le_of_lt (Nat.sub_le _ _) t.isLt)).1 (scr7 V c (t.val - 1) (Nat.lt_of_le_of_lt (Nat.sub_le _ _) t.isLt)).2
  else View.canon []

theorem res7_last (c : Dev nD) (t : Fin cfg7.N) (hL : t.val = 13) (hf : ¬first7 (grid7.coords t)) (hl : last7 (grid7.coords t)) :
    res7 V c t = out7_last c _ _ (hRows7 t) _ (hIds7 t) _ (hOut7 t) mAcc7 (Memref.isWhole_whole _) mCnt7 (Memref.isWhole_whole _) hf hl (iblk7 V c 0 t) (iblk7 V c 1 t) (scr7 V c (t.val - 1) (Nat.lt_of_le_of_lt (Nat.sub_le _ _) t.isLt)).1 (scr7 V c (t.val - 1) (Nat.lt_of_le_of_lt (Nat.sub_le _ _) t.isLt)).2 :=
  (dif_pos hL).trans rfl

def held7 (c : Dev nD) (s : Vec F S256x128 .f32 × Vec F S256x1 .f32) : sProp 𝕄 :=
  iprop(iprop(iprop(owns (c : Thread nD τ) mAcc7 fullShare s.1 ∗ owns (c : Thread nD τ) mCnt7 fullShare s.2) ∗ rest7 (F := F) c)
      ∗ (∃ r, prngReg c r))

-- Before point `n` the scratch holds what point `n - 1` left; before the first point, anything.
def inv7 (c : Dev nD) : (n : ℕ) → n ≤ cfg7.N → sProp 𝕄
  | 0, _ => Pipeline.ΦA spec7 c
  | n + 1, hn => held7 c (scr7 V c n hn)

theorem inv7_pos (c : Dev nD) (n : ℕ) (h : n ≤ cfg7.N) (hz : n ≠ 0) :
    inv7 V c n h = held7 c (scr7 V c (n - 1) (by omega)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => res7 V c t
  Φ t := inv7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_2 (c : Dev nD) (t : Fin cfg7.N) : (dat7 V c).after 2 t = res7 V c t := by dsimp only [dat7]

theorem inv7_zero (c : Dev nD) (n : ℕ) (h : n ≤ cfg7.N) (hz : n = 0) : inv7 V c n h = Pipeline.ΦA spec7 c := by
  subst hz; rfl

theorem inv7_castSucc (c : Dev nD) (t : Fin cfg7.N) :
    (dat7 V c).Φ t.castSucc = inv7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)

set_option maxHeartbeats 4800000 in
theorem sound_body7 (c : Dev nD) (t : Fin cfg7.N) :
    iprop((dat7 V c).Φ t.castSucc ∗ (dat7 V c).owesAt () t.castSucc
      ∗ (∃ d, owns (c : Thread nD τ) (mRows7 t) fullShare ((dat7 V c).before 0 t d))
      ∗ (∃ d, owns (c : Thread nD τ) (mIds7 t) fullShare ((dat7 V c).before 1 t d))
      ∗ (∃ d, owns (c : Thread nD τ) (mOut7 t) fullShare ((dat7 V c).before 2 t d)))
      ⊢ wp frame (wpE (defs₀ (F := F)) Variants.none c none) Set.univ (bodyAt7 t) fun _ =>
        iprop((dat7 V c).Φ t.succ ∗ (dat7 V c).owesAt () t.succ
        ∗ (dat7 V c).leavesExact 0 t ∗ (dat7 V c).leavesExact 1 t ∗ (dat7 V c).leavesExact 2 t) := by
  unfold bodyAt7
  simp only [before7_0, before7_1]
  rw [show (dat7 V c).owesAt () t.succ = (dat7 V c).owesAt () t.castSucc from rfl,
    show (dat7 V c).Φ t.succ = held7 c (scr7 V c t.val t.isLt) from rfl, inv7_castSucc V c t]
  rw [show (dat7 V c).leavesExact 0 t = owns (c : Thread nD τ) (mRows7 t) fullShare ((dat7 V c).after 0 t) from by
    unfold Dat.leavesExact; rw [live7_0 t], after7_0]
  rw [show (dat7 V c).leavesExact 1 t = owns (c : Thread nD τ) (mIds7 t) fullShare ((dat7 V c).after 1 t) from by
    unfold Dat.leavesExact; rw [live7_1 t], after7_1]
  by_cases hL : t.val = 13
  · have h0 : t.val ≠ 0 := by omega
    have hf : ¬first7 (grid7.coords t) := mt (first7_iff_zero t).mp h0
    have hl : last7 (grid7.coords t) := (last7_iff_end t).mpr hL
    rw [show (dat7 V c).leavesExact 2 t = owns (c : Thread nD τ) (mOut7 t) fullShare ((dat7 V c).after 2 t) from by
      unfold Dat.leavesExact; rw [live7_2 t hl], after7_2, res7_last V c t hL hf hl]
    rw [scr7_last V c t h0 hL hf hl, inv7_pos V c _ _ h0]
    unfold held7; dsimp only; unfold out7_last acc7_last cnt7_last
    iintro ⟨⟨⟨⟨HA, HC⟩, HR⟩, Hg⟩, Ho, ⟨%d0, H0⟩, ⟨%d1, H1⟩, ⟨%d2, H2⟩⟩
    iapply ((run7_last c (grid7.coords t) _ _ _ _ _ _ _ _ _ _ hf hl (iblk7 V c 0 t) (iblk7 V c 1 t) _ _).2.2.2 Set.univ _)
    iframe H0 H1 HA HC
    isplitl [H2]; · iexists _; iexact H2
    iintro ⟨H0, H1, H2, HA, HC⟩
    iframe HR Hg Ho H0 H1
    isplitl [HA HC]
    · isplitl [HA]
      · iapply owns_canon c _ _ (by sl_kernel_rfl) $$ HA
      · iapply owns_canon c _ _ (by sl_kernel_rfl) $$ HC
    iapply owns_canon c _ _ (by sl_kernel_rfl) $$ H2
  have hl : ¬last7 (grid7.coords t) := mt (last7_iff_end t).mp hL
  rw [Dat.leavesExact_idle (dat7 V c) 2 t (idle7_2 t hl).1 (idle7_2 t hl).2]
  by_cases h0 : t.val = 0
  · have hf : first7 (grid7.coords t) := (first7_iff_zero t).mpr h0
    rw [scr7_first V c t h0 hf hl, inv7_zero V c _ _ h0, phiA7_eq]
    unfold held7; dsimp only; unfold acc7_first cnt7_first
    iintro ⟨⟨⟨⟨HA, HC⟩, HR⟩, Hg⟩, Ho, ⟨%d0, H0⟩, ⟨%d1, H1⟩, ⟨%d2, H2⟩⟩
    iapply ((run7_first c (grid7.coords t) _ _ _ _ _ _ _ _ _ _ hf hl (iblk7 V c 0 t) (iblk7 V c 1 t)).2.2 _ Set.univ _)
    iframe H0 H1 H2 HA HC
    iintro ⟨H0, H1, H2, HA, HC⟩
    iframe HR Hg Ho H0 H1
    isplitl [HA HC]
    · isplitl [HA]
      · iapply owns_canon c _ _ (by sl_kernel_rfl) $$ HA
      · iapply owns_canon c _ _ (by sl_kernel_rfl) $$ HC
    iexists _; iexact H2
  · have hf : ¬first7 (grid7.coords t) := mt (first7_iff_zero t).mp h0
    rw [scr7_mid V c t h0 hL hf hl, inv7_pos V c _ _ h0]
    unfold held7; dsimp only; unfold acc7_mid cnt7_mid
    iintro ⟨⟨⟨⟨HA, HC⟩, HR⟩, Hg⟩, Ho, ⟨%d0, H0⟩, ⟨%d1, H1⟩, ⟨%d2, H2⟩⟩
    iapply ((run7_mid c (grid7.coords t) _ _ _ _ _ _ _ _ _ _ hf hl (iblk7 V c 0 t) (iblk7 V c 1 t) _ _).2.2 _ Set.univ _)
    iframe H0 H1 H2 HA HC
    iintro ⟨H0, H1, H2, HA, HC⟩
    iframe HR Hg Ho H0 H1
    isplitl [HA HC]
    · isplitl [HA]
      · iapply owns_canon c _ _ (by sl_kernel_rfl) $$ HA
      · iapply owns_canon c _ _ (by sl_kernel_rfl) $$ HC
    iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := Idealize.SL.BI.Entails.refl _

theorem hout7 (c : Dev nD) : (dat7 V c).Φ (Fin.last cfg7.N) ⊢ Pipeline.ΦA spec7 c := by
  rw [show (dat7 V c).Φ (Fin.last cfg7.N) = inv7 V c cfg7.N (Nat.le_refl _) from rfl, inv7_pos V c cfg7.N _ (by have : cfg7.N = 14 := N_7; omega), phiA7_eq]
  unfold held7
  iintro ⟨⟨⟨HA, HC⟩, HR⟩, Hg⟩
  iframe HR Hg
  isplitl [HA]
  · iexists _; iexact HA
  · iexists _; iexact HC

end Cert.KernelIdeal.Frm

end
-- ==== Proof.KI.R8.lean ====
import proofs.«412806_j54228257079467_3_alg».proof.Proof.Gen.KernelIdeal.Launch
import proofs.«412806_j54228257079467_3_alg».proof.Proof.Gen.KernelIdeal.Skeleton
import proofs.«412806_j54228257079467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev whole8_256x134 : Rect S256x134 := Rect.unit (s := S256x134) ![0, 0] S256x134.size inb_S256x134_S256x134_0_0
abbrev whole8_134x1024 : Rect S134x1024 := Rect.unit (s := S134x1024) ![0, 0] S134x1024.size inb_S134x1024_S134x1024_0_0
abbrev whole8_1x1024 : Rect S1x1024 := Rect.unit (s := S1x1024) ![0, 0] S1x1024.size inb_S1x1024_S1x1024_0_0
abbrev whole8_1024x1024 : Rect S1024x1024 := Rect.unit (s := S1024x1024) ![0, 0] S1024x1024.size inb_S1024x1024_S1024x1024_0_0
abbrev whole8_1024x3 : Rect S1024x3 := Rect.unit (s := S1024x3) ![0, 0] S1024x3.size inb_S1024x3_S1024x3_0_0
abbrev whole8_1x3 : Rect S1x3 := Rect.unit (s := S1x3) ![0, 0] S1x3.size inb_S1x3_S1x3_0_0
abbrev whole8_256x3 : Rect S256x3 := Rect.unit (s := S256x3) ![0, 0] S256x3.size inb_S256x3_S256x3_0_0

def out8_9 (z : Vec F S256x134 .f32) (W1 : Vec F S134x1024 .f32) (b1 : Vec F S1x1024 .f32) (W2 : Vec F S1024x1024 .f32) (b2 : Vec F S1x1024 .f32) (W3 : Vec F S1024x1024 .f32) (b3 : Vec F S1x1024 .f32) (Wo : Vec F S1024x3 .f32) (bo : Vec F S1x3 .f32) : Vec F S256x3 .f32 :=
  View.canon [⟨whole8_256x3, k8_pay1 (k8_pay2 (View.ld z whole8_256x134) (View.ld W1 whole8_134x1024) (View.ld b1 whole8_1x1024) (View.ld W2 whole8_1024x1024) (View.ld b2 whole8_1x1024) (View.ld W3 whole8_1024x1024) (View.ld b3 whole8_1x1024) (View.ld Wo whole8_1024x3)) (View.ld bo whole8_1x3)⟩]

set_option maxHeartbeats 4000000 in
-- The body only loads from the nine inputs, and its one store overwrites the whole output block.
theorem sound_kernel8 (c : Dev nD) (E : Set ℕ) (i : grid8.Coords) (arg1 : Memref sig .tc .vmem S256x134 .f32) (harg1 : arg1.IsWhole) (arg2 : Memref sig .tc .vmem S134x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x3 .f32) (harg8 : arg8.IsWhole) (arg9 : Memref sig .tc .vmem S1x3 .f32) (harg9 : arg9.IsWhole) (arg10 : Memref sig .tc .vmem S256x3 .f32) (harg10 : arg10.IsWhole)
    (z : Vec F S256x134 .f32) (W1 : Vec F S134x1024 .f32) (b1 : Vec F S1x1024 .f32) (W2 : Vec F S1024x1024 .f32) (b2 : Vec F S1x1024 .f32) (W3 : Vec F S1024x1024 .f32) (b3 : Vec F S1x1024 .f32) (Wo : Vec F S1024x3 .f32) (bo : Vec F S1x3 .f32) (K : PUnit → sProp 𝕄) :
    iprop(owns (c : Thread nD τ) arg1 fullShare z ∗ owns (c : Thread nD τ) arg2 fullShare W1 ∗ owns (c : Thread nD τ) arg3 fullShare b1 ∗ owns (c : Thread nD τ) arg4 fullShare W2 ∗ owns (c : Thread nD τ) arg5 fullShare b2 ∗ owns (c : Thread nD τ) arg6 fullShare W3 ∗ owns (c : Thread nD τ) arg7 fullShare b3 ∗ owns (c : Thread nD τ) arg8 fullShare Wo ∗ owns (c : Thread nD τ) arg9 fullShare bo ∗ (∃ d, owns (c : Thread nD τ) arg10 fullShare d)
        ∗ (iprop(owns (c : Thread nD τ) arg1 fullShare z ∗ owns (c : Thread nD τ) arg2 fullShare W1 ∗ owns (c : Thread nD τ) arg3 fullShare b1 ∗ owns (c : Thread nD τ) arg4 fullShare W2 ∗ owns (c : Thread nD τ) arg5 fullShare b2 ∗ owns (c : Thread nD τ) arg6 fullShare W3 ∗ owns (c : Thread nD τ) arg7 fullShare b3 ∗ owns (c : Thread nD τ) arg8 fullShare Wo ∗ owns (c : Thread nD τ) arg9 fullShare bo ∗ owns (c : Thread nD τ) arg10 fullShare (out8_9 z W1 b1 W2 b2 W3 b3 Wo bo)) -∗ K ⟨⟩))
      ⊢ wp frame (wpE (defs₀ (F := F)) Variants.none c none) E (cc8_kernel i arg1 harg1 arg2 harg2 arg3 harg3 arg4 harg4 arg5 harg5 arg6 harg6 arg7 harg7 arg8 harg8 arg9 harg9 arg10 harg10) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (View.cover_of_tiled _ S256x3.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

-- The body leaves every input block as it finds it, so what an input's buffer holds before the body is what it holds after.
theorem before8 (c : Dev nD) (t : Fin cfg8.N) : ∀ (w : Fin cfg8.W) (_ : w ≠ 9) (d), (dat8 V c).before w t d = (dat8 V c).fetched w t d
  | ⟨9, _⟩, h, _ => absurd rfl h
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat8 V c).before_in_eq_fetched _ rfl (fun _ => rfl) (fun _ _ _ => rfl) (fun _ => rfl) t d

-- Everything but the buffers is framed; the buffers go through the kernel's triple.
theorem body_obligation8 (c : Dev nD) : BodyObligation (dat8 (F := F) V c) (defs₀ (F := F)) Variants.none () Set.univ := fun t => by
  rw [bigSep_W8, bigSep_W8]
  simp (disch := decide) only [before8, after8_9, show ∀ i, (dat8 V c).Φ i = Pipeline.ΦA spec8 c from fun _ => rfl]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _
    ((dat8 V c).after 0 t) ((dat8 V c).after 1 t) ((dat8 V c).after 2 t) ((dat8 V c).after 3 t) ((dat8 V c).after 4 t) ((dat8 V c).after 5 t) ((dat8 V c).after 6 t) ((dat8 V c).after 7 t) ((dat8 V c).after 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  iframe HΦ H0 H1 H2 H3 H4 H5 H6 H7 H8
  isplitl [Ho]; · iexact Ho
  iexact H9

theorem hin8 (c : Dev nD) : Pipeline.ΦA spec8 c ⊢ (dat8 V c).Φ 0 := .rfl
theorem hout8 (c : Dev nD) : (dat8 V c).Φ (Fin.last cfg8.N) ⊢ Pipeline.ΦA spec8 c := .rfl

end Cert.KernelIdeal.Frm

end
-- ==== Proof.KI.Chain.lean ====
import proofs.«412806_j54228257079467_3_alg».proof.Proof.KI.RunCond
import proofs.«412806_j54228257079467_3_alg».proof.Proof.KI.R0
import proofs.«412806_j54228257079467_3_alg».proof.Proof.KI.R1
import proofs.«412806_j54228257079467_3_alg».proof.Proof.KI.R2
import proofs.«412806_j54228257079467_3_alg».proof.Proof.KI.R3
import proofs.«412806_j54228257079467_3_alg».proof.Proof.KI.R4
import proofs.«412806_j54228257079467_3_alg».proof.Proof.KI.R5
import proofs.«412806_j54228257079467_3_alg».proof.Proof.KI.R6
import proofs.«412806_j54228257079467_3_alg».proof.Proof.KI.R7
import proofs.«412806_j54228257079467_3_alg».proof.Proof.KI.R8
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- `V` with each array of the region at its final contents. -/
def leaves {cfg : Cfg sig Λ₀} (c : Dev nD) (V : Valuation τ sig (Elt F)) (D : Dat τ (Elt F) Unit ℕ (UR sig nD τ) ℕ cfg c) :
    Valuation τ sig (Elt F) :=
  Pipeline.withArrays cfg.spec c V fun w => D.arrAt w cfg.N

/-- `V` overwritten with `g` at each reference of a list. -/
def updAt (g : Valuation τ sig (Elt F)) : List (Ref sig .tc) → Valuation τ sig (Elt F) → Valuation τ sig (Elt F)
  | [], V => V
  | r :: l, V => updAt g l (Function.update V r (g r))

theorem updAt_of_not_mem (g : Valuation τ sig (Elt F)) (b : Ref sig .tc) :
    ∀ (l : List (Ref sig .tc)) (V : Valuation τ sig (Elt F)), b ∉ l → updAt g l V b = V b
  | [], _, _ => rfl
  | _ :: l, _, h => (updAt_of_not_mem g b l _ (List.not_mem_of_not_mem_cons h)).trans
      (Function.update_of_ne (StableHlo.devRef_ne_of_ne (List.ne_of_not_mem_cons h)) _ _)

/-- The last overwrite at a listed reference wins, and every overwrite there writes `g`. -/
theorem updAt_of_mem (g : Valuation τ sig (Elt F)) (b : Ref sig .tc) :
    ∀ (l : List (Ref sig .tc)) (V : Valuation τ sig (Elt F)), b ∈ l → updAt g l V b = g b
  | [], _, h => nomatch h
  | r :: l, _, h => by
    by_cases hb : b ∈ l
    · exact updAt_of_mem g b l _ hb
    · obtain rfl : b = r := (List.mem_cons.mp h).resolve_right hb
      exact (updAt_of_not_mem g b l _ hb).trans (Function.update_self _ _ _)

/-- The arrays of the output windows, in window order. -/
def outRefs (cfg : Cfg sig Λ₀) : List (Ref sig .tc) :=
  ((List.finRange cfg.W).filter fun w => (cfg.win w).isOut).map (Pipeline.arrRef cfg.spec)

section Exit

variable {cfg : Cfg sig Λ₀} {c : Dev nD} (D : Dat τ (Elt F) Unit ℕ (UR sig nD τ) ℕ cfg c) (V : Valuation τ sig (Elt F))

/-- An output array holds its final contents by the overwrite; an input array's contents never change. -/
theorem exit_arr (hinj : Function.Injective (Pipeline.arrRef cfg.spec)) (hA : ∀ w, D.A w = V (Pipeline.arrRef cfg.spec w))
    (w : Fin cfg.W) : D.arrAt w cfg.N = updAt (leaves c V D) (outRefs cfg) V (Pipeline.arrRef cfg.spec w) := by
  by_cases h : Pipeline.arrRef cfg.spec w ∈ outRefs cfg
  · exact ((updAt_of_mem (leaves c V D) _ _ _ h).trans (Pipeline.withArrays_arr cfg.spec hinj c _ _ w)).symm
  · exact ((D.arrAt_in w (Bool.eq_false_iff.mpr fun hw =>
      h (List.mem_map.mpr ⟨w, List.mem_filter.mpr ⟨List.mem_finRange w, hw⟩, rfl⟩)) _).trans (hA w)).trans
      (updAt_of_not_mem (leaves c V D) _ _ _ h).symm

theorem exit_rest (b : Ref sig .tc) (hb : b ∉ Finset.univ.image (Pipeline.arrRef cfg.spec)) :
    updAt (leaves c V D) (outRefs cfg) V b = V b :=
  updAt_of_not_mem (leaves c V D) _ _ _ fun h =>
    let ⟨w, _, e⟩ := List.mem_map.mp h
    hb (Finset.mem_image.mpr ⟨w, Finset.mem_univ _, e⟩)

end Exit

variable (m : (ℓ : Loc nD τ sig) → Buf (Elt F) ℓ)

abbrev U1 (c : Dev nD) : Valuation τ sig (Elt F) := Gen.V1 m c
abbrev T1 : (c : Dev nD) → (b : Ref sig .tc) → Buf (Elt F) ((c : Thread nD τ).loc b) := fun c b => U1 m c b
def o2 (c : Dev nD) : Valuation τ sig (Elt F) := leaves c (U1 m c) (dat0 (T1 m) c)
abbrev U2 (c : Dev nD) : Valuation τ sig (Elt F) := Function.update (Function.update (U1 m c) main_v21_0 (o2 m c main_v21_0)) main_v21_1 (o2 m c main_v21_1)
abbrev U3 (c : Dev nD) : Valuation τ sig (Elt F) := StableHlo.after hostOps1 (U2 m c)
abbrev T3 : (c : Dev nD) → (b : Ref sig .tc) → Buf (Elt F) ((c : Thread nD τ).loc b) := fun c b => U3 m c b
def o4 (c : Dev nD) : Valuation τ sig (Elt F) := leaves c (U3 m c) (dat1 (T3 m) c)
abbrev U4 (c : Dev nD) : Valuation τ sig (Elt F) := Function.update (Function.update (Function.update (U3 m c) main_v32_0 (o4 m c main_v32_0)) main_v32_1 (o4 m c main_v32_1)) main_v32_2 (o4 m c main_v32_2)
abbrev T4 : (c : Dev nD) → (b : Ref sig .tc) → Buf (Elt F) ((c : Thread nD τ).loc b) := fun c b => U4 m c b
def o5 (c : Dev nD) : Valuation τ sig (Elt F) := leaves c (U4 m c) (dat2 (T4 m) c)
abbrev U5 (c : Dev nD) : Valuation τ sig (Elt F) := Function.update (Function.update (U4 m c) main_v33_0 (o5 m c main_v33_0)) main_v33_1 (o5 m c main_v33_1)
abbrev U6 (c : Dev nD) : Valuation τ sig (Elt F) := StableHlo.after hostOps3 (U5 m c)
abbrev T6 : (c : Dev nD) → (b : Ref sig .tc) → Buf (Elt F) ((c : Thread nD τ).loc b) := fun c b => U6 m c b
def o7 (c : Dev nD) : Valuation τ sig (Elt F) := leaves c (U6 m c) (dat3 (T6 m) c)
abbrev U7 (c : Dev nD) : Valuation τ sig (Elt F) := Function.update (Function.update (Function.update (U6 m c) main_v44_0 (o7 m c main_v44_0)) main_v44_1 (o7 m c main_v44_1)) main_v44_2 (o7 m c main_v44_2)
abbrev T7 : (c : Dev nD) → (b : Ref sig .tc) → Buf (Elt F) ((c : Thread nD τ).loc b) := fun c b => U7 m c b
def o8 (c : Dev nD) : Valuation τ sig (Elt F) := leaves c (U7 m c) (dat4 (T7 m) c)
abbrev U8 (c : Dev nD) : Valuation τ sig (Elt F) := Function.update (Function.update (U7 m c) main_v45_0 (o8 m c main_v45_0)) main_v45_1 (o8 m c main_v45_1)
abbrev U9 (c : Dev nD) : Valuation τ sig (Elt F) := StableHlo.after hostOps5 (U8 m c)
abbrev T9 : (c : Dev nD) → (b : Ref sig .tc) → Buf (Elt F) ((c : Thread nD τ).loc b) := fun c b => U9 m c b
def o10 (c : Dev nD) : Valuation τ sig (Elt F) := leaves c (U9 m c) (dat5 (T9 m) c)
abbrev U10 (c : Dev nD) : Valuation τ sig (Elt F) := Function.update (Function.update (Function.update (U9 m c) main_v56_0 (o10 m c main_v56_0)) main_v56_1 (o10 m c main_v56_1)) main_v56_2 (o10 m c main_v56_2)
abbrev T10 : (c : Dev nD) → (b : Ref sig .tc) → Buf (Elt F) ((c : Thread nD τ).loc b) := fun c b => U10 m c b
def o11 (c : Dev nD) : Valuation τ sig (Elt F) := leaves c (U10 m c) (dat6 (T10 m) c)
abbrev U11 (c : Dev nD) : Valuation τ sig (Elt F) := Function.update (U10 m c) main_v57 (o11 m c main_v57)
abbrev U12 (c : Dev nD) : Valuation τ sig (Elt F) := StableHlo.after hostOps7 (U11 m c)
abbrev U13 (c : Dev nD) : Valuation τ sig (Elt F) := StableHlo.after hostOps7_1 (U12 m c)
abbrev U14 (c : Dev nD) : Valuation τ sig (Elt F) := StableHlo.after hostOps7_2 (U13 m c)
abbrev U15 (c : Dev nD) : Valuation τ sig (Elt F) := StableHlo.after hostOps7_3 (U14 m c)
abbrev U16 (c : Dev nD) : Valuation τ sig (Elt F) := StableHlo.after hostOps7_4 (U15 m c)
abbrev T16 : (c : Dev nD) → (b : Ref sig .tc) → Buf (Elt F) ((c : Thread nD τ).loc b) := fun c b => U16 m c b
def o17 (c : Dev nD) : Valuation τ sig (Elt F) := leaves c (U16 m c) (dat7 (T16 m) c)
abbrev U17 (c : Dev nD) : Valuation τ sig (Elt F) := Function.update (U16 m c) main_v61 (o17 m c main_v61)
abbrev U18 (c : Dev nD) : Valuation τ sig (Elt F) := StableHlo.after hostOps8 (U17 m c)
abbrev T18 : (c : Dev nD) → (b : Ref sig .tc) → Buf (Elt F) ((c : Thread nD τ).loc b) := fun c b => U18 m c b
def o19 (c : Dev nD) : Valuation τ sig (Elt F) := leaves c (U18 m c) (dat8 (T18 m) c)
abbrev U19 (c : Dev nD) : Valuation τ sig (Elt F) := Function.update (U18 m c) main_v67 (o19 m c main_v67)
abbrev outsK : Gen.Outs (F := F) := fun J r c => match J with
  | 2 => o2 m c r
  | 4 => o4 m c r
  | 5 => o5 m c r
  | 7 => o7 m c r
  | 8 => o8 m c r
  | 10 => o10 m c r
  | 11 => o11 m c r
  | 17 => o17 m c r
  | 19 => o19 m c r
  | _ => Gen.V0 m c r

theorem V2_eq (c : Dev nD) : Gen.V2 m (outsK m) c = U2 m c := rfl
theorem V3_eq (c : Dev nD) : Gen.V3 m (outsK m) c = U3 m c := rfl
theorem V4_eq (c : Dev nD) : Gen.V4 m (outsK m) c = U4 m c := rfl
theorem V5_eq (c : Dev nD) : Gen.V5 m (outsK m) c = U5 m c := rfl
theorem V6_eq (c : Dev nD) : Gen.V6 m (outsK m) c = U6 m c := rfl
theorem V7_eq (c : Dev nD) : Gen.V7 m (outsK m) c = U7 m c := rfl
theorem V8_eq (c : Dev nD) : Gen.V8 m (outsK m) c = U8 m c := rfl
theorem V9_eq (c : Dev nD) : Gen.V9 m (outsK m) c = U9 m c := rfl
theorem V10_eq (c : Dev nD) : Gen.V10 m (outsK m) c = U10 m c := rfl
theorem V11_eq (c : Dev nD) : Gen.V11 m (outsK m) c = U11 m c := rfl
theorem V12_eq (c : Dev nD) : Gen.V12 m (outsK m) c = U12 m c := rfl
theorem V13_eq (c : Dev nD) : Gen.V13 m (outsK m) c = U13 m c := rfl
theorem V14_eq (c : Dev nD) : Gen.V14 m (outsK m) c = U14 m c := rfl
theorem V15_eq (c : Dev nD) : Gen.V15 m (outsK m) c = U15 m c := rfl
theorem V16_eq (c : Dev nD) : Gen.V16 m (outsK m) c = U16 m c := rfl
theorem V17_eq (c : Dev nD) : Gen.V17 m (outsK m) c = U17 m c := rfl
theorem V18_eq (c : Dev nD) : Gen.V18 m (outsK m) c = U18 m c := rfl
theorem V19_eq (c : Dev nD) : Gen.V19 m (outsK m) c = U19 m c := rfl

theorem hF0 (c : Dev nD) (w : Fin cfg0.W) :
    (dat0 (T1 m) c).arrAt w cfg0.N = (fun b : Ref sig .tc => Gen.V2 m (outsK m) c b) (Pipeline.arrRef spec0 w) :=
  exit_arr (dat0 (T1 m) c) (U1 m c) launch0.win.arr_inj (fun _ => rfl) w

theorem hF1 (c : Dev nD) (w : Fin cfg1.W) :
    (dat1 (T3 m) c).arrAt w cfg1.N = (fun b : Ref sig .tc => Gen.V4 m (outsK m) c b) (Pipeline.arrRef spec1 w) :=
  exit_arr (dat1 (T3 m) c) (U3 m c) launch1.win.arr_inj (fun _ => rfl) w

theorem hF2 (c : Dev nD) (w : Fin cfg2.W) :
    (dat2 (T4 m) c).arrAt w cfg2.N = (fun b : Ref sig .tc => Gen.V5 m (outsK m) c b) (Pipeline.arrRef spec2 w) :=
  exit_arr (dat2 (T4 m) c) (U4 m c) launch2.win.arr_inj (fun _ => rfl) w

theorem hF3 (c : Dev nD) (w : Fin cfg3.W) :
    (dat3 (T6 m) c).arrAt w cfg3.N = (fun b : Ref sig .tc => Gen.V7 m (outsK m) c b) (Pipeline.arrRef spec3 w) :=
  exit_arr (dat3 (T6 m) c) (U6 m c) launch3.win.arr_inj (fun _ => rfl) w

theorem hF4 (c : Dev nD) (w : Fin cfg4.W) :
    (dat4 (T7 m) c).arrAt w cfg4.N = (fun b : Ref sig .tc => Gen.V8 m (outsK m) c b) (Pipeline.arrRef spec4 w) :=
  exit_arr (dat4 (T7 m) c) (U7 m c) launch4.win.arr_inj (fun _ => rfl) w

theorem hF5 (c : Dev nD) (w : Fin cfg5.W) :
    (dat5 (T9 m) c).arrAt w cfg5.N = (fun b : Ref sig .tc => Gen.V10 m (outsK m) c b) (Pipeline.arrRef spec5 w) :=
  exit_arr (dat5 (T9 m) c) (U9 m c) launch5.win.arr_inj (fun _ => rfl) w

theorem hF6 (c : Dev nD) (w : Fin cfg6.W) :
    (dat6 (T10 m) c).arrAt w cfg6.N = (fun b : Ref sig .tc => Gen.V11 m (outsK m) c b) (Pipeline.arrRef spec6 w) :=
  exit_arr (dat6 (T10 m) c) (U10 m c) launch6.win.arr_inj (fun _ => rfl) w

theorem hF7 (c : Dev nD) (w : Fin cfg7.W) :
    (dat7 (T16 m) c).arrAt w cfg7.N = (fun b : Ref sig .tc => Gen.V17 m (outsK m) c b) (Pipeline.arrRef spec7 w) :=
  exit_arr (dat7 (T16 m) c) (U16 m c) launch7.win.arr_inj (fun _ => rfl) w

theorem hF8 (c : Dev nD) (w : Fin cfg8.W) :
    (dat8 (T18 m) c).arrAt w cfg8.N = (fun b : Ref sig .tc => Gen.V19 m (outsK m) c b) (Pipeline.arrRef spec8 w) :=
  exit_arr (dat8 (T18 m) c) (U18 m c) launch8.win.arr_inj (fun _ => rfl) w

def pdats : (p : Fin 9) → (c : Dev nD) → Dat τ (Elt F) Unit ℕ (UR sig nD τ) ℕ (Pipeline.pin (pcfgs (F := F)) Gen.adm p) c
  | ⟨0, _⟩ => fun c => dat0 (T1 m) c
  | ⟨1, _⟩ => fun c => dat1 (T3 m) c
  | ⟨2, _⟩ => fun c => dat2 (T4 m) c
  | ⟨3, _⟩ => fun c => dat3 (T6 m) c
  | ⟨4, _⟩ => fun c => dat4 (T7 m) c
  | ⟨5, _⟩ => fun c => dat5 (T9 m) c
  | ⟨6, _⟩ => fun c => dat6 (T10 m) c
  | ⟨7, _⟩ => fun c => dat7 (T16 m) c
  | ⟨8, _⟩ => fun c => dat8 (T18 m) c
abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The region between valuations `Vi` and `Vo` that differ only at its arrays, which hold their final contents in `Vo`. -/
def regAt (p : Fin 9) (lch : Pipeline.LaunchFacts (nD := nD) (τ := τ) cfgs p) (Vi Vo : Dev nD → Valuation τ sig (Elt F))
    (hb : ∀ c, BodyObligation (pdats m p c) (defs₀ (F := F)) Variants.none () Set.univ)
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (hq : ∀ c w, (pdats m p c).q w = fullShare) (h0 : ∀ c t, (pdats m p c).owed t = 0)
    (hr : ∀ c, (pdats m p c).recorded 0 = Set.univ)
    (hA : ∀ c w, (pdats m p c).A w = Vi c (Pipeline.arrRef (cfgs p).spec w))
    (hF : ∀ c w, (pdats m p c).arrAt w (cfgs p).N = Vo c (Pipeline.arrRef (cfgs p).spec w))
    (hrest : ∀ c (b : Ref sig .tc), b ∉ Finset.univ.image (Pipeline.arrRef (cfgs p).spec) → Vo c b = Vi c b) :
    Pipeline.RegionSeg (pcfgs (F := F)) Gen.adm (pdats m) () defs₀ 𝒱₀ L lv p where
  win := lch.win.to₀
  block_pos := lch.block_pos
  stage_whole := lch.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Vi c) ∗ Rr c)
  post c := iprop(StableHlo.held (c : Thread nD τ) (Pipeline.ucRefs τ sig) (Vo c) ∗ Rr c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) Gen.adm (pdats m) lch.win lch.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [h0 c]
      icases HO with ⟨%W, HO⟩; iexists W; isplitr; · ipureintro; exact fun _ _ => Or.inl ((hr c).symm ▸ Set.mem_univ _)
      iexact HO
    isplitl [Hp]; · iexact Hp
    iexact Hrest
  hin c :=
    (show _ ⊢ (Pipeline.ΦA (cfgs p).spec c : sProp 𝕄) from by
      unfold Pipeline.ΦA
      iintro ⟨Hp, -, Hr⟩
      isplitl [Hr]; · iexact Hr
      iexact Hp).trans (hin c)
  hout c := by
    rw [Pipeline.ownSems0_none]
    exact (hout c).trans (show (Pipeline.ΦA (cfgs p).spec c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := p) (pcfgs (F := F)) Gen.adm (Ix := Unit) (Name := ℕ) (U := UR sig nD τ) (Lvl := ℕ)
      lch.win lch.arr_whole c (pdats m) ((pdats m p c).share_full (hq c))
      (fun b => Vi c b) (fun b : Ref sig .tc => Vo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c]
    icases HO with ⟨%W, -, HO⟩; iexists W; iexact HO

def reg0 :=
  regAt m 0 launch0 (U1 m) (Gen.V2 m (outsK m)) (body_obligation0 (T1 m)) (hin0 (T1 m)) (hout0 (T1 m))
    (fun _ _ => rfl) (fun _ _ => rfl) (fun _ => rfl) (fun _ _ => rfl) (hF0 m)
    fun c => exit_rest (dat0 (T1 m) c) (U1 m c)

def reg1 :=
  regAt m 1 launch1 (U3 m) (Gen.V4 m (outsK m)) (body_obligation1 (T3 m)) (hin1 (T3 m)) (hout1 (T3 m))
    (fun _ _ => rfl) (fun _ _ => rfl) (fun _ => rfl) (fun _ _ => rfl) (hF1 m)
    fun c => exit_rest (dat1 (T3 m) c) (U3 m c)

def reg2 :=
  regAt m 2 launch2 (U4 m) (Gen.V5 m (outsK m)) (body_obligation2 (T4 m)) (hin2 (T4 m)) (hout2 (T4 m))
    (fun _ _ => rfl) (fun _ _ => rfl) (fun _ => rfl) (fun _ _ => rfl) (hF2 m)
    fun c => exit_rest (dat2 (T4 m) c) (U4 m c)

def reg3 :=
  regAt m 3 launch3 (U6 m) (Gen.V7 m (outsK m)) (body_obligation3 (T6 m)) (hin3 (T6 m)) (hout3 (T6 m))
    (fun _ _ => rfl) (fun _ _ => rfl) (fun _ => rfl) (fun _ _ => rfl) (hF3 m)
    fun c => exit_rest (dat3 (T6 m) c) (U6 m c)

def reg4 :=
  regAt m 4 launch4 (U7 m) (Gen.V8 m (outsK m)) (body_obligation4 (T7 m)) (hin4 (T7 m)) (hout4 (T7 m))
    (fun _ _ => rfl) (fun _ _ => rfl) (fun _ => rfl) (fun _ _ => rfl) (hF4 m)
    fun c => exit_rest (dat4 (T7 m) c) (U7 m c)

def reg5 :=
  regAt m 5 launch5 (U9 m) (Gen.V10 m (outsK m)) (body_obligation5 (T9 m)) (hin5 (T9 m)) (hout5 (T9 m))
    (fun _ _ => rfl) (fun _ _ => rfl) (fun _ => rfl) (fun _ _ => rfl) (hF5 m)
    fun c => exit_rest (dat5 (T9 m) c) (U9 m c)

def reg6 :=
  regAt m 6 launch6 (U10 m) (Gen.V11 m (outsK m)) (body_obligation6 (T10 m)) (hin6 (T10 m)) (hout6 (T10 m))
    (fun _ _ => rfl) (fun _ _ => rfl) (fun _ => rfl) (fun _ _ => rfl) (hF6 m)
    fun c => exit_rest (dat6 (T10 m) c) (U10 m c)

def reg7 :=
  regAt m 7 launch7 (U16 m) (Gen.V17 m (outsK m)) (body_obligation7 (T16 m)) (hin7 (T16 m)) (hout7 (T16 m))
    (fun _ _ => rfl) (fun _ _ => rfl) (fun _ => rfl) (fun _ _ => rfl) (hF7 m)
    fun c => exit_rest (dat7 (T16 m) c) (U16 m c)

def reg8 :=
  regAt m 8 launch8 (U18 m) (Gen.V19 m (outsK m)) (body_obligation8 (T18 m)) (hin8 (T18 m)) (hout8 (T18 m))
    (fun _ _ => rfl) (fun _ _ => rfl) (fun _ => rfl) (fun _ _ => rfl) (hF8 m)
    fun c => exit_rest (dat8 (T18 m) c) (U18 m c)

end Cert.KernelIdeal.Frm

end
-- ==== Proof.KI.Run.lean ====
import proofs.«412806_j54228257079467_3_alg».proof.Proof.KI.Chain

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V19 m (outsK m) c b) :=
  run_cond m (Ix := Unit) (U := UR sig nD τ) (Lvl := ℕ) emb₁ () 𝒱₀ L lv (fun _ _ => rfl) ρ (outsK m) (pdats m)
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      have hcore : ∀ c : Dev nD, iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) ⊢ (Rr c : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => Rr c) : sProp 𝕄) :=
        bigSep_mono fun c _ => hcore c
      iintro ⟨H, -⟩
      imodintro
      iapply hmono
      iexact H)
    (fun c => by
      iintro ⟨-, HO⟩
      iexact HO)
    (reg0 m) (fun c => .rfl) (fun c => .rfl)
    (reg1 m) (fun c => by rw [V3_eq m c]; exact .rfl) (fun c => .rfl)
    (reg2 m) (fun c => by rw [V4_eq m c]; exact .rfl) (fun c => .rfl)
    (reg3 m) (fun c => by rw [V6_eq m c]; exact .rfl) (fun c => .rfl)
    (reg4 m) (fun c => by rw [V7_eq m c]; exact .rfl) (fun c => .rfl)
    (reg5 m) (fun c => by rw [V9_eq m c]; exact .rfl) (fun c => .rfl)
    (reg6 m) (fun c => by rw [V10_eq m c]; exact .rfl) (fun c => .rfl)
    (reg7 m) (fun c => by rw [V16_eq m c]; exact .rfl) (fun c => .rfl)
    (reg8 m) (fun c => by rw [V18_eq m c]; exact .rfl) (fun c => .rfl)

theorem run_value (ρ : Dev nD → PrngReg) :
    θ_run defs (onTc (τ := τ) (main (F := F))) ⟨m, fun _ => 0, ρ⟩ (fun r => ∀ c : Dev nD,
      r.2.mem ((c.tc : Thread nD τ).loc main_v67) = (dat8 (T18 m) c).arrAt (⟨9, Nat.lt_succ_self 9⟩ : Fin cfg8.W) cfg8.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    have a : ∀ (b : Ref sig .tc) {v : Buf (Elt F) ((c.tc : Thread nD τ).loc b)}, ¬ (Proc.devRef .tc b : DevRef τ sig).isScoped →
        Gen.V19 m (outsK m) c b = v → r.2.mem ((c.tc : Thread nD τ).loc b) = v :=
      fun b _ hb hv => (h c _ (mem_uc b hb)).trans hv
    ⟨a (Pipeline.arrRef spec8 ⟨9, Nat.lt_succ_self 9⟩) (by decide) (hF8 m c _).symm,
     a main_arg0 (by decide) (Gen.V19_main_arg0 m (outsK m) c),
     a main_arg1 (by decide) (Gen.V19_main_arg1 m (outsK m) c),
     a main_arg2 (by decide) (Gen.V19_main_arg2 m (outsK m) c),
     a main_arg3 (by decide) (Gen.V19_main_arg3 m (outsK m) c),
     a main_arg4 (by decide) (Gen.V19_main_arg4 m (outsK m) c),
     a main_arg5 (by decide) (Gen.V19_main_arg5 m (outsK m) c),
     a main_arg6 (by decide) (Gen.V19_main_arg6 m (outsK m) c),
     a main_arg7 (by decide) (Gen.V19_main_arg7 m (outsK m) c),
     a main_arg8 (by decide) (Gen.V19_main_arg8 m (outsK m) c),
     a main_arg9 (by decide) (Gen.V19_main_arg9 m (outsK m) c),
     a main_arg10 (by decide) (Gen.V19_main_arg10 m (outsK m) c),
     a main_arg11 (by decide) (Gen.V19_main_arg11 m (outsK m) c),
     a main_arg12 (by decide) (Gen.V19_main_arg12 m (outsK m) c),
     a main_arg13 (by decide) (Gen.V19_main_arg13 m (outsK m) c),
     a main_arg14 (by decide) (Gen.V19_main_arg14 m (outsK m) c),
     a main_arg15 (by decide) (Gen.V19_main_arg15 m (outsK m) c),
     a main_arg16 (by decide) (Gen.V19_main_arg16 m (outsK m) c),
     a main_arg17 (by decide) (Gen.V19_main_arg17 m (outsK m) c),
     a main_arg18 (by decide) (Gen.V19_main_arg18 m (outsK m) c),
     a main_arg19 (by decide) (Gen.V19_main_arg19 m (outsK m) c),
     a main_arg20 (by decide) (Gen.V19_main_arg20 m (outsK m) c),
     a main_arg21 (by decide) (Gen.V19_main_arg21 m (outsK m) c),
     a main_arg22 (by decide) (Gen.V19_main_arg22 m (outsK m) c),
     a main_arg23 (by decide) (Gen.V19_main_arg23 m (outsK m) c),
     a main_arg24 (by decide) (Gen.V19_main_arg24 m (outsK m) c)⟩)
    (run_all m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => (h c).2) (run_value m ρ)

end Cert.KernelIdeal.Frm

end
-- ==== Proof.RefRun0.lean ====
import proofs.«412806_j54228257079467_3_alg».proof.Proof.RefOps
import proofs.«412806_j54228257079467_3_alg».proof.Proof.RefRead

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

-- The first `m + n` operations of a line are its first `m`, then the next `n`.
theorem after_take_add (l : List (HloOp τ sig (Elt F))) (m n : Nat) (V : Valuation τ sig (Elt F)) :
    after (l.take (m + n)) V = after ((l.drop m).take n) (after (l.take m) V) := by
  rw [List.take_add, after_append]

-- Every operation determines what it writes, and writes no buffer numbered below 25: the arguments are the first 25.
theorem ops_own : ∀ op ∈ (ops : List (HloOp τ sig (Elt F))), op.fresh = ∅ ∧ ∀ b ∈ op.writes, 25 ≤ b.idx.val := by
  repeat' (refine List.forall_mem_cons.mpr ⟨⟨rfl, fun b hb => by obtain rfl := Finset.mem_singleton.mp hb; decide⟩, ?_⟩)
  exact fun _ h => nomatch h

-- So no part of the line changes an argument.
theorem kept {l : List (HloOp τ sig (Elt F))} (hl : ∀ op ∈ l, op ∈ ops) (V : Valuation τ sig (Elt F)) {b : DevRef τ sig}
    (hb : b.idx.val < 25) : after l V b = V b :=
  after_of_forall_not_mem l V fun op h hw => absurd ((ops_own op (hl op h)).2 b hw) (Nat.not_le.mpr hb)

theorem kept_take (n : Nat) (V : Valuation τ sig (Elt F)) (b : DevRef τ sig) (hb : b.idx.val < 25) :
    after (ops.take n) V b = V b :=
  kept (fun _ => List.mem_of_mem_take) V hb

end Cert.ReferenceIdeal.RunP

end
-- ==== Proof.RefRunA.lean ====
import proofs.«412806_j54228257079467_3_alg».proof.Proof.RefRun0

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

-- The edge lists' two rows and the inverse square roots of the degrees, read by every layer.
abbrev EdgeVals (V W : Valuation τ sig (Elt F)) : Prop :=
  W main_v1 = val_main_v1 (V main_arg3) ∧ W main_v3 = val_main_v3 (V main_arg3) ∧ W main_v10 = val_main_v10 (V main_arg3)

theorem stage1 (V : Valuation τ sig (Elt F)) : EdgeVals V (after (ops.take 14) V) := by
  refine ⟨?_, ?_, ?_⟩ <;> simp only [ops, List.take_succ_cons, List.take_zero] <;> after_results_simp <;> rfl

theorem stage2 (V : Valuation τ sig (Elt F)) :
    EdgeVals V (after (ops.take 58) V) ∧ after (ops.take 58) V main_v47 = val_main_v47 (V main_arg0) (V main_arg3) (V main_arg5) (V main_arg6) := by
  obtain ⟨h1, h3, h10⟩ := stage1 V
  have a := kept_take 14 V
  rw [after_take_add ops 14 44 V]
  generalize after (ops.take 14) V = W at h1 h3 h10 a ⊢
  refine ⟨⟨?_, ?_, ?_⟩, ?_⟩ <;> simp only [ops, List.take_succ_cons, List.take_zero, List.drop_succ_cons, List.drop_zero] <;> after_results_simp
  · exact h1
  · exact h3
  · exact h10
  · simp (disch := decide) only [a, h1, h3, h10]; rfl

theorem stage3 (V : Valuation τ sig (Elt F)) :
    EdgeVals V (after (ops.take 91) V) ∧ after (ops.take 91) V main_v73 = val_main_v73 (V main_arg0) (V main_arg3) (V main_arg5) (V main_arg6) (V main_arg11) (V main_arg12) := by
  obtain ⟨⟨h1, h3, h10⟩, h⟩ := stage2 V
  have a := kept_take 58 V
  rw [after_take_add ops 58 33 V]
  generalize after (ops.take 58) V = W at h1 h3 h10 h a ⊢
  refine ⟨⟨?_, ?_, ?_⟩, ?_⟩ <;> simp only [ops, List.take_succ_cons, List.take_zero, List.drop_succ_cons, List.drop_zero] <;> after_results_simp
  · exact h1
  · exact h3
  · exact h10
  · simp (disch := decide) only [a, h1, h3, h10, h, TRef.ofBuf, TRef.toBuf, cast_eq]; rfl

end Cert.ReferenceIdeal.RunP

end
-- ==== Proof.RefRunB.lean ====
import proofs.«412806_j54228257079467_3_alg».proof.Proof.RefRunA

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

theorem stage4 (V : Valuation τ sig (Elt F)) :
    EdgeVals V (after (ops.take 135) V) ∧ after (ops.take 135) V main_v110 = val_main_v110 (V main_arg0) (V main_arg3) (V main_arg5) (V main_arg6) (V main_arg7) (V main_arg8) (V main_arg11) (V main_arg12) := by
  obtain ⟨⟨h1, h3, h10⟩, h⟩ := stage3 V
  have a := kept_take 91 V
  rw [after_take_add ops 91 44 V]
  generalize after (ops.take 91) V = W at h1 h3 h10 h a ⊢
  refine ⟨⟨?_, ?_, ?_⟩, ?_⟩ <;> simp only [ops, List.take_succ_cons, List.take_zero, List.drop_succ_cons, List.drop_zero] <;> after_results_simp
  · exact h1
  · exact h3
  · exact h10
  · simp (disch := decide) only [a, h1, h3, h10, h]; rfl

theorem stage5 (V : Valuation τ sig (Elt F)) :
    EdgeVals V (after (ops.take 168) V) ∧ after (ops.take 168) V main_v136 = val_main_v136 (V main_arg0) (V main_arg3) (V main_arg5) (V main_arg6) (V main_arg7) (V main_arg8) (V main_arg11) (V main_arg12) (V main_arg13) (V main_arg14) := by
  obtain ⟨⟨h1, h3, h10⟩, h⟩ := stage4 V
  have a := kept_take 135 V
  rw [after_take_add ops 135 33 V]
  generalize after (ops.take 135) V = W at h1 h3 h10 h a ⊢
  refine ⟨⟨?_, ?_, ?_⟩, ?_⟩ <;> simp only [ops, List.take_succ_cons, List.take_zero, List.drop_succ_cons, List.drop_zero] <;> after_results_simp
  · exact h1
  · exact h3
  · exact h10
  · simp (disch := decide) only [a, h1, h3, h10, h, TRef.ofBuf, TRef.toBuf, cast_eq]; rfl

end Cert.ReferenceIdeal.RunP

end
-- ==== Proof.RefRunC.lean ====
import proofs.«412806_j54228257079467_3_alg».proof.Proof.RefRunB

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

theorem stage6 (V : Valuation τ sig (Elt F)) :
    after (ops.take 212) V main_v173 = val_main_v173 (V main_arg0) (V main_arg3) (V main_arg5) (V main_arg6) (V main_arg7) (V main_arg8) (V main_arg9) (V main_arg10) (V main_arg11) (V main_arg12) (V main_arg13) (V main_arg14) := by
  obtain ⟨⟨h1, h3, h10⟩, h⟩ := stage5 V
  have a := kept_take 168 V
  rw [after_take_add ops 168 44 V]
  generalize after (ops.take 168) V = W at h1 h3 h10 h a ⊢
  simp only [ops, List.take_succ_cons, List.take_zero, List.drop_succ_cons, List.drop_zero] <;> after_results_simp
  simp (disch := decide) only [a, h1, h3, h10, h]; rfl

theorem stage7 (V : Valuation τ sig (Elt F)) :
    after (ops.take 242) V main_v198 = val_main_v198 (V main_arg0) (V main_arg3) (V main_arg5) (V main_arg6) (V main_arg7) (V main_arg8) (V main_arg9) (V main_arg10) (V main_arg11) (V main_arg12) (V main_arg13) (V main_arg14) (V main_arg15) (V main_arg16) := by
  have h := stage6 V
  have a := kept_take 212 V
  rw [after_take_add ops 212 30 V]
  generalize after (ops.take 212) V = W at h a ⊢
  simp only [ops, List.take_succ_cons, List.take_zero, List.drop_succ_cons, List.drop_zero] <;> after_results_simp
  simp (disch := decide) only [a, h]; rfl

end Cert.ReferenceIdeal.RunP

end
-- ==== Proof.RefRunD.lean ====
import proofs.«412806_j54228257079467_3_alg».proof.Proof.RefRunC

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

theorem stage8 (V : Valuation τ sig (Elt F)) :
    after (ops.take 258) V main_v210 = val_main_v210 (V main_arg0) (V main_arg3) (V main_arg4) (V main_arg5) (V main_arg6) (V main_arg7) (V main_arg8) (V main_arg9) (V main_arg10) (V main_arg11) (V main_arg12) (V main_arg13) (V main_arg14) (V main_arg15) (V main_arg16) := by
  have h := stage7 V
  have a := kept_take 242 V
  rw [after_take_add ops 242 16 V]
  generalize after (ops.take 242) V = W at h a ⊢
  simp only [ops, List.take_succ_cons, List.take_zero, List.drop_succ_cons, List.drop_zero] <;> after_results_simp
  simp (disch := decide) only [a, h]; rfl

theorem stage9 (V : Valuation τ sig (Elt F)) :
    after (ops.take 259) V main_v211 = val_main_v211 (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) := by
  have h := stage8 V
  have a := kept_take 258 V
  rw [after_take_add ops 258 1 V]
  generalize after (ops.take 258) V = W at h a ⊢
  simp only [ops, List.take_succ_cons, List.take_zero, List.drop_succ_cons, List.drop_zero] <;> after_results_simp
  unfold val_main_v211; rw [← h, ← a main_arg1 (by decide), ← a main_arg2 (by decide)]; rfl

end Cert.ReferenceIdeal.RunP

end
-- ==== Proof.RefRun.lean ====
import proofs.«412806_j54228257079467_3_alg».proof.Proof.RefRunD

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

-- The line split at any point: the part before it, then the part after it.
theorem after_split (l : List (HloOp τ sig (Elt F))) (m : Nat) (V : Valuation τ sig (Elt F)) :
    after l V = after (l.drop m) (after (l.take m) V) := by
  rw [← after_append, List.take_append_drop]

theorem after_ops (V : Valuation τ sig (Elt F)) :
    after ops V main_v230 = val_main_v230 (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) (V main_arg19) (V main_arg20) (V main_arg21) (V main_arg22) (V main_arg23) (V main_arg24) := by
  have h := stage9 V
  have a := kept_take 259 V
  rw [after_split ops 259 V]
  generalize after (ops.take 259) V = W at h a ⊢
  simp only [ops, List.drop_succ_cons, List.drop_zero]; after_results_simp
  simp (disch := decide) only [a, h, TRef.ofBuf, TRef.toBuf, cast_eq]; rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v230) = ReadP.val_main_v230 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => by
      refine ⟨(h c main_v230).trans (after_ops _), ?_⟩
      and_intros <;> exact (h c _).trans (kept (fun _ => id) _ (by decide)))
    (run_seq scopedRefs_eq scopedSems_eq defs main (fun _ => ops) main_eq (fun _ => ops_sub) m ρ (fun _ op h => (ops_own op h).1))

end Cert.ReferenceIdeal.RunP

end
-- ==== Proof.Spec.lean ====
import Idealize.ShloMosaic.PureOps.Ideal

noncomputable section

namespace Cert.Spec

open Idealize.ShloMosaic

variable {n k c e g T B np : Nat}

def mm (a : Fin n → Fin k → EReal) (b : Fin k → Fin c → EReal) : Fin n → Fin c → EReal :=
  fun r q => ∑ j : Fin k, a r j * b j q

def scaled (xw : Fin n → Fin c → EReal) (dis : Fin n → EReal) : Fin n → Fin c → EReal :=
  fun r q => xw r q * dis r

def addRow (x : Fin n → Fin c → EReal) (b : Fin c → EReal) : Fin n → Fin c → EReal := fun r q => x r q + b q

def relu (x : Fin n → Fin c → EReal) : Fin n → Fin c → EReal := fun r q => max (x r q) 0

def aggK (P : Fin e → Fin n → Prop) [∀ j i, Decidable (P j i)] (src : Fin e → Fin n) (xws : Fin n → Fin c → EReal) :
    Fin n → Fin c → EReal :=
  fun i q => 0 + ∑ j ∈ Finset.univ.filter (fun j => P j i), xws (src j) q

def aggR (P : Fin e → Fin n → Prop) [∀ j i, Decidable (P j i)] (src dst : Fin e → Fin n) (xw : Fin n → Fin c → EReal)
    (dis : Fin n → EReal) : Fin n → Fin c → EReal :=
  fun i q => 0 + ∑ j ∈ Finset.univ.filter (fun j => P j i), xw (src j) q * (dis (src j) * dis (dst j))

def preK (dis : Fin n → EReal) (agg xw : Fin n → Fin c → EReal) (b : Fin c → EReal) : Fin n → Fin c → EReal :=
  fun r q => dis r * agg r q + xw r q * (dis r * dis r) + b q

def preR (dis : Fin n → EReal) (agg xw : Fin n → Fin c → EReal) (b : Fin c → EReal) : Fin n → Fin c → EReal :=
  fun r q => agg r q + xw r q * (dis r * dis r) + b q

def blkRow (h : T * B = n) (t : Fin T) (r : Fin B) : Fin n :=
  ⟨t.val * B + r.val, by
    have ht := t.isLt
    have hr := r.isLt
    calc t.val * B + r.val < t.val * B + B := by omega
      _ = (t.val + 1) * B := by ring
      _ ≤ T * B := Nat.mul_le_mul_right B (by omega)
      _ = n := h⟩

def sumBlocks (h : T * B = n) (f : Fin n → EReal) : EReal := ∑ t : Fin T, ∑ r : Fin B, f (blkRow h t r)

def meanK (h : T * B = n) (N : EReal) (v : Fin n → Fin c → EReal) : Fin c → EReal :=
  fun q => Ideal.div (sumBlocks h fun r => v r q) N

def varK (h : T * B = n) (N : EReal) (v : Fin n → Fin c → EReal) : Fin c → EReal :=
  fun q => max (Ideal.div (sumBlocks h fun r => v r q * v r q) N - meanK h N v q * meanK h N v q) 0

def meanR (N : EReal) (v : Fin n → Fin c → EReal) : Fin c → EReal := fun q => Ideal.div (0 + ∑ r : Fin n, v r q) N

def varR (N : EReal) (v : Fin n → Fin c → EReal) : Fin c → EReal :=
  fun q => Ideal.div (0 + ∑ r : Fin n, (v r q - meanR N v q) * (v r q - meanR N v q)) N

def bn (eps : EReal) (v : Fin n → Fin c → EReal) (mean var gam bet : Fin c → EReal) : Fin n → Fin c → EReal :=
  fun r q => (v r q - mean q) * Ideal.rsqrt (var q + eps) * gam q + bet q

def poolK (h : T * B = np) (oh : Fin g → Fin np → EReal) (hp : Fin np → Fin c → EReal) : Fin g → Fin c → EReal :=
  fun a q => Ideal.div (sumBlocks h fun m => oh a m * hp m q) (max (sumBlocks h fun m => oh a m) 1)

def poolR (Pb : Fin n → Fin g → Prop) [∀ m a, Decidable (Pb m a)] (x : Fin n → Fin c → EReal) : Fin g → Fin c → EReal :=
  fun a q => Ideal.div (0 + ∑ m ∈ Finset.univ.filter (fun m => Pb m a), x m q)
    (max (0 + ∑ _m ∈ Finset.univ.filter (fun m => Pb m a), (1 : EReal)) 1)

def cat3 {c1 c2 c3 : Nat} (x : Fin g → Fin c1 → EReal) (y : Fin g → Fin c2 → EReal) (z : Fin g → Fin c3 → EReal) :
    Fin g → Fin (c1 + c2 + c3) → EReal :=
  fun a q => if h1 : q.val < c1 then x a ⟨q.val, h1⟩
    else if h2 : q.val < c1 + c2 then y a ⟨q.val - c1, by omega⟩
    else z a ⟨q.val - (c1 + c2), by omega⟩

def dense {d1 d2 : Nat} (z : Fin g → Fin d1 → EReal) (w : Fin d1 → Fin d2 → EReal) (b : Fin d2 → EReal) : Fin g → Fin d2 → EReal :=
  relu (addRow (mm z w) b)

end Cert.Spec

end
-- ==== Proof.Cur.lean ====
import Idealize.ShloMosaic.Lib.ValueIdx

noncomputable section

namespace Cert.Spec

open Idealize.ShloMosaic Idealize.ShloMosaic.ValueIdx

variable {α : Type}

def cur2 {M N : Nat} (x : (⟨2, ![M, N]⟩ : Shape).Idx → α) : Fin M → Fin N → α := fun a b => x (ix2 a b)

def cur1 {N : Nat} (x : (⟨1, ![N]⟩ : Shape).Idx → α) : Fin N → α := fun a => x (ix1 a)

def colOf {M : Nat} (x : (⟨2, ![M, 1]⟩ : Shape).Idx → α) : Fin M → α := fun a => x (ix2 a (0 : Fin 1))

def rowOf {N : Nat} (x : (⟨2, ![1, N]⟩ : Shape).Idx → α) : Fin N → α := fun b => x (ix2 (0 : Fin 1) b)

end Cert.Spec

end
-- ==== Proof.LibPlainDot.lean ====
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

theorem plain_lhs_row (j : (⟨2, ![M, N]⟩ : Shape).Idx) (q : (DotDims.plain M K N).contr.Idx) :
    ((DotDims.plain M K N).lhsIdx j q 0).val = (j 0).val := rfl

theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem plain_rhs_col (j : (⟨2, ![M, N]⟩ : Shape).Idx) (q : (DotDims.plain M K N).contr.Idx) :
    ((DotDims.plain M K N).rhsIdx j q 1).val = (j 1).val := rfl

theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
import proofs.«412806_j54228257079467_3_alg».proof.Proof.LibPlainDot

noncomputable section

namespace Cert.LibPlainAny

open Idealize.ShloMosaic Idealize.ShloMosaic.ValueIdx

variable (M K N : Nat)

theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.LibLayout2.lean ====
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.Rows.lean ====
import Idealize.ShloMosaic.PureOps.Ideal.Laws
import Idealize.ShloMosaic.Lib.ValueIdx
import Idealize.ShloMosaic.Lib.StableHlo.Predicate

noncomputable section

open scoped BigOperators

namespace Cert.Rows

open Idealize.ShloMosaic Idealize.ShloMosaic.ValueIdx

def rowOfWord (N : Nat) (hN : 0 < N) (x : BitVec 32) : Fin N := ⟨min x.toInt.toNat (N - 1), by omega⟩

def lands {N : Nat} (x : BitVec 32) (i : Fin N) : Prop := x.toInt = (i.val : Int)

instance {N : Nat} (x : BitVec 32) (i : Fin N) : Decidable (lands x i) := by unfold lands; infer_instance

theorem row_of_lands (N : Nat) (hN : 0 < N) (hN' : N < 2 ^ 31) (x : BitVec 32) (i : Fin N) (h : lands x i) :
    rowOfWord N hN x = i := by
  apply Fin.ext
  have hi := i.isLt
  unfold lands at h
  show min x.toInt.toNat (N - 1) = i.val
  rw [h]
  simp only [Int.toNat_natCast]
  omega

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq, funext_iff]
    exact forall_congr' fun a => by
      rw [Fin.ext_iff]
      show (d.start j idx a + (d.window j a : Int)).toNat = (i a).val ↔ _
      have := (h a).1
      omega
  · rename_i h
    exact iff_of_false (by simp) fun hall => h fun a => by have := hall a; have := (i a).isLt; omega

section ScatterRows
variable {N C E : Nat}

abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem rowsScatter_lands_iff (wf : ScatterDims.WF ⟨2, ![N, C]⟩ ⟨2, ![E, 1]⟩ ⟨2, ![E, C]⟩ [1] [0] [0] 1)
    (idx : IVec ⟨2, ![E, 1]⟩ 32) (j : (⟨2, ![E, C]⟩ : Shape).Idx) (i : Fin N) (q : Fin C) :
    (rowsScatter N C E wf).resultIdx? j idx = some (ix2 i q) ↔ lands (idx (ix2 (j 0) (0 : Fin 1))) i ∧ j 1 = q := by
  have h0 : (rowsScatter N C E wf).start j idx 0 + ((rowsScatter N C E wf).window j 0 : Int)
      = (idx (ix2 (j 0) (0 : Fin 1))).toInt := by
    unfold ScatterDims.start
    rw [dif_pos (List.mem_singleton.mpr rfl)]
    exact (Int.add_zero _).trans (congrArg (fun y => (idx y).toInt) ((eq_ix2 _).trans rfl))
  have h1 : (rowsScatter N C E wf).start j idx 1 + ((rowsScatter N C E wf).window j 1 : Int) = ((j 1).val : Int) :=
    Int.zero_add _
  rw [resultIdx?_eq_some_iff, Fin.forall_fin_two, h0, h1]
  exact and_congr Iff.rfl (Nat.cast_inj.trans Fin.val_inj)

theorem scatterAdd_rows_apply (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (x : FVec Ideal ⟨2, ![N, C]⟩ .f32) (idx : IVec ⟨2, ![E, 1]⟩ 32)
    (upd : FVec Ideal ⟨2, ![E, C]⟩ .f32) (i : Fin N) (q : Fin C) :
    Host.scatterAdd d x idx upd (ix2 i q)
      = x (ix2 i q) + ∑ j ∈ Finset.univ.filter (fun j : Fin E => lands (idx (ix2 j (0 : Fin 1))) i), upd (ix2 j q) := by
  obtain ⟨uw, iw, sd, iv, wf⟩ := d
  simp only at huw hiw hsd hivd
  subst huw hiw hsd hivd
  simp only [Host.scatterAdd, Ideal.hostScatterAdd_def, Ideal.hostScatterAdd]
  congr 1

  refine Finset.sum_bij' (fun j' _ => j' 0) (fun j _ => ix2 j q) ?_ ?_ ?_ ?_ ?_ <;>
    simp only [Finset.mem_filter, Finset.mem_univ, true_and, rowsScatter_lands_iff wf]
  · exact fun j' h => Finset.mem_filter.2 ⟨Finset.mem_univ _, h.1⟩
  · exact fun j h => ⟨h, rfl⟩
  · rintro j' ⟨-, rfl⟩; exact (eq_ix2 j').symm
  · exact fun _ _ => rfl
  · rintro j' ⟨-, rfl⟩; exact congrArg upd (eq_ix2 j')

end ScatterRows

section ScatterVec
variable {N E : Nat}

abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

theorem vecScatter_lands_iff (idx : IVec ⟨2, ![E, 1]⟩ 32) (j : (⟨1, ![E]⟩ : Shape).Idx) (i : Fin N) :
    (vecScatter N E wf).resultIdx? j idx = some (ix1 i) ↔ lands (idx (ix2 (j 0) (0 : Fin 1))) i := by
  have h0 : (vecScatter N E wf).start j idx 0 + ((vecScatter N E wf).window j 0 : Int)
      = (idx (ix2 (j 0) (0 : Fin 1))).toInt := by
    unfold ScatterDims.start
    rw [dif_pos (List.mem_singleton.mpr rfl)]
    exact (Int.add_zero _).trans (congrArg (fun y => (idx y).toInt) ((eq_ix2 _).trans rfl))
  rw [resultIdx?_eq_some_iff, Fin.forall_fin_one, h0]
  exact Iff.rfl

theorem scatterAdd_vec_apply (d : ScatterDims ⟨1, ![N]⟩ ⟨2, ![E, 1]⟩ ⟨1, ![E]⟩)
    (hiw : d.insertedWindowDims = [0]) (huw : d.updateWindowDims = []) (hsd : d.scatterDimsToOperandDims = [0])
    (hivd : d.indexVectorDim = 1) (x : FVec Ideal ⟨1, ![N]⟩ .f32) (idx : IVec ⟨2, ![E, 1]⟩ 32)
    (upd : FVec Ideal ⟨1, ![E]⟩ .f32) (i : Fin N) :
    Host.scatterAdd d x idx upd (ix1 i)
      = x (ix1 i) + ∑ j ∈ Finset.univ.filter (fun j : Fin E => lands (idx (ix2 j (0 : Fin 1))) i), upd (ix1 j) := by
  obtain ⟨uw, iw, sd, iv, wf⟩ := d
  simp only at huw hiw hsd hivd
  subst huw hiw hsd hivd
  simp only [Host.scatterAdd, Ideal.hostScatterAdd_def, Ideal.hostScatterAdd]
  congr 1

  refine Finset.sum_bij' (fun j' _ => j' 0) (fun j _ => ix1 j) ?_ ?_ ?_ ?_ ?_ <;>
    simp only [Finset.mem_filter, Finset.mem_univ, true_and, vecScatter_lands_iff wf]
  · exact fun j' h => Finset.mem_filter.2 ⟨Finset.mem_univ _, h⟩
  · exact fun j h => h
  · exact fun j' _ => (eq_ix1 j').symm
  · exact fun _ _ => rfl
  · exact fun j' _ => congrArg upd (eq_ix1 j')

end ScatterVec

section Gather
variable {α : Type} {N C E : Nat}

theorem gather_rows_apply (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ 32) (j : Fin E) (q : Fin C) (hN : 0 < N) :
    Host.gather d x idx (ix2 j q) = x (ix2 (rowOfWord N hN (idx (ix2 j (0 : Fin 1)))) q) := by
  obtain ⟨od, cd, ob, sb, sm, iv, ss, wf⟩ := d
  simp only at hoff hcoll hob hsim hivd hss
  subst hoff hcoll hob hsim hivd hss
  unfold Host.gather
  congr 1
  funext a
  refine Fin.ext ?_
  match a with
  | ⟨0, _⟩ =>
    show GatherDims.start _ (ix2 j q) idx 0 + GatherDims.batchCoord _ (ix2 j q) 0 + GatherDims.offCoord _ (ix2 j q) 0
      = min (idx (ix2 j (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl),
      show GatherDims.siIdx _ (ix2 j q) ⟨List.idxOf (0 : Fin 2) [0], List.idxOf_lt_length_iff.2 (List.mem_singleton.mpr rfl)⟩
        = ix2 j (0 : Fin 1) from (eq_ix2 _).trans rfl]
    rfl
  | ⟨1, _⟩ =>
    show GatherDims.start _ (ix2 j q) idx 1 + GatherDims.batchCoord _ (ix2 j q) 1 + GatherDims.offCoord _ (ix2 j q) 1 = q.val
    rw [GatherDims.batchCoord_eq_zero _ _ _ List.not_mem_nil]
    exact Nat.zero_add _

end Gather

section GatherVec
variable {α : Type} {N E : Nat}

theorem gather_vec_apply (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ 32) (j : Fin E) (hN : 0 < N) :
    Host.gather d x idx (ix1 j) = x (ix1 (rowOfWord N hN (idx (ix2 j (0 : Fin 1))))) := by

  have e1 : (ix1 j : (⟨1, ![E]⟩ : Shape).Idx) = Shape.Idx.ofFin j := by
    funext a; match a with | ⟨0, _⟩ => exact Fin.ext rfl
  have e2 : StableHlo.Predicate.ixP j = ix2 j (0 : Fin 1) := by
    funext a; match a with | ⟨0, _⟩ => rfl | ⟨1, _⟩ => rfl
  rw [e1, StableHlo.Predicate.gather_take d hcoll hob hsim hivd x idx j hN]
  congr 1
  funext a
  match a with
  | ⟨0, _⟩ =>
    refine Fin.ext ?_
    show min (idx (StableHlo.Predicate.ixP j)).toInt.toNat (N - 1) = min (idx (ix2 j (0 : Fin 1))).toInt.toNat (N - 1)
    rw [e2]

end GatherVec

theorem norm_of_lands {N : Nat} (x n : BitVec 32) (i : Fin N) (h : lands x i) :
    Scalar.select (IntOp.cmpi .slt x 0#32) (IntOp.addi x n) x = x := by
  have hx : 0 ≤ x.toInt := by unfold lands at h; rw [h]; exact Int.natCast_nonneg _
  have hs : x.slt 0#32 = false := by simp [BitVec.slt, hx]
  have hc : IntOp.cmpi .slt x 0#32 = 0#1 := by
    show BitVec.ofBool (x.slt 0#32) = 0#1
    rw [hs]; rfl
  rw [hc]
  exact select_zero _ _

theorem row_of_norm_lands (N : Nat) (hN : 0 < N) (hN' : N < 2 ^ 31) (x n : BitVec 32) (i : Fin N) (h : lands x i) :
    rowOfWord N hN (Scalar.select (IntOp.cmpi .slt x 0#32) (IntOp.addi x n) x) = i := by
  rw [norm_of_lands x n i h]
  exact row_of_lands N hN hN' x i h

end Cert.Rows

end
-- ==== Proof.RefTail.lean ====
import proofs.«412806_j54228257079467_3_alg».proof.Proof.RefRead
import proofs.«412806_j54228257079467_3_alg».proof.Proof.Spec
import proofs.«412806_j54228257079467_3_alg».proof.Proof.Cur
import proofs.«412806_j54228257079467_3_alg».proof.Proof.LibPlainDot
import proofs.«412806_j54228257079467_3_alg».proof.Proof.LibPlainAny
import proofs.«412806_j54228257079467_3_alg».proof.Proof.LibLayout2
import proofs.«412806_j54228257079467_3_alg».proof.Proof.Rows
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.StageP

open Cert.ReferenceIdeal Cert.ReferenceIdeal.Gen Idealize.ShloMosaic Idealize.ShloMosaic.TcCoe Idealize.ShloMosaic.ValueIdx

theorem hostAffine (M K N : Nat) (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1]) :
    Spec.cur2 (addf (Host.dotGeneral (F := Ideal) (DotDims.plain M K N) none x w)
        (broadcastInDim ⟨2, ![M, N]⟩ ![0, 1] h2 (broadcastInDim ⟨2, ![1, N]⟩ ![1] h1 b)))
      = Spec.addRow (Spec.mm (Spec.cur2 x) (Spec.cur2 w)) (Spec.cur1 b) := by
  funext r q
  show addf _ _ (ix2 r q) = (∑ j : Fin K, x (ix2 r j) * w (ix2 j q)) + b (ix1 q)
  rw [addf_apply, Cert.LibPlainAny.dotGeneral_plain_any, Cert.LibLayout2.bcast_row_apply, Cert.LibLayout2.bcast_vec_row_apply]

theorem hostHidden (M K N : Nat) (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) :
    Spec.cur2 (maximumf (addf (Host.dotGeneral (F := Ideal) (DotDims.plain M K N) none x w)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)))
      = Spec.dense (Spec.cur2 x) (Spec.cur2 w) (Spec.cur1 b) := by
  funext r q
  have hz : broadcastInDim ⟨2, ![M, N]⟩ ![] h0 (constant (F := Ideal) ⟨0, ![]⟩ .f32 0x00000000#32) (ix2 r q) = 0 :=
    (broadcastInDim_apply (s := ⟨0, ![]⟩) (t := ⟨2, ![M, N]⟩) ![] h0 (constant (F := Ideal) ⟨0, ![]⟩ .f32 0x00000000#32) (ix2 r q)
      (fun a => a.elim0) (fun a => a.elim0)).trans Ideal.ofBits_zero_f32
  exact congrArg₂ max (congrFun (congrFun (hostAffine M K N x w b h1 h2) r) q) hz

variable (x0 : S50000x64.Idx → EReal) (x1 x2 : S256x3.Idx → EReal) (x3 : S2x800000.Idx → BitVec 32) (x4 : S50000.Idx → BitVec 32)
  (x5 : S64x128.Idx → EReal) (x6 : S128.Idx → EReal) (x7 : S128x128.Idx → EReal) (x8 : S128.Idx → EReal) (x9 : S128x128.Idx → EReal)
  (x10 x11 x12 x13 x14 x15 x16 : S128.Idx → EReal)
  (x17 : S134x1024.Idx → EReal) (x18 : S1024.Idx → EReal) (x19 : S1024x1024.Idx → EReal) (x20 : S1024.Idx → EReal)
  (x21 : S1024x1024.Idx → EReal) (x22 : S1024.Idx → EReal) (x23 : S1024x3.Idx → EReal) (x24 : S3.Idx → EReal)

local notation "nodes198" => ReadP.val_main_v198 (F := Ideal) x0 x3 x5 x6 x7 x8 x9 x10 x11 x12 x13 x14 x15 x16
local notation "pooled210" => ReadP.val_main_v210 (F := Ideal) x0 x3 x4 x5 x6 x7 x8 x9 x10 x11 x12 x13 x14 x15 x16
local notation "z211" => ReadP.val_main_v211 (F := Ideal) x0 x1 x2 x3 x4 x5 x6 x7 x8 x9 x10 x11 x12 x13 x14 x15 x16
local notation "h216" => ReadP.val_main_v216 (F := Ideal) x0 x1 x2 x3 x4 x5 x6 x7 x8 x9 x10 x11 x12 x13 x14 x15 x16 x17 x18
local notation "h221" => ReadP.val_main_v221 (F := Ideal) x0 x1 x2 x3 x4 x5 x6 x7 x8 x9 x10 x11 x12 x13 x14 x15 x16 x17 x18 x19 x20
local notation "h226" => ReadP.val_main_v226 (F := Ideal) x0 x1 x2 x3 x4 x5 x6 x7 x8 x9 x10 x11 x12 x13 x14 x15 x16 x17 x18 x19 x20 x21 x22
local notation "out230" => ReadP.val_main_v230 (F := Ideal) x0 x1 x2 x3 x4 x5 x6 x7 x8 x9 x10 x11 x12 x13 x14 x15 x16 x17 x18 x19 x20 x21 x22 x23 x24

theorem ref_h216 : Spec.cur2 h216 = Spec.dense (Spec.cur2 z211) (Spec.cur2 x17) (Spec.cur1 x18) := by
  unfold ReadP.val_main_v216 ReadP.val_main_v215 ReadP.val_main_v212 ReadP.val_main_v214 ReadP.val_main_v213
    ReadP.val_main_call2_v0 ReadP.val_main_call2_cst
  exact hostHidden 256 134 1024 _ x17 x18 _ _ _

theorem ref_h221 : Spec.cur2 h221 = Spec.dense (Spec.cur2 h216) (Spec.cur2 x19) (Spec.cur1 x20) := by
  unfold ReadP.val_main_v221 ReadP.val_main_v220 ReadP.val_main_v217 ReadP.val_main_v219 ReadP.val_main_v218
    ReadP.val_main_call3_v0 ReadP.val_main_call3_cst
  exact hostHidden 256 1024 1024 _ x19 x20 _ _ _

theorem ref_h226 : Spec.cur2 h226 = Spec.dense (Spec.cur2 h221) (Spec.cur2 x21) (Spec.cur1 x22) := by
  unfold ReadP.val_main_v226 ReadP.val_main_v225 ReadP.val_main_v222 ReadP.val_main_v224 ReadP.val_main_v223
    ReadP.val_main_call4_v0 ReadP.val_main_call4_cst
  exact hostHidden 256 1024 1024 _ x21 x22 _ _ _

theorem ref_o230 : Spec.cur2 out230 = Spec.addRow (Spec.mm (Spec.cur2 h226) (Spec.cur2 x23)) (Spec.cur1 x24) := by
  unfold ReadP.val_main_v230 ReadP.val_main_v227 ReadP.val_main_v229 ReadP.val_main_v228
  exact hostAffine 256 1024 3 _ x23 x24 _ _

theorem ref_out (a : Fin 256) (q : Fin 3) :
    out230 (ix2 a q)
      = Spec.addRow (Spec.mm (Spec.dense (Spec.dense (Spec.dense (Spec.cur2 z211) (Spec.cur2 x17) (Spec.cur1 x18))
          (Spec.cur2 x19) (Spec.cur1 x20)) (Spec.cur2 x21) (Spec.cur1 x22)) (Spec.cur2 x23)) (Spec.cur1 x24) a q := by
  rw [← ref_h216, ← ref_h221, ← ref_h226, ← ref_o230]
  rfl

theorem ref_z (a : Fin 256) (q : Fin 134) :
    z211 (ix2 a q) = Spec.cat3 (Spec.cur2 pooled210) (Spec.cur2 x1) (Spec.cur2 x2) a q := by
  unfold ReadP.val_main_v211 Spec.cat3
  generalize pooled210 = y
  by_cases h1 : q.val < 128
  · rw [dif_pos h1]
    exact concatenate_apply_piece (1 : Fin 2) [⟨S256x128, y⟩, ⟨S256x3, x1⟩, ⟨S256x3, x2⟩] _ (ix2 a q) 0 (by simp) S256x128 y rfl rfl 0 rfl (ix2 a (⟨q.val, h1⟩ : Fin 128))
      (fun b hb => by
        match b with
        | ⟨0, _⟩ => rfl
        | ⟨1, _⟩ => exact absurd rfl hb)
      (by show 0 + q.val = q.val; omega)
  · rw [dif_neg h1]
    by_cases h2 : q.val < 128 + 3
    · rw [dif_pos h2]
      exact concatenate_apply_piece (1 : Fin 2) [⟨S256x128, y⟩, ⟨S256x3, x1⟩, ⟨S256x3, x2⟩] _ (ix2 a q) 1 (by simp) S256x3 x1 rfl rfl 128 rfl (ix2 a (⟨q.val - 128, by omega⟩ : Fin 3))
        (fun b hb => by
          match b with
          | ⟨0, _⟩ => rfl
          | ⟨1, _⟩ => exact absurd rfl hb)
        (by show 128 + (q.val - 128) = q.val; omega)
    · rw [dif_neg h2]
      exact concatenate_apply_piece (1 : Fin 2) [⟨S256x128, y⟩, ⟨S256x3, x1⟩, ⟨S256x3, x2⟩] _ (ix2 a q) 2 (by simp) S256x3 x2 rfl rfl 131 rfl (ix2 a (⟨q.val - (128 + 3), by have := q.isLt; omega⟩ : Fin 3))
        (fun b hb => by
          match b with
          | ⟨0, _⟩ => rfl
          | ⟨1, _⟩ => exact absurd rfl hb)
        (by show 131 + (q.val - (128 + 3)) = q.val; omega)

theorem word_one_f32 : Ideal.ofBits .f32 0x3F800000#32 = 1 := by
  simp [Ideal.ofBits, Ideal.ieee, -EReal.coe_mul]; norm_num

theorem zeros199 (i : S256x128.Idx) : ReadP.val_main_v199 (F := Ideal) i = 0 := by
  rw [ReadP.val_main_v199_apply, ReadP.val_main_cst_37_apply]; exact Ideal.ofBits_zero_f32

theorem ones202 (i : S50000.Idx) : ReadP.val_main_v202 (F := Ideal) i = 1 := by
  rw [ReadP.val_main_v202_apply, ReadP.val_main_cst_38_apply]; exact word_one_f32

theorem zeros203 (i : S256.Idx) : ReadP.val_main_v203 (F := Ideal) i = 0 := by
  rw [ReadP.val_main_v203_apply, ReadP.val_main_cst_39_apply]; exact Ideal.ofBits_zero_f32

theorem ones206 (i : S256.Idx) : ReadP.val_main_v206 (F := Ideal) i = 1 := by
  rw [ReadP.val_main_v206_apply, ReadP.val_main_cst_40_apply]; exact word_one_f32

theorem idx200 (n : Fin 50000) : ReadP.val_main_v200 (F := Ideal) x4 (ix2 n (0 : Fin 1)) = x4 (ix1 n) := by
  rw [ReadP.val_main_v200_apply]
  exact congrArg x4 (funext fun d => by match d with | ⟨0, _⟩ => rfl)
theorem idx204 (n : Fin 50000) : ReadP.val_main_v204 (F := Ideal) x4 (ix2 n (0 : Fin 1)) = x4 (ix1 n) := idx200 x4 n

theorem ref_den (a : Fin 256) (q : Fin 128) :
    ReadP.val_main_v209 (F := Ideal) x4 (ix2 a q) = max (ReadP.val_main_v205 (F := Ideal) x4 (ix1 a)) 1 := by
  rw [ReadP.val_main_v209_apply, ReadP.val_main_v208_apply, ReadP.val_main_v207_apply, ones206]
  have e : ReadP.idx_main_v208 (ReadP.idx_main_v209 (ix2 a q)) = ix1 a := funext fun d => by match d with | ⟨0, _⟩ => rfl
  rw [e]
  rfl

def graphOf (x4 : S50000.Idx → BitVec 32) (n : Fin 50000) (a : Fin 256) : Prop := Cert.Rows.lands (x4 (ix1 n)) a

instance (x4 : S50000.Idx → BitVec 32) (n : Fin 50000) (a : Fin 256) : Decidable (graphOf x4 n a) := by
  unfold graphOf; infer_instance

theorem landing200 (a : Fin 256) :
    Finset.univ.filter (fun j : Fin 50000 => Cert.Rows.lands (ReadP.val_main_v200 (F := Ideal) x4 (ix2 j (0 : Fin 1))) a)
      = Finset.univ.filter (fun n : Fin 50000 => graphOf x4 n a) :=
  Finset.filter_congr fun n _ => by unfold graphOf; rw [idx200]
theorem landing204 (a : Fin 256) :
    Finset.univ.filter (fun j : Fin 50000 => Cert.Rows.lands (ReadP.val_main_v204 (F := Ideal) x4 (ix2 j (0 : Fin 1))) a)
      = Finset.univ.filter (fun n : Fin 50000 => graphOf x4 n a) := landing200 x4 a

theorem ref_num (a : Fin 256) (q : Fin 128) :
    ReadP.val_main_v201 (F := Ideal) x0 x3 x4 x5 x6 x7 x8 x9 x10 x11 x12 x13 x14 x15 x16 (ix2 a q)
      = 0 + ∑ n ∈ Finset.univ.filter (fun n : Fin 50000 => graphOf x4 n a), nodes198 (ix2 n q) := by
  unfold ReadP.val_main_v201
  rw [Cert.Rows.scatterAdd_rows_apply scatter_S256x128_S50000x1_S50000x128_1_0_0_1 rfl rfl rfl rfl, zeros199, landing200]

theorem ref_cnt (a : Fin 256) :
    ReadP.val_main_v205 (F := Ideal) x4 (ix1 a)
      = 0 + ∑ _n ∈ Finset.univ.filter (fun n : Fin 50000 => graphOf x4 n a), (1 : EReal) := by
  unfold ReadP.val_main_v205
  rw [Cert.Rows.scatterAdd_vec_apply scatter_S256_S50000x1_S50000_n_0_0_1 rfl rfl rfl rfl, zeros203, landing204]
  exact congrArg (fun s => (0 : EReal) + s) (Finset.sum_congr rfl fun n _ => ones202 (ix1 n))

theorem ref_pooled (a : Fin 256) (q : Fin 128) :
    pooled210 (ix2 a q) = Spec.poolR (graphOf x4) (Spec.cur2 nodes198) a q := by
  rw [ReadP.val_main_v210_apply]
  show Ideal.div _ _ = _
  rw [ref_num, ref_den, ref_cnt]
  rfl

end Cert.ReferenceIdeal.StageP

end
-- ==== Proof.Net.lean ====
import proofs.«412806_j54228257079467_3_alg».proof.Proof.Spec

noncomputable section

namespace Cert.Spec

open Idealize.ShloMosaic

variable {n k c e g T B np Tp Bp : Nat}

def nodeWeight (P : Fin e → Fin n → Prop) [∀ j i, Decidable (P j i)] : Fin n → EReal :=
  fun i => Ideal.rsqrt ((0 + ∑ _j ∈ Finset.univ.filter (fun j : Fin e => P j i), (1 : EReal)) + 1)

def layerK (dis : Fin n → EReal) (P : Fin e → Fin n → Prop) [∀ j i, Decidable (P j i)] (src : Fin e → Fin n)
    (h : Fin n → Fin k → EReal) (w : Fin k → Fin c → EReal) (b : Fin c → EReal) : Fin n → Fin c → EReal :=
  preK dis (aggK P src (scaled (mm h w) dis)) (mm h w) b

def layerR (dis : Fin n → EReal) (P : Fin e → Fin n → Prop) [∀ j i, Decidable (P j i)] (src dst : Fin e → Fin n)
    (h : Fin n → Fin k → EReal) (w : Fin k → Fin c → EReal) (b : Fin c → EReal) : Fin n → Fin c → EReal :=
  preR dis (aggR P src dst (mm h w) dis) (mm h w) b

def normK (hTB : T * B = n) (N eps : EReal) (v : Fin n → Fin c → EReal) (gam bet : Fin c → EReal) : Fin n → Fin c → EReal :=
  bn eps v (meanK hTB N v) (varK hTB N v) gam bet

def normR (N eps : EReal) (v : Fin n → Fin c → EReal) (gam bet : Fin c → EReal) : Fin n → Fin c → EReal :=
  bn eps v (meanR N v) (varR N v) gam bet

def gnnK {f : Nat} (hTB : T * B = n) (N eps : EReal) (dis : Fin n → EReal) (P : Fin e → Fin n → Prop) [∀ j i, Decidable (P j i)]
    (src : Fin e → Fin n) (x : Fin n → Fin f → EReal)
    (w1 : Fin f → Fin c → EReal) (b1 g1 be1 : Fin c → EReal) (w2 : Fin c → Fin c → EReal) (b2 g2 be2 : Fin c → EReal)
    (w3 : Fin c → Fin c → EReal) (b3 g3 be3 : Fin c → EReal) : Fin n → Fin c → EReal :=
  normK hTB N eps (layerK dis P src
    (relu (normK hTB N eps (layerK dis P src
      (relu (normK hTB N eps (layerK dis P src x w1 b1) g1 be1)) w2 b2) g2 be2)) w3 b3) g3 be3

def gnnR {f : Nat} (N eps : EReal) (dis : Fin n → EReal) (P : Fin e → Fin n → Prop) [∀ j i, Decidable (P j i)]
    (src dst : Fin e → Fin n) (x : Fin n → Fin f → EReal)
    (w1 : Fin f → Fin c → EReal) (b1 g1 be1 : Fin c → EReal) (w2 : Fin c → Fin c → EReal) (b2 g2 be2 : Fin c → EReal)
    (w3 : Fin c → Fin c → EReal) (b3 g3 be3 : Fin c → EReal) : Fin n → Fin c → EReal :=
  normR N eps (layerR dis P src dst
    (relu (normR N eps (layerR dis P src dst
      (relu (normR N eps (layerR dis P src dst x w1 b1) g1 be1)) w2 b2) g2 be2)) w3 b3) g3 be3

def head {c1 c2 c3 d1 d2 : Nat} (pooled : Fin g → Fin c1 → EReal) (orig : Fin g → Fin c2 → EReal) (dir : Fin g → Fin c3 → EReal)
    (w0 : Fin (c1 + c2 + c3) → Fin d1 → EReal) (b0 : Fin d1 → EReal) (w1 : Fin d1 → Fin d1 → EReal) (b1 : Fin d1 → EReal)
    (w2 : Fin d1 → Fin d1 → EReal) (b2 : Fin d1 → EReal) (wo : Fin d1 → Fin d2 → EReal) (bo : Fin d2 → EReal) :
    Fin g → Fin d2 → EReal :=
  addRow (mm (dense (dense (dense (cat3 pooled orig dir) w0 b0) w1 b1) w2 b2) wo) bo

end Cert.Spec

end
-- ==== Proof.Real.lean ====
import proofs.«412806_j54228257079467_3_alg».proof.Proof.Spec

noncomputable section

namespace Cert.Spec

open Idealize.ShloMosaic

variable {n k c e g T B np : Nat}

def IsReal2 (x : Fin n → Fin c → EReal) : Prop := ∀ r q, ∃ y : ℝ, x r q = (y : EReal)

def IsReal1 (x : Fin c → EReal) : Prop := ∀ q, ∃ y : ℝ, x q = (y : EReal)

def IsNonneg1 (x : Fin c → EReal) : Prop := ∀ q, ∃ y : ℝ, 0 ≤ y ∧ x q = (y : EReal)

def IsPos1 (x : Fin c → EReal) : Prop := ∀ q, ∃ y : ℝ, 0 < y ∧ x q = (y : EReal)

end Cert.Spec

end
-- ==== Proof.LawsGcn.lean ====
import proofs.«412806_j54228257079467_3_alg».proof.Proof.Spec
import proofs.«412806_j54228257079467_3_alg».proof.Proof.Real

noncomputable section

namespace Cert.Spec

open Idealize.ShloMosaic

variable {n k c e g T B np : Nat}

theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_real {ι : Type} (s : Finset ι) (f : ι → EReal) (hf : ∀ i ∈ s, ∃ y : ℝ, f i = (y : EReal)) :
    ∃ y : ℝ, ∑ i ∈ s, f i = (y : EReal) := by
  classical

  have hf' : ∀ i, ∃ y : ℝ, i ∈ s → f i = (y : EReal) := by
    intro i
    by_cases hi : i ∈ s
    · obtain ⟨y, hy⟩ := hf i hi
      exact ⟨y, fun _ => hy⟩
    · exact ⟨0, fun h => absurd h hi⟩
  choose Y hY using hf'
  refine ⟨∑ i ∈ s, Y i, ?_⟩
  rw [coe_sum_real]
  exact Finset.sum_congr rfl fun i hi => hY i hi

theorem mm_real (a : Fin n → Fin k → EReal) (b : Fin k → Fin c → EReal) (ha : IsReal2 a) (hb : IsReal2 b) : IsReal2 (mm a b) := by
  intro r q
  refine sum_real _ _ fun j _ => ?_
  obtain ⟨x, hx⟩ := ha r j
  obtain ⟨y, hy⟩ := hb j q
  exact ⟨x * y, by rw [hx, hy, EReal.coe_mul]⟩

theorem scaled_real (xw : Fin n → Fin c → EReal) (dis : Fin n → EReal) (hxw : IsReal2 xw) (hdis : IsReal1 dis) :
    IsReal2 (scaled xw dis) := by
  intro r q
  obtain ⟨x, hx⟩ := hxw r q
  obtain ⟨d, hd⟩ := hdis r
  exact ⟨x * d, by rw [scaled, hx, hd, EReal.coe_mul]⟩

theorem addRow_real (x : Fin n → Fin c → EReal) (b : Fin c → EReal) (hx : IsReal2 x) (hb : IsReal1 b) : IsReal2 (addRow x b) := by
  intro r q
  obtain ⟨y, hy⟩ := hx r q
  obtain ⟨z, hz⟩ := hb q
  exact ⟨y + z, by rw [addRow, hy, hz, EReal.coe_add]⟩

theorem relu_real (x : Fin n → Fin c → EReal) (hx : IsReal2 x) : IsReal2 (relu x) := by
  intro r q
  obtain ⟨y, hy⟩ := hx r q

  rcases max_choice (x r q) 0 with h | h
  · exact ⟨y, by rw [relu, h, hy]⟩
  · exact ⟨0, by rw [relu, h, EReal.coe_zero]⟩

theorem pre_eq (P : Fin e → Fin n → Prop) [∀ j i, Decidable (P j i)] (src dst : Fin e → Fin n)
    (hd : ∀ j i, P j i → dst j = i) (xw : Fin n → Fin c → EReal) (dis : Fin n → EReal) (b : Fin c → EReal)
    (hxw : IsReal2 xw) (hdis : IsReal1 dis) :
    preK dis (aggK P src (scaled xw dis)) xw b = preR dis (aggR P src dst xw dis) xw b := by
  choose X hX using hxw
  choose D hD using hdis
  funext r q

  have key : dis r * aggK P src (scaled xw dis) r q = aggR P src dst xw dis r q := by
    have hL : ∑ j ∈ Finset.univ.filter (fun j => P j r), scaled xw dis (src j) q
        = ((∑ j ∈ Finset.univ.filter (fun j => P j r), X (src j) q * D (src j) : ℝ) : EReal) := by
      rw [coe_sum_real]
      refine Finset.sum_congr rfl fun j _ => ?_
      rw [scaled, hX, hD, EReal.coe_mul]
    have hR : ∑ j ∈ Finset.univ.filter (fun j => P j r), xw (src j) q * (dis (src j) * dis (dst j))
        = ((∑ j ∈ Finset.univ.filter (fun j => P j r), X (src j) q * (D (src j) * D r) : ℝ) : EReal) := by
      rw [coe_sum_real]
      refine Finset.sum_congr rfl fun j hj => ?_
      rw [hd j r (Finset.mem_filter.mp hj).2, hX, hD, hD, EReal.coe_mul, EReal.coe_mul]
    rw [aggK, aggR, zero_add, zero_add, hL, hR, hD, ← EReal.coe_mul, Finset.mul_sum]
    congr 1
    refine Finset.sum_congr rfl fun j _ => ?_
    ring
  show dis r * aggK P src (scaled xw dis) r q + xw r q * (dis r * dis r) + b q
      = aggR P src dst xw dis r q + xw r q * (dis r * dis r) + b q
  rw [key]

theorem preR_real (P : Fin e → Fin n → Prop) [∀ j i, Decidable (P j i)] (src dst : Fin e → Fin n)
    (xw : Fin n → Fin c → EReal) (dis : Fin n → EReal) (b : Fin c → EReal)
    (hxw : IsReal2 xw) (hdis : IsReal1 dis) (hb : IsReal1 b) :
    IsReal2 (preR dis (aggR P src dst xw dis) xw b) := by
  intro r q

  obtain ⟨s, hs⟩ := sum_real (Finset.univ.filter (fun j => P j r))
    (fun j => xw (src j) q * (dis (src j) * dis (dst j))) (fun j _ => by
      obtain ⟨x, hx⟩ := hxw (src j) q
      obtain ⟨d1, hd1⟩ := hdis (src j)
      obtain ⟨d2, hd2⟩ := hdis (dst j)
      exact ⟨x * (d1 * d2), by rw [hx, hd1, hd2, EReal.coe_mul, EReal.coe_mul]⟩)
  obtain ⟨x, hx⟩ := hxw r q
  obtain ⟨d, hd⟩ := hdis r
  obtain ⟨z, hz⟩ := hb q
  refine ⟨s + x * (d * d) + z, ?_⟩
  show 0 + ∑ j ∈ Finset.univ.filter (fun j => P j r), xw (src j) q * (dis (src j) * dis (dst j))
      + xw r q * (dis r * dis r) + b q = _
  rw [zero_add, hs, hx, hd, hz, EReal.coe_add, EReal.coe_add, EReal.coe_mul, EReal.coe_mul]

theorem weight_real (P : Fin e → Fin n → Prop) [∀ j i, Decidable (P j i)] :
    IsPos1 (fun i : Fin n => Ideal.rsqrt ((0 + ∑ _j ∈ Finset.univ.filter (fun j : Fin e => P j i), (1 : EReal)) + 1)) := by
  intro i

  have hcnt : (0 + ∑ _j ∈ Finset.univ.filter (fun j : Fin e => P j i), (1 : EReal)) + 1
      = (((∑ _j ∈ Finset.univ.filter (fun j : Fin e => P j i), (1 : ℝ)) + 1 : ℝ) : EReal) := by
    rw [zero_add, EReal.coe_add, coe_sum_real, EReal.coe_one]
  have hpos : (0 : ℝ) < (∑ _j ∈ Finset.univ.filter (fun j : Fin e => P j i), (1 : ℝ)) + 1 := by
    have : (0 : ℝ) ≤ ∑ _j ∈ Finset.univ.filter (fun j : Fin e => P j i), (1 : ℝ) :=
      Finset.sum_nonneg fun _ _ => zero_le_one
    linarith
  refine ⟨(Real.sqrt ((∑ _j ∈ Finset.univ.filter (fun j : Fin e => P j i), (1 : ℝ)) + 1))⁻¹,
    inv_pos.mpr (Real.sqrt_pos.mpr hpos), ?_⟩
  show Ideal.rsqrt ((0 + ∑ _j ∈ Finset.univ.filter (fun j : Fin e => P j i), (1 : EReal)) + 1) = _
  rw [hcnt, Ideal.rsqrt_coe, if_neg (not_lt.mpr hpos.le), if_neg hpos.ne']

end Cert.Spec

end
-- ==== Proof.LawsBn.lean ====
import proofs.«412806_j54228257079467_3_alg».proof.Proof.Spec
import proofs.«412806_j54228257079467_3_alg».proof.Proof.Real

noncomputable section

namespace Cert.Spec

open Idealize.ShloMosaic

variable {n k c e g T B np : Nat}

theorem coe_sum_of_reals {ι : Type} (s : Finset ι) (u : ι → ℝ) :
    ((∑ i ∈ s, u i : ℝ) : EReal) = ∑ i ∈ s, (u i : EReal) := by
  classical
  refine Finset.induction_on s (by simp) ?_
  intro a s ha ih
  rw [Finset.sum_insert ha, Finset.sum_insert ha, EReal.coe_add, ih]

theorem IsReal2.exists_fun {v : Fin n → Fin c → EReal} (hv : IsReal2 v) :
    ∃ w : Fin n → Fin c → ℝ, v = fun r q => (w r q : EReal) := by
  choose w hw using hv
  exact ⟨w, by funext r q; exact hw r q⟩

theorem real_var_identity (hn : 0 < n) (w : Fin n → ℝ) :
    (∑ r, w r * w r) * (1 / (n : ℝ)) - ((∑ r, w r) * (1 / (n : ℝ))) * ((∑ r, w r) * (1 / (n : ℝ)))
      = (∑ r, (w r - (∑ r, w r) * (1 / (n : ℝ))) * (w r - (∑ r, w r) * (1 / (n : ℝ)))) * (1 / (n : ℝ)) := by
  have hn' : (n : ℝ) ≠ 0 := by exact_mod_cast hn.ne'
  have hexp : ∀ m : ℝ, ∀ r, (w r - m) * (w r - m) = w r * w r - 2 * m * w r + m * m := by
    intro m r; ring
  simp_rw [hexp, Finset.sum_add_distrib, Finset.sum_sub_distrib, ← Finset.mul_sum, Finset.sum_const,
    Finset.card_univ, Fintype.card_fin, nsmul_eq_mul]
  field_simp
  ring

theorem meanR_coe (hn : 0 < n) (w : Fin n → Fin c → ℝ) (q : Fin c) :
    meanR ((n : ℝ) : EReal) (fun r q => (w r q : EReal)) q = (((∑ r, w r q) * (1 / (n : ℝ)) : ℝ) : EReal) := by
  have hn' : (n : ℝ) ≠ 0 := by exact_mod_cast hn.ne'
  simp only [meanR, zero_add, Ideal.div_coe hn']
  rw [← coe_sum_of_reals, ← EReal.coe_mul]

theorem varR_coe (hn : 0 < n) (w : Fin n → Fin c → ℝ) (q : Fin c) :
    varR ((n : ℝ) : EReal) (fun r q => (w r q : EReal)) q
      = (((∑ r, (w r q - (∑ r, w r q) * (1 / (n : ℝ))) * (w r q - (∑ r, w r q) * (1 / (n : ℝ)))) * (1 / (n : ℝ)) : ℝ) : EReal) := by
  have hn' : (n : ℝ) ≠ 0 := by exact_mod_cast hn.ne'
  simp only [varR, meanR_coe hn, zero_add, Ideal.div_coe hn']
  simp only [← EReal.coe_sub, ← EReal.coe_mul, ← coe_sum_of_reals]

theorem sumBlocks_eq (h : T * B = n) (f : Fin n → EReal) : sumBlocks h f = ∑ r : Fin n, f r := by
  subst h
  unfold sumBlocks

  rw [← Fintype.sum_prod_type' (f := fun t r => f (blkRow rfl t r)), ← finProdFinEquiv.sum_comp]
  refine Finset.sum_congr rfl ?_
  rintro ⟨t, r⟩ _
  congr 1
  apply Fin.ext
  simp only [blkRow, finProdFinEquiv_apply_val]
  ring

theorem mean_eq (h : T * B = n) (N : EReal) (v : Fin n → Fin c → EReal) : meanK h N v = meanR N v := by
  funext q
  simp only [meanK, meanR, sumBlocks_eq, zero_add]

theorem var_eq (h : T * B = n) (hn : 0 < n) (N : EReal) (hN : N = ((n : ℝ) : EReal)) (v : Fin n → Fin c → EReal) (hv : IsReal2 v) :
    varK h N v = varR N v := by
  obtain ⟨w, rfl⟩ := hv.exists_fun
  subst hN
  have hn' : (n : ℝ) ≠ 0 := by exact_mod_cast hn.ne'
  funext q
  rw [varR_coe hn]
  simp only [varK, mean_eq, meanR_coe hn, sumBlocks_eq, Ideal.div_coe hn']
  simp only [← EReal.coe_mul, ← coe_sum_of_reals, ← EReal.coe_sub]
  rw [real_var_identity hn (fun r => w r q)]

  refine max_eq_left ?_
  rw [EReal.coe_nonneg]
  exact mul_nonneg (Finset.sum_nonneg (fun r _ => mul_self_nonneg _)) (one_div_nonneg.mpr (Nat.cast_nonneg n))

theorem meanR_real (hn : 0 < n) (N : EReal) (hN : N = ((n : ℝ) : EReal)) (v : Fin n → Fin c → EReal) (hv : IsReal2 v) :
    IsReal1 (meanR N v) := by
  obtain ⟨w, rfl⟩ := hv.exists_fun
  subst hN
  intro q
  exact ⟨_, meanR_coe hn w q⟩

theorem varR_nonneg (hn : 0 < n) (N : EReal) (hN : N = ((n : ℝ) : EReal)) (v : Fin n → Fin c → EReal) (hv : IsReal2 v) :
    IsNonneg1 (varR N v) := by
  obtain ⟨w, rfl⟩ := hv.exists_fun
  subst hN
  intro q
  refine ⟨_, ?_, varR_coe hn w q⟩
  exact mul_nonneg (Finset.sum_nonneg (fun r _ => mul_self_nonneg _)) (one_div_nonneg.mpr (Nat.cast_nonneg n))

theorem bn_real (eps : EReal) (ε : ℝ) (hε : 0 < ε) (heps : eps = (ε : EReal)) (v : Fin n → Fin c → EReal)
    (mean var gam bet : Fin c → EReal) (hv : IsReal2 v) (hm : IsReal1 mean) (hvar : IsNonneg1 var) (hg : IsReal1 gam)
    (hb : IsReal1 bet) : IsReal2 (bn eps v mean var gam bet) := by
  intro r q
  obtain ⟨a, ha⟩ := hv r q
  obtain ⟨m, hm'⟩ := hm q
  obtain ⟨y, hy, hy'⟩ := hvar q
  obtain ⟨s, hs⟩ := hg q
  obtain ⟨t, ht⟩ := hb q

  have hpos : 0 < y + ε := by linarith
  refine ⟨(a - m) * (Real.sqrt (y + ε))⁻¹ * s + t, ?_⟩
  simp only [bn, ha, hm', hy', hs, ht, heps]
  rw [← EReal.coe_add y ε, Ideal.rsqrt_coe, if_neg (not_lt.mpr hpos.le), if_neg hpos.ne']
  simp only [← EReal.coe_sub, ← EReal.coe_mul, ← EReal.coe_add]

theorem count_word : Ideal.ofBits .f32 0x47435000#32 = ((50000 : ℝ) : EReal) := by

  simp [Ideal.ofBits, Ideal.ieee, -EReal.coe_mul]; norm_num

theorem eps_word : ∃ ε : ℝ, 0 < ε ∧ Ideal.ofBits .f32 0x3727C5AC#32 = (ε : EReal) := by

  refine ⟨(10995116 : ℝ) / 2 ^ 40, by positivity, ?_⟩
  simp [Ideal.ofBits, Ideal.ieee, -EReal.coe_mul]; norm_num

end Cert.Spec

end
-- ==== Proof.LawsPool.lean ====
import proofs.«412806_j54228257079467_3_alg».proof.Proof.Spec
import proofs.«412806_j54228257079467_3_alg».proof.Proof.Real

noncomputable section

namespace Cert.Spec

open Idealize.ShloMosaic

variable {n k c e g T B np : Nat}

theorem sumBlocks_eq_sum (h : T * B = np) (f : Fin np → EReal) : sumBlocks h f = ∑ m : Fin np, f m := by
  subst h
  rw [sumBlocks, ← Fintype.sum_prod_type' (fun (t : Fin T) (r : Fin B) => f (blkRow rfl t r))]
  refine Fintype.sum_equiv finProdFinEquiv _ _ (fun p => congrArg f (Fin.ext ?_))
  simp [blkRow, Nat.mul_comm, Nat.add_comm]

theorem sum_pad (hle : n ≤ np) (G : Fin n → EReal) :
    (∑ m : Fin np, if hm : m.val < n then G ⟨m.val, hm⟩ else 0) = ∑ i : Fin n, G i := by

  let F : Nat → EReal := fun m => if hm : m < n then G ⟨m, hm⟩ else 0
  have e1 : (∑ m : Fin np, F m.val) = ∑ m ∈ Finset.range np, F m := Fin.sum_univ_eq_sum_range F np
  have e2 : (∑ i : Fin n, F i.val) = ∑ m ∈ Finset.range n, F m := Fin.sum_univ_eq_sum_range F n
  have e3 : (∑ i : Fin n, G i) = ∑ i : Fin n, F i.val :=
    Finset.sum_congr rfl (fun i _ => by
      show G i = if hm : i.val < n then G ⟨i.val, hm⟩ else 0
      rw [dif_pos i.isLt])

  have e4 : (∑ m ∈ Finset.range n, F m) = ∑ m ∈ Finset.range np, F m :=
    Finset.sum_subset (Finset.range_subset_range.2 hle) (fun m _ hm => by
      have hm' : ¬ m < n := by simpa using hm
      exact dif_neg hm')
  calc (∑ m : Fin np, if hm : m.val < n then G ⟨m.val, hm⟩ else 0)
      = ∑ m : Fin np, F m.val := rfl
    _ = ∑ m ∈ Finset.range np, F m := e1
    _ = ∑ m ∈ Finset.range n, F m := e4.symm
    _ = ∑ i : Fin n, F i.val := e2.symm
    _ = ∑ i : Fin n, G i := e3.symm

theorem sum_isReal {ι : Type} (s : Finset ι) (f : ι → EReal) (hf : ∀ i ∈ s, ∃ y : ℝ, f i = (y : EReal)) :
    ∃ y : ℝ, ∑ i ∈ s, f i = (y : EReal) :=
  Finset.sum_induction f (fun z => ∃ y : ℝ, z = (y : EReal))
    (by rintro _ _ ⟨u, rfl⟩ ⟨v, rfl⟩; exact ⟨u + v, (EReal.coe_add u v).symm⟩)
    ⟨0, EReal.coe_zero.symm⟩ hf

theorem pool_eq (h : T * B = np) (hle : n ≤ np) (oh : Fin g → Fin np → EReal) (hp : Fin np → Fin c → EReal)
    (Pb : Fin n → Fin g → Prop) [∀ m a, Decidable (Pb m a)] (x : Fin n → Fin c → EReal)
    (hoh : ∀ (a : Fin g) (m : Fin np), oh a m = if hm : m.val < n then (if Pb ⟨m.val, hm⟩ a then 1 else 0) else 0)
    (hhp : ∀ (m : Fin np) (q : Fin c), hp m q = if hm : m.val < n then x ⟨m.val, hm⟩ q else 0) :
    poolK h oh hp = poolR Pb x := by
  funext a q

  have hterm : ∀ m : Fin np, oh a m * hp m q
      = if hm : m.val < n then (if Pb ⟨m.val, hm⟩ a then x ⟨m.val, hm⟩ q else 0) else 0 := by
    intro m
    rw [hoh, hhp]
    by_cases hm : m.val < n
    · rw [dif_pos hm, dif_pos hm, dif_pos hm]
      by_cases hP : Pb ⟨m.val, hm⟩ a
      · rw [if_pos hP, if_pos hP, one_mul]
      · rw [if_neg hP, if_neg hP, zero_mul]
    · rw [dif_neg hm, dif_neg hm, dif_neg hm, zero_mul]
  have hnum : (sumBlocks h fun m => oh a m * hp m q)
      = ∑ m ∈ Finset.univ.filter (fun m => Pb m a), x m q := by
    rw [sumBlocks_eq_sum, Finset.sum_congr rfl (fun m _ => hterm m),
      sum_pad hle (fun i => if Pb i a then x i q else 0), Finset.sum_filter]
  have hden : (sumBlocks h fun m => oh a m)
      = ∑ _m ∈ Finset.univ.filter (fun m => Pb m a), (1 : EReal) := by
    rw [sumBlocks_eq_sum, Finset.sum_congr rfl (fun m _ => hoh a m),
      sum_pad hle (fun i => if Pb i a then (1 : EReal) else 0), Finset.sum_filter]
  show Ideal.div (sumBlocks h fun m => oh a m * hp m q) (max (sumBlocks h fun m => oh a m) 1)
    = Ideal.div (0 + ∑ m ∈ Finset.univ.filter (fun m => Pb m a), x m q)
        (max (0 + ∑ _m ∈ Finset.univ.filter (fun m => Pb m a), (1 : EReal)) 1)
  rw [hnum, hden, zero_add, zero_add]

theorem poolR_real (Pb : Fin n → Fin g → Prop) [∀ m a, Decidable (Pb m a)] (x : Fin n → Fin c → EReal) (hx : IsReal2 x) :
    IsReal2 (poolR Pb x) := by
  intro a q

  obtain ⟨s, hs⟩ := sum_isReal (Finset.univ.filter (fun m => Pb m a)) (fun m => x m q) (fun m _ => hx m q)
  obtain ⟨d, hd⟩ := sum_isReal (Finset.univ.filter (fun m => Pb m a)) (fun _ => (1 : EReal))
    (fun _ _ => ⟨1, EReal.coe_one.symm⟩)

  have hmax : max (d : EReal) 1 = ((max d 1 : ℝ) : EReal) := by
    rcases le_total d 1 with hd1 | hd1
    · rw [max_eq_right hd1, max_eq_right (by exact_mod_cast hd1), EReal.coe_one]
    · rw [max_eq_left hd1, max_eq_left (by exact_mod_cast hd1)]
  have hne : max d 1 ≠ 0 := by
    have h1 : (1 : ℝ) ≤ max d 1 := le_max_right d 1
    intro h0
    rw [h0] at h1
    exact absurd h1 (by norm_num)
  refine ⟨s * (1 / max d 1), ?_⟩
  show Ideal.div (0 + ∑ m ∈ Finset.univ.filter (fun m => Pb m a), x m q)
        (max (0 + ∑ _m ∈ Finset.univ.filter (fun m => Pb m a), (1 : EReal)) 1) = _
  rw [zero_add, zero_add, hs, hd, hmax, Ideal.div_coe hne, EReal.coe_mul]

end Cert.Spec

end
-- ==== Proof.LawsNet.lean ====
import proofs.«412806_j54228257079467_3_alg».proof.Proof.Net
import proofs.«412806_j54228257079467_3_alg».proof.Proof.Real
import proofs.«412806_j54228257079467_3_alg».proof.Proof.LawsGcn
import proofs.«412806_j54228257079467_3_alg».proof.Proof.LawsBn

noncomputable section

namespace Cert.Spec

open Idealize.ShloMosaic

variable {n k c e T B : Nat}

theorem layer_eq (dis : Fin n → EReal) (hdis : IsReal1 dis) (P : Fin e → Fin n → Prop) [∀ j i, Decidable (P j i)]
    (src dst : Fin e → Fin n) (hd : ∀ j i, P j i → dst j = i)
    (h : Fin n → Fin k → EReal) (hh : IsReal2 h) (w : Fin k → Fin c → EReal) (hw : IsReal2 w) (b : Fin c → EReal) (hb : IsReal1 b) :
    layerK dis P src h w b = layerR dis P src dst h w b ∧ IsReal2 (layerR dis P src dst h w b) := by

  have hxw : IsReal2 (mm h w) := mm_real h w hh hw
  unfold layerK layerR
  exact ⟨pre_eq P src dst hd (mm h w) dis b hxw hdis, preR_real P src dst (mm h w) dis b hxw hdis hb⟩

theorem norm_eq (hTB : T * B = n) (hn : 0 < n) (N : EReal) (hN : N = ((n : ℝ) : EReal)) (eps : EReal) (ε : ℝ) (hε : 0 < ε)
    (heps : eps = (ε : EReal)) (v : Fin n → Fin c → EReal) (hv : IsReal2 v) (gam bet : Fin c → EReal) (hg : IsReal1 gam) (hbt : IsReal1 bet) :
    normK hTB N eps v gam bet = normR N eps v gam bet ∧ IsReal2 (normR N eps v gam bet) := by

  unfold normK normR
  rw [mean_eq hTB N v, var_eq hTB hn N hN v hv]
  exact ⟨rfl, bn_real eps ε hε heps v (meanR N v) (varR N v) gam bet hv (meanR_real hn N hN v hv)
    (varR_nonneg hn N hN v hv) hg hbt⟩

theorem gnn_eq {f : Nat} (hTB : T * B = n) (hn : 0 < n) (N : EReal) (hN : N = ((n : ℝ) : EReal)) (eps : EReal) (ε : ℝ) (hε : 0 < ε)
    (heps : eps = (ε : EReal)) (dis : Fin n → EReal) (hdis : IsReal1 dis) (P : Fin e → Fin n → Prop) [∀ j i, Decidable (P j i)]
    (src dst : Fin e → Fin n) (hd : ∀ j i, P j i → dst j = i) (x : Fin n → Fin f → EReal) (hx : IsReal2 x)
    (w1 : Fin f → Fin c → EReal) (b1 g1 be1 : Fin c → EReal) (w2 : Fin c → Fin c → EReal) (b2 g2 be2 : Fin c → EReal)
    (w3 : Fin c → Fin c → EReal) (b3 g3 be3 : Fin c → EReal)
    (hw1 : IsReal2 w1) (hb1 : IsReal1 b1) (hg1 : IsReal1 g1) (hbe1 : IsReal1 be1)
    (hw2 : IsReal2 w2) (hb2 : IsReal1 b2) (hg2 : IsReal1 g2) (hbe2 : IsReal1 be2)
    (hw3 : IsReal2 w3) (hb3 : IsReal1 b3) (hg3 : IsReal1 g3) (hbe3 : IsReal1 be3) :
    gnnK hTB N eps dis P src x w1 b1 g1 be1 w2 b2 g2 be2 w3 b3 g3 be3
        = gnnR N eps dis P src dst x w1 b1 g1 be1 w2 b2 g2 be2 w3 b3 g3 be3
      ∧ IsReal2 (gnnR N eps dis P src dst x w1 b1 g1 be1 w2 b2 g2 be2 w3 b3 g3 be3) := by

  obtain ⟨l1, rl1⟩ := layer_eq dis hdis P src dst hd x hx w1 hw1 b1 hb1
  obtain ⟨m1, rm1⟩ := norm_eq hTB hn N hN eps ε hε heps (layerR dis P src dst x w1 b1) rl1 g1 be1 hg1 hbe1
  have ra1 := relu_real _ rm1

  obtain ⟨l2, rl2⟩ := layer_eq dis hdis P src dst hd _ ra1 w2 hw2 b2 hb2
  obtain ⟨m2, rm2⟩ := norm_eq hTB hn N hN eps ε hε heps _ rl2 g2 be2 hg2 hbe2
  have ra2 := relu_real _ rm2

  obtain ⟨l3, rl3⟩ := layer_eq dis hdis P src dst hd _ ra2 w3 hw3 b3 hb3
  obtain ⟨m3, rm3⟩ := norm_eq hTB hn N hN eps ε hε heps _ rl3 g3 be3 hg3 hbe3
  unfold gnnK gnnR
  rw [l1, m1, l2, m2, l3, m3]
  exact ⟨rfl, rm3⟩

theorem IsPos1.isReal {x : Fin c → EReal} (h : IsPos1 x) : IsReal1 x := by
  intro q
  obtain ⟨y, _, hy⟩ := h q
  exact ⟨y, hy⟩

end Cert.Spec

end
-- ==== Proof.LawsFinal.lean ====
import proofs.«412806_j54228257079467_3_alg».proof.Proof.Net
import proofs.«412806_j54228257079467_3_alg».proof.Proof.Real
import proofs.«412806_j54228257079467_3_alg».proof.Proof.LawsGcn
import proofs.«412806_j54228257079467_3_alg».proof.Proof.LawsBn
import proofs.«412806_j54228257079467_3_alg».proof.Proof.LawsPool
import proofs.«412806_j54228257079467_3_alg».proof.Proof.LawsNet

noncomputable section

namespace Cert.Spec

open Idealize.ShloMosaic

variable {n c e g T B np Tp Bp : Nat}

theorem nodeWeight_pos (P : Fin e → Fin n → Prop) [∀ j i, Decidable (P j i)] : IsPos1 (nodeWeight P) := by

  unfold nodeWeight
  exact weight_real P

theorem net_eq {f c2 c3 d1 d2 : Nat} (hTB : T * B = n) (hn : 0 < n) (N : EReal) (hN : N = ((n : ℝ) : EReal)) (eps : EReal) (ε : ℝ) (hε : 0 < ε)
    (heps : eps = (ε : EReal)) (P : Fin e → Fin n → Prop) [∀ j i, Decidable (P j i)]
    (src dst : Fin e → Fin n) (hd : ∀ j i, P j i → dst j = i) (x : Fin n → Fin f → EReal) (hx : IsReal2 x)
    (w1 : Fin f → Fin c → EReal) (b1 g1 be1 : Fin c → EReal) (w2 : Fin c → Fin c → EReal) (b2 g2 be2 : Fin c → EReal)
    (w3 : Fin c → Fin c → EReal) (b3 g3 be3 : Fin c → EReal)
    (hw1 : IsReal2 w1) (hb1 : IsReal1 b1) (hg1 : IsReal1 g1) (hbe1 : IsReal1 be1)
    (hw2 : IsReal2 w2) (hb2 : IsReal1 b2) (hg2 : IsReal1 g2) (hbe2 : IsReal1 be2)
    (hw3 : IsReal2 w3) (hb3 : IsReal1 b3) (hg3 : IsReal1 g3) (hbe3 : IsReal1 be3)
    (hTBp : Tp * Bp = np) (hle : n ≤ np) (oh : Fin g → Fin np → EReal) (hp : Fin np → Fin c → EReal)
    (Pb : Fin n → Fin g → Prop) [∀ m a, Decidable (Pb m a)]
    (hoh : ∀ (a : Fin g) (m : Fin np), oh a m = if hm : m.val < n then (if Pb ⟨m.val, hm⟩ a then 1 else 0) else 0)
    (hhp : ∀ (m : Fin np) (q : Fin c), hp m q = if hm : m.val < n then
      gnnK hTB N eps (nodeWeight P) P src x w1 b1 g1 be1 w2 b2 g2 be2 w3 b3 g3 be3 ⟨m.val, hm⟩ q else 0)
    (orig : Fin g → Fin c2 → EReal) (dir : Fin g → Fin c3 → EReal)
    (v0 : Fin (c + c2 + c3) → Fin d1 → EReal) (a0 : Fin d1 → EReal) (v1 : Fin d1 → Fin d1 → EReal) (a1 : Fin d1 → EReal)
    (v2 : Fin d1 → Fin d1 → EReal) (a2 : Fin d1 → EReal) (vo : Fin d1 → Fin d2 → EReal) (ao : Fin d2 → EReal) :
    head (poolK hTBp oh hp) orig dir v0 a0 v1 a1 v2 a2 vo ao
      = head (poolR Pb (gnnR N eps (nodeWeight P) P src dst x w1 b1 g1 be1 w2 b2 g2 be2 w3 b3 g3 be3)) orig dir v0 a0 v1 a1 v2 a2 vo ao := by

  have hdis : IsReal1 (nodeWeight P) := (nodeWeight_pos P).isReal
  obtain ⟨hgnn, _⟩ := gnn_eq hTB hn N hN eps ε hε heps (nodeWeight P) hdis P src dst hd x hx
    w1 b1 g1 be1 w2 b2 g2 be2 w3 b3 g3 be3 hw1 hb1 hg1 hbe1 hw2 hb2 hg2 hbe2 hw3 hb3 hg3 hbe3

  rw [pool_eq hTBp hle oh hp Pb (gnnK hTB N eps (nodeWeight P) P src x w1 b1 g1 be1 w2 b2 g2 be2 w3 b3 g3 be3) hoh hhp, hgnn]

end Cert.Spec

end
-- ==== Proof.Edges.lean ====
import proofs.«412806_j54228257079467_3_alg».proof.Proof.Rows
import Idealize.ShloMosaic.Lib.ValueIdx

noncomputable section

namespace Cert.Edges

open Idealize.ShloMosaic Idealize.ShloMosaic.ValueIdx

variable (ei : (⟨2, ![2, 800000]⟩ : Shape).Idx → BitVec 32)

abbrev landsOn (j : Fin 800000) (i : Fin 50000) : Prop := Cert.Rows.lands (ei (ix2 (1 : Fin 2) j)) i

def normWord (x : BitVec 32) : BitVec 32 := Scalar.select (IntOp.cmpi .slt x 0#32) (IntOp.addi x 50000#32) x

def rowRead (x : BitVec 32) : Fin 50000 := Cert.Rows.rowOfWord 50000 (by decide) (normWord x)

abbrev srcRow (j : Fin 800000) : Fin 50000 := rowRead (ei (ix2 (0 : Fin 2) j))

abbrev dstRow (j : Fin 800000) : Fin 50000 := rowRead (ei (ix2 (1 : Fin 2) j))

theorem dst_of_lands (j : Fin 800000) (i : Fin 50000) (h : landsOn ei j i) : dstRow ei j = i := by
  unfold dstRow rowRead normWord
  exact Cert.Rows.row_of_norm_lands 50000 _ (by decide) _ _ i h

end Cert.Edges

end
-- ==== Proof.Finite.lean ====
import proofs.«412806_j54228257079467_3_alg».proof.Pre_finite_inputs
import proofs.«412806_j54228257079467_3_alg».proof.Proof.Gen.Pre_finite_inputs
import proofs.«412806_j54228257079467_3_alg».proof.Proof.Real
import proofs.«412806_j54228257079467_3_alg».proof.Proof.Cur
import Idealize.ShloMosaic.Lib.ReduceAll
import Idealize.ShloMosaic.Lib.ValueIdx

noncomputable section

namespace Cert.Finite

open Idealize.ShloMosaic Idealize.ShloMosaic.ValueIdx Cert.Pre_finite_inputs

instance : Subsingleton S_.Idx := ⟨fun _ _ => funext fun d => d.elim0⟩

theorem bound_top : Ideal.ofBits .f32 0x7F800000#32 = (⊤ : EReal) := by simp [Ideal.ofBits, Ideal.ieee]

theorem real_of_abs_lt (x : EReal) (h : Ideal.cmp .olt (max x (-x)) (Ideal.ofBits .f32 0x7F800000#32) = 1#1) :
    ∃ y : ℝ, x = (y : EReal) := by
  rw [bound_top] at h
  induction x using EReal.rec with
  | bot => simp [Ideal.cmp] at h
  | coe y => exact ⟨y, rfl⟩
  | top => simp [Ideal.cmp] at h

theorem entries_real {s : Shape} {axes : List (Fin s.rank)} (x : s.Idx → EReal)
    (hb : S_.BroadcastsInDim s (![] : Fin 0 → Fin s.rank)) (hr : s.ReducesTo axes S_) (hu : 0 < S_.numel)
    (e : Host.reduce IntOp.andi
        (cmpf (F := Ideal) (φ := .f32) .olt (Host.absf (x : FVec Ideal s .f32))
          (broadcastInDim s ![] hb (constant S_ .f32 0x7F800000#32)))
        (constantI S_ 1 1#1) hr hu ix0 = 1#1) (i : s.Idx) : ∃ y : ℝ, x i = (y : EReal) :=
  real_of_abs_lt (x i) (Host.reduce_andi_all _ _ hr hu _ e i)

theorem matrix_real {M N : Nat} (x : (⟨2, ![M, N]⟩ : Shape).Idx → EReal) (hx : ∀ i, ∃ y : ℝ, x i = (y : EReal)) :
    Spec.IsReal2 (Spec.cur2 x) := fun a b => hx (ix2 a b)

theorem vector_real {N : Nat} (x : (⟨1, ![N]⟩ : Shape).Idx → EReal) (hx : ∀ i, ∃ y : ℝ, x i = (y : EReal)) :
    Spec.IsReal1 (Spec.cur1 x) := fun a => hx (ix1 a)

structure ArgsReal (x0 : S50000x64.Idx → EReal) (x1 : S256x3.Idx → EReal) (x2 : S256x3.Idx → EReal) (x5 : S64x128.Idx → EReal) (x6 : S128.Idx → EReal) (x7 : S128x128.Idx → EReal) (x8 : S128.Idx → EReal) (x9 : S128x128.Idx → EReal) (x10 : S128.Idx → EReal) (x11 : S128.Idx → EReal) (x12 : S128.Idx → EReal) (x13 : S128.Idx → EReal) (x14 : S128.Idx → EReal) (x15 : S128.Idx → EReal) (x16 : S128.Idx → EReal) (x17 : S134x1024.Idx → EReal) (x18 : S1024.Idx → EReal) (x19 : S1024x1024.Idx → EReal) (x20 : S1024.Idx → EReal) (x21 : S1024x1024.Idx → EReal) (x22 : S1024.Idx → EReal) (x23 : S1024x3.Idx → EReal) (x24 : S3.Idx → EReal) : Prop where
  r0 : Spec.IsReal2 (Spec.cur2 x0)
  r1 : Spec.IsReal2 (Spec.cur2 x1)
  r2 : Spec.IsReal2 (Spec.cur2 x2)
  r5 : Spec.IsReal2 (Spec.cur2 x5)
  r6 : Spec.IsReal1 (Spec.cur1 x6)
  r7 : Spec.IsReal2 (Spec.cur2 x7)
  r8 : Spec.IsReal1 (Spec.cur1 x8)
  r9 : Spec.IsReal2 (Spec.cur2 x9)
  r10 : Spec.IsReal1 (Spec.cur1 x10)
  r11 : Spec.IsReal1 (Spec.cur1 x11)
  r12 : Spec.IsReal1 (Spec.cur1 x12)
  r13 : Spec.IsReal1 (Spec.cur1 x13)
  r14 : Spec.IsReal1 (Spec.cur1 x14)
  r15 : Spec.IsReal1 (Spec.cur1 x15)
  r16 : Spec.IsReal1 (Spec.cur1 x16)
  r17 : Spec.IsReal2 (Spec.cur2 x17)
  r18 : Spec.IsReal1 (Spec.cur1 x18)
  r19 : Spec.IsReal2 (Spec.cur2 x19)
  r20 : Spec.IsReal1 (Spec.cur1 x20)
  r21 : Spec.IsReal2 (Spec.cur2 x21)
  r22 : Spec.IsReal1 (Spec.cur1 x22)
  r23 : Spec.IsReal2 (Spec.cur2 x23)
  r24 : Spec.IsReal1 (Spec.cur1 x24)

variable [Cert.Pre_finite_inputs.Facts]

theorem args_real (x0 : S50000x64.Idx → EReal) (x1 : S256x3.Idx → EReal) (x2 : S256x3.Idx → EReal) (x3 : S2x800000.Idx → BitVec 32) (x4 : S50000.Idx → BitVec 32) (x5 : S64x128.Idx → EReal) (x6 : S128.Idx → EReal) (x7 : S128x128.Idx → EReal) (x8 : S128.Idx → EReal) (x9 : S128x128.Idx → EReal) (x10 : S128.Idx → EReal) (x11 : S128.Idx → EReal) (x12 : S128.Idx → EReal) (x13 : S128.Idx → EReal) (x14 : S128.Idx → EReal) (x15 : S128.Idx → EReal) (x16 : S128.Idx → EReal) (x17 : S134x1024.Idx → EReal) (x18 : S1024.Idx → EReal) (x19 : S1024x1024.Idx → EReal) (x20 : S1024.Idx → EReal) (x21 : S1024x1024.Idx → EReal) (x22 : S1024.Idx → EReal) (x23 : S1024x3.Idx → EReal) (x24 : S3.Idx → EReal)
    (h : Cert.Pre_finite_inputs.fn (F := Ideal) x0 x1 x2 x3 x4 x5 x6 x7 x8 x9 x10 x11 x12 x13 x14 x15 x16 x17 x18 x19 x20 x21 x22 x23 x24 = (fun _ => 1#1)) :
    ArgsReal x0 x1 x2 x5 x6 x7 x8 x9 x10 x11 x12 x13 x14 x15 x16 x17 x18 x19 x20 x21 x22 x23 x24 := by

  have h0 := congrFun h ix0
  dsimp only [fn, fn_part1, fn_part2, fn_part3, fn_part4, fn_part5, fn_part6] at h0

  simp only [andi, IntOp.andi_eq_one, and_assoc] at h0
  obtain ⟨e0, e1, e2, e5, e6, e7, e8, e9, e10, e11, e12, e13, e14, e15, e16, e17, e18, e19, e20, e21, e22, e23, e24⟩ := h0
  exact {
      r0 := matrix_real x0 (entries_real x0 _ _ _ e0)
      r1 := matrix_real x1 (entries_real x1 _ _ _ e1)
      r2 := matrix_real x2 (entries_real x2 _ _ _ e2)
      r5 := matrix_real x5 (entries_real x5 _ _ _ e5)
      r6 := vector_real x6 (entries_real x6 _ _ _ e6)
      r7 := matrix_real x7 (entries_real x7 _ _ _ e7)
      r8 := vector_real x8 (entries_real x8 _ _ _ e8)
      r9 := matrix_real x9 (entries_real x9 _ _ _ e9)
      r10 := vector_real x10 (entries_real x10 _ _ _ e10)
      r11 := vector_real x11 (entries_real x11 _ _ _ e11)
      r12 := vector_real x12 (entries_real x12 _ _ _ e12)
      r13 := vector_real x13 (entries_real x13 _ _ _ e13)
      r14 := vector_real x14 (entries_real x14 _ _ _ e14)
      r15 := vector_real x15 (entries_real x15 _ _ _ e15)
      r16 := vector_real x16 (entries_real x16 _ _ _ e16)
      r17 := matrix_real x17 (entries_real x17 _ _ _ e17)
      r18 := vector_real x18 (entries_real x18 _ _ _ e18)
      r19 := matrix_real x19 (entries_real x19 _ _ _ e19)
      r20 := vector_real x20 (entries_real x20 _ _ _ e20)
      r21 := matrix_real x21 (entries_real x21 _ _ _ e21)
      r22 := vector_real x22 (entries_real x22 _ _ _ e22)
      r23 := matrix_real x23 (entries_real x23 _ _ _ e23)
      r24 := vector_real x24 (entries_real x24 _ _ _ e24) }

end Cert.Finite

end
-- ==== Proof.KI.Host.lean ====
import proofs.«412806_j54228257079467_3_alg».proof.Proof.Gen.KernelIdeal.Regions
import proofs.«412806_j54228257079467_3_alg».proof.Proof.Spec
import proofs.«412806_j54228257079467_3_alg».proof.Proof.Cur
import proofs.«412806_j54228257079467_3_alg».proof.Proof.LibLayout2
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

set_option maxRecDepth 4000

noncomputable section

namespace Cert.KernelIdeal.Val

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (outs : Gen.Outs (F := Ideal)) (c : Dev nD)

abbrev written11 : List (Ref sig .tc) :=
  hostOps0_W ++ ([main_v21_0, main_v21_1] ++ (hostOps1_W ++ ([main_v32_0, main_v32_1, main_v32_2] ++ ([main_v33_0, main_v33_1] ++
    (hostOps3_W ++ ([main_v44_0, main_v44_1, main_v44_2] ++ ([main_v45_0, main_v45_1] ++ (hostOps5_W ++
      ([main_v56_0, main_v56_1, main_v56_2] ++ [main_v57])))))))))

theorem V11_launch (r : Ref sig .tc) (h : r ∉ written11) : V11 m outs c r = m ((c : Thread nD τ).loc r) := by
  simp only [written11, List.mem_append, not_or] at h
  obtain ⟨h1, h2, h3, h4, h5, h6, h7, h8, h9, h10, h11⟩ := h
  exact (V11_of m outs c r h11).trans <| (V10_of m outs c r h10).trans <| (V9_of m outs c r h9).trans <|
    (V8_of m outs c r h8).trans <| (V7_of m outs c r h7).trans <| (V6_of m outs c r h6).trans <|
    (V5_of m outs c r h5).trans <| (V4_of m outs c r h4).trans <| (V3_of m outs c r h3).trans <|
    (V2_of m outs c r h2).trans <| (V1_of m c r h1)

abbrev written17 : List (Ref sig .tc) :=
  hostOps7_W ++ (hostOps7_1_W ++ (hostOps7_2_W ++ (hostOps7_3_W ++ (hostOps7_4_W ++ [main_v61]))))

theorem V17_launch (r : Ref sig .tc) (h : r ∉ written11) (h' : r ∉ written17) :
    V17 m outs c r = m ((c : Thread nD τ).loc r) := by
  simp only [written17, List.mem_append, not_or] at h'
  obtain ⟨h12, h13, h14, h15, h16, h17⟩ := h'
  exact (V17_of m outs c r h17).trans <| (V16_of m outs c r h16).trans <| (V15_of m outs c r h15).trans <|
    (V14_of m outs c r h14).trans <| (V13_of m outs c r h13).trans <| (V12_of m outs c r h12).trans <|
    V11_launch m outs c r h

theorem shapeCast_vec_row_apply {α : Type} {N : Nat} (x : (⟨1, ![N]⟩ : Shape).Idx → α)
    (h : (⟨1, ![N]⟩ : Shape).ShapeCasts ⟨2, ![1, N]⟩) (u : Fin 1) (q : Fin N) :
    shapeCast ⟨2, ![1, N]⟩ x h (ix2 u q) = x (ix1 q) :=
  shapeCast_apply x h _ _ (by
    have hu : u.val = 0 := by omega
    rw [Shape.rowMajor_val_two, Shape.rowMajor_val_one]
    show q.val = u.val * N + q.val
    rw [hu]; omega)

theorem row_cast {N : Nat} {X : (⟨2, ![1, N]⟩ : Shape).Idx → EReal} {Y : (⟨1, ![N]⟩ : Shape).Idx → EReal}
    {h : (⟨1, ![N]⟩ : Shape).ShapeCasts ⟨2, ![1, N]⟩} (e : X = shapeCast ⟨2, ![1, N]⟩ Y h) (q : Fin N) : X (ix2 (0 : Fin 1) q) = Y (ix1 q) := by
  rw [e]; exact shapeCast_vec_row_apply _ _ _ _

theorem z_term : (V18 m outs c main_v62 : S256x134.Idx → EReal) =
    concatenate S256x134 1 [⟨S256x128, (V17 m outs c main_v61 : S256x128.Idx → EReal)⟩,
      ⟨S256x3, (V17 m outs c main_arg1 : S256x3.Idx → EReal)⟩, ⟨S256x3, (V17 m outs c main_arg2 : S256x3.Idx → EReal)⟩]
      concatenates_S256x128_S256x3_S256x3_S256x134_d1 := by
  show StableHlo.after hostOps8 _ (Proc.devRef .tc main_v62) = _
  after_results
  rfl

theorem z_entry (a : Fin 256) (q : Fin 134) :
    (V18 m outs c main_v62 : S256x134.Idx → EReal) (ix2 a q)
      = Spec.cat3 (Spec.cur2 (V17 m outs c main_v61 : S256x128.Idx → EReal))
          (Spec.cur2 (m ((c : Thread nD τ).loc main_arg1) : S256x3.Idx → EReal))
          (Spec.cur2 (m ((c : Thread nD τ).loc main_arg2) : S256x3.Idx → EReal)) a q := by
  rw [z_term, V17_launch m outs c main_arg1 (by decide) (by decide), V17_launch m outs c main_arg2 (by decide) (by decide)]
  unfold Spec.cat3 Spec.cur2
  by_cases h1 : q.val < 128
  · rw [dif_pos h1]
    exact concatenate_apply_piece (1 : Fin 2) _ _ (ix2 a q) 0 (by show (0 : Nat) < 3; omega) S256x128 _ rfl rfl 0 rfl (ix2 a ⟨q.val, h1⟩)
      (fun b => match b with | ⟨0, _⟩ => fun _ => rfl | ⟨1, _⟩ => fun hb => absurd rfl hb)
      (Nat.zero_add _)
  · rw [dif_neg h1]
    by_cases h2 : q.val < 128 + 3
    · rw [dif_pos h2]
      exact concatenate_apply_piece (1 : Fin 2) _ _ (ix2 a q) 1 (by show (1 : Nat) < 3; omega) S256x3 _ rfl rfl 128 rfl
        (ix2 a ⟨q.val - 128, by omega⟩)
        (fun b => match b with | ⟨0, _⟩ => fun _ => rfl | ⟨1, _⟩ => fun hb => absurd rfl hb)
        (by show 128 + (q.val - 128) = q.val; omega)
    · rw [dif_neg h2]
      exact concatenate_apply_piece (1 : Fin 2) _ _ (ix2 a q) 2 (by show (2 : Nat) < 3; omega) S256x3 _ rfl rfl 131 rfl
        (ix2 a ⟨q.val - (128 + 3), by have := q.isLt; omega⟩)
        (fun b => match b with | ⟨0, _⟩ => fun _ => rfl | ⟨1, _⟩ => fun hb => absurd rfl hb)
        (by show 131 + (q.val - (128 + 3)) = q.val; omega)

theorem bias_row1 (q : Fin 1024) : (V18 m outs c main_v63 : S1x1024.Idx → EReal) (ix2 (0 : Fin 1) q)
    = (m ((c : Thread nD τ).loc main_arg18) : S1024.Idx → EReal) (ix1 q) := by
  rw [← V17_launch m outs c main_arg18 (by decide) (by decide)]
  exact row_cast (by show StableHlo.after hostOps8 _ (Proc.devRef .tc main_v63) = _; after_results; rfl) q

theorem bias_row2 (q : Fin 1024) : (V18 m outs c main_v64 : S1x1024.Idx → EReal) (ix2 (0 : Fin 1) q)
    = (m ((c : Thread nD τ).loc main_arg20) : S1024.Idx → EReal) (ix1 q) := by
  rw [← V17_launch m outs c main_arg20 (by decide) (by decide)]
  exact row_cast (by show StableHlo.after hostOps8 _ (Proc.devRef .tc main_v64) = _; after_results; rfl) q

theorem bias_row3 (q : Fin 1024) : (V18 m outs c main_v65 : S1x1024.Idx → EReal) (ix2 (0 : Fin 1) q)
    = (m ((c : Thread nD τ).loc main_arg22) : S1024.Idx → EReal) (ix1 q) := by
  rw [← V17_launch m outs c main_arg22 (by decide) (by decide)]
  exact row_cast (by show StableHlo.after hostOps8 _ (Proc.devRef .tc main_v65) = _; after_results; rfl) q

theorem bias_rowOut (q : Fin 3) : (V18 m outs c main_v66 : S1x3.Idx → EReal) (ix2 (0 : Fin 1) q)
    = (m ((c : Thread nD τ).loc main_arg24) : S3.Idx → EReal) (ix1 q) := by
  rw [← V17_launch m outs c main_arg24 (by decide) (by decide)]
  exact row_cast (by show StableHlo.after hostOps8 _ (Proc.devRef .tc main_v66) = _; after_results; rfl) q

theorem hpad_term : (V16 m outs c main_v58 : S50176x128.Idx → EReal)
    = pad S50176x128 ![0, 0] ![176, 0] ![0, 0] (V11 m outs c main_v57 : S50000x128.Idx → EReal)
        (sitofp (F := Ideal) .f32 (constantI S_ 32 0#32)) pads_S50000x128_S50176x128_01760_000 h_S_ := by
  rw [V16_of m outs c main_v58 (by decide), V15_of m outs c main_v58 (by decide), V14_of m outs c main_v58 (by decide)]
  show StableHlo.after hostOps7_1 (StableHlo.after hostOps7 (V11 m outs c)) (Proc.devRef .tc main_v58) = _
  after_results
  rfl

theorem hpad_entry (r : Fin 50176) (q : Fin 128) :
    (V16 m outs c main_v58 : S50176x128.Idx → EReal) (ix2 r q)
      = if h : r.val < 50000 then (V11 m outs c main_v57 : S50000x128.Idx → EReal) (ix2 ⟨r.val, h⟩ q) else (0 : EReal) := by
  rw [hpad_term]
  by_cases h : r.val < 50000
  · rw [dif_pos h]
    exact pad_apply_of_inside _ _ _ _ _ _ _ (ix2 r q) (ix2 ⟨r.val, h⟩ q) (fun a => match a with
      | ⟨0, _⟩ => by show r.val = 0 + r.val * (0 + 1); omega
      | ⟨1, _⟩ => by show q.val = 0 + q.val * (0 + 1); omega)
  · rw [dif_neg h, pad_apply_of_not_inside _ _ _ _ _ _ _ (ix2 r q) (0 : Fin 2) (fun hh => by
      have h3 : (r.val - 0) / (0 + 1) < 50000 := hh.2.2
      omega)]
    show (((0#32 : BitVec 32).toInt : ℝ) : EReal) = 0
    simp

theorem bpad_term : (V16 m outs c main_v60 : S1x50176.Idx → BitVec 32)
    = shapeCast S1x50176 (pad S50176 ![0] ![176] ![0] (m ((c : Thread nD τ).loc main_arg4) : S50000.Idx → BitVec 32)
        (constantI S_ 32 4294967295#32) pads_S50000_S50176_01760 h_S_) shapeCasts_S50176_S1x50176 := by
  rw [← V11_launch m outs c main_arg4 (by decide)]
  show StableHlo.after hostOps7_4 (StableHlo.after hostOps7_3 (StableHlo.after hostOps7_2 (StableHlo.after hostOps7_1
    (StableHlo.after hostOps7 (V11 m outs c))))) (Proc.devRef .tc main_v60) = _
  after_results
  rfl

theorem bpad_entry (r : Fin 50176) :
    (V16 m outs c main_v60 : S1x50176.Idx → BitVec 32) (ix2 (0 : Fin 1) r)
      = if h : r.val < 50000 then (m ((c : Thread nD τ).loc main_arg4) : S50000.Idx → BitVec 32) (ix1 ⟨r.val, h⟩)
        else (-1 : BitVec 32) := by
  rw [bpad_term, shapeCast_vec_row_apply]
  by_cases h : r.val < 50000
  · rw [dif_pos h]
    exact pad_apply_of_inside _ _ _ _ _ _ _ (ix1 r) (ix1 ⟨r.val, h⟩) (fun a => match a with
      | ⟨0, _⟩ => by show r.val = 0 + r.val * (0 + 1); omega)
  · rw [dif_neg h, pad_apply_of_not_inside _ _ _ _ _ _ _ (ix1 r) (0 : Fin 1) (fun hh => by
      have h3 : (r.val - 0) / (0 + 1) < 50000 := hh.2.2
      omega)]
    show (4294967295#32 : BitVec 32) = -1
    decide

theorem bcast_vec_col_apply {α : Type} {M : Nat} (b : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h b (ix2 r u) = b (ix1 r) :=
  broadcastInDim_apply ![0] h b (ix2 r u) (ix1 r) fun ax => by
    match ax with
    | ⟨0, _⟩ =>
      show r.val = if M = 1 then 0 else r.val
      split
      · have := r.isLt; omega
      · rfl

theorem after_take_drop (ops : List (HloOp τ sig (Elt Ideal))) :
    ∀ (n : Nat) (V : Valuation τ sig (Elt Ideal)),
      StableHlo.after ops V = StableHlo.after (ops.drop n) (StableHlo.after (ops.take n) V) := by
  induction ops with
  | nil => intro n V; simp
  | cons op ops ih =>
    intro n V
    cases n with
    | zero => rfl
    | succ n => exact ih n (op.result V)

theorem dis_col_tail (W : Valuation τ sig (Elt Ideal)) (r : Fin 50000) :
    (StableHlo.after ((hostOps0 (F := Ideal)).drop 14) W (Proc.devRef .tc main_v11) : S50000x1.Idx → EReal) (ix2 r (0 : Fin 1))
      = (StableHlo.after ((hostOps0 (F := Ideal)).drop 14) W (Proc.devRef .tc main_v10) : S50000.Idx → EReal) (ix1 r) := by
  have e : (StableHlo.after ((hostOps0 (F := Ideal)).drop 14) W (Proc.devRef .tc main_v11) : S50000x1.Idx → EReal)
      = broadcastInDim S50000x1 ![0] bcast_S50000_S50000x1_0 (W (Proc.devRef .tc main_v10) : S50000.Idx → EReal) := by
    simp only [hostOps0, List.drop_succ_cons, List.drop_zero]
    after_results
  have e' : (StableHlo.after ((hostOps0 (F := Ideal)).drop 14) W (Proc.devRef .tc main_v10) : S50000.Idx → EReal)
      = (W (Proc.devRef .tc main_v10) : S50000.Idx → EReal) := by
    simp only [hostOps0, List.drop_succ_cons, List.drop_zero]
    after_results
  rw [e, e']
  exact bcast_vec_col_apply _ _ _ _

theorem dis_col (r : Fin 50000) : (V1 m c main_v11 : S50000x1.Idx → EReal) (ix2 r (0 : Fin 1))
    = (V1 m c main_v10 : S50000.Idx → EReal) (ix1 r) := by
  show (StableHlo.after hostOps0 (V0 m c) (Proc.devRef .tc main_v11) : S50000x1.Idx → EReal) (ix2 r (0 : Fin 1))
    = (StableHlo.after hostOps0 (V0 m c) (Proc.devRef .tc main_v10) : S50000.Idx → EReal) (ix1 r)
  rw [after_take_drop hostOps0 14 (V0 m c)]
  exact dis_col_tail _ r

theorem rowOf_cast {X : S1x128.Idx → EReal} {Y : S128.Idx → EReal} (e : X = shapeCast S1x128 Y shapeCasts_S128_S1x128) :
    Spec.rowOf X = Spec.cur1 Y := by
  exact funext (row_cast e)

theorem row_v12 : Spec.rowOf (V1 m c main_v12 : S1x128.Idx → EReal) = Spec.cur1 (m ((c : Thread nD τ).loc main_arg6) : S128.Idx → EReal) :=
  rowOf_cast (by show StableHlo.after hostOps0 _ (Proc.devRef .tc main_v12) = _; after_results; rfl)
theorem row_v13 : Spec.rowOf (V1 m c main_v13 : S1x128.Idx → EReal) = Spec.cur1 (m ((c : Thread nD τ).loc main_arg8) : S128.Idx → EReal) :=
  rowOf_cast (by show StableHlo.after hostOps0 _ (Proc.devRef .tc main_v13) = _; after_results; rfl)
theorem row_v14 : Spec.rowOf (V1 m c main_v14 : S1x128.Idx → EReal) = Spec.cur1 (m ((c : Thread nD τ).loc main_arg10) : S128.Idx → EReal) :=
  rowOf_cast (by show StableHlo.after hostOps0 _ (Proc.devRef .tc main_v14) = _; after_results; rfl)
theorem row_v15 : Spec.rowOf (V1 m c main_v15 : S1x128.Idx → EReal) = Spec.cur1 (m ((c : Thread nD τ).loc main_arg11) : S128.Idx → EReal) :=
  rowOf_cast (by show StableHlo.after hostOps0 _ (Proc.devRef .tc main_v15) = _; after_results; rfl)
theorem row_v16 : Spec.rowOf (V1 m c main_v16 : S1x128.Idx → EReal) = Spec.cur1 (m ((c : Thread nD τ).loc main_arg12) : S128.Idx → EReal) :=
  rowOf_cast (by show StableHlo.after hostOps0 _ (Proc.devRef .tc main_v16) = _; after_results; rfl)
theorem row_v17 : Spec.rowOf (V1 m c main_v17 : S1x128.Idx → EReal) = Spec.cur1 (m ((c : Thread nD τ).loc main_arg13) : S128.Idx → EReal) :=
  rowOf_cast (by show StableHlo.after hostOps0 _ (Proc.devRef .tc main_v17) = _; after_results; rfl)
theorem row_v18 : Spec.rowOf (V1 m c main_v18 : S1x128.Idx → EReal) = Spec.cur1 (m ((c : Thread nD τ).loc main_arg14) : S128.Idx → EReal) :=
  rowOf_cast (by show StableHlo.after hostOps0 _ (Proc.devRef .tc main_v18) = _; after_results; rfl)
theorem row_v19 : Spec.rowOf (V1 m c main_v19 : S1x128.Idx → EReal) = Spec.cur1 (m ((c : Thread nD τ).loc main_arg15) : S128.Idx → EReal) :=
  rowOf_cast (by show StableHlo.after hostOps0 _ (Proc.devRef .tc main_v19) = _; after_results; rfl)
theorem row_v20 : Spec.rowOf (V1 m c main_v20 : S1x128.Idx → EReal) = Spec.cur1 (m ((c : Thread nD τ).loc main_arg16) : S128.Idx → EReal) :=
  rowOf_cast (by show StableHlo.after hostOps0 _ (Proc.devRef .tc main_v20) = _; after_results; rfl)

end Cert.KernelIdeal.Val

end
-- ==== Proof.KI.ValLib.lean ====
import Idealize.ShloMosaic.PureOps.Ideal.Laws
import Idealize.ShloMosaic.Lib.ValueIdx
import Idealize.ShloMosaic.Lib.Pipeline.Value

namespace Cert.KernelIdeal.Val

open Idealize.ShloMosaic Idealize.ShloMosaic.ValueIdx Idealize.ShloMosaic.Pipeline

-- summing an a-by-b array over its rows, read at lane q, is the sum of column q
theorem colsum {a b : ℕ} (x : FVec Ideal ⟨2, ![a, b]⟩ .f32) (z : BitVec 32) (h : (⟨2, ![a, b]⟩ : Shape).Reduces [0] ⟨1, ![b]⟩)
    (hφ : FKind.Formats .f32) (hacc : z = FKind.add.neutral .f32 hφ) (q : Fin b) :
    multiReduction (F := Ideal) .add [0] ⟨1, ![b]⟩ x z h hφ hacc (ix1 q) = ∑ p : Fin a, x (ix2 p q) := by
  refine (Ideal.multiReduction_add_single x z h hφ hacc (ix1 q)).trans ?_
  refine Finset.sum_congr rfl fun p _ => congrArg x ?_
  funext i; apply Fin.ext
  match i with
  | ⟨0, _⟩ => rfl
  | ⟨1, _⟩ => rfl

-- a quantity that starts at 0 + f 0 and grows by f (n + 1) at step n + 1 is the sum of f over the steps so far
theorem sum_of_steps {M : Type*} [AddCommMonoid M] {N : ℕ} (f : Fin N → M) (S : (n : ℕ) → n < N → M)
    (h0 : ∀ hn, S 0 hn = 0 + f ⟨0, hn⟩) (hs : ∀ n hn, S (n + 1) hn = S n (Nat.lt_of_succ_lt hn) + f ⟨n + 1, hn⟩) :
    ∀ n (hn : n < N), S n hn = ∑ t : Fin (n + 1), f (Fin.castLE hn t)
  | 0, hn => by rw [h0, zero_add]; exact (Fin.sum_univ_one fun t => f (Fin.castLE hn t)).symm
  | n + 1, hn => by
    rw [hs, sum_of_steps f S h0 hs n]
    exact (Fin.sum_univ_castSucc fun t => f (Fin.castLE hn t)).symm

variable {sig : RefSig} {G : Grid}

-- the block of window w at point t begins at offset o of its array
abbrev StartsAt (w : Window sig G) (t : Fin G.N) (o : Fin w.shape.rank → ℕ) : Prop := ∀ a, w.index t a * w.size a = o a

-- entry y of such a block sits at o + y, axis by axis
theorem emb_of_start (w : Window sig G) (t : Fin G.N) {o : Fin w.shape.rank → ℕ} (h : StartsAt w t o)
    (y : (w.xblock (G.coords t)).Idx) (x : w.shape.Idx) (hx : ∀ a, (x a : ℕ) = o a + y a) : (w.rect t).emb y = x :=
  funext fun a => Fin.ext ((w.rect_emb_val t y a).trans ((congrArg (· + (y a : ℕ)) (h a)).trans (hx a).symm))

-- a block that begins at the origin keeps every coordinate
theorem emb_of_origin (w : Window sig G) (t : Fin G.N) (h : ∀ a, w.index t a = 0) (y : (w.xblock (G.coords t)).Idx) (x : w.shape.Idx)
    (hx : ∀ a, (x a : ℕ) = y a) : (w.rect t).emb y = x :=
  funext fun a => Fin.ext ((w.rect_emb_val_of_index_zero t a (h a) y).trans (hx a).symm)

end Cert.KernelIdeal.Val
-- ==== Proof.KI.Val7.lean ====
import proofs.«412806_j54228257079467_3_alg».proof.Proof.KI.R7
import proofs.«412806_j54228257079467_3_alg».proof.Proof.KI.ValLib
import proofs.«412806_j54228257079467_3_alg».proof.Proof.Spec
import proofs.«412806_j54228257079467_3_alg».proof.Proof.Cur
import proofs.«412806_j54228257079467_3_alg».proof.Proof.LibPlainDot
import proofs.«412806_j54228257079467_3_alg».proof.Proof.LibPlainAny
import proofs.«412806_j54228257079467_3_alg».proof.Proof.LibLayout2
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx Idealize.ShloMosaic.Tactic
open Idealize.ShloMosaic.Pipeline (Dat)

def memberBit7 (b : BitVec 32) (a : Nat) : BitVec 1 :=
  IntOp.andi (IntOp.cmpi .eq (BitVec.ofNat 32 a) b) (IntOp.cmpi .sge b 0#32)

def memberVal7 (b : BitVec 32) (a : Nat) : EReal := ((((memberBit7 b a).setWidth 32).toInt : ℝ) : EReal)

def oh7 (B : S1x50176.Idx → BitVec 32) : Fin 256 → Fin 50176 → EReal :=
  fun a m => memberVal7 (B (ix2 (0 : Fin 1) m)) a.val

theorem graphWord7_toInt (a : Nat) (ha : a < 256) : (BitVec.ofNat 32 a).toInt = (a : Int) := by
  rw [BitVec.toInt_eq_toNat_cond, BitVec.toNat_ofNat, Nat.mod_eq_of_lt (by omega)]
  split <;> omega

theorem memberVal7_eq (b : BitVec 32) (a : Nat) (ha : a < 256) :
    memberVal7 b a = if b.toInt = (a : Int) then 1 else 0 := by
  have hA := graphWord7_toInt a ha
  show ((((BitVec.ofBool (BitVec.ofNat 32 a == b) &&& BitVec.ofBool ((0#32).sle b)).setWidth 32).toInt : ℝ) : EReal) = _
  by_cases h : b.toInt = (a : Int)
  · have hb : b = BitVec.ofNat 32 a := BitVec.eq_of_toInt_eq (h.trans hA.symm)
    subst hb
    have h1 : (BitVec.ofNat 32 a == BitVec.ofNat 32 a) = true := beq_self_eq_true _
    have h2 : (0#32).sle (BitVec.ofNat 32 a) = true := by
      rw [BitVec.sle_eq_decide, hA]; simp
    rw [if_pos h, h1, h2]
    have e : ((BitVec.ofBool true &&& BitVec.ofBool true).setWidth 32).toInt = 1 := by decide
    rw [e]; norm_num
  · have h1 : (BitVec.ofNat 32 a == b) = false := by
      rw [beq_eq_false_iff_ne]; intro e; exact h (e ▸ hA)
    rw [if_neg h, h1]
    have e : ∀ x : BitVec 1, ((BitVec.ofBool false &&& x).setWidth 32).toInt = 0 := by decide
    rw [e]; norm_num

theorem oh7_eq (B : S1x50176.Idx → BitVec 32) (a : Fin 256) (m : Fin 50176) :
    oh7 B a m = if (B (ix2 (0 : Fin 1) m)).toInt = (a.val : Int) then 1 else 0 :=
  memberVal7_eq _ a.val a.isLt

theorem noOffset7 : (![0, 0] : Fin 2 → Nat) = fun _ => 0 := funext fun a => by fin_cases a <;> rfl

theorem contraction7_plain : dot_S256x3584_S3584x128_S256x128_1_0_0_1_n_n = DotDims.plain 256 3584 128 := rfl

theorem spreadRow7 {α : Type} {M N : Nat} (y : (⟨2, ![1, N]⟩ : Shape).Idx → α) (h : (⟨2, ![1, N]⟩ : Shape).Broadcasts ⟨2, ![M, N]⟩)
    (r : Fin M) (q : Fin N) : broadcastTo ⟨2, ![M, N]⟩ y h (ix2 r q) = y (ix2 (0 : Fin 1) q) :=
  broadcastTo_apply y h (ix2 r q) (ix2 (0 : Fin 1) q) fun ax => by
    match ax with
    | ⟨0, _⟩ => rfl
    | ⟨1, _⟩ => show q.val = if N = 1 then 0 else q.val; have := q.isLt; split <;> omega

theorem member_entry7 (xb : Vec Ideal S1x3584 .i32) (a : Fin 256) (k : Fin 3584) :
    k7_pay3 (F := Ideal) xb (ix2 a k) = memberBit7 (xb (ix2 (0 : Fin 1) k)) a.val := by
  unfold k7_pay3
  simp only [shapeCast_self]
  show IntOp.andi (IntOp.cmpi .eq (iota .tc S256x3584 32 [0] iota_S256x3584_d0_w32 (ix2 a k)) (broadcastTo S256x3584 xb broadcasts_S1x3584_S256x3584 (ix2 a k)))
      (IntOp.cmpi .sge (broadcastTo S256x3584 xb broadcasts_S1x3584_S256x3584 (ix2 a k)) (0#32)) = _
  rw [spreadRow7]
  show IntOp.andi (IntOp.cmpi .eq (BitVec.ofNat 32 (0 * 256 + a.val)) _) _ = _
  rw [Nat.zero_mul, Nat.zero_add]
  rfl

theorem acc_entry7 (xb : Vec Ideal S1x3584 .i32) (xh : Vec Ideal S3584x128 .f32) (sa : Vec Ideal S256x128 .f32)
    (a : Fin 256) (q : Fin 128) :
    k7_pay4 xb xh sa (ix2 a q)
      = sa (ix2 a q) + ∑ k : Fin 3584, memberVal7 (xb (ix2 (0 : Fin 1) k)) a.val * xh (ix2 k q) := by
  unfold k7_pay4
  simp only [shapeCast_self]
  show sa (ix2 a q) + matmul dot_S256x3584_S3584x128_S256x128_1_0_0_1_n_n none
      (truncf .bf16 (sitofp (F := Ideal) .f32 (extui 32 (k7_pay3 (F := Ideal) xb) natLt_1_32)) bitsLt_bf16_f32)
      (truncf .bf16 xh bitsLt_bf16_f32) (constant (F := Ideal) S256x128 .f32 0x00000000#32) (ix2 a q) = _
  rw [contraction7_plain, Cert.LibPlainAny.matmul_plain_zero_any 256 3584 128 _ _ a q]
  refine congrArg (sa (ix2 a q) + ·) (Finset.sum_congr rfl fun k _ => ?_)
  show ((((k7_pay3 (F := Ideal) xb (ix2 a k)).setWidth 32).toInt : ℝ) : EReal) * xh (ix2 k q) = _
  rw [member_entry7]
  rfl

theorem liftRow7 (a : Fin 256) (k : Fin 3584) :
    reduces_S256x3584_S256.lift (ix1 a) k = ix2 a k :=
  funext fun d => Fin.ext (by match d with | ⟨0, _⟩ => rfl | ⟨1, _⟩ => rfl)

theorem rowSum7 (v : FVec Ideal S256x3584 .f32) (hφ : FKind.Formats .f32) (hacc : (0x00000000#32 : BitVec 32) = 0x00000000#32) (a : Fin 256) :
    multiReduction (F := Ideal) .add [1] S256 v 0x00000000#32 reduces_S256x3584_S256 hφ hacc (ix1 a) = ∑ k : Fin 3584, v (ix2 a k) :=
  (Ideal.multiReduction_add_single v 0x00000000#32 reduces_S256x3584_S256 hφ hacc (ix1 a)).trans
    (Finset.sum_congr rfl fun k _ => congrArg v (liftRow7 a k))

theorem cnt_entry7 (xb : Vec Ideal S1x3584 .i32) (sc : Vec Ideal S256x1 .f32) (a : Fin 256) :
    k7_pay5 xb sc (ix2 a (0 : Fin 1))
      = sc (ix2 a (0 : Fin 1)) + ∑ k : Fin 3584, memberVal7 (xb (ix2 (0 : Fin 1) k)) a.val := by
  unfold k7_pay5
  simp only [shapeCast_self]
  show sc (ix2 a (0 : Fin 1)) + shapeCast S256x1 (multiReduction (F := Ideal) .add [1] S256
      (sitofp (F := Ideal) .f32 (extui 32 (k7_pay3 (F := Ideal) xb) natLt_1_32)) 0x00000000#32 reduces_S256x3584_S256 _ _)
      shapeCasts_S256_S256x1 (ix2 a (0 : Fin 1)) = _
  refine congrArg (sc (ix2 a (0 : Fin 1)) + ·) ?_
  refine (Cert.LibLayout2.shapeCast_a_a1_apply _ shapeCasts_S256_S256x1 a (0 : Fin 1)).trans ?_
  refine (rowSum7 _ _ _ a).trans (Finset.sum_congr rfl fun k _ => ?_)
  show ((((k7_pay3 (F := Ideal) xb (ix2 a k)).setWidth 32).toInt : ℝ) : EReal) = _
  rw [member_entry7]
  rfl

theorem oneWord7 : Ideal.ofBits .f32 0x3F800000#32 = 1 := by
  simp [Ideal.ofBits, Ideal.ieee, -EReal.coe_mul]; norm_num

theorem quot_entry7 (sa : Vec Ideal S256x128 .f32) (sc : Vec Ideal S256x1 .f32) (a : Fin 256) (q : Fin 128) :
    k7_pay6 sa sc (ix2 a q) = Ideal.div (sa (ix2 a q)) (max (sc (ix2 a (0 : Fin 1))) 1) := by
  unfold k7_pay6
  show Ideal.div (sa (ix2 a q)) (broadcastTo S256x128 (maximumf sc (broadcast S256x1 (Scalar.ofBits (F := Ideal) .f32 0x3F800000#32)))
      broadcasts_S256x1_S256x128 (ix2 a q)) = _
  rw [Cert.LibPlainDot.broadcast_col 256 128]
  show Ideal.div (sa (ix2 a q)) (max (sc (ix2 a (0 : Fin 1))) (Ideal.ofBits .f32 0x3F800000#32)) = _
  rw [oneWord7]

section Pieces
variable {F : FTy → Type} [FloatOps F]
variable {c : Dev nD} {i : grid7.Coords} {rows : Memref sig .tc .vmem S3584x128 .f32} {hrows : rows.IsWhole} {ids : Memref sig .tc .vmem S1x3584 .i32} {hids : ids.IsWhole}
    {outb : Memref sig .tc .vmem S256x128 .f32} {houtb : outb.IsWhole} {acc : Memref sig .tc .vmem S256x128 .f32} {hacc : acc.IsWhole}
    {cnt : Memref sig .tc .vmem S256x1 .f32} {hcnt : cnt.IsWhole}

-- what each kind of grid point leaves in the two scratch arrays and in the output block, as the payloads of the loaded blocks
theorem pieces7 :
    (∀ hf hl (xh : Vec F S3584x128 .f32) xb, acc7_first c i rows hrows ids hids outb houtb acc hacc cnt hcnt hf hl xh xb = k7_pay4 xb xh (k7_pay1 (F := F)))
    ∧ (∀ hf hl (xh : Vec F S3584x128 .f32) xb, cnt7_first c i rows hrows ids hids outb houtb acc hacc cnt hcnt hf hl xh xb = k7_pay5 xb (k7_pay2 (F := F)))
    ∧ (∀ hf hl (xh : Vec F S3584x128 .f32) xb sa sc, acc7_mid c i rows hrows ids hids outb houtb acc hacc cnt hcnt hf hl xh xb sa sc = k7_pay4 xb xh sa)
    ∧ (∀ hf hl (xh : Vec F S3584x128 .f32) xb sa sc, cnt7_mid c i rows hrows ids hids outb houtb acc hacc cnt hcnt hf hl xh xb sa sc = k7_pay5 xb sc)
    ∧ (∀ hf hl (xh : Vec F S3584x128 .f32) xb sa sc, acc7_last c i rows hrows ids hids outb houtb acc hacc cnt hcnt hf hl xh xb sa sc = k7_pay4 xb xh sa)
    ∧ (∀ hf hl (xh : Vec F S3584x128 .f32) xb sa sc, cnt7_last c i rows hrows ids hids outb houtb acc hacc cnt hcnt hf hl xh xb sa sc = k7_pay5 xb sc)
    ∧ ∀ hf hl (xh : Vec F S3584x128 .f32) xb sa sc, out7_last c i rows hrows ids hids outb houtb acc hacc cnt hcnt hf hl xh xb sa sc = k7_pay6 (k7_pay4 xb xh sa) (k7_pay5 xb sc) := by
  refine ⟨?_, ?_, ?_, ?_, ?_, ?_, ?_⟩ <;> intros <;>
    simp only [acc7_first, cnt7_first, acc7_mid, cnt7_mid, acc7_last, cnt7_last, out7_last, run7_first, run7_mid, run7_last] <;>
    sl_unfold_words <;>
    (first | rw [View.canon_cons_unit_zero (S := S256x128) noOffset7] | rw [View.canon_cons_unit_zero (S := S256x1) noOffset7] | rw [View.canon_unit_zero noOffset7]) <;>
    simp only [View.readAt_eq_ld, hids.read_unread, hrows.read_unread, hacc.read_unread, hcnt.read_unread, View.ld_unit_zero (S := S1x3584) noOffset7,
      View.ld_unit_zero (S := S3584x128) noOffset7, View.ld_unit_zero (S := S256x128) noOffset7, View.ld_unit_zero (S := S256x1) noOffset7,
      View.readCov_unit_zero (S := S256x128) _ noOffset7, View.readCov_unit_zero (S := S256x1) _ noOffset7]

end Pieces

variable (V : (c : Dev nD) → (b : Ref sig .tc) → Buf (Elt Ideal) ((c : Thread nD τ).loc b))

abbrev hp7 (c : Dev nD) : S50176x128.Idx → EReal := V c main_v58
abbrev bt7 (c : Dev nD) : S1x50176.Idx → BitVec 32 := V c main_v60

theorem blockAt7 : ∀ t : Fin cfg7.N,
    win7_0.index t (0 : Fin 2) = t.val ∧ win7_0.index t (1 : Fin 2) = 0
    ∧ win7_1.index t (0 : Fin 2) = 0 ∧ win7_1.index t (1 : Fin 2) = t.val
    ∧ win7_2.index t (0 : Fin 2) = 0 ∧ win7_2.index t (1 : Fin 2) = 0 :=
  (by decide +kernel : ∀ t : Fin grid7.N, _)

abbrev row7 : Fin 14 → Fin 3584 → Fin 50176 := Spec.blkRow (T := 14) (B := 3584) (by decide)

def blockOf7 (t : Fin cfg7.N) : Fin 14 := ⟨t.val, lt_of_lt_of_eq (b := grid7.N) t.isLt N_7⟩

-- entry y of a block at window index i on an axis of block size s sits at i * s + y
theorem at_block7 {i s y b : ℕ} (h : i = b) : i * s + 1 * y = b * s + y := by subst h; omega
theorem at_origin7 {i s y : ℕ} (h : i = 0) : i * s + 1 * y = y := by subst h; omega

theorem rows_entry7 (c : Dev nD) (t : Fin cfg7.N) (k : Fin 3584) (q : Fin 128) :
    (iblk7 V c 0 t : Vec Ideal S3584x128 .f32) (ix2 k q) = (hp7 V c) (ix2 (row7 (blockOf7 t) k) q) :=
  congrArg (hp7 V c) (funext fun a => Fin.ext (match a with
    | ⟨0, _⟩ => at_block7 (blockAt7 t).1
    | ⟨1, _⟩ => at_origin7 (blockAt7 t).2.1))

theorem ids_entry7 (c : Dev nD) (t : Fin cfg7.N) (k : Fin 3584) :
    (iblk7 V c 1 t : Vec Ideal S1x3584 .i32) (ix2 (0 : Fin 1) k) = (bt7 V c) (ix2 (0 : Fin 1) (row7 (blockOf7 t) k)) :=
  congrArg (bt7 V c) (funext fun a => Fin.ext (match a with
    | ⟨0, _⟩ => at_origin7 (blockAt7 t).2.2.1
    | ⟨1, _⟩ => at_block7 (blockAt7 t).2.2.2.1))

theorem out_place7 (t : Fin cfg7.N) (a : Fin 256) (q : Fin 128) :
    (((cfg7.win 2).blk t).view.emb (ix2 a q) : S256x128.Idx) = ix2 a q :=
  funext fun d => Fin.ext (match d with
    | ⟨0, _⟩ => at_origin7 (blockAt7 t).2.2.2.2.1
    | ⟨1, _⟩ => at_origin7 (blockAt7 t).2.2.2.2.2)

def blockSum7 (Hp : S50176x128.Idx → EReal) (Bt : S1x50176.Idx → BitVec 32) (a : Fin 256) (q : Fin 128) (t : Fin 14) : EReal :=
  ∑ r : Fin 3584, oh7 Bt a (row7 t r) * Spec.cur2 Hp (row7 t r) q

def blockCnt7 (Bt : S1x50176.Idx → BitVec 32) (a : Fin 256) (t : Fin 14) : EReal :=
  ∑ r : Fin 3584, oh7 Bt a (row7 t r)

theorem blockSum7_eq (c : Dev nD) (t : Fin cfg7.N) (a : Fin 256) (q : Fin 128) :
    ∑ k : Fin 3584, memberVal7 ((iblk7 V c 1 t : Vec Ideal S1x3584 .i32) (ix2 (0 : Fin 1) k)) a.val * (iblk7 V c 0 t : Vec Ideal S3584x128 .f32) (ix2 k q)
      = blockSum7 (hp7 V c) (bt7 V c) a q (blockOf7 t) :=
  Finset.sum_congr rfl fun k _ => by rw [ids_entry7, rows_entry7]; rfl

theorem blockCnt7_eq (c : Dev nD) (t : Fin cfg7.N) (a : Fin 256) :
    ∑ k : Fin 3584, memberVal7 ((iblk7 V c 1 t : Vec Ideal S1x3584 .i32) (ix2 (0 : Fin 1) k)) a.val
      = blockCnt7 (bt7 V c) a (blockOf7 t) :=
  Finset.sum_congr rfl fun k _ => by rw [ids_entry7]; rfl

theorem zeroAcc7 (i : S256x128.Idx) : (k7_pay1 (F := Ideal)) i = 0 := Ideal.ofBits_zero_f32
theorem zeroCnt7 (i : S256x1.Idx) : (k7_pay2 (F := Ideal)) i = 0 := Ideal.ofBits_zero_f32

theorem scr7_zero (c : Dev nD) (a : Fin 256) (q : Fin 128) (t : Fin cfg7.N) (h0 : t.val = 0) :
    (scr7 V c t.val t.isLt).1 (ix2 a q) = 0 + blockSum7 (hp7 V c) (bt7 V c) a q (blockOf7 t)
      ∧ (scr7 V c t.val t.isLt).2 (ix2 a (0 : Fin 1)) = 0 + blockCnt7 (bt7 V c) a (blockOf7 t) := by
  have hl : ¬last7 (grid7.coords t) := fun h => by have := (last7_iff_end t).mp h; omega
  rw [scr7_first V c t h0 ((first7_iff_zero t).mpr h0) hl]
  dsimp only
  rw [pieces7.1, pieces7.2.1, acc_entry7, cnt_entry7, zeroAcc7, zeroCnt7, blockSum7_eq, blockCnt7_eq]
  exact ⟨rfl, rfl⟩

theorem scr7_succ (c : Dev nD) (a : Fin 256) (q : Fin 128) (t : Fin cfg7.N) (h0 : t.val ≠ 0) :
    (scr7 V c t.val t.isLt).1 (ix2 a q)
        = (scr7 V c (t.val - 1) (Nat.lt_of_le_of_lt (Nat.sub_le _ _) t.isLt)).1 (ix2 a q) + blockSum7 (hp7 V c) (bt7 V c) a q (blockOf7 t)
      ∧ (scr7 V c t.val t.isLt).2 (ix2 a (0 : Fin 1))
        = (scr7 V c (t.val - 1) (Nat.lt_of_le_of_lt (Nat.sub_le _ _) t.isLt)).2 (ix2 a (0 : Fin 1)) + blockCnt7 (bt7 V c) a (blockOf7 t) := by
  have hf : ¬first7 (grid7.coords t) := fun h => h0 ((first7_iff_zero t).mp h)
  by_cases hL : t.val = 13 <;>
    (first | rw [scr7_last V c t h0 hL hf ((last7_iff_end t).mpr hL)] | rw [scr7_mid V c t h0 hL hf fun h => hL ((last7_iff_end t).mp h)]) <;>
    dsimp only <;> simp only [pieces7] <;> rw [acc_entry7, cnt_entry7, blockSum7_eq, blockCnt7_eq] <;> exact ⟨rfl, rfl⟩

-- each scratch entry after point n is the sum of its blocks' contributions over the points so far
theorem scr7_entries (c : Dev nD) (a : Fin 256) (q : Fin 128) (n : ℕ) (hn : n < cfg7.N) :
    (scr7 V c n hn).1 (ix2 a q) = ∑ t : Fin (n + 1), blockSum7 (hp7 V c) (bt7 V c) a q (blockOf7 (Fin.castLE hn t))
      ∧ (scr7 V c n hn).2 (ix2 a (0 : Fin 1)) = ∑ t : Fin (n + 1), blockCnt7 (bt7 V c) a (blockOf7 (Fin.castLE hn t)) :=
  ⟨sum_of_steps (fun t => blockSum7 (hp7 V c) (bt7 V c) a q (blockOf7 t)) (fun n hn => (scr7 V c n hn).1 (ix2 a q))
      (fun hn => (scr7_zero V c a q ⟨0, hn⟩ rfl).1) (fun n hn => (scr7_succ V c a q ⟨n + 1, hn⟩ (Nat.succ_ne_zero n)).1) n hn,
    sum_of_steps (fun t => blockCnt7 (bt7 V c) a (blockOf7 t)) (fun n hn => (scr7 V c n hn).2 (ix2 a (0 : Fin 1)))
      (fun hn => (scr7_zero V c a q ⟨0, hn⟩ rfl).2) (fun n hn => (scr7_succ V c a q ⟨n + 1, hn⟩ (Nat.succ_ne_zero n)).2) n hn⟩

theorem res7_quot (c : Dev nD) (t : Fin cfg7.N) (hL : t.val = 13) :
    res7 V c t = k7_pay6 (scr7 V c t.val t.isLt).1 (scr7 V c t.val t.isLt).2 := by
  have h0 : t.val ≠ 0 := by omega
  have hf : ¬first7 (grid7.coords t) := fun h => h0 ((first7_iff_zero t).mp h)
  have hl : last7 (grid7.coords t) := (last7_iff_end t).mpr hL
  rw [res7_last V c t hL hf hl, scr7_last V c t h0 hL hf hl]
  dsimp only
  rw [pieces7.2.2.2.2.2.2, pieces7.2.2.2.2.1, pieces7.2.2.2.2.2.1]

def pooled7 (Hp : S50176x128.Idx → EReal) (Bt : S1x50176.Idx → BitVec 32) : S256x128.Idx → EReal :=
  fun i => Spec.poolK (T := 14) (B := 3584) (by decide : 14 * 3584 = 50176) (oh7 Bt) (Spec.cur2 Hp) (i 0) (i 1)

theorem wholeBlock7 (t : Fin cfg7.N) (X : Vec Ideal S256x128 .f32) (G : S256x128.Idx → EReal)
    (h : ∀ (a : Fin 256) (q : Fin 128), X (ix2 a q) = G (ix2 a q)) :
    (cfg7.win 2).cut (grid7.coords t) X = ((cfg7.win 2).blk t).view.read (Elt Ideal) G := by
  funext j
  obtain ⟨a, q, rfl⟩ : ∃ (a : Fin 256) (q : Fin 128), j = ix2 a q := ⟨j 0, j 1, eq_ix2 j⟩
  show X (ix2 a q) = G (((cfg7.win 2).blk t).view.emb (ix2 a q))
  rw [out_place7]
  exact h a q

theorem quot_pooled7 (c : Dev nD) (t : Fin cfg7.N) (hL : t.val = 13) (a : Fin 256) (q : Fin 128) :
    k7_pay6 (F := Ideal) (scr7 V c t.val t.isLt).1 (scr7 V c t.val t.isLt).2 (ix2 a q) = pooled7 (hp7 V c) (bt7 V c) (ix2 a q) := by
  obtain ⟨n, hn⟩ := t
  change n = 13 at hL
  subst hL
  rw [quot_entry7, (scr7_entries V c a q 13 hn).1, (scr7_entries V c a q 13 hn).2]
  rfl

theorem pooled_written7 (c : Dev nD) (t : Fin cfg7.N) (hfl : (cfg7.win 2).flush t = true) :
    (dat7 V c).flushed 2 t = ((cfg7.win 2).blk t).view.read (Elt Ideal)
      (pooled7 (hp7 V c) (bt7 V c)) := by
  have hN : t.val < 14 := lt_of_lt_of_eq (b := grid7.N) t.isLt N_7
  have hL : t.val = 13 := by have := (flush7_2 t).mp hfl; omega
  show (cfg7.win 2).cut (grid7.coords t) ((dat7 V c).after 2 t) = _
  rw [after7_2, res7_quot V c t hL]
  exact wholeBlock7 t (k7_pay6 (F := Ideal) (scr7 V c t.val t.isLt).1 (scr7 V c t.val t.isLt).2)
    (pooled7 (hp7 V c) (bt7 V c)) (quot_pooled7 V c t hL)

theorem mem_outBlock7 (t : Fin cfg7.N) (i : S256x128.Idx) :
    i ∈ ((cfg7.win 2).blk t).view.set ↔ ∀ a : Fin 2, win7_2.index t a * S256x128.size a ≤ (i a).val ∧ (i a).val < win7_2.index t a * S256x128.size a + S256x128.size a := by
  show i ∈ ((View.whole main_v61).slice (win7_2.rect t)).set ↔ _
  rw [View.set_slice_whole, Rect.mem_set_unit]
  exact Iff.rfl

theorem pooled_covered7 (i : S256x128.Idx) : ∃ t : Fin cfg7.N, (cfg7.win 2).flush t = true ∧ i ∈ ((cfg7.win 2).blk t).view.set := by
  have ha : (i 0).val < 256 := idx2_lt0 i
  have hq : (i 1).val < 128 := idx2_lt1 i
  obtain ⟨-, -, -, -, e0, e1⟩ := blockAt7 t7_13
  refine ⟨t7_13, (flush7_2 t7_13).mpr rfl, ?_⟩
  rw [mem_outBlock7]
  intro d
  match d with
  | ⟨0, _⟩ => show win7_2.index t7_13 (0 : Fin 2) * 256 ≤ (i 0).val ∧ (i 0).val < win7_2.index t7_13 (0 : Fin 2) * 256 + 256; omega
  | ⟨1, _⟩ => show win7_2.index t7_13 (1 : Fin 2) * 128 ≤ (i 1).val ∧ (i 1).val < win7_2.index t7_13 (1 : Fin 2) * 128 + 128; omega

theorem pooled_final7 (c : Dev nD) :
    (dat7 V c).arrAt 2 cfg7.N = pooled7 (hp7 V c) (bt7 V c) :=
  (dat7 V c).arrAt_eq_of_cover 2 _ (fun t hfl => pooled_written7 V c t hfl) pooled_covered7

theorem arr7_2 (c : Dev nD) (a : Fin 256) (q : Fin 128) :
    ((dat7 (F := Ideal) V c).arrAt 2 cfg7.N) (ix2 a q)
      = Spec.poolK (T := 14) (B := 3584) (by decide : 14 * 3584 = 50176) (oh7 (V c main_v60 : S1x50176.Idx → BitVec 32))
          (Spec.cur2 (V c main_v58 : S50176x128.Idx → EReal)) a q := by
  rw [pooled_final7]; rfl

end Cert.KernelIdeal.Val

end
-- ==== Proof.KI.Val8.lean ====
import proofs.«412806_j54228257079467_3_alg».proof.Proof.KI.R8
import proofs.«412806_j54228257079467_3_alg».proof.Proof.Spec
import proofs.«412806_j54228257079467_3_alg».proof.Proof.Cur
import proofs.«412806_j54228257079467_3_alg».proof.Proof.LibPlainDot
import proofs.«412806_j54228257079467_3_alg».proof.Proof.LibPlainAny
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

theorem bcast_row8 {α : Type} (M N : Nat) (b : (⟨2, ![1, N]⟩ : Shape).Idx → α) (hb : (⟨2, ![1, N]⟩ : Shape).Broadcasts ⟨2, ![M, N]⟩)
    (a : Fin M) (j : Fin N) : broadcastTo ⟨2, ![M, N]⟩ b hb (ix2 a j) = b (ix2 (0 : Fin 1) j) :=
  broadcastTo_apply b hb (ix2 a j) (ix2 (0 : Fin 1) j) fun ax => by
    match ax with
    | ⟨0, _⟩ => rfl
    | ⟨1, _⟩ => show j.val = if N = 1 then 0 else j.val; have := j.isLt; split <;> omega

section Dense
variable (M K N : Nat) (x : FVec Ideal ⟨2, ![M, K]⟩ .f32) (w : FVec Ideal ⟨2, ![K, N]⟩ .f32)
    (b : FVec Ideal ⟨2, ![1, N]⟩ .f32) (hlt : FTy.bf16.bits < FTy.f32.bits)
    (hc : (⟨2, ![1, N]⟩ : Shape).ShapeCasts ⟨2, ![1, N]⟩) (hb : (⟨2, ![1, N]⟩ : Shape).Broadcasts ⟨2, ![M, N]⟩)

-- a dense layer's product of the rounded operands from zero, plus its bias row spread over the rows
abbrev aff8 : FVec Ideal ⟨2, ![M, N]⟩ .f32 :=
  addf (matmul (DotDims.plain M K N) none (truncf .bf16 x hlt) (truncf .bf16 w hlt) (constant ⟨2, ![M, N]⟩ .f32 0x00000000#32))
    (broadcastTo ⟨2, ![M, N]⟩ (shapeCast ⟨2, ![1, N]⟩ b hc) hb)

theorem affine8 : Spec.cur2 (aff8 M K N x w b hlt hc hb) = Spec.addRow (Spec.mm (Spec.cur2 x) (Spec.cur2 w)) (Spec.rowOf b) := by
  funext r q
  show addf _ _ (ix2 r q) = (∑ j : Fin K, x (ix2 r j) * w (ix2 j q)) + b (ix2 (0 : Fin 1) q)
  rw [addf_apply, Cert.LibPlainAny.matmul_plain_zero_any, bcast_row8, shapeCast_self]
  rfl

theorem hidden8 :
    Spec.cur2 (maximumf (aff8 M K N x w b hlt hc hb) (broadcast ⟨2, ![M, N]⟩ (Scalar.ofBits (F := Ideal) .f32 0x00000000#32)))
      = Spec.dense (Spec.cur2 x) (Spec.cur2 w) (Spec.rowOf b) := by
  funext r q
  exact congrArg₂ max (congrFun (congrFun (affine8 M K N x w b hlt hc hb) r) q) Ideal.ofBits_zero_f32

end Dense

theorem dot8_in : dot_S256x134_S134x1024_S256x1024_1_0_0_1_n_n = DotDims.plain 256 134 1024 := rfl
theorem dot8_mid : dot_S256x1024_S1024x1024_S256x1024_1_0_0_1_n_n = DotDims.plain 256 1024 1024 := rfl
theorem dot8_out : dot_S256x1024_S1024x3_S256x3_1_0_0_1_n_n = DotDims.plain 256 1024 3 := rfl

theorem logits8 (z : Vec Ideal S256x134 .f32) (W1 : Vec Ideal S134x1024 .f32) (b1 : Vec Ideal S1x1024 .f32)
    (W2 : Vec Ideal S1024x1024 .f32) (b2 : Vec Ideal S1x1024 .f32) (W3 : Vec Ideal S1024x1024 .f32) (b3 : Vec Ideal S1x1024 .f32)
    (Wo : Vec Ideal S1024x3 .f32) (bo : Vec Ideal S1x3 .f32) :
    Spec.cur2 (k8_pay1 (k8_pay2 z W1 b1 W2 b2 W3 b3 Wo) bo)
      = Spec.addRow (Spec.mm (Spec.dense (Spec.dense (Spec.dense (Spec.cur2 z) (Spec.cur2 W1) (Spec.rowOf b1)) (Spec.cur2 W2) (Spec.rowOf b2))
          (Spec.cur2 W3) (Spec.rowOf b3)) (Spec.cur2 Wo)) (Spec.rowOf bo) := by
  unfold k8_pay1 k8_pay2
  dsimp only
  rw [dot8_in, dot8_mid, dot8_out]
  refine (affine8 256 1024 3 _ Wo bo _ _ _).trans ?_
  refine congrArg (fun h => Spec.addRow (Spec.mm h (Spec.cur2 Wo)) (Spec.rowOf bo)) ?_
  refine (hidden8 256 1024 1024 _ W3 b3 _ _ _).trans ?_
  refine congrArg (fun h => Spec.dense h (Spec.cur2 W3) (Spec.rowOf b3)) ?_
  refine (hidden8 256 1024 1024 _ W2 b2 _ _ _).trans ?_
  refine congrArg (fun h => Spec.dense h (Spec.cur2 W2) (Spec.rowOf b2)) ?_
  refine (hidden8 256 134 1024 _ W1 b1 _ _ _).trans ?_
  rw [shapeCast_self]

variable (V : (c : Dev nD) → (b : Ref sig .tc) → Buf (Elt Ideal) ((c : Thread nD τ).loc b))

theorem hz8 : (![0, 0] : Fin 2 → Nat) = fun _ => 0 := funext fun a => by fin_cases a <;> rfl

theorem idx_facts8 : ∀ (t : Fin cfg8.N) (a : Fin 2),
    win8_0.index t a = 0 ∧ win8_1.index t a = 0 ∧ win8_2.index t a = 0 ∧ win8_3.index t a = 0 ∧ win8_4.index t a = 0
    ∧ win8_5.index t a = 0 ∧ win8_6.index t a = 0 ∧ win8_7.index t a = 0 ∧ win8_8.index t a = 0 ∧ win8_9.index t a = 0 :=
  (by decide +kernel : ∀ (t : Fin grid8.N) (a : Fin 2), _)

-- a block whose window index is 0 on an axis keeps that coordinate
theorem at_origin8 {i s y : ℕ} (h : i = 0) : i * s + 1 * y = y := by subst h; omega

theorem iblk8_0_eq (c : Dev nD) (t : Fin cfg8.N) : iblk8 V c 0 t = (V c main_v62 : S256x134.Idx → EReal) :=
  funext fun y => congrArg (V c main_v62) (funext fun a => Fin.ext (match a with
    | ⟨0, _⟩ => at_origin8 (idx_facts8 t 0).1
    | ⟨1, _⟩ => at_origin8 (idx_facts8 t 1).1))

theorem iblk8_1_eq (c : Dev nD) (t : Fin cfg8.N) : iblk8 V c 1 t = (V c main_arg17 : S134x1024.Idx → EReal) :=
  funext fun y => congrArg (V c main_arg17) (funext fun a => Fin.ext (match a with
    | ⟨0, _⟩ => at_origin8 (idx_facts8 t 0).2.1
    | ⟨1, _⟩ => at_origin8 (idx_facts8 t 1).2.1))

theorem iblk8_2_eq (c : Dev nD) (t : Fin cfg8.N) : iblk8 V c 2 t = (V c main_v63 : S1x1024.Idx → EReal) :=
  funext fun y => congrArg (V c main_v63) (funext fun a => Fin.ext (match a with
    | ⟨0, _⟩ => at_origin8 (idx_facts8 t 0).2.2.1
    | ⟨1, _⟩ => at_origin8 (idx_facts8 t 1).2.2.1))

theorem iblk8_3_eq (c : Dev nD) (t : Fin cfg8.N) : iblk8 V c 3 t = (V c main_arg19 : S1024x1024.Idx → EReal) :=
  funext fun y => congrArg (V c main_arg19) (funext fun a => Fin.ext (match a with
    | ⟨0, _⟩ => at_origin8 (idx_facts8 t 0).2.2.2.1
    | ⟨1, _⟩ => at_origin8 (idx_facts8 t 1).2.2.2.1))

theorem iblk8_4_eq (c : Dev nD) (t : Fin cfg8.N) : iblk8 V c 4 t = (V c main_v64 : S1x1024.Idx → EReal) :=
  funext fun y => congrArg (V c main_v64) (funext fun a => Fin.ext (match a with
    | ⟨0, _⟩ => at_origin8 (idx_facts8 t 0).2.2.2.2.1
    | ⟨1, _⟩ => at_origin8 (idx_facts8 t 1).2.2.2.2.1))

theorem iblk8_5_eq (c : Dev nD) (t : Fin cfg8.N) : iblk8 V c 5 t = (V c main_arg21 : S1024x1024.Idx → EReal) :=
  funext fun y => congrArg (V c main_arg21) (funext fun a => Fin.ext (match a with
    | ⟨0, _⟩ => at_origin8 (idx_facts8 t 0).2.2.2.2.2.1
    | ⟨1, _⟩ => at_origin8 (idx_facts8 t 1).2.2.2.2.2.1))

theorem iblk8_6_eq (c : Dev nD) (t : Fin cfg8.N) : iblk8 V c 6 t = (V c main_v65 : S1x1024.Idx → EReal) :=
  funext fun y => congrArg (V c main_v65) (funext fun a => Fin.ext (match a with
    | ⟨0, _⟩ => at_origin8 (idx_facts8 t 0).2.2.2.2.2.2.1
    | ⟨1, _⟩ => at_origin8 (idx_facts8 t 1).2.2.2.2.2.2.1))

theorem iblk8_7_eq (c : Dev nD) (t : Fin cfg8.N) : iblk8 V c 7 t = (V c main_arg23 : S1024x3.Idx → EReal) :=
  funext fun y => congrArg (V c main_arg23) (funext fun a => Fin.ext (match a with
    | ⟨0, _⟩ => at_origin8 (idx_facts8 t 0).2.2.2.2.2.2.2.1
    | ⟨1, _⟩ => at_origin8 (idx_facts8 t 1).2.2.2.2.2.2.2.1))

theorem iblk8_8_eq (c : Dev nD) (t : Fin cfg8.N) : iblk8 V c 8 t = (V c main_v66 : S1x3.Idx → EReal) :=
  funext fun y => congrArg (V c main_v66) (funext fun a => Fin.ext (match a with
    | ⟨0, _⟩ => at_origin8 (idx_facts8 t 0).2.2.2.2.2.2.2.2.1
    | ⟨1, _⟩ => at_origin8 (idx_facts8 t 1).2.2.2.2.2.2.2.2.1))

def G8 (c : Dev nD) : S256x3.Idx → EReal :=
  k8_pay1 (k8_pay2 (V c main_v62 : S256x134.Idx → EReal) (V c main_arg17 : S134x1024.Idx → EReal) (V c main_v63 : S1x1024.Idx → EReal)
      (V c main_arg19 : S1024x1024.Idx → EReal) (V c main_v64 : S1x1024.Idx → EReal) (V c main_arg21 : S1024x1024.Idx → EReal)
      (V c main_v65 : S1x1024.Idx → EReal) (V c main_arg23 : S1024x3.Idx → EReal)) (V c main_v66 : S1x3.Idx → EReal)

theorem flushed8_9_eq (c : Dev nD) (t : Fin cfg8.N) :
    (dat8 (F := Ideal) V c).flushed 9 t = ((cfg8.win 9).blk t).view.read (Elt Ideal) (G8 V c) := by
  show (cfg8.win 9).cut (grid8.coords t) ((dat8 V c).after 9 t) = _
  rw [after8_9]
  unfold out8_9
  rw [View.canon_unit_zero hz8]
  simp only [View.ld_unit_zero (S := S256x134) hz8, View.ld_unit_zero (S := S134x1024) hz8, View.ld_unit_zero (S := S1x1024) hz8,
    View.ld_unit_zero (S := S1024x1024) hz8, View.ld_unit_zero (S := S1024x3) hz8, View.ld_unit_zero (S := S1x3) hz8]
  rw [iblk8_0_eq, iblk8_1_eq, iblk8_2_eq, iblk8_3_eq, iblk8_4_eq, iblk8_5_eq, iblk8_6_eq, iblk8_7_eq, iblk8_8_eq]
  have h0 := idx_facts8 t 0
  have h1 := idx_facts8 t 1
  funext j
  show G8 V c j = G8 V c (((cfg8.win 9).blk t).view.emb j)
  refine congrArg (G8 V c) (funext fun a => Fin.ext ?_)
  match a with
  | ⟨0, _⟩ => show (j 0).val = win8_9.index t (0 : Fin 2) * 256 + 1 * (j 0).val; omega
  | ⟨1, _⟩ => show (j 1).val = win8_9.index t (1 : Fin 2) * 3 + 1 * (j 1).val; omega

theorem mem_blk8_9 (t : Fin cfg8.N) (i : S256x3.Idx) :
    i ∈ ((cfg8.win 9).blk t).view.set ↔ ∀ a : Fin 2, win8_9.index t a * S256x3.size a ≤ (i a).val ∧ (i a).val < win8_9.index t a * S256x3.size a + S256x3.size a := by
  show i ∈ ((View.whole main_v67).slice (win8_9.rect t)).set ↔ _
  rw [View.set_slice_whole, Rect.mem_set_unit]
  exact Iff.rfl

theorem covered8_9 (i : S256x3.Idx) : ∃ t : Fin cfg8.N, (cfg8.win 9).flush t = true ∧ i ∈ ((cfg8.win 9).blk t).view.set := by
  refine ⟨t8_0, flush8_9 t8_0, ?_⟩
  rw [mem_blk8_9]
  have h0 := idx_facts8 t8_0 0
  have h1 := idx_facts8 t8_0 1
  have hi0 : (i 0).val < 256 := (i 0).isLt
  have hi1 : (i 1).val < 3 := (i 1).isLt
  intro a
  match a with
  | ⟨0, _⟩ => show win8_9.index t8_0 (0 : Fin 2) * 256 ≤ (i 0).val ∧ (i 0).val < win8_9.index t8_0 (0 : Fin 2) * 256 + 256; omega
  | ⟨1, _⟩ => show win8_9.index t8_0 (1 : Fin 2) * 3 ≤ (i 1).val ∧ (i 1).val < win8_9.index t8_0 (1 : Fin 2) * 3 + 3; omega

theorem final8_9 (c : Dev nD) : (dat8 (F := Ideal) V c).arrAt 9 cfg8.N = G8 V c :=
  (dat8 (F := Ideal) V c).arrAt_eq_of_cover 9 (G8 V c) (fun t _ => flushed8_9_eq V c t) covered8_9

theorem arr8_9 (c : Dev nD) (r : Fin 256) (q : Fin 3) :
    ((dat8 (F := Ideal) V c).arrAt 9 cfg8.N) (ix2 r q)
      = Spec.addRow (Spec.mm (Spec.dense (Spec.dense (Spec.dense (Spec.cur2 (V c main_v62 : S256x134.Idx → EReal)) (Spec.cur2 (V c main_arg17 : S134x1024.Idx → EReal)) (Spec.rowOf (V c main_v63 : S1x1024.Idx → EReal)))
          (Spec.cur2 (V c main_arg19 : S1024x1024.Idx → EReal)) (Spec.rowOf (V c main_v64 : S1x1024.Idx → EReal)))
          (Spec.cur2 (V c main_arg21 : S1024x1024.Idx → EReal)) (Spec.rowOf (V c main_v65 : S1x1024.Idx → EReal)))
          (Spec.cur2 (V c main_arg23 : S1024x3.Idx → EReal))) (Spec.rowOf (V c main_v66 : S1x3.Idx → EReal)) r q :=
  (congrFun (final8_9 V c) (ix2 r q)).trans (congrFun (congrFun (logits8 _ _ _ _ _ _ _ _ _) r) q)

end Cert.KernelIdeal.Val

end
-- ==== Proof.KI.KTail.lean ====
import proofs.«412806_j54228257079467_3_alg».proof.Proof.KI.Chain
import proofs.«412806_j54228257079467_3_alg».proof.Proof.KI.Host
import proofs.«412806_j54228257079467_3_alg».proof.Proof.KI.Val7
import proofs.«412806_j54228257079467_3_alg».proof.Proof.KI.Val8
import proofs.«412806_j54228257079467_3_alg».proof.Proof.Net
import proofs.«412806_j54228257079467_3_alg».proof.Proof.Rows

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)

variable (m : (ℓ : Loc nD τ sig) → Buf (Elt Ideal) ℓ)

section AnyOutputs

variable (outs : Gen.Outs (F := Ideal)) (c : Dev nD)

theorem head_in (r : Ref sig .tc) (h : r ∉ hostOps8_W) (h1 : r ∉ written11) (h2 : r ∉ written17) :
    V18 m outs c r = m ((c : Thread nD τ).loc r) := (V18_of m outs c r h).trans (V17_launch m outs c r h1 h2)

theorem head_b0 : Spec.rowOf (V18 m outs c main_v63 : S1x1024.Idx → EReal)
    = Spec.cur1 (m ((c : Thread nD τ).loc main_arg18) : S1024.Idx → EReal) := funext fun q => bias_row1 m outs c q
theorem head_b1 : Spec.rowOf (V18 m outs c main_v64 : S1x1024.Idx → EReal)
    = Spec.cur1 (m ((c : Thread nD τ).loc main_arg20) : S1024.Idx → EReal) := funext fun q => bias_row2 m outs c q
theorem head_b2 : Spec.rowOf (V18 m outs c main_v65 : S1x1024.Idx → EReal)
    = Spec.cur1 (m ((c : Thread nD τ).loc main_arg22) : S1024.Idx → EReal) := funext fun q => bias_row3 m outs c q
theorem head_bo : Spec.rowOf (V18 m outs c main_v66 : S1x3.Idx → EReal)
    = Spec.cur1 (m ((c : Thread nD τ).loc main_arg24) : S3.Idx → EReal) := funext fun q => bias_rowOut m outs c q

theorem head_input (P : Fin 256 → Fin 128 → EReal)
    (hP : ∀ a q, (V17 m outs c main_v61 : S256x128.Idx → EReal) (ix2 a q) = P a q) :
    Spec.cur2 (V18 m outs c main_v62 : S256x134.Idx → EReal)
      = Spec.cat3 P (Spec.cur2 (m ((c : Thread nD τ).loc main_arg1) : S256x3.Idx → EReal))
          (Spec.cur2 (m ((c : Thread nD τ).loc main_arg2) : S256x3.Idx → EReal)) := by
  have hpool : Spec.cur2 (V17 m outs c main_v61 : S256x128.Idx → EReal) = P := funext fun a => funext fun q => hP a q
  funext a q
  show (V18 m outs c main_v62 : S256x134.Idx → EReal) (ix2 a q) = _
  rw [z_entry, hpool]

theorem logits_of_pooled (P : Fin 256 → Fin 128 → EReal)
    (hP : ∀ a q, (V17 m outs c main_v61 : S256x128.Idx → EReal) (ix2 a q) = P a q) (a : Fin 256) (q : Fin 3) :
    ((dat8 (F := Ideal) (fun c b => V18 m outs c b) c).arrAt 9 cfg8.N) (ix2 a q)
      = Spec.head P (Spec.cur2 (m ((c : Thread nD τ).loc main_arg1) : S256x3.Idx → EReal))
          (Spec.cur2 (m ((c : Thread nD τ).loc main_arg2) : S256x3.Idx → EReal))
          (Spec.cur2 (m ((c : Thread nD τ).loc main_arg17) : S134x1024.Idx → EReal))
          (Spec.cur1 (m ((c : Thread nD τ).loc main_arg18) : S1024.Idx → EReal))
          (Spec.cur2 (m ((c : Thread nD τ).loc main_arg19) : S1024x1024.Idx → EReal))
          (Spec.cur1 (m ((c : Thread nD τ).loc main_arg20) : S1024.Idx → EReal))
          (Spec.cur2 (m ((c : Thread nD τ).loc main_arg21) : S1024x1024.Idx → EReal))
          (Spec.cur1 (m ((c : Thread nD τ).loc main_arg22) : S1024.Idx → EReal))
          (Spec.cur2 (m ((c : Thread nD τ).loc main_arg23) : S1024x3.Idx → EReal))
          (Spec.cur1 (m ((c : Thread nD τ).loc main_arg24) : S3.Idx → EReal)) a q := by
  have key := arr8_9 (fun c b => V18 m outs c b) c a q
  rw [head_input m outs c P hP, head_in m outs c main_arg17 (by decide) (by decide) (by decide), head_in m outs c main_arg19 (by decide) (by decide) (by decide),
    head_in m outs c main_arg21 (by decide) (by decide) (by decide), head_in m outs c main_arg23 (by decide) (by decide) (by decide), head_b0, head_b1, head_b2, head_bo] at key
  exact key

theorem padded_rows (H : Fin 50000 → Fin 128 → EReal)
    (hH : ∀ r q, (V11 m outs c main_v57 : S50000x128.Idx → EReal) (ix2 r q) = H r q) (n : Fin 50176) (q : Fin 128) :
    Spec.cur2 (V16 m outs c main_v58 : S50176x128.Idx → EReal) n q = if hn : n.val < 50000 then H ⟨n.val, hn⟩ q else 0 := by
  show (V16 m outs c main_v58 : S50176x128.Idx → EReal) (ix2 n q) = _
  rw [hpad_entry]
  by_cases hn : n.val < 50000
  · rw [dif_pos hn, dif_pos hn, hH]
  · rw [dif_neg hn, dif_neg hn]

theorem minusOne_no_graph (a : Fin 256) : ¬ ((-1 : BitVec 32).toInt = (a.val : Int)) := by
  have h1 : (-1 : BitVec 32).toInt = -1 := by decide
  rw [h1]
  have := Int.natCast_nonneg a.val
  omega

theorem padded_ids (a : Fin 256) (n : Fin 50176) :
    (if ((V16 m outs c main_v60 : S1x50176.Idx → BitVec 32) (ix2 (0 : Fin 1) n)).toInt = (a.val : Int) then (1 : EReal) else 0)
      = if hn : n.val < 50000 then
          (if Cert.Rows.lands ((m ((c : Thread nD τ).loc main_arg4) : S50000.Idx → BitVec 32) (ix1 ⟨n.val, hn⟩)) a then 1 else 0)
        else 0 := by
  rw [bpad_entry]
  by_cases hn : n.val < 50000
  · rw [dif_pos hn, dif_pos hn]
    exact if_congr Iff.rfl rfl rfl
  · rw [dif_neg hn, dif_neg hn, if_neg (minusOne_no_graph a)]

end AnyOutputs

variable (c : Dev nD)

theorem pooled_left (a : Fin 256) (q : Fin 128) :
    (V17 m (outsK m) c main_v61 : S256x128.Idx → EReal) (ix2 a q)
      = Spec.poolK (T := 14) (B := 3584) (by decide : 14 * 3584 = 50176) (oh7 (U16 m c main_v60 : S1x50176.Idx → BitVec 32))
          (Spec.cur2 (U16 m c main_v58 : S50176x128.Idx → EReal)) a q :=
  (congrFun (hF7 m c ⟨2, Nat.lt_succ_self 2⟩).symm (ix2 a q)).trans (arr7_2 (T16 m) c a q)

theorem kernel_tail (a : Fin 256) (q : Fin 3) :
    ((dat8 (F := Ideal) (T18 m) c).arrAt ⟨9, Nat.lt_succ_self 9⟩ cfg8.N) (ix2 a q)
      = Spec.head (Spec.poolK (T := 14) (B := 3584) (by decide : 14 * 3584 = 50176) (oh7 (U16 m c main_v60 : S1x50176.Idx → BitVec 32))
            (Spec.cur2 (U16 m c main_v58 : S50176x128.Idx → EReal)))
          (Spec.cur2 (m ((c : Thread nD τ).loc main_arg1) : S256x3.Idx → EReal))
          (Spec.cur2 (m ((c : Thread nD τ).loc main_arg2) : S256x3.Idx → EReal))
          (Spec.cur2 (m ((c : Thread nD τ).loc main_arg17) : S134x1024.Idx → EReal))
          (Spec.cur1 (m ((c : Thread nD τ).loc main_arg18) : S1024.Idx → EReal))
          (Spec.cur2 (m ((c : Thread nD τ).loc main_arg19) : S1024x1024.Idx → EReal))
          (Spec.cur1 (m ((c : Thread nD τ).loc main_arg20) : S1024.Idx → EReal))
          (Spec.cur2 (m ((c : Thread nD τ).loc main_arg21) : S1024x1024.Idx → EReal))
          (Spec.cur1 (m ((c : Thread nD τ).loc main_arg22) : S1024.Idx → EReal))
          (Spec.cur2 (m ((c : Thread nD τ).loc main_arg23) : S1024x3.Idx → EReal))
          (Spec.cur1 (m ((c : Thread nD τ).loc main_arg24) : S3.Idx → EReal)) a q :=
  logits_of_pooled m (outsK m) c _ (pooled_left m c) a q

theorem tail_oh (a : Fin 256) (n : Fin 50176) :
    oh7 (U16 m c main_v60 : S1x50176.Idx → BitVec 32) a n
      = if hn : n.val < 50000 then
          (if Cert.Rows.lands ((m ((c : Thread nD τ).loc main_arg4) : S50000.Idx → BitVec 32) (ix1 ⟨n.val, hn⟩)) a then 1 else 0)
        else 0 :=
  (oh7_eq _ a n).trans (padded_ids m (outsK m) c a n)

theorem tail_hp (H : Fin 50000 → Fin 128 → EReal)
    (hH : ∀ r q, (U11 m c main_v57 : S50000x128.Idx → EReal) (ix2 r q) = H r q) (n : Fin 50176) (q : Fin 128) :
    Spec.cur2 (U16 m c main_v58 : S50176x128.Idx → EReal) n q = if hn : n.val < 50000 then H ⟨n.val, hn⟩ q else 0 :=
  padded_rows m (outsK m) c H hH n q

end Cert.KernelIdeal.Val
-- ==== Proof.KI.Val0.lean ====
import proofs.«412806_j54228257079467_3_alg».proof.Proof.KI.R0
import proofs.«412806_j54228257079467_3_alg».proof.Proof.Spec
import proofs.«412806_j54228257079467_3_alg».proof.Proof.Cur
import proofs.«412806_j54228257079467_3_alg».proof.Proof.LibPlainDot
import proofs.«412806_j54228257079467_3_alg».proof.Proof.LibPlainAny
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem noOffset0 : (![0, 0] : Fin 2 → Nat) = fun _ => 0 := funext fun a => by fin_cases a <;> rfl

theorem contraction0_plain : dot_S5000x64_S64x128_S5000x128_1_0_0_1_n_n = DotDims.plain 5000 64 128 := rfl

theorem prod_entry0 (x : Vec Ideal S5000x64 .f32) (w : Vec Ideal S64x128 .f32) (p : Fin 5000) (q : Fin 128) :
    k0_pay1 x w (ix2 p q) = ∑ k : Fin 64, x (ix2 p k) * w (ix2 k q) := by
  show matmul dot_S5000x64_S64x128_S5000x128_1_0_0_1_n_n none (truncf .bf16 x bitsLt_bf16_f32) (truncf .bf16 w bitsLt_bf16_f32)
      (constant (F := Ideal) S5000x128 .f32 0x00000000#32) (ix2 p q) = _
  rw [contraction0_plain]
  exact Cert.LibPlainAny.matmul_plain_zero_any 5000 64 128 _ _ p q

theorem scaled_entry0 (x : Vec Ideal S5000x64 .f32) (w : Vec Ideal S64x128 .f32) (s : Vec Ideal S5000x1 .f32) (p : Fin 5000) (q : Fin 128) :
    k0_pay2 x w s (ix2 p q) = k0_pay1 x w (ix2 p q) * s (ix2 p (0 : Fin 1)) := by
  show mulf (k0_pay1 x w) (broadcastTo S5000x128 (shapeCast S5000x1 s shapeCasts_S5000x1_S5000x1) broadcasts_S5000x1_S5000x128) (ix2 p q) = _
  rw [mulf_apply, Cert.LibPlainDot.broadcast_col 5000 128, shapeCast_self]

theorem blockAt0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

def rowOf0 (t : Fin cfg0.N) (p : Fin 5000) : Fin 50000 :=
  ⟨t.val * 5000 + p.val, by
    have ht : t.val < 10 := lt_of_lt_of_eq (b := grid0.N) t.isLt N_0
    have hp := p.isLt
    omega⟩

-- entry y of a block at window index i on an axis of block size s sits at i * s + y
theorem at_block0 {i s y b : ℕ} (h : i = b) : i * s + 1 * y = b * s + y := by subst h; omega
theorem at_origin0 {i s y : ℕ} (h : i = 0) : i * s + 1 * y = y := by subst h; omega

theorem feat_entry0 (c : Dev nD) (t : Fin cfg0.N) (p : Fin 5000) (k : Fin 64) :
    (iblk0 V c 0 t : Vec Ideal S5000x64 .f32) (ix2 p k) = (V c main_arg0 : S50000x64.Idx → EReal) (ix2 (rowOf0 t p) k) :=
  congrArg (V c main_arg0 : S50000x64.Idx → EReal) (Shape.idx_ext₂ (at_block0 (blockAt0 t).1) (at_origin0 (blockAt0 t).2.1))

theorem weight_entry0 (c : Dev nD) (t : Fin cfg0.N) (k : Fin 64) (q : Fin 128) :
    (iblk0 V c 1 t : Vec Ideal S64x128 .f32) (ix2 k q) = (V c main_arg5 : S64x128.Idx → EReal) (ix2 k q) :=
  congrArg (V c main_arg5 : S64x128.Idx → EReal) (Shape.idx_ext₂ (at_origin0 (blockAt0 t).2.2.1) (at_origin0 (blockAt0 t).2.2.2.1))

theorem scale_entry0 (c : Dev nD) (t : Fin cfg0.N) (p : Fin 5000) :
    (iblk0 V c 2 t : Vec Ideal S5000x1 .f32) (ix2 p (0 : Fin 1)) = (V c main_v11 : S50000x1.Idx → EReal) (ix2 (rowOf0 t p) (0 : Fin 1)) :=
  congrArg (V c main_v11 : S50000x1.Idx → EReal) (Shape.idx_ext₂ (at_block0 (blockAt0 t).2.2.2.2.1) (at_origin0 (blockAt0 t).2.2.2.2.2.1))

theorem prod_place0 (t : Fin cfg0.N) (p : Fin 5000) (q : Fin 128) :
    (((cfg0.win 3).blk t).view.emb (ix2 p q) : S50000x128.Idx) = ix2 (rowOf0 t p) q :=
  Shape.idx_ext₂ (at_block0 (blockAt0 t).2.2.2.2.2.2.1) (at_origin0 (blockAt0 t).2.2.2.2.2.2.2.1)

theorem scaled_place0 (t : Fin cfg0.N) (p : Fin 5000) (q : Fin 128) :
    (((cfg0.win 4).blk t).view.emb (ix2 p q) : S50000x128.Idx) = ix2 (rowOf0 t p) q :=
  Shape.idx_ext₂ (at_block0 (blockAt0 t).2.2.2.2.2.2.2.2.1) (at_origin0 (blockAt0 t).2.2.2.2.2.2.2.2.2)

def prodArr0 (X : S50000x64.Idx → EReal) (W : S64x128.Idx → EReal) : S50000x128.Idx → EReal :=
  fun i => Spec.mm (Spec.cur2 X) (Spec.cur2 W) (i 0) (i 1)

def scaledArr0 (X : S50000x64.Idx → EReal) (W : S64x128.Idx → EReal) (D : S50000x1.Idx → EReal) : S50000x128.Idx → EReal :=
  fun i => Spec.scaled (Spec.mm (Spec.cur2 X) (Spec.cur2 W)) (Spec.colOf D) (i 0) (i 1)

theorem prodArr0_at (X : S50000x64.Idx → EReal) (W : S64x128.Idx → EReal) (r : Fin 50000) (q : Fin 128) :
    prodArr0 X W (ix2 r q) = ∑ k : Fin 64, X (ix2 r k) * W (ix2 k q) := rfl

theorem scaledArr0_at (X : S50000x64.Idx → EReal) (W : S64x128.Idx → EReal) (D : S50000x1.Idx → EReal) (r : Fin 50000) (q : Fin 128) :
    scaledArr0 X W D (ix2 r q) = (∑ k : Fin 64, X (ix2 r k) * W (ix2 k q)) * D (ix2 r (0 : Fin 1)) := rfl

theorem prod_written0 (c : Dev nD) (t : Fin cfg0.N) :
    (dat0 V c).flushed 3 t = ((cfg0.win 3).blk t).view.read (Elt Ideal)
      (prodArr0 (V c main_arg0 : S50000x64.Idx → EReal) (V c main_arg5 : S64x128.Idx → EReal)) := by
  show (cfg0.win 3).cut (grid0.coords t) ((dat0 V c).after 3 t) = _
  rw [after0_3]
  unfold prodBlock0
  rw [View.canon_unit_zero noOffset0]
  simp only [View.ld_unit_zero (S := S5000x64) noOffset0, View.ld_unit_zero (S := S64x128) noOffset0]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = prodArr0 _ _ (((cfg0.win 3).blk t).view.emb (ix2 p q))
  rw [prod_entry0, prod_place0, prodArr0_at]
  exact Finset.sum_congr rfl fun k _ => by rw [feat_entry0, weight_entry0]

theorem scaled_written0 (c : Dev nD) (t : Fin cfg0.N) :
    (dat0 V c).flushed 4 t = ((cfg0.win 4).blk t).view.read (Elt Ideal)
      (scaledArr0 (V c main_arg0 : S50000x64.Idx → EReal) (V c main_arg5 : S64x128.Idx → EReal) (V c main_v11 : S50000x1.Idx → EReal)) := by
  show (cfg0.win 4).cut (grid0.coords t) ((dat0 V c).after 4 t) = _
  rw [after0_4]
  unfold scaledBlock0
  rw [View.canon_unit_zero noOffset0]
  simp only [View.ld_unit_zero (S := S5000x64) noOffset0, View.ld_unit_zero (S := S64x128) noOffset0, View.ld_unit_zero (S := S5000x1) noOffset0]
  funext j
  obtain ⟨p, q, rfl⟩ : ∃ (p : Fin 5000) (q : Fin 128), j = ix2 p q := ⟨j 0, j 1, eq_ix2 j⟩
  show k0_pay2 (iblk0 V c 0 t) (iblk0 V c 1 t) (iblk0 V c 2 t) (ix2 p q) = scaledArr0 _ _ _ (((cfg0.win 4).blk t).view.emb (ix2 p q))
  rw [scaled_entry0, prod_entry0, scaled_place0, scale_entry0, scaledArr0_at]
  congr 1
  exact Finset.sum_congr rfl fun k _ => by rw [feat_entry0, weight_entry0]

-- index i is entry (i 0 % 5000, i 1) of row block i 0 / 5000
theorem split_row0 (i : S50000x128.Idx) : ∃ (t : Fin cfg0.N) (p : Fin 5000) (q : Fin 128), i = ix2 (rowOf0 t p) q := by
  have hr : (i 0).val < 50000 := idx2_lt0 i
  exact ⟨⟨(i 0).val / 5000, by show _ < grid0.N; rw [N_0]; omega⟩, ⟨(i 0).val % 5000, Nat.mod_lt _ (by decide)⟩, ⟨(i 1).val, idx2_lt1 i⟩,
    Shape.idx_ext₂ (by show (i 0).val = (i 0).val / 5000 * 5000 + (i 0).val % 5000; omega) rfl⟩

theorem prod_covered0 (i : S50000x128.Idx) : ∃ t : Fin cfg0.N, (cfg0.win 3).flush t = true ∧ i ∈ ((cfg0.win 3).blk t).view.set := by
  obtain ⟨t, p, q, rfl⟩ := split_row0 i
  exact ⟨t, flush0_3 t, prod_place0 t p q ▸ View.emb_mem_set _ _⟩

theorem scaled_covered0 (i : S50000x128.Idx) : ∃ t : Fin cfg0.N, (cfg0.win 4).flush t = true ∧ i ∈ ((cfg0.win 4).blk t).view.set := by
  obtain ⟨t, p, q, rfl⟩ := split_row0 i
  exact ⟨t, flush0_4 t, scaled_place0 t p q ▸ View.emb_mem_set _ _⟩

theorem arr0_3 (c : Dev nD) (r : Fin 50000) (q : Fin 128) :
    ((dat0 (F := Ideal) V c).arrAt 3 cfg0.N) (ix2 r q)
      = Spec.mm (Spec.cur2 (V c main_arg0 : S50000x64.Idx → EReal)) (Spec.cur2 (V c main_arg5 : S64x128.Idx → EReal)) r q := by
  rw [(dat0 V c).arrAt_eq_of_cover 3 _ (fun t _ => prod_written0 V c t) prod_covered0]; rfl

theorem arr0_4 (c : Dev nD) (r : Fin 50000) (q : Fin 128) :
    ((dat0 (F := Ideal) V c).arrAt 4 cfg0.N) (ix2 r q)
      = Spec.scaled (Spec.mm (Spec.cur2 (V c main_arg0 : S50000x64.Idx → EReal)) (Spec.cur2 (V c main_arg5 : S64x128.Idx → EReal)))
          (Spec.colOf (V c main_v11 : S50000x1.Idx → EReal)) r q := by
  rw [(dat0 V c).arrAt_eq_of_cover 4 _ (fun t _ => scaled_written0 V c t) scaled_covered0]; rfl

end Cert.KernelIdeal.Val

end
-- ==== Proof.KI.Val1.lean ====
import proofs.«412806_j54228257079467_3_alg».proof.Proof.KI.R1
import proofs.«412806_j54228257079467_3_alg».proof.Proof.KI.ValLib
import proofs.«412806_j54228257079467_3_alg».proof.Proof.Spec
import proofs.«412806_j54228257079467_3_alg».proof.Proof.Cur
import proofs.«412806_j54228257079467_3_alg».proof.Proof.LibPlainDot
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Frm Idealize.ShloMosaic.ValueIdx
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

section
variable (xa xw : Vec Ideal S5000x128 .f32) (xd : Vec Ideal S5000x1 .f32) (xb : Vec Ideal S1x128 .f32) (q : Fin 128)

theorem blk1_apply (p : Fin 5000) : blk1 xa xd xw xb (ix2 p q)
      = xd (ix2 p (0 : Fin 1)) * xa (ix2 p q) + xw (ix2 p q) * (xd (ix2 p (0 : Fin 1)) * xd (ix2 p (0 : Fin 1))) + xb (ix2 (0 : Fin 1) q) := by
  show k1_pay6 xd xa xw xb (ix2 p q) = _
  unfold k1_pay6
  simp only [shapeCast_self]
  simp only [addf_apply, mulf_apply, Cert.LibPlainDot.broadcast_col 5000 128, broadcastTo_1b_ab_apply (a := 5000) (b := 128)]

end

theorem zero1 (i : S1x128.Idx) : k1_pay4 (F := Ideal) i = 0 ∧ k1_pay5 (F := Ideal) i = 0 := by
  unfold k1_pay4 k1_pay5
  simp only [shapeCast_self]
  exact ⟨Ideal.ofBits_zero_f32, Ideal.ofBits_zero_f32⟩

theorem mean1_apply (s : Vec Ideal S1x128 .f32) (i : S1x128.Idx) :
    mean1 s i = Ideal.div (s i) (Ideal.ofBits .f32 0x47435000#32) := by
  show k1_pay2 s i = _
  unfold k1_pay2
  rw [divf_apply, broadcast_apply]
  rfl

theorem var1_apply (s q : Vec Ideal S1x128 .f32) (i : S1x128.Idx) :
    var1 s q i = max (Ideal.div (q i) (Ideal.ofBits .f32 0x47435000#32) - mean1 s i * mean1 s i) 0 := by
  show k1_pay3 s q i = _
  unfold k1_pay3
  rw [maximumf_apply, subf_apply, divf_apply, mulf_apply, broadcast_apply, broadcast_apply]
  exact congrArg (max _) Ideal.ofBits_zero_f32

theorem idx_facts1 : ∀ t : Fin cfg1.N,
    StartsAt win1_0 t ![t.val * 5000, 0] ∧ StartsAt win1_1 t ![t.val * 5000, 0] ∧ StartsAt win1_2 t ![t.val * 5000, 0]
    ∧ (∀ a, win1_3.index t a = 0) ∧ StartsAt win1_4 t ![t.val * 5000, 0] ∧ (∀ a, win1_5.index t a = 0) ∧ (∀ a, win1_6.index t a = 0) :=
  (by decide +kernel : ∀ t : Fin grid1.N, _)

def rowAt1 (t : Fin cfg1.N) (p : Fin 5000) : Fin 50000 :=
  ⟨t.val * 5000 + p.val, by have ht : t.val < grid1.N := t.isLt; rw [N_1] at ht; have := p.isLt; omega⟩

theorem emb1_4 (t : Fin cfg1.N) (p : Fin 5000) (q : Fin 128) :
    (((cfg1.win 4).blk t).view.emb (ix2 p q) : S50000x128.Idx) = ix2 (rowAt1 t p) q :=
  emb_of_start win1_4 t (idx_facts1 t).2.2.2.2.1 (ix2 p q) (ix2 (rowAt1 t p) q) fun (a : Fin 2) => match a with
    | ⟨0, _⟩ => rfl
    | ⟨1, _⟩ => (Nat.zero_add _).symm
theorem emb1_5 (t : Fin cfg1.N) (i : S1x128.Idx) : (((cfg1.win 5).blk t).view.emb i : S1x128.Idx) = i :=
  emb_of_origin win1_5 t (idx_facts1 t).2.2.2.2.2.1 i i fun _ => rfl
theorem emb1_6 (t : Fin cfg1.N) (i : S1x128.Idx) : (((cfg1.win 6).blk t).view.emb i : S1x128.Idx) = i :=
  emb_of_origin win1_6 t (idx_facts1 t).2.2.2.2.2.2 i i fun _ => rfl

abbrev agg1 (c : Dev nD) : S50000x128.Idx → EReal := V c main_v31
abbrev dis1 (c : Dev nD) : S50000x1.Idx → EReal := V c main_v11
abbrev xw1 (c : Dev nD) : S50000x128.Idx → EReal := V c main_v21_0
abbrev bias1 (c : Dev nD) : S1x128.Idx → EReal := V c main_v12

abbrev pre1 (c : Dev nD) : Fin 50000 → Fin 128 → EReal :=
  Spec.preK (Spec.colOf (dis1 V c)) (Spec.cur2 (agg1 V c)) (Spec.cur2 (xw1 V c)) (Spec.rowOf (bias1 V c))

abbrev cnt1 : EReal := Ideal.ofBits .f32 0x47435000#32

theorem hTB1 : 10 * 5000 = 50000 := by decide

theorem iblk1_0 (c : Dev nD) (t : Fin cfg1.N) (p : Fin 5000) (q : Fin 128) : iblk1 V c 0 t (ix2 p q) = agg1 V c (ix2 (rowAt1 t p) q) :=
  congrArg (agg1 V c) (emb_of_start win1_0 t (idx_facts1 t).1 (ix2 p q) (ix2 (rowAt1 t p) q) fun (a : Fin 2) => match a with
    | ⟨0, _⟩ => rfl
    | ⟨1, _⟩ => (Nat.zero_add _).symm)
theorem iblk1_1 (c : Dev nD) (t : Fin cfg1.N) (p : Fin 5000) : iblk1 V c 1 t (ix2 p (0 : Fin 1)) = dis1 V c (ix2 (rowAt1 t p) (0 : Fin 1)) :=
  congrArg (dis1 V c) (emb_of_start win1_1 t (idx_facts1 t).2.1 (ix2 p (0 : Fin 1)) (ix2 (rowAt1 t p) (0 : Fin 1)) fun (a : Fin 2) => match a with
    | ⟨0, _⟩ => rfl
    | ⟨1, _⟩ => (Nat.zero_add _).symm)
theorem iblk1_2 (c : Dev nD) (t : Fin cfg1.N) (p : Fin 5000) (q : Fin 128) : iblk1 V c 2 t (ix2 p q) = xw1 V c (ix2 (rowAt1 t p) q) :=
  congrArg (xw1 V c) (emb_of_start win1_2 t (idx_facts1 t).2.2.1 (ix2 p q) (ix2 (rowAt1 t p) q) fun (a : Fin 2) => match a with
    | ⟨0, _⟩ => rfl
    | ⟨1, _⟩ => (Nat.zero_add _).symm)
theorem iblk1_3 (c : Dev nD) (t : Fin cfg1.N) (i : S1x128.Idx) : iblk1 V c 3 t i = bias1 V c i :=
  congrArg (bias1 V c) (emb_of_origin win1_3 t (idx_facts1 t).2.2.2.1 i i fun _ => rfl)

theorem blk1_at (c : Dev nD) (t : Fin cfg1.N) (p : Fin 5000) (q : Fin 128) :
    blk1 (iblk1 V c 0 t) (iblk1 V c 1 t) (iblk1 V c 2 t) (iblk1 V c 3 t) (ix2 p q) = pre1 V c (rowAt1 t p) q := by
  rw [blk1_apply, iblk1_0, iblk1_1, iblk1_2, iblk1_3]
  rfl

def G1_4 (c : Dev nD) : S50000x128.Idx → EReal := fun i => pre1 V c (i 0) (i 1)

theorem flushed1_4_eq (c : Dev nD) (t : Fin cfg1.N) :
    (dat1 (F := Ideal) V c).flushed 4 t = ((cfg1.win 4).blk t).view.read (Elt Ideal) (G1_4 V c) := by
  show (cfg1.win 4).cut (grid1.coords t) ((dat1 (F := Ideal) V c).after 4 t) = _
  rw [after1_4]
  funext j
  obtain ⟨p, q, rfl⟩ : ∃ (p : Fin 5000) (q : Fin 128), j = ix2 p q := ⟨j 0, j 1, eq_ix2 j⟩
  show blk1 (iblk1 V c 0 t) (iblk1 V c 1 t) (iblk1 V c 2 t) (iblk1 V c 3 t) (ix2 p q) = G1_4 V c (((cfg1.win 4).blk t).view.emb (ix2 p q))
  rw [blk1_at, emb1_4]
  rfl

-- row r lies in the block of point r / 5000, at row r % 5000 of it
theorem cover1_4 (i : S50000x128.Idx) : ∃ t : Fin cfg1.N, (cfg1.win 4).flush t = true ∧ i ∈ ((cfg1.win 4).blk t).view.set := by
  obtain ⟨r, q, rfl⟩ : ∃ (r : Fin 50000) (q : Fin 128), i = ix2 r q := ⟨i 0, i 1, eq_ix2 i⟩
  have hr := r.isLt
  let t : Fin cfg1.N := ⟨r.val / 5000, by show r.val / 5000 < grid1.N; rw [N_1]; omega⟩
  have h : r = rowAt1 t ⟨r.val % 5000, Nat.mod_lt _ (by decide)⟩ :=
    Fin.ext (by show r.val = r.val / 5000 * 5000 + r.val % 5000; omega)
  refine ⟨t, flush1_4 t, ?_⟩
  rw [h, ← emb1_4]
  exact View.emb_mem_set _ _

theorem arr1_4 (c : Dev nD) (r : Fin 50000) (q : Fin 128) :
    ((dat1 (F := Ideal) V c).arrAt 4 cfg1.N) (ix2 r q)
      = Spec.preK (Spec.colOf (V c main_v11 : S50000x1.Idx → EReal)) (Spec.cur2 (V c main_v31 : S50000x128.Idx → EReal))
          (Spec.cur2 (V c main_v21_0 : S50000x128.Idx → EReal)) (Spec.rowOf (V c main_v12 : S1x128.Idx → EReal)) r q := by
  rw [(dat1 (F := Ideal) V c).arrAt_eq_of_cover 4 (G1_4 V c) (fun t _ => flushed1_4_eq V c t) cover1_4]
  rfl

section
variable (c : Dev nD) (q : Fin 128)

theorem sum1_at (t : Fin cfg1.N) (s : Vec Ideal S1x128 .f32) :
    sum1 (iblk1 V c 0 t) (iblk1 V c 1 t) (iblk1 V c 2 t) (iblk1 V c 3 t) s (ix2 (0 : Fin 1) q)
      = s (ix2 (0 : Fin 1) q) + ∑ p : Fin 5000, pre1 V c (rowAt1 t p) q := by
  show k1_pay7 _ _ _ _ s (ix2 (0 : Fin 1) q) = _
  unfold k1_pay7
  simp only [shapeCast_self]
  rw [addf_apply, shapeCast_a_1a_apply (a := 128)]
  exact congrArg (s (ix2 (0 : Fin 1) q) + ·) ((colsum _ _ _ _ _ q).trans (Finset.sum_congr rfl fun p _ => blk1_at V c t p q))

theorem sqs1_at (t : Fin cfg1.N) (s : Vec Ideal S1x128 .f32) :
    sqs1 (iblk1 V c 0 t) (iblk1 V c 1 t) (iblk1 V c 2 t) (iblk1 V c 3 t) s (ix2 (0 : Fin 1) q)
      = s (ix2 (0 : Fin 1) q) + ∑ p : Fin 5000, pre1 V c (rowAt1 t p) q * pre1 V c (rowAt1 t p) q := by
  show k1_pay1 (k1_pay8 _ _ _ _ s) (ix2 (0 : Fin 1) q) = _
  unfold k1_pay1 k1_pay8
  simp only [shapeCast_self]
  rw [addf_apply, shapeCast_a_1a_apply (a := 128)]
  exact congrArg (s (ix2 (0 : Fin 1) q) + ·) ((colsum _ _ _ _ _ q).trans (Finset.sum_congr rfl fun p _ =>
    (mulf_apply _ _ _).trans (congrArg₂ (· * ·) (blk1_at V c t p q) (blk1_at V c t p q))))

-- after point n the two running rows hold the layer's value, and its square, summed over the blocks up to n
theorem scr1_fst (n : ℕ) (hn : n < cfg1.N) :
    (scr1 V c n hn).1 (ix2 (0 : Fin 1) q) = ∑ t : Fin (n + 1), ∑ p : Fin 5000, pre1 V c (rowAt1 (Fin.castLE hn t) p) q :=
  sum_of_steps (fun t => ∑ p : Fin 5000, pre1 V c (rowAt1 t p) q) (fun n hn => (scr1 V c n hn).1 (ix2 (0 : Fin 1) q))
    (fun hn => (sum1_at V c q ⟨0, hn⟩ _).trans (congrArg (· + _) (zero1 _).1)) (fun n hn => sum1_at V c q ⟨n + 1, hn⟩ _) n hn

theorem scr1_snd (n : ℕ) (hn : n < cfg1.N) :
    (scr1 V c n hn).2 (ix2 (0 : Fin 1) q)
      = ∑ t : Fin (n + 1), ∑ p : Fin 5000, pre1 V c (rowAt1 (Fin.castLE hn t) p) q * pre1 V c (rowAt1 (Fin.castLE hn t) p) q :=
  sum_of_steps (fun t => ∑ p : Fin 5000, pre1 V c (rowAt1 t p) q * pre1 V c (rowAt1 t p) q) (fun n hn => (scr1 V c n hn).2 (ix2 (0 : Fin 1) q))
    (fun hn => (sqs1_at V c q ⟨0, hn⟩ _).trans (congrArg (· + _) (zero1 _).2)) (fun n hn => sqs1_at V c q ⟨n + 1, hn⟩ _) n hn

def G1_5 : S1x128.Idx → EReal := fun i => Spec.meanK (T := 10) (B := 5000) hTB1 cnt1 (pre1 V c) (i 1)
def G1_6 : S1x128.Idx → EReal := fun i => Spec.varK (T := 10) (B := 5000) hTB1 cnt1 (pre1 V c) (i 1)

theorem mean1_last (t : Fin cfg1.N) (h9 : t.val = 9) (j : S1x128.Idx) :
    mean1 (scr1 V c t.val t.isLt).1 j = Spec.meanK (T := 10) (B := 5000) hTB1 cnt1 (pre1 V c) (j 1) := by
  obtain ⟨u, q, rfl⟩ : ∃ (u : Fin 1) (q : Fin 128), j = ix2 u q := ⟨j 0, j 1, eq_ix2 j⟩
  obtain rfl : u = 0 := Subsingleton.elim _ _
  obtain ⟨n, hn⟩ := t
  obtain rfl : n = 9 := h9
  rw [mean1_apply, scr1_fst]
  rfl

theorem var1_last (t : Fin cfg1.N) (h9 : t.val = 9) (j : S1x128.Idx) :
    var1 (scr1 V c t.val t.isLt).1 (scr1 V c t.val t.isLt).2 j = Spec.varK (T := 10) (B := 5000) hTB1 cnt1 (pre1 V c) (j 1) := by
  rw [var1_apply, mean1_last V c t h9]
  obtain ⟨u, q, rfl⟩ : ∃ (u : Fin 1) (q : Fin 128), j = ix2 u q := ⟨j 0, j 1, eq_ix2 j⟩
  obtain rfl : u = 0 := Subsingleton.elim _ _
  obtain ⟨n, hn⟩ := t
  obtain rfl : n = 9 := h9
  rw [scr1_snd]
  rfl

end

theorem last1 (t : Fin cfg1.N) (hf : (cfg1.win 5).flush t = true ∨ (cfg1.win 6).flush t = true) : t.val = 9 := by
  have h := hf.elim (flush1_5 t).mp (flush1_6 t).mp
  have ht : t.val < grid1.N := t.isLt
  rw [N_1] at ht
  omega

theorem flushed1_5_eq (c : Dev nD) (t : Fin cfg1.N) (hf : (cfg1.win 5).flush t = true) :
    (dat1 (F := Ideal) V c).flushed 5 t = ((cfg1.win 5).blk t).view.read (Elt Ideal) (G1_5 V c) := by
  show (cfg1.win 5).cut (grid1.coords t) ((dat1 (F := Ideal) V c).after 5 t) = _
  rw [after1_5]
  funext j
  show mean1 (scr1 V c t.val t.isLt).1 j = G1_5 V c (((cfg1.win 5).blk t).view.emb j)
  rw [mean1_last V c t (last1 t (.inl hf)), emb1_5]
  rfl

theorem flushed1_6_eq (c : Dev nD) (t : Fin cfg1.N) (hf : (cfg1.win 6).flush t = true) :
    (dat1 (F := Ideal) V c).flushed 6 t = ((cfg1.win 6).blk t).view.read (Elt Ideal) (G1_6 V c) := by
  show (cfg1.win 6).cut (grid1.coords t) ((dat1 (F := Ideal) V c).after 6 t) = _
  rw [after1_6]
  funext j
  show var1 (scr1 V c t.val t.isLt).1 (scr1 V c t.val t.isLt).2 j = G1_6 V c (((cfg1.win 6).blk t).view.emb j)
  rw [var1_last V c t (last1 t (.inr hf)), emb1_6]
  rfl

theorem cover1_5 (i : S1x128.Idx) : ∃ t : Fin cfg1.N, (cfg1.win 5).flush t = true ∧ i ∈ ((cfg1.win 5).blk t).view.set :=
  ⟨t1_9, (flush1_5 t1_9).mpr rfl, by rw [← emb1_5 t1_9 i]; exact View.emb_mem_set _ _⟩
theorem cover1_6 (i : S1x128.Idx) : ∃ t : Fin cfg1.N, (cfg1.win 6).flush t = true ∧ i ∈ ((cfg1.win 6).blk t).view.set :=
  ⟨t1_9, (flush1_6 t1_9).mpr rfl, by rw [← emb1_6 t1_9 i]; exact View.emb_mem_set _ _⟩

theorem arr1_5 (c : Dev nD) (q : Fin 128) :
    ((dat1 (F := Ideal) V c).arrAt 5 cfg1.N) (ix2 (0 : Fin 1) q)
      = Spec.meanK (T := 10) (B := 5000) (by decide : 10 * 5000 = 50000) (Ideal.ofBits .f32 0x47435000#32)
          (Spec.preK (Spec.colOf (V c main_v11 : S50000x1.Idx → EReal)) (Spec.cur2 (V c main_v31 : S50000x128.Idx → EReal))
            (Spec.cur2 (V c main_v21_0 : S50000x128.Idx → EReal)) (Spec.rowOf (V c main_v12 : S1x128.Idx → EReal))) q := by
  rw [(dat1 (F := Ideal) V c).arrAt_eq_of_cover 5 (G1_5 V c) (flushed1_5_eq V c) cover1_5]
  rfl

theorem arr1_6 (c : Dev nD) (q : Fin 128) :
    ((dat1 (F := Ideal) V c).arrAt 6 cfg1.N) (ix2 (0 : Fin 1) q)
      = Spec.varK (T := 10) (B := 5000) (by decide : 10 * 5000 = 50000) (Ideal.ofBits .f32 0x47435000#32)
          (Spec.preK (Spec.colOf (V c main_v11 : S50000x1.Idx → EReal)) (Spec.cur2 (V c main_v31 : S50000x128.Idx → EReal))
            (Spec.cur2 (V c main_v21_0 : S50000x128.Idx → EReal)) (Spec.rowOf (V c main_v12 : S1x128.Idx → EReal))) q := by
  rw [(dat1 (F := Ideal) V c).arrAt_eq_of_cover 6 (G1_6 V c) (flushed1_6_eq V c) cover1_6]
  rfl

end Cert.KernelIdeal.Val

end
-- ==== Proof.KI.Val2.lean ====
import proofs.«412806_j54228257079467_3_alg».proof.Proof.KI.R2
import proofs.«412806_j54228257079467_3_alg».proof.Proof.KI.ValLib
import proofs.«412806_j54228257079467_3_alg».proof.Proof.Spec
import proofs.«412806_j54228257079467_3_alg».proof.Proof.Cur
import proofs.«412806_j54228257079467_3_alg».proof.Proof.LibPlainDot
import proofs.«412806_j54228257079467_3_alg».proof.Proof.LibPlainAny
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

abbrev eps2 : EReal := Ideal.ofBits .f32 0x3727C5AC#32

abbrev act2 {n : Nat} (xs : Fin n → Fin 128 → EReal) (mean var gam bet : Fin 128 → EReal) : Fin n → Fin 128 → EReal :=
  Spec.relu (Spec.bn eps2 xs mean var gam bet)

theorem contr2_plain : dot_S5000x128_S128x128_S5000x128_1_0_0_1_n_n = DotDims.plain 5000 128 128 := rfl

section
variable (xs : Vec Ideal S5000x128 .f32) (mean var gam bet : Vec Ideal S1x128 .f32) (wgt : Vec Ideal S128x128 .f32) (p : Fin 5000) (q : Fin 128)

-- entry (p, q): row p of the normalised, rectified block against column q of the weights
theorem pay1_entry2 : k2_pay1 var xs mean gam bet wgt (ix2 p q)
      = Spec.mm (act2 (Spec.cur2 xs) (Spec.rowOf mean) (Spec.rowOf var) (Spec.rowOf gam) (Spec.rowOf bet)) (Spec.cur2 wgt) p q := by
  unfold k2_pay1
  rw [contr2_plain, Cert.LibPlainAny.matmul_plain_zero_any 5000 128 128]
  refine Finset.sum_congr rfl fun k _ => ?_
  rw [truncf_apply, truncf_apply, maximumf_apply, addf_apply, mulf_apply, mulf_apply, subf_apply, broadcast_apply]
  simp only [broadcastTo_1b_ab_apply (a := 5000) (b := 128), shapeCast_self]
  exact congrArg (max _ · * _) Ideal.ofBits_zero_f32

theorem pay2_entry2 (col : Vec Ideal S5000x1 .f32) :
    k2_pay2 var xs mean gam bet wgt col (ix2 p q) = k2_pay1 var xs mean gam bet wgt (ix2 p q) * col (ix2 p (0 : Fin 1)) := by
  show mulf (k2_pay1 var xs mean gam bet wgt)
    (broadcastTo S5000x128 (shapeCast S5000x1 col shapeCasts_S5000x1_S5000x1) broadcasts_S5000x1_S5000x128) (ix2 p q) = _
  rw [mulf_apply, Cert.LibPlainDot.broadcast_col 5000 128, shapeCast_self]

end

variable (V : (c : Dev nD) → (b : Ref sig .tc) → Buf (Elt Ideal) ((c : Thread nD τ).loc b))

theorem zeroOff2 : (![0, 0] : Fin 2 → Nat) = fun _ => 0 := funext fun a => by fin_cases a <;> rfl

theorem movingAt2 : ∀ t : Fin cfg2.N,
    StartsAt win2_0 t ![t.val * 5000, 0] ∧ StartsAt win2_6 t ![t.val * 5000, 0] ∧ StartsAt win2_7 t ![t.val * 5000, 0]
    ∧ StartsAt win2_8 t ![t.val * 5000, 0] :=
  (by decide +kernel : ∀ t : Fin grid2.N, _)

theorem fixedAt2 : ∀ t : Fin cfg2.N,
    (∀ a, win2_1.index t a = 0) ∧ (∀ a, win2_2.index t a = 0) ∧ (∀ a, win2_3.index t a = 0) ∧ (∀ a, win2_4.index t a = 0)
    ∧ (∀ a, win2_5.index t a = 0) :=
  (by decide +kernel : ∀ t : Fin grid2.N, _)

def rowAt2 (t : Fin cfg2.N) (p : Fin 5000) : Fin 50000 :=
  ⟨t.val * 5000 + p.val, by
    have ht : t.val < 10 := lt_of_lt_of_eq (b := grid2.N) t.isLt N_2
    have hp := p.isLt
    omega⟩

theorem rows_entry2 (c : Dev nD) (t : Fin cfg2.N) (p : Fin 5000) (k : Fin 128) :
    (iblk2 V c 0 t : Vec Ideal S5000x128 .f32) (ix2 p k) = (V c main_v32_0 : S50000x128.Idx → EReal) (ix2 (rowAt2 t p) k) :=
  congrArg (V c main_v32_0 : S50000x128.Idx → EReal) (emb_of_start win2_0 t (movingAt2 t).1 (ix2 p k) (ix2 (rowAt2 t p) k) fun (a : Fin 2) => match a with
    | ⟨0, _⟩ => rfl
    | ⟨1, _⟩ => (Nat.zero_add _).symm)

theorem col_entry2 (c : Dev nD) (t : Fin cfg2.N) (p : Fin 5000) :
    (iblk2 V c 6 t : Vec Ideal S5000x1 .f32) (ix2 p (0 : Fin 1)) = (V c main_v11 : S50000x1.Idx → EReal) (ix2 (rowAt2 t p) (0 : Fin 1)) :=
  congrArg (V c main_v11 : S50000x1.Idx → EReal)
    (emb_of_start win2_6 t (movingAt2 t).2.1 (ix2 p (0 : Fin 1)) (ix2 (rowAt2 t p) (0 : Fin 1)) fun (a : Fin 2) => match a with
    | ⟨0, _⟩ => rfl
    | ⟨1, _⟩ => (Nat.zero_add _).symm)

theorem mean_block2 (c : Dev nD) (t : Fin cfg2.N) : (iblk2 V c 1 t : Vec Ideal S1x128 .f32) = (V c main_v32_1 : S1x128.Idx → EReal) :=
  funext fun j => congrArg (V c main_v32_1 : S1x128.Idx → EReal) (emb_of_origin win2_1 t (fixedAt2 t).1 j j fun _ => rfl)

theorem var_block2 (c : Dev nD) (t : Fin cfg2.N) : (iblk2 V c 2 t : Vec Ideal S1x128 .f32) = (V c main_v32_2 : S1x128.Idx → EReal) :=
  funext fun j => congrArg (V c main_v32_2 : S1x128.Idx → EReal) (emb_of_origin win2_2 t (fixedAt2 t).2.1 j j fun _ => rfl)

theorem gam_block2 (c : Dev nD) (t : Fin cfg2.N) : (iblk2 V c 3 t : Vec Ideal S1x128 .f32) = (V c main_v15 : S1x128.Idx → EReal) :=
  funext fun j => congrArg (V c main_v15 : S1x128.Idx → EReal) (emb_of_origin win2_3 t (fixedAt2 t).2.2.1 j j fun _ => rfl)

theorem bet_block2 (c : Dev nD) (t : Fin cfg2.N) : (iblk2 V c 4 t : Vec Ideal S1x128 .f32) = (V c main_v16 : S1x128.Idx → EReal) :=
  funext fun j => congrArg (V c main_v16 : S1x128.Idx → EReal) (emb_of_origin win2_4 t (fixedAt2 t).2.2.2.1 j j fun _ => rfl)

theorem wgt_block2 (c : Dev nD) (t : Fin cfg2.N) : (iblk2 V c 5 t : Vec Ideal S128x128 .f32) = (V c main_arg7 : S128x128.Idx → EReal) :=
  funext fun j => congrArg (V c main_arg7 : S128x128.Idx → EReal) (emb_of_origin win2_5 t (fixedAt2 t).2.2.2.2 j j fun _ => rfl)

theorem place2_7 (t : Fin cfg2.N) (p : Fin 5000) (q : Fin 128) :
    (((cfg2.win 7).blk t).view.emb (ix2 p q) : S50000x128.Idx) = ix2 (rowAt2 t p) q :=
  emb_of_start win2_7 t (movingAt2 t).2.2.1 (ix2 p q) (ix2 (rowAt2 t p) q) fun (a : Fin 2) => match a with
    | ⟨0, _⟩ => rfl
    | ⟨1, _⟩ => (Nat.zero_add _).symm

theorem place2_8 (t : Fin cfg2.N) (p : Fin 5000) (q : Fin 128) :
    (((cfg2.win 8).blk t).view.emb (ix2 p q) : S50000x128.Idx) = ix2 (rowAt2 t p) q :=
  emb_of_start win2_8 t (movingAt2 t).2.2.2 (ix2 p q) (ix2 (rowAt2 t p) q) fun (a : Fin 2) => match a with
    | ⟨0, _⟩ => rfl
    | ⟨1, _⟩ => (Nat.zero_add _).symm

def prodArr2 (c : Dev nD) : S50000x128.Idx → EReal := fun i =>
  Spec.mm (act2 (Spec.cur2 (V c main_v32_0 : S50000x128.Idx → EReal)) (Spec.rowOf (V c main_v32_1 : S1x128.Idx → EReal))
    (Spec.rowOf (V c main_v32_2 : S1x128.Idx → EReal)) (Spec.rowOf (V c main_v15 : S1x128.Idx → EReal))
    (Spec.rowOf (V c main_v16 : S1x128.Idx → EReal))) (Spec.cur2 (V c main_arg7 : S128x128.Idx → EReal)) (i 0) (i 1)

def scaledArr2 (c : Dev nD) : S50000x128.Idx → EReal := fun i =>
  prodArr2 V c i * (V c main_v11 : S50000x1.Idx → EReal) (ix2 (i 0) (0 : Fin 1))

-- row p of the product over the blocks at point t is row 5000 t + p of the product over the arrays
theorem block_prod2 (c : Dev nD) (t : Fin cfg2.N) (p : Fin 5000) (q : Fin 128) :
    k2_pay1 (iblk2 V c 2 t) (iblk2 V c 0 t) (iblk2 V c 1 t) (iblk2 V c 3 t) (iblk2 V c 4 t) (iblk2 V c 5 t) (ix2 p q)
      = prodArr2 V c (ix2 (rowAt2 t p) q) := by
  rw [pay1_entry2, mean_block2, var_block2, gam_block2, bet_block2, wgt_block2]
  refine Finset.sum_congr rfl fun k _ => congrArg (· * _) ?_
  exact congrArg (fun x : EReal => max ((x - _) * _ * _ + _) 0) (rows_entry2 V c t p k)

theorem written2_7 (c : Dev nD) (t : Fin cfg2.N) :
    (dat2 V c).flushed 7 t = ((cfg2.win 7).blk t).view.read (Elt Ideal) (prodArr2 V c) := by
  show (cfg2.win 7).cut (grid2.coords t) ((dat2 V c).after 7 t) = _
  rw [after2_7]
  unfold out2_7
  rw [View.canon_unit_zero zeroOff2]
  simp only [View.ld_unit_zero (S := S5000x128) zeroOff2, View.ld_unit_zero (S := S1x128) zeroOff2, View.ld_unit_zero (S := S128x128) zeroOff2]
  funext j
  obtain ⟨p, q, rfl⟩ : ∃ (p : Fin 5000) (q : Fin 128), j = ix2 p q := ⟨j 0, j 1, eq_ix2 j⟩
  show k2_pay1 (iblk2 V c 2 t) (iblk2 V c 0 t) (iblk2 V c 1 t) (iblk2 V c 3 t) (iblk2 V c 4 t) (iblk2 V c 5 t) (ix2 p q)
    = prodArr2 V c (((cfg2.win 7).blk t).view.emb (ix2 p q))
  rw [block_prod2, place2_7]

theorem written2_8 (c : Dev nD) (t : Fin cfg2.N) :
    (dat2 V c).flushed 8 t = ((cfg2.win 8).blk t).view.read (Elt Ideal) (scaledArr2 V c) := by
  show (cfg2.win 8).cut (grid2.coords t) ((dat2 V c).after 8 t) = _
  rw [after2_8]
  unfold out2_8
  rw [View.canon_unit_zero zeroOff2]
  simp only [View.ld_unit_zero (S := S5000x128) zeroOff2, View.ld_unit_zero (S := S1x128) zeroOff2, View.ld_unit_zero (S := S128x128) zeroOff2,
    View.ld_unit_zero (S := S5000x1) zeroOff2]
  funext j
  obtain ⟨p, q, rfl⟩ : ∃ (p : Fin 5000) (q : Fin 128), j = ix2 p q := ⟨j 0, j 1, eq_ix2 j⟩
  show k2_pay2 (iblk2 V c 2 t) (iblk2 V c 0 t) (iblk2 V c 1 t) (iblk2 V c 3 t) (iblk2 V c 4 t) (iblk2 V c 5 t) (iblk2 V c 6 t) (ix2 p q)
    = scaledArr2 V c (((cfg2.win 8).blk t).view.emb (ix2 p q))
  rw [pay2_entry2, block_prod2, col_entry2, place2_8]
  rfl

-- row r lies in the block of point r / 5000, at row r % 5000 of it
theorem covered2_7 (i : S50000x128.Idx) : ∃ t : Fin cfg2.N, (cfg2.win 7).flush t = true ∧ i ∈ ((cfg2.win 7).blk t).view.set := by
  obtain ⟨r, q, rfl⟩ : ∃ (r : Fin 50000) (q : Fin 128), i = ix2 r q := ⟨i 0, i 1, eq_ix2 i⟩
  have hr := r.isLt
  let t : Fin cfg2.N := ⟨r.val / 5000, by show r.val / 5000 < grid2.N; rw [N_2]; omega⟩
  have h : r = rowAt2 t ⟨r.val % 5000, Nat.mod_lt _ (by decide)⟩ :=
    Fin.ext (by show r.val = r.val / 5000 * 5000 + r.val % 5000; omega)
  refine ⟨t, flush2_7 t, ?_⟩
  rw [h, ← place2_7]
  exact View.emb_mem_set _ _

theorem covered2_8 (i : S50000x128.Idx) : ∃ t : Fin cfg2.N, (cfg2.win 8).flush t = true ∧ i ∈ ((cfg2.win 8).blk t).view.set := by
  obtain ⟨r, q, rfl⟩ : ∃ (r : Fin 50000) (q : Fin 128), i = ix2 r q := ⟨i 0, i 1, eq_ix2 i⟩
  have hr := r.isLt
  let t : Fin cfg2.N := ⟨r.val / 5000, by show r.val / 5000 < grid2.N; rw [N_2]; omega⟩
  have h : r = rowAt2 t ⟨r.val % 5000, Nat.mod_lt _ (by decide)⟩ :=
    Fin.ext (by show r.val = r.val / 5000 * 5000 + r.val % 5000; omega)
  refine ⟨t, flush2_8 t, ?_⟩
  rw [h, ← place2_8]
  exact View.emb_mem_set _ _

theorem arr2_7 (c : Dev nD) (r : Fin 50000) (q : Fin 128) :
    ((dat2 (F := Ideal) V c).arrAt 7 cfg2.N) (ix2 r q)
      = Spec.mm (Spec.relu (Spec.bn (Ideal.ofBits .f32 0x3727C5AC#32) (Spec.cur2 (V c main_v32_0 : S50000x128.Idx → EReal))
          (Spec.rowOf (V c main_v32_1 : S1x128.Idx → EReal)) (Spec.rowOf (V c main_v32_2 : S1x128.Idx → EReal))
          (Spec.rowOf (V c main_v15 : S1x128.Idx → EReal)) (Spec.rowOf (V c main_v16 : S1x128.Idx → EReal))))
          (Spec.cur2 (V c main_arg7 : S128x128.Idx → EReal)) r q := by
  rw [(dat2 V c).arrAt_eq_of_cover 7 (prodArr2 V c) (fun t _ => written2_7 V c t) covered2_7]
  rfl

theorem arr2_8 (c : Dev nD) (r : Fin 50000) (q : Fin 128) :
    ((dat2 (F := Ideal) V c).arrAt 8 cfg2.N) (ix2 r q)
      = Spec.scaled (Spec.mm (Spec.relu (Spec.bn (Ideal.ofBits .f32 0x3727C5AC#32) (Spec.cur2 (V c main_v32_0 : S50000x128.Idx → EReal))
          (Spec.rowOf (V c main_v32_1 : S1x128.Idx → EReal)) (Spec.rowOf (V c main_v32_2 : S1x128.Idx → EReal))
          (Spec.rowOf (V c main_v15 : S1x128.Idx → EReal)) (Spec.rowOf (V c main_v16 : S1x128.Idx → EReal))))
          (Spec.cur2 (V c main_arg7 : S128x128.Idx → EReal))) (Spec.colOf (V c main_v11 : S50000x1.Idx → EReal)) r q := by
  rw [(dat2 V c).arrAt_eq_of_cover 8 (scaledArr2 V c) (fun t _ => written2_8 V c t) covered2_8]
  rfl

end Cert.KernelIdeal.Val
-- ==== Proof.KI.Val3.lean ====
import proofs.«412806_j54228257079467_3_alg».proof.Proof.KI.R3
import proofs.«412806_j54228257079467_3_alg».proof.Proof.KI.ValLib
import proofs.«412806_j54228257079467_3_alg».proof.Proof.Spec
import proofs.«412806_j54228257079467_3_alg».proof.Proof.Cur
import proofs.«412806_j54228257079467_3_alg».proof.Proof.LibPlainDot
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Frm Idealize.ShloMosaic.ValueIdx
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

section
variable (xa xw : Vec Ideal S5000x128 .f32) (xd : Vec Ideal S5000x1 .f32) (xb : Vec Ideal S1x128 .f32) (q : Fin 128)

theorem blk3_apply (p : Fin 5000) : blk3 xa xd xw xb (ix2 p q)
      = xd (ix2 p (0 : Fin 1)) * xa (ix2 p q) + xw (ix2 p q) * (xd (ix2 p (0 : Fin 1)) * xd (ix2 p (0 : Fin 1))) + xb (ix2 (0 : Fin 1) q) := by
  show k3_pay6 xd xa xw xb (ix2 p q) = _
  unfold k3_pay6
  simp only [shapeCast_self]
  simp only [addf_apply, mulf_apply, Cert.LibPlainDot.broadcast_col 5000 128, broadcastTo_1b_ab_apply (a := 5000) (b := 128)]

end

theorem zero3 (i : S1x128.Idx) : k3_pay4 (F := Ideal) i = 0 ∧ k3_pay5 (F := Ideal) i = 0 := by
  unfold k3_pay4 k3_pay5
  simp only [shapeCast_self]
  exact ⟨Ideal.ofBits_zero_f32, Ideal.ofBits_zero_f32⟩

theorem mean3_apply (s : Vec Ideal S1x128 .f32) (i : S1x128.Idx) :
    mean3 s i = Ideal.div (s i) (Ideal.ofBits .f32 0x47435000#32) := by
  show k3_pay2 s i = _
  unfold k3_pay2
  rw [divf_apply, broadcast_apply]
  rfl

theorem var3_apply (s q : Vec Ideal S1x128 .f32) (i : S1x128.Idx) :
    var3 s q i = max (Ideal.div (q i) (Ideal.ofBits .f32 0x47435000#32) - mean3 s i * mean3 s i) 0 := by
  show k3_pay3 s q i = _
  unfold k3_pay3
  rw [maximumf_apply, subf_apply, divf_apply, mulf_apply, broadcast_apply, broadcast_apply]
  exact congrArg (max _) Ideal.ofBits_zero_f32

theorem idx_facts3 : ∀ t : Fin cfg3.N,
    StartsAt win3_0 t ![t.val * 5000, 0] ∧ StartsAt win3_1 t ![t.val * 5000, 0] ∧ StartsAt win3_2 t ![t.val * 5000, 0]
    ∧ (∀ a, win3_3.index t a = 0) ∧ StartsAt win3_4 t ![t.val * 5000, 0] ∧ (∀ a, win3_5.index t a = 0) ∧ (∀ a, win3_6.index t a = 0) :=
  (by decide +kernel : ∀ t : Fin grid3.N, _)

def rowAt3 (t : Fin cfg3.N) (p : Fin 5000) : Fin 50000 :=
  ⟨t.val * 5000 + p.val, by have ht : t.val < grid3.N := t.isLt; rw [N_3] at ht; have := p.isLt; omega⟩

theorem emb3_4 (t : Fin cfg3.N) (p : Fin 5000) (q : Fin 128) :
    (((cfg3.win 4).blk t).view.emb (ix2 p q) : S50000x128.Idx) = ix2 (rowAt3 t p) q :=
  emb_of_start win3_4 t (idx_facts3 t).2.2.2.2.1 (ix2 p q) (ix2 (rowAt3 t p) q) fun (a : Fin 2) => match a with
    | ⟨0, _⟩ => rfl
    | ⟨1, _⟩ => (Nat.zero_add _).symm
theorem emb3_5 (t : Fin cfg3.N) (i : S1x128.Idx) : (((cfg3.win 5).blk t).view.emb i : S1x128.Idx) = i :=
  emb_of_origin win3_5 t (idx_facts3 t).2.2.2.2.2.1 i i fun _ => rfl
theorem emb3_6 (t : Fin cfg3.N) (i : S1x128.Idx) : (((cfg3.win 6).blk t).view.emb i : S1x128.Idx) = i :=
  emb_of_origin win3_6 t (idx_facts3 t).2.2.2.2.2.2 i i fun _ => rfl

abbrev agg3 (c : Dev nD) : S50000x128.Idx → EReal := V c main_v43
abbrev dis3 (c : Dev nD) : S50000x1.Idx → EReal := V c main_v11
abbrev xw3 (c : Dev nD) : S50000x128.Idx → EReal := V c main_v33_0
abbrev bias3 (c : Dev nD) : S1x128.Idx → EReal := V c main_v13

abbrev pre3 (c : Dev nD) : Fin 50000 → Fin 128 → EReal :=
  Spec.preK (Spec.colOf (dis3 V c)) (Spec.cur2 (agg3 V c)) (Spec.cur2 (xw3 V c)) (Spec.rowOf (bias3 V c))

abbrev cnt3 : EReal := Ideal.ofBits .f32 0x47435000#32

theorem hTB3 : 10 * 5000 = 50000 := by decide

theorem iblk3_0 (c : Dev nD) (t : Fin cfg3.N) (p : Fin 5000) (q : Fin 128) : iblk3 V c 0 t (ix2 p q) = agg3 V c (ix2 (rowAt3 t p) q) :=
  congrArg (agg3 V c) (emb_of_start win3_0 t (idx_facts3 t).1 (ix2 p q) (ix2 (rowAt3 t p) q) fun (a : Fin 2) => match a with
    | ⟨0, _⟩ => rfl
    | ⟨1, _⟩ => (Nat.zero_add _).symm)
theorem iblk3_1 (c : Dev nD) (t : Fin cfg3.N) (p : Fin 5000) : iblk3 V c 1 t (ix2 p (0 : Fin 1)) = dis3 V c (ix2 (rowAt3 t p) (0 : Fin 1)) :=
  congrArg (dis3 V c) (emb_of_start win3_1 t (idx_facts3 t).2.1 (ix2 p (0 : Fin 1)) (ix2 (rowAt3 t p) (0 : Fin 1)) fun (a : Fin 2) => match a with
    | ⟨0, _⟩ => rfl
    | ⟨1, _⟩ => (Nat.zero_add _).symm)
theorem iblk3_2 (c : Dev nD) (t : Fin cfg3.N) (p : Fin 5000) (q : Fin 128) : iblk3 V c 2 t (ix2 p q) = xw3 V c (ix2 (rowAt3 t p) q) :=
  congrArg (xw3 V c) (emb_of_start win3_2 t (idx_facts3 t).2.2.1 (ix2 p q) (ix2 (rowAt3 t p) q) fun (a : Fin 2) => match a with
    | ⟨0, _⟩ => rfl
    | ⟨1, _⟩ => (Nat.zero_add _).symm)
theorem iblk3_3 (c : Dev nD) (t : Fin cfg3.N) (i : S1x128.Idx) : iblk3 V c 3 t i = bias3 V c i :=
  congrArg (bias3 V c) (emb_of_origin win3_3 t (idx_facts3 t).2.2.2.1 i i fun _ => rfl)

theorem blk3_at (c : Dev nD) (t : Fin cfg3.N) (p : Fin 5000) (q : Fin 128) :
    blk3 (iblk3 V c 0 t) (iblk3 V c 1 t) (iblk3 V c 2 t) (iblk3 V c 3 t) (ix2 p q) = pre3 V c (rowAt3 t p) q := by
  rw [blk3_apply, iblk3_0, iblk3_1, iblk3_2, iblk3_3]
  rfl

def G3_4 (c : Dev nD) : S50000x128.Idx → EReal := fun i => pre3 V c (i 0) (i 1)

theorem flushed3_4_eq (c : Dev nD) (t : Fin cfg3.N) :
    (dat3 (F := Ideal) V c).flushed 4 t = ((cfg3.win 4).blk t).view.read (Elt Ideal) (G3_4 V c) := by
  show (cfg3.win 4).cut (grid3.coords t) ((dat3 (F := Ideal) V c).after 4 t) = _
  rw [after3_4]
  funext j
  obtain ⟨p, q, rfl⟩ : ∃ (p : Fin 5000) (q : Fin 128), j = ix2 p q := ⟨j 0, j 1, eq_ix2 j⟩
  show blk3 (iblk3 V c 0 t) (iblk3 V c 1 t) (iblk3 V c 2 t) (iblk3 V c 3 t) (ix2 p q) = G3_4 V c (((cfg3.win 4).blk t).view.emb (ix2 p q))
  rw [blk3_at, emb3_4]
  rfl

-- row r lies in the block of point r / 5000, at row r % 5000 of it
theorem cover3_4 (i : S50000x128.Idx) : ∃ t : Fin cfg3.N, (cfg3.win 4).flush t = true ∧ i ∈ ((cfg3.win 4).blk t).view.set := by
  obtain ⟨r, q, rfl⟩ : ∃ (r : Fin 50000) (q : Fin 128), i = ix2 r q := ⟨i 0, i 1, eq_ix2 i⟩
  have hr := r.isLt
  let t : Fin cfg3.N := ⟨r.val / 5000, by show r.val / 5000 < grid3.N; rw [N_3]; omega⟩
  have h : r = rowAt3 t ⟨r.val % 5000, Nat.mod_lt _ (by decide)⟩ :=
    Fin.ext (by show r.val = r.val / 5000 * 5000 + r.val % 5000; omega)
  refine ⟨t, flush3_4 t, ?_⟩
  rw [h, ← emb3_4]
  exact View.emb_mem_set _ _

theorem arr3_4 (c : Dev nD) (r : Fin 50000) (q : Fin 128) :
    ((dat3 (F := Ideal) V c).arrAt 4 cfg3.N) (ix2 r q)
      = Spec.preK (Spec.colOf (V c main_v11 : S50000x1.Idx → EReal)) (Spec.cur2 (V c main_v43 : S50000x128.Idx → EReal))
          (Spec.cur2 (V c main_v33_0 : S50000x128.Idx → EReal)) (Spec.rowOf (V c main_v13 : S1x128.Idx → EReal)) r q := by
  rw [(dat3 (F := Ideal) V c).arrAt_eq_of_cover 4 (G3_4 V c) (fun t _ => flushed3_4_eq V c t) cover3_4]
  rfl

section
variable (c : Dev nD) (q : Fin 128)

theorem sum3_at (t : Fin cfg3.N) (s : Vec Ideal S1x128 .f32) :
    sum3 (iblk3 V c 0 t) (iblk3 V c 1 t) (iblk3 V c 2 t) (iblk3 V c 3 t) s (ix2 (0 : Fin 1) q)
      = s (ix2 (0 : Fin 1) q) + ∑ p : Fin 5000, pre3 V c (rowAt3 t p) q := by
  show k3_pay7 _ _ _ _ s (ix2 (0 : Fin 1) q) = _
  unfold k3_pay7
  simp only [shapeCast_self]
  rw [addf_apply, shapeCast_a_1a_apply (a := 128)]
  exact congrArg (s (ix2 (0 : Fin 1) q) + ·) ((colsum _ _ _ _ _ q).trans (Finset.sum_congr rfl fun p _ => blk3_at V c t p q))

theorem sqs3_at (t : Fin cfg3.N) (s : Vec Ideal S1x128 .f32) :
    sqs3 (iblk3 V c 0 t) (iblk3 V c 1 t) (iblk3 V c 2 t) (iblk3 V c 3 t) s (ix2 (0 : Fin 1) q)
      = s (ix2 (0 : Fin 1) q) + ∑ p : Fin 5000, pre3 V c (rowAt3 t p) q * pre3 V c (rowAt3 t p) q := by
  show k3_pay1 (k3_pay8 _ _ _ _ s) (ix2 (0 : Fin 1) q) = _
  unfold k3_pay1 k3_pay8
  simp only [shapeCast_self]
  rw [addf_apply, shapeCast_a_1a_apply (a := 128)]
  exact congrArg (s (ix2 (0 : Fin 1) q) + ·) ((colsum _ _ _ _ _ q).trans (Finset.sum_congr rfl fun p _ =>
    (mulf_apply _ _ _).trans (congrArg₂ (· * ·) (blk3_at V c t p q) (blk3_at V c t p q))))

-- after point n the two running rows hold the layer's value, and its square, summed over the blocks up to n
theorem scr3_fst (n : ℕ) (hn : n < cfg3.N) :
    (scr3 V c n hn).1 (ix2 (0 : Fin 1) q) = ∑ t : Fin (n + 1), ∑ p : Fin 5000, pre3 V c (rowAt3 (Fin.castLE hn t) p) q :=
  sum_of_steps (fun t => ∑ p : Fin 5000, pre3 V c (rowAt3 t p) q) (fun n hn => (scr3 V c n hn).1 (ix2 (0 : Fin 1) q))
    (fun hn => (sum3_at V c q ⟨0, hn⟩ _).trans (congrArg (· + _) (zero3 _).1)) (fun n hn => sum3_at V c q ⟨n + 1, hn⟩ _) n hn

theorem scr3_snd (n : ℕ) (hn : n < cfg3.N) :
    (scr3 V c n hn).2 (ix2 (0 : Fin 1) q)
      = ∑ t : Fin (n + 1), ∑ p : Fin 5000, pre3 V c (rowAt3 (Fin.castLE hn t) p) q * pre3 V c (rowAt3 (Fin.castLE hn t) p) q :=
  sum_of_steps (fun t => ∑ p : Fin 5000, pre3 V c (rowAt3 t p) q * pre3 V c (rowAt3 t p) q) (fun n hn => (scr3 V c n hn).2 (ix2 (0 : Fin 1) q))
    (fun hn => (sqs3_at V c q ⟨0, hn⟩ _).trans (congrArg (· + _) (zero3 _).2)) (fun n hn => sqs3_at V c q ⟨n + 1, hn⟩ _) n hn

def G3_5 : S1x128.Idx → EReal := fun i => Spec.meanK (T := 10) (B := 5000) hTB3 cnt3 (pre3 V c) (i 1)
def G3_6 : S1x128.Idx → EReal := fun i => Spec.varK (T := 10) (B := 5000) hTB3 cnt3 (pre3 V c) (i 1)

theorem mean3_last (t : Fin cfg3.N) (h9 : t.val = 9) (j : S1x128.Idx) :
    mean3 (scr3 V c t.val t.isLt).1 j = Spec.meanK (T := 10) (B := 5000) hTB3 cnt3 (pre3 V c) (j 1) := by
  obtain ⟨u, q, rfl⟩ : ∃ (u : Fin 1) (q : Fin 128), j = ix2 u q := ⟨j 0, j 1, eq_ix2 j⟩
  obtain rfl : u = 0 := Subsingleton.elim _ _
  obtain ⟨n, hn⟩ := t
  obtain rfl : n = 9 := h9
  rw [mean3_apply, scr3_fst]
  rfl

theorem var3_last (t : Fin cfg3.N) (h9 : t.val = 9) (j : S1x128.Idx) :
    var3 (scr3 V c t.val t.isLt).1 (scr3 V c t.val t.isLt).2 j = Spec.varK (T := 10) (B := 5000) hTB3 cnt3 (pre3 V c) (j 1) := by
  rw [var3_apply, mean3_last V c t h9]
  obtain ⟨u, q, rfl⟩ : ∃ (u : Fin 1) (q : Fin 128), j = ix2 u q := ⟨j 0, j 1, eq_ix2 j⟩
  obtain rfl : u = 0 := Subsingleton.elim _ _
  obtain ⟨n, hn⟩ := t
  obtain rfl : n = 9 := h9
  rw [scr3_snd]
  rfl

end

theorem last3 (t : Fin cfg3.N) (hf : (cfg3.win 5).flush t = true ∨ (cfg3.win 6).flush t = true) : t.val = 9 := by
  have h := hf.elim (flush3_5 t).mp (flush3_6 t).mp
  have ht : t.val < grid3.N := t.isLt
  rw [N_3] at ht
  omega

theorem flushed3_5_eq (c : Dev nD) (t : Fin cfg3.N) (hf : (cfg3.win 5).flush t = true) :
    (dat3 (F := Ideal) V c).flushed 5 t = ((cfg3.win 5).blk t).view.read (Elt Ideal) (G3_5 V c) := by
  show (cfg3.win 5).cut (grid3.coords t) ((dat3 (F := Ideal) V c).after 5 t) = _
  rw [after3_5]
  funext j
  show mean3 (scr3 V c t.val t.isLt).1 j = G3_5 V c (((cfg3.win 5).blk t).view.emb j)
  rw [mean3_last V c t (last3 t (.inl hf)), emb3_5]
  rfl

theorem flushed3_6_eq (c : Dev nD) (t : Fin cfg3.N) (hf : (cfg3.win 6).flush t = true) :
    (dat3 (F := Ideal) V c).flushed 6 t = ((cfg3.win 6).blk t).view.read (Elt Ideal) (G3_6 V c) := by
  show (cfg3.win 6).cut (grid3.coords t) ((dat3 (F := Ideal) V c).after 6 t) = _
  rw [after3_6]
  funext j
  show var3 (scr3 V c t.val t.isLt).1 (scr3 V c t.val t.isLt).2 j = G3_6 V c (((cfg3.win 6).blk t).view.emb j)
  rw [var3_last V c t (last3 t (.inr hf)), emb3_6]
  rfl

theorem cover3_5 (i : S1x128.Idx) : ∃ t : Fin cfg3.N, (cfg3.win 5).flush t = true ∧ i ∈ ((cfg3.win 5).blk t).view.set :=
  ⟨t3_9, (flush3_5 t3_9).mpr rfl, by rw [← emb3_5 t3_9 i]; exact View.emb_mem_set _ _⟩
theorem cover3_6 (i : S1x128.Idx) : ∃ t : Fin cfg3.N, (cfg3.win 6).flush t = true ∧ i ∈ ((cfg3.win 6).blk t).view.set :=
  ⟨t3_9, (flush3_6 t3_9).mpr rfl, by rw [← emb3_6 t3_9 i]; exact View.emb_mem_set _ _⟩

theorem arr3_5 (c : Dev nD) (q : Fin 128) :
    ((dat3 (F := Ideal) V c).arrAt 5 cfg3.N) (ix2 (0 : Fin 1) q)
      = Spec.meanK (T := 10) (B := 5000) (by decide : 10 * 5000 = 50000) (Ideal.ofBits .f32 0x47435000#32)
          (Spec.preK (Spec.colOf (V c main_v11 : S50000x1.Idx → EReal)) (Spec.cur2 (V c main_v43 : S50000x128.Idx → EReal))
            (Spec.cur2 (V c main_v33_0 : S50000x128.Idx → EReal)) (Spec.rowOf (V c main_v13 : S1x128.Idx → EReal))) q := by
  rw [(dat3 (F := Ideal) V c).arrAt_eq_of_cover 5 (G3_5 V c) (flushed3_5_eq V c) cover3_5]
  rfl

theorem arr3_6 (c : Dev nD) (q : Fin 128) :
    ((dat3 (F := Ideal) V c).arrAt 6 cfg3.N) (ix2 (0 : Fin 1) q)
      = Spec.varK (T := 10) (B := 5000) (by decide : 10 * 5000 = 50000) (Ideal.ofBits .f32 0x47435000#32)
          (Spec.preK (Spec.colOf (V c main_v11 : S50000x1.Idx → EReal)) (Spec.cur2 (V c main_v43 : S50000x128.Idx → EReal))
            (Spec.cur2 (V c main_v33_0 : S50000x128.Idx → EReal)) (Spec.rowOf (V c main_v13 : S1x128.Idx → EReal))) q := by
  rw [(dat3 (F := Ideal) V c).arrAt_eq_of_cover 6 (G3_6 V c) (flushed3_6_eq V c) cover3_6]
  rfl

end Cert.KernelIdeal.Val

end
-- ==== Proof.KI.Val4.lean ====
import proofs.«412806_j54228257079467_3_alg».proof.Proof.KI.R4
import proofs.«412806_j54228257079467_3_alg».proof.Proof.KI.ValLib
import proofs.«412806_j54228257079467_3_alg».proof.Proof.Spec
import proofs.«412806_j54228257079467_3_alg».proof.Proof.Cur
import proofs.«412806_j54228257079467_3_alg».proof.Proof.LibPlainDot
import proofs.«412806_j54228257079467_3_alg».proof.Proof.LibPlainAny
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

abbrev eps4 : EReal := Ideal.ofBits .f32 0x3727C5AC#32

abbrev act4 {n : Nat} (xs : Fin n → Fin 128 → EReal) (mean var gam bet : Fin 128 → EReal) : Fin n → Fin 128 → EReal :=
  Spec.relu (Spec.bn eps4 xs mean var gam bet)

theorem contr4_plain : dot_S5000x128_S128x128_S5000x128_1_0_0_1_n_n = DotDims.plain 5000 128 128 := rfl

section
variable (xs : Vec Ideal S5000x128 .f32) (mean var gam bet : Vec Ideal S1x128 .f32) (wgt : Vec Ideal S128x128 .f32) (p : Fin 5000) (q : Fin 128)

-- entry (p, q): row p of the normalised, rectified block against column q of the weights
theorem pay1_entry4 : k4_pay1 var xs mean gam bet wgt (ix2 p q)
      = Spec.mm (act4 (Spec.cur2 xs) (Spec.rowOf mean) (Spec.rowOf var) (Spec.rowOf gam) (Spec.rowOf bet)) (Spec.cur2 wgt) p q := by
  unfold k4_pay1
  rw [contr4_plain, Cert.LibPlainAny.matmul_plain_zero_any 5000 128 128]
  refine Finset.sum_congr rfl fun k _ => ?_
  rw [truncf_apply, truncf_apply, maximumf_apply, addf_apply, mulf_apply, mulf_apply, subf_apply, broadcast_apply]
  simp only [broadcastTo_1b_ab_apply (a := 5000) (b := 128), shapeCast_self]
  exact congrArg (max _ · * _) Ideal.ofBits_zero_f32

theorem pay2_entry4 (col : Vec Ideal S5000x1 .f32) :
    k4_pay2 var xs mean gam bet wgt col (ix2 p q) = k4_pay1 var xs mean gam bet wgt (ix2 p q) * col (ix2 p (0 : Fin 1)) := by
  show mulf (k4_pay1 var xs mean gam bet wgt)
    (broadcastTo S5000x128 (shapeCast S5000x1 col shapeCasts_S5000x1_S5000x1) broadcasts_S5000x1_S5000x128) (ix2 p q) = _
  rw [mulf_apply, Cert.LibPlainDot.broadcast_col 5000 128, shapeCast_self]

end

variable (V : (c : Dev nD) → (b : Ref sig .tc) → Buf (Elt Ideal) ((c : Thread nD τ).loc b))

theorem zeroOff4 : (![0, 0] : Fin 2 → Nat) = fun _ => 0 := funext fun a => by fin_cases a <;> rfl

theorem movingAt4 : ∀ t : Fin cfg4.N,
    StartsAt win4_0 t ![t.val * 5000, 0] ∧ StartsAt win4_6 t ![t.val * 5000, 0] ∧ StartsAt win4_7 t ![t.val * 5000, 0]
    ∧ StartsAt win4_8 t ![t.val * 5000, 0] :=
  (by decide +kernel : ∀ t : Fin grid4.N, _)

theorem fixedAt4 : ∀ t : Fin cfg4.N,
    (∀ a, win4_1.index t a = 0) ∧ (∀ a, win4_2.index t a = 0) ∧ (∀ a, win4_3.index t a = 0) ∧ (∀ a, win4_4.index t a = 0)
    ∧ (∀ a, win4_5.index t a = 0) :=
  (by decide +kernel : ∀ t : Fin grid4.N, _)

def rowAt4 (t : Fin cfg4.N) (p : Fin 5000) : Fin 50000 :=
  ⟨t.val * 5000 + p.val, by
    have ht : t.val < 10 := lt_of_lt_of_eq (b := grid4.N) t.isLt N_4
    have hp := p.isLt
    omega⟩

theorem rows_entry4 (c : Dev nD) (t : Fin cfg4.N) (p : Fin 5000) (k : Fin 128) :
    (iblk4 V c 0 t : Vec Ideal S5000x128 .f32) (ix2 p k) = (V c main_v44_0 : S50000x128.Idx → EReal) (ix2 (rowAt4 t p) k) :=
  congrArg (V c main_v44_0 : S50000x128.Idx → EReal) (emb_of_start win4_0 t (movingAt4 t).1 (ix2 p k) (ix2 (rowAt4 t p) k) fun (a : Fin 2) => match a with
    | ⟨0, _⟩ => rfl
    | ⟨1, _⟩ => (Nat.zero_add _).symm)

theorem col_entry4 (c : Dev nD) (t : Fin cfg4.N) (p : Fin 5000) :
    (iblk4 V c 6 t : Vec Ideal S5000x1 .f32) (ix2 p (0 : Fin 1)) = (V c main_v11 : S50000x1.Idx → EReal) (ix2 (rowAt4 t p) (0 : Fin 1)) :=
  congrArg (V c main_v11 : S50000x1.Idx → EReal)
    (emb_of_start win4_6 t (movingAt4 t).2.1 (ix2 p (0 : Fin 1)) (ix2 (rowAt4 t p) (0 : Fin 1)) fun (a : Fin 2) => match a with
    | ⟨0, _⟩ => rfl
    | ⟨1, _⟩ => (Nat.zero_add _).symm)

theorem mean_block4 (c : Dev nD) (t : Fin cfg4.N) : (iblk4 V c 1 t : Vec Ideal S1x128 .f32) = (V c main_v44_1 : S1x128.Idx → EReal) :=
  funext fun j => congrArg (V c main_v44_1 : S1x128.Idx → EReal) (emb_of_origin win4_1 t (fixedAt4 t).1 j j fun _ => rfl)

theorem var_block4 (c : Dev nD) (t : Fin cfg4.N) : (iblk4 V c 2 t : Vec Ideal S1x128 .f32) = (V c main_v44_2 : S1x128.Idx → EReal) :=
  funext fun j => congrArg (V c main_v44_2 : S1x128.Idx → EReal) (emb_of_origin win4_2 t (fixedAt4 t).2.1 j j fun _ => rfl)

theorem gam_block4 (c : Dev nD) (t : Fin cfg4.N) : (iblk4 V c 3 t : Vec Ideal S1x128 .f32) = (V c main_v17 : S1x128.Idx → EReal) :=
  funext fun j => congrArg (V c main_v17 : S1x128.Idx → EReal) (emb_of_origin win4_3 t (fixedAt4 t).2.2.1 j j fun _ => rfl)

theorem bet_block4 (c : Dev nD) (t : Fin cfg4.N) : (iblk4 V c 4 t : Vec Ideal S1x128 .f32) = (V c main_v18 : S1x128.Idx → EReal) :=
  funext fun j => congrArg (V c main_v18 : S1x128.Idx → EReal) (emb_of_origin win4_4 t (fixedAt4 t).2.2.2.1 j j fun _ => rfl)

theorem wgt_block4 (c : Dev nD) (t : Fin cfg4.N) : (iblk4 V c 5 t : Vec Ideal S128x128 .f32) = (V c main_arg9 : S128x128.Idx → EReal) :=
  funext fun j => congrArg (V c main_arg9 : S128x128.Idx → EReal) (emb_of_origin win4_5 t (fixedAt4 t).2.2.2.2 j j fun _ => rfl)

theorem place4_7 (t : Fin cfg4.N) (p : Fin 5000) (q : Fin 128) :
    (((cfg4.win 7).blk t).view.emb (ix2 p q) : S50000x128.Idx) = ix2 (rowAt4 t p) q :=
  emb_of_start win4_7 t (movingAt4 t).2.2.1 (ix2 p q) (ix2 (rowAt4 t p) q) fun (a : Fin 2) => match a with
    | ⟨0, _⟩ => rfl
    | ⟨1, _⟩ => (Nat.zero_add _).symm

theorem place4_8 (t : Fin cfg4.N) (p : Fin 5000) (q : Fin 128) :
    (((cfg4.win 8).blk t).view.emb (ix2 p q) : S50000x128.Idx) = ix2 (rowAt4 t p) q :=
  emb_of_start win4_8 t (movingAt4 t).2.2.2 (ix2 p q) (ix2 (rowAt4 t p) q) fun (a : Fin 2) => match a with
    | ⟨0, _⟩ => rfl
    | ⟨1, _⟩ => (Nat.zero_add _).symm

def prodArr4 (c : Dev nD) : S50000x128.Idx → EReal := fun i =>
  Spec.mm (act4 (Spec.cur2 (V c main_v44_0 : S50000x128.Idx → EReal)) (Spec.rowOf (V c main_v44_1 : S1x128.Idx → EReal))
    (Spec.rowOf (V c main_v44_2 : S1x128.Idx → EReal)) (Spec.rowOf (V c main_v17 : S1x128.Idx → EReal))
    (Spec.rowOf (V c main_v18 : S1x128.Idx → EReal))) (Spec.cur2 (V c main_arg9 : S128x128.Idx → EReal)) (i 0) (i 1)

def scaledArr4 (c : Dev nD) : S50000x128.Idx → EReal := fun i =>
  prodArr4 V c i * (V c main_v11 : S50000x1.Idx → EReal) (ix2 (i 0) (0 : Fin 1))

-- row p of the product over the blocks at point t is row 5000 t + p of the product over the arrays
theorem block_prod4 (c : Dev nD) (t : Fin cfg4.N) (p : Fin 5000) (q : Fin 128) :
    k4_pay1 (iblk4 V c 2 t) (iblk4 V c 0 t) (iblk4 V c 1 t) (iblk4 V c 3 t) (iblk4 V c 4 t) (iblk4 V c 5 t) (ix2 p q)
      = prodArr4 V c (ix2 (rowAt4 t p) q) := by
  rw [pay1_entry4, mean_block4, var_block4, gam_block4, bet_block4, wgt_block4]
  refine Finset.sum_congr rfl fun k _ => congrArg (· * _) ?_
  exact congrArg (fun x : EReal => max ((x - _) * _ * _ + _) 0) (rows_entry4 V c t p k)

theorem written4_7 (c : Dev nD) (t : Fin cfg4.N) :
    (dat4 V c).flushed 7 t = ((cfg4.win 7).blk t).view.read (Elt Ideal) (prodArr4 V c) := by
  show (cfg4.win 7).cut (grid4.coords t) ((dat4 V c).after 7 t) = _
  rw [after4_7]
  unfold out4_7
  rw [View.canon_unit_zero zeroOff4]
  simp only [View.ld_unit_zero (S := S5000x128) zeroOff4, View.ld_unit_zero (S := S1x128) zeroOff4, View.ld_unit_zero (S := S128x128) zeroOff4]
  funext j
  obtain ⟨p, q, rfl⟩ : ∃ (p : Fin 5000) (q : Fin 128), j = ix2 p q := ⟨j 0, j 1, eq_ix2 j⟩
  show k4_pay1 (iblk4 V c 2 t) (iblk4 V c 0 t) (iblk4 V c 1 t) (iblk4 V c 3 t) (iblk4 V c 4 t) (iblk4 V c 5 t) (ix2 p q)
    = prodArr4 V c (((cfg4.win 7).blk t).view.emb (ix2 p q))
  rw [block_prod4, place4_7]

theorem written4_8 (c : Dev nD) (t : Fin cfg4.N) :
    (dat4 V c).flushed 8 t = ((cfg4.win 8).blk t).view.read (Elt Ideal) (scaledArr4 V c) := by
  show (cfg4.win 8).cut (grid4.coords t) ((dat4 V c).after 8 t) = _
  rw [after4_8]
  unfold out4_8
  rw [View.canon_unit_zero zeroOff4]
  simp only [View.ld_unit_zero (S := S5000x128) zeroOff4, View.ld_unit_zero (S := S1x128) zeroOff4, View.ld_unit_zero (S := S128x128) zeroOff4,
    View.ld_unit_zero (S := S5000x1) zeroOff4]
  funext j
  obtain ⟨p, q, rfl⟩ : ∃ (p : Fin 5000) (q : Fin 128), j = ix2 p q := ⟨j 0, j 1, eq_ix2 j⟩
  show k4_pay2 (iblk4 V c 2 t) (iblk4 V c 0 t) (iblk4 V c 1 t) (iblk4 V c 3 t) (iblk4 V c 4 t) (iblk4 V c 5 t) (iblk4 V c 6 t) (ix2 p q)
    = scaledArr4 V c (((cfg4.win 8).blk t).view.emb (ix2 p q))
  rw [pay2_entry4, block_prod4, col_entry4, place4_8]
  rfl

-- row r lies in the block of point r / 5000, at row r % 5000 of it
theorem covered4_7 (i : S50000x128.Idx) : ∃ t : Fin cfg4.N, (cfg4.win 7).flush t = true ∧ i ∈ ((cfg4.win 7).blk t).view.set := by
  obtain ⟨r, q, rfl⟩ : ∃ (r : Fin 50000) (q : Fin 128), i = ix2 r q := ⟨i 0, i 1, eq_ix2 i⟩
  have hr := r.isLt
  let t : Fin cfg4.N := ⟨r.val / 5000, by show r.val / 5000 < grid4.N; rw [N_4]; omega⟩
  have h : r = rowAt4 t ⟨r.val % 5000, Nat.mod_lt _ (by decide)⟩ :=
    Fin.ext (by show r.val = r.val / 5000 * 5000 + r.val % 5000; omega)
  refine ⟨t, flush4_7 t, ?_⟩
  rw [h, ← place4_7]
  exact View.emb_mem_set _ _

theorem covered4_8 (i : S50000x128.Idx) : ∃ t : Fin cfg4.N, (cfg4.win 8).flush t = true ∧ i ∈ ((cfg4.win 8).blk t).view.set := by
  obtain ⟨r, q, rfl⟩ : ∃ (r : Fin 50000) (q : Fin 128), i = ix2 r q := ⟨i 0, i 1, eq_ix2 i⟩
  have hr := r.isLt
  let t : Fin cfg4.N := ⟨r.val / 5000, by show r.val / 5000 < grid4.N; rw [N_4]; omega⟩
  have h : r = rowAt4 t ⟨r.val % 5000, Nat.mod_lt _ (by decide)⟩ :=
    Fin.ext (by show r.val = r.val / 5000 * 5000 + r.val % 5000; omega)
  refine ⟨t, flush4_8 t, ?_⟩
  rw [h, ← place4_8]
  exact View.emb_mem_set _ _

theorem arr4_7 (c : Dev nD) (r : Fin 50000) (q : Fin 128) :
    ((dat4 (F := Ideal) V c).arrAt 7 cfg4.N) (ix2 r q)
      = Spec.mm (Spec.relu (Spec.bn (Ideal.ofBits .f32 0x3727C5AC#32) (Spec.cur2 (V c main_v44_0 : S50000x128.Idx → EReal))
          (Spec.rowOf (V c main_v44_1 : S1x128.Idx → EReal)) (Spec.rowOf (V c main_v44_2 : S1x128.Idx → EReal))
          (Spec.rowOf (V c main_v17 : S1x128.Idx → EReal)) (Spec.rowOf (V c main_v18 : S1x128.Idx → EReal))))
          (Spec.cur2 (V c main_arg9 : S128x128.Idx → EReal)) r q := by
  rw [(dat4 V c).arrAt_eq_of_cover 7 (prodArr4 V c) (fun t _ => written4_7 V c t) covered4_7]
  rfl

theorem arr4_8 (c : Dev nD) (r : Fin 50000) (q : Fin 128) :
    ((dat4 (F := Ideal) V c).arrAt 8 cfg4.N) (ix2 r q)
      = Spec.scaled (Spec.mm (Spec.relu (Spec.bn (Ideal.ofBits .f32 0x3727C5AC#32) (Spec.cur2 (V c main_v44_0 : S50000x128.Idx → EReal))
          (Spec.rowOf (V c main_v44_1 : S1x128.Idx → EReal)) (Spec.rowOf (V c main_v44_2 : S1x128.Idx → EReal))
          (Spec.rowOf (V c main_v17 : S1x128.Idx → EReal)) (Spec.rowOf (V c main_v18 : S1x128.Idx → EReal))))
          (Spec.cur2 (V c main_arg9 : S128x128.Idx → EReal))) (Spec.colOf (V c main_v11 : S50000x1.Idx → EReal)) r q := by
  rw [(dat4 V c).arrAt_eq_of_cover 8 (scaledArr4 V c) (fun t _ => written4_8 V c t) covered4_8]
  rfl

end Cert.KernelIdeal.Val
-- ==== Proof.KI.Val5.lean ====
import proofs.«412806_j54228257079467_3_alg».proof.Proof.KI.R5
import proofs.«412806_j54228257079467_3_alg».proof.Proof.KI.ValLib
import proofs.«412806_j54228257079467_3_alg».proof.Proof.Spec
import proofs.«412806_j54228257079467_3_alg».proof.Proof.Cur
import proofs.«412806_j54228257079467_3_alg».proof.Proof.LibPlainDot
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Frm Idealize.ShloMosaic.ValueIdx
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

section
variable (xa xw : Vec Ideal S5000x128 .f32) (xd : Vec Ideal S5000x1 .f32) (xb : Vec Ideal S1x128 .f32) (q : Fin 128)

theorem blk5_apply (p : Fin 5000) : blk5 xa xd xw xb (ix2 p q)
      = xd (ix2 p (0 : Fin 1)) * xa (ix2 p q) + xw (ix2 p q) * (xd (ix2 p (0 : Fin 1)) * xd (ix2 p (0 : Fin 1))) + xb (ix2 (0 : Fin 1) q) := by
  show k5_pay6 xd xa xw xb (ix2 p q) = _
  unfold k5_pay6
  simp only [shapeCast_self]
  simp only [addf_apply, mulf_apply, Cert.LibPlainDot.broadcast_col 5000 128, broadcastTo_1b_ab_apply (a := 5000) (b := 128)]

end

theorem zero5 (i : S1x128.Idx) : k5_pay4 (F := Ideal) i = 0 ∧ k5_pay5 (F := Ideal) i = 0 := by
  unfold k5_pay4 k5_pay5
  simp only [shapeCast_self]
  exact ⟨Ideal.ofBits_zero_f32, Ideal.ofBits_zero_f32⟩

theorem mean5_apply (s : Vec Ideal S1x128 .f32) (i : S1x128.Idx) :
    mean5 s i = Ideal.div (s i) (Ideal.ofBits .f32 0x47435000#32) := by
  show k5_pay2 s i = _
  unfold k5_pay2
  rw [divf_apply, broadcast_apply]
  rfl

theorem var5_apply (s q : Vec Ideal S1x128 .f32) (i : S1x128.Idx) :
    var5 s q i = max (Ideal.div (q i) (Ideal.ofBits .f32 0x47435000#32) - mean5 s i * mean5 s i) 0 := by
  show k5_pay3 s q i = _
  unfold k5_pay3
  rw [maximumf_apply, subf_apply, divf_apply, mulf_apply, broadcast_apply, broadcast_apply]
  exact congrArg (max _) Ideal.ofBits_zero_f32

theorem idx_facts5 : ∀ t : Fin cfg5.N,
    StartsAt win5_0 t ![t.val * 5000, 0] ∧ StartsAt win5_1 t ![t.val * 5000, 0] ∧ StartsAt win5_2 t ![t.val * 5000, 0]
    ∧ (∀ a, win5_3.index t a = 0) ∧ StartsAt win5_4 t ![t.val * 5000, 0] ∧ (∀ a, win5_5.index t a = 0) ∧ (∀ a, win5_6.index t a = 0) :=
  (by decide +kernel : ∀ t : Fin grid5.N, _)

def rowAt5 (t : Fin cfg5.N) (p : Fin 5000) : Fin 50000 :=
  ⟨t.val * 5000 + p.val, by have ht : t.val < grid5.N := t.isLt; rw [N_5] at ht; have := p.isLt; omega⟩

theorem emb5_4 (t : Fin cfg5.N) (p : Fin 5000) (q : Fin 128) :
    (((cfg5.win 4).blk t).view.emb (ix2 p q) : S50000x128.Idx) = ix2 (rowAt5 t p) q :=
  emb_of_start win5_4 t (idx_facts5 t).2.2.2.2.1 (ix2 p q) (ix2 (rowAt5 t p) q) fun (a : Fin 2) => match a with
    | ⟨0, _⟩ => rfl
    | ⟨1, _⟩ => (Nat.zero_add _).symm
theorem emb5_5 (t : Fin cfg5.N) (i : S1x128.Idx) : (((cfg5.win 5).blk t).view.emb i : S1x128.Idx) = i :=
  emb_of_origin win5_5 t (idx_facts5 t).2.2.2.2.2.1 i i fun _ => rfl
theorem emb5_6 (t : Fin cfg5.N) (i : S1x128.Idx) : (((cfg5.win 6).blk t).view.emb i : S1x128.Idx) = i :=
  emb_of_origin win5_6 t (idx_facts5 t).2.2.2.2.2.2 i i fun _ => rfl

abbrev agg5 (c : Dev nD) : S50000x128.Idx → EReal := V c main_v55
abbrev dis5 (c : Dev nD) : S50000x1.Idx → EReal := V c main_v11
abbrev xw5 (c : Dev nD) : S50000x128.Idx → EReal := V c main_v45_0
abbrev bias5 (c : Dev nD) : S1x128.Idx → EReal := V c main_v14

abbrev pre5 (c : Dev nD) : Fin 50000 → Fin 128 → EReal :=
  Spec.preK (Spec.colOf (dis5 V c)) (Spec.cur2 (agg5 V c)) (Spec.cur2 (xw5 V c)) (Spec.rowOf (bias5 V c))

abbrev cnt5 : EReal := Ideal.ofBits .f32 0x47435000#32

theorem hTB5 : 10 * 5000 = 50000 := by decide

theorem iblk5_0 (c : Dev nD) (t : Fin cfg5.N) (p : Fin 5000) (q : Fin 128) : iblk5 V c 0 t (ix2 p q) = agg5 V c (ix2 (rowAt5 t p) q) :=
  congrArg (agg5 V c) (emb_of_start win5_0 t (idx_facts5 t).1 (ix2 p q) (ix2 (rowAt5 t p) q) fun (a : Fin 2) => match a with
    | ⟨0, _⟩ => rfl
    | ⟨1, _⟩ => (Nat.zero_add _).symm)
theorem iblk5_1 (c : Dev nD) (t : Fin cfg5.N) (p : Fin 5000) : iblk5 V c 1 t (ix2 p (0 : Fin 1)) = dis5 V c (ix2 (rowAt5 t p) (0 : Fin 1)) :=
  congrArg (dis5 V c) (emb_of_start win5_1 t (idx_facts5 t).2.1 (ix2 p (0 : Fin 1)) (ix2 (rowAt5 t p) (0 : Fin 1)) fun (a : Fin 2) => match a with
    | ⟨0, _⟩ => rfl
    | ⟨1, _⟩ => (Nat.zero_add _).symm)
theorem iblk5_2 (c : Dev nD) (t : Fin cfg5.N) (p : Fin 5000) (q : Fin 128) : iblk5 V c 2 t (ix2 p q) = xw5 V c (ix2 (rowAt5 t p) q) :=
  congrArg (xw5 V c) (emb_of_start win5_2 t (idx_facts5 t).2.2.1 (ix2 p q) (ix2 (rowAt5 t p) q) fun (a : Fin 2) => match a with
    | ⟨0, _⟩ => rfl
    | ⟨1, _⟩ => (Nat.zero_add _).symm)
theorem iblk5_3 (c : Dev nD) (t : Fin cfg5.N) (i : S1x128.Idx) : iblk5 V c 3 t i = bias5 V c i :=
  congrArg (bias5 V c) (emb_of_origin win5_3 t (idx_facts5 t).2.2.2.1 i i fun _ => rfl)

theorem blk5_at (c : Dev nD) (t : Fin cfg5.N) (p : Fin 5000) (q : Fin 128) :
    blk5 (iblk5 V c 0 t) (iblk5 V c 1 t) (iblk5 V c 2 t) (iblk5 V c 3 t) (ix2 p q) = pre5 V c (rowAt5 t p) q := by
  rw [blk5_apply, iblk5_0, iblk5_1, iblk5_2, iblk5_3]
  rfl

def G5_4 (c : Dev nD) : S50000x128.Idx → EReal := fun i => pre5 V c (i 0) (i 1)

theorem flushed5_4_eq (c : Dev nD) (t : Fin cfg5.N) :
    (dat5 (F := Ideal) V c).flushed 4 t = ((cfg5.win 4).blk t).view.read (Elt Ideal) (G5_4 V c) := by
  show (cfg5.win 4).cut (grid5.coords t) ((dat5 (F := Ideal) V c).after 4 t) = _
  rw [after5_4]
  funext j
  obtain ⟨p, q, rfl⟩ : ∃ (p : Fin 5000) (q : Fin 128), j = ix2 p q := ⟨j 0, j 1, eq_ix2 j⟩
  show blk5 (iblk5 V c 0 t) (iblk5 V c 1 t) (iblk5 V c 2 t) (iblk5 V c 3 t) (ix2 p q) = G5_4 V c (((cfg5.win 4).blk t).view.emb (ix2 p q))
  rw [blk5_at, emb5_4]
  rfl

-- row r lies in the block of point r / 5000, at row r % 5000 of it
theorem cover5_4 (i : S50000x128.Idx) : ∃ t : Fin cfg5.N, (cfg5.win 4).flush t = true ∧ i ∈ ((cfg5.win 4).blk t).view.set := by
  obtain ⟨r, q, rfl⟩ : ∃ (r : Fin 50000) (q : Fin 128), i = ix2 r q := ⟨i 0, i 1, eq_ix2 i⟩
  have hr := r.isLt
  let t : Fin cfg5.N := ⟨r.val / 5000, by show r.val / 5000 < grid5.N; rw [N_5]; omega⟩
  have h : r = rowAt5 t ⟨r.val % 5000, Nat.mod_lt _ (by decide)⟩ :=
    Fin.ext (by show r.val = r.val / 5000 * 5000 + r.val % 5000; omega)
  refine ⟨t, flush5_4 t, ?_⟩
  rw [h, ← emb5_4]
  exact View.emb_mem_set _ _

theorem arr5_4 (c : Dev nD) (r : Fin 50000) (q : Fin 128) :
    ((dat5 (F := Ideal) V c).arrAt 4 cfg5.N) (ix2 r q)
      = Spec.preK (Spec.colOf (V c main_v11 : S50000x1.Idx → EReal)) (Spec.cur2 (V c main_v55 : S50000x128.Idx → EReal))
          (Spec.cur2 (V c main_v45_0 : S50000x128.Idx → EReal)) (Spec.rowOf (V c main_v14 : S1x128.Idx → EReal)) r q := by
  rw [(dat5 (F := Ideal) V c).arrAt_eq_of_cover 4 (G5_4 V c) (fun t _ => flushed5_4_eq V c t) cover5_4]
  rfl

section
variable (c : Dev nD) (q : Fin 128)

theorem sum5_at (t : Fin cfg5.N) (s : Vec Ideal S1x128 .f32) :
    sum5 (iblk5 V c 0 t) (iblk5 V c 1 t) (iblk5 V c 2 t) (iblk5 V c 3 t) s (ix2 (0 : Fin 1) q)
      = s (ix2 (0 : Fin 1) q) + ∑ p : Fin 5000, pre5 V c (rowAt5 t p) q := by
  show k5_pay7 _ _ _ _ s (ix2 (0 : Fin 1) q) = _
  unfold k5_pay7
  simp only [shapeCast_self]
  rw [addf_apply, shapeCast_a_1a_apply (a := 128)]
  exact congrArg (s (ix2 (0 : Fin 1) q) + ·) ((colsum _ _ _ _ _ q).trans (Finset.sum_congr rfl fun p _ => blk5_at V c t p q))

theorem sqs5_at (t : Fin cfg5.N) (s : Vec Ideal S1x128 .f32) :
    sqs5 (iblk5 V c 0 t) (iblk5 V c 1 t) (iblk5 V c 2 t) (iblk5 V c 3 t) s (ix2 (0 : Fin 1) q)
      = s (ix2 (0 : Fin 1) q) + ∑ p : Fin 5000, pre5 V c (rowAt5 t p) q * pre5 V c (rowAt5 t p) q := by
  show k5_pay1 (k5_pay8 _ _ _ _ s) (ix2 (0 : Fin 1) q) = _
  unfold k5_pay1 k5_pay8
  simp only [shapeCast_self]
  rw [addf_apply, shapeCast_a_1a_apply (a := 128)]
  exact congrArg (s (ix2 (0 : Fin 1) q) + ·) ((colsum _ _ _ _ _ q).trans (Finset.sum_congr rfl fun p _ =>
    (mulf_apply _ _ _).trans (congrArg₂ (· * ·) (blk5_at V c t p q) (blk5_at V c t p q))))

-- after point n the two running rows hold the layer's value, and its square, summed over the blocks up to n
theorem scr5_fst (n : ℕ) (hn : n < cfg5.N) :
    (scr5 V c n hn).1 (ix2 (0 : Fin 1) q) = ∑ t : Fin (n + 1), ∑ p : Fin 5000, pre5 V c (rowAt5 (Fin.castLE hn t) p) q :=
  sum_of_steps (fun t => ∑ p : Fin 5000, pre5 V c (rowAt5 t p) q) (fun n hn => (scr5 V c n hn).1 (ix2 (0 : Fin 1) q))
    (fun hn => (sum5_at V c q ⟨0, hn⟩ _).trans (congrArg (· + _) (zero5 _).1)) (fun n hn => sum5_at V c q ⟨n + 1, hn⟩ _) n hn

theorem scr5_snd (n : ℕ) (hn : n < cfg5.N) :
    (scr5 V c n hn).2 (ix2 (0 : Fin 1) q)
      = ∑ t : Fin (n + 1), ∑ p : Fin 5000, pre5 V c (rowAt5 (Fin.castLE hn t) p) q * pre5 V c (rowAt5 (Fin.castLE hn t) p) q :=
  sum_of_steps (fun t => ∑ p : Fin 5000, pre5 V c (rowAt5 t p) q * pre5 V c (rowAt5 t p) q) (fun n hn => (scr5 V c n hn).2 (ix2 (0 : Fin 1) q))
    (fun hn => (sqs5_at V c q ⟨0, hn⟩ _).trans (congrArg (· + _) (zero5 _).2)) (fun n hn => sqs5_at V c q ⟨n + 1, hn⟩ _) n hn

def G5_5 : S1x128.Idx → EReal := fun i => Spec.meanK (T := 10) (B := 5000) hTB5 cnt5 (pre5 V c) (i 1)
def G5_6 : S1x128.Idx → EReal := fun i => Spec.varK (T := 10) (B := 5000) hTB5 cnt5 (pre5 V c) (i 1)

theorem mean5_last (t : Fin cfg5.N) (h9 : t.val = 9) (j : S1x128.Idx) :
    mean5 (scr5 V c t.val t.isLt).1 j = Spec.meanK (T := 10) (B := 5000) hTB5 cnt5 (pre5 V c) (j 1) := by
  obtain ⟨u, q, rfl⟩ : ∃ (u : Fin 1) (q : Fin 128), j = ix2 u q := ⟨j 0, j 1, eq_ix2 j⟩
  obtain rfl : u = 0 := Subsingleton.elim _ _
  obtain ⟨n, hn⟩ := t
  obtain rfl : n = 9 := h9
  rw [mean5_apply, scr5_fst]
  rfl

theorem var5_last (t : Fin cfg5.N) (h9 : t.val = 9) (j : S1x128.Idx) :
    var5 (scr5 V c t.val t.isLt).1 (scr5 V c t.val t.isLt).2 j = Spec.varK (T := 10) (B := 5000) hTB5 cnt5 (pre5 V c) (j 1) := by
  rw [var5_apply, mean5_last V c t h9]
  obtain ⟨u, q, rfl⟩ : ∃ (u : Fin 1) (q : Fin 128), j = ix2 u q := ⟨j 0, j 1, eq_ix2 j⟩
  obtain rfl : u = 0 := Subsingleton.elim _ _
  obtain ⟨n, hn⟩ := t
  obtain rfl : n = 9 := h9
  rw [scr5_snd]
  rfl

end

theorem last5 (t : Fin cfg5.N) (hf : (cfg5.win 5).flush t = true ∨ (cfg5.win 6).flush t = true) : t.val = 9 := by
  have h := hf.elim (flush5_5 t).mp (flush5_6 t).mp
  have ht : t.val < grid5.N := t.isLt
  rw [N_5] at ht
  omega

theorem flushed5_5_eq (c : Dev nD) (t : Fin cfg5.N) (hf : (cfg5.win 5).flush t = true) :
    (dat5 (F := Ideal) V c).flushed 5 t = ((cfg5.win 5).blk t).view.read (Elt Ideal) (G5_5 V c) := by
  show (cfg5.win 5).cut (grid5.coords t) ((dat5 (F := Ideal) V c).after 5 t) = _
  rw [after5_5]
  funext j
  show mean5 (scr5 V c t.val t.isLt).1 j = G5_5 V c (((cfg5.win 5).blk t).view.emb j)
  rw [mean5_last V c t (last5 t (.inl hf)), emb5_5]
  rfl

theorem flushed5_6_eq (c : Dev nD) (t : Fin cfg5.N) (hf : (cfg5.win 6).flush t = true) :
    (dat5 (F := Ideal) V c).flushed 6 t = ((cfg5.win 6).blk t).view.read (Elt Ideal) (G5_6 V c) := by
  show (cfg5.win 6).cut (grid5.coords t) ((dat5 (F := Ideal) V c).after 6 t) = _
  rw [after5_6]
  funext j
  show var5 (scr5 V c t.val t.isLt).1 (scr5 V c t.val t.isLt).2 j = G5_6 V c (((cfg5.win 6).blk t).view.emb j)
  rw [var5_last V c t (last5 t (.inr hf)), emb5_6]
  rfl

theorem cover5_5 (i : S1x128.Idx) : ∃ t : Fin cfg5.N, (cfg5.win 5).flush t = true ∧ i ∈ ((cfg5.win 5).blk t).view.set :=
  ⟨t5_9, (flush5_5 t5_9).mpr rfl, by rw [← emb5_5 t5_9 i]; exact View.emb_mem_set _ _⟩
theorem cover5_6 (i : S1x128.Idx) : ∃ t : Fin cfg5.N, (cfg5.win 6).flush t = true ∧ i ∈ ((cfg5.win 6).blk t).view.set :=
  ⟨t5_9, (flush5_6 t5_9).mpr rfl, by rw [← emb5_6 t5_9 i]; exact View.emb_mem_set _ _⟩

theorem arr5_5 (c : Dev nD) (q : Fin 128) :
    ((dat5 (F := Ideal) V c).arrAt 5 cfg5.N) (ix2 (0 : Fin 1) q)
      = Spec.meanK (T := 10) (B := 5000) (by decide : 10 * 5000 = 50000) (Ideal.ofBits .f32 0x47435000#32)
          (Spec.preK (Spec.colOf (V c main_v11 : S50000x1.Idx → EReal)) (Spec.cur2 (V c main_v55 : S50000x128.Idx → EReal))
            (Spec.cur2 (V c main_v45_0 : S50000x128.Idx → EReal)) (Spec.rowOf (V c main_v14 : S1x128.Idx → EReal))) q := by
  rw [(dat5 (F := Ideal) V c).arrAt_eq_of_cover 5 (G5_5 V c) (flushed5_5_eq V c) cover5_5]
  rfl

theorem arr5_6 (c : Dev nD) (q : Fin 128) :
    ((dat5 (F := Ideal) V c).arrAt 6 cfg5.N) (ix2 (0 : Fin 1) q)
      = Spec.varK (T := 10) (B := 5000) (by decide : 10 * 5000 = 50000) (Ideal.ofBits .f32 0x47435000#32)
          (Spec.preK (Spec.colOf (V c main_v11 : S50000x1.Idx → EReal)) (Spec.cur2 (V c main_v55 : S50000x128.Idx → EReal))
            (Spec.cur2 (V c main_v45_0 : S50000x128.Idx → EReal)) (Spec.rowOf (V c main_v14 : S1x128.Idx → EReal))) q := by
  rw [(dat5 (F := Ideal) V c).arrAt_eq_of_cover 6 (G5_6 V c) (flushed5_6_eq V c) cover5_6]
  rfl

end Cert.KernelIdeal.Val

end
-- ==== Proof.KI.Val6.lean ====
import proofs.«412806_j54228257079467_3_alg».proof.Proof.KI.R6
import proofs.«412806_j54228257079467_3_alg».proof.Proof.Spec
import proofs.«412806_j54228257079467_3_alg».proof.Proof.Cur
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Frm Idealize.ShloMosaic.ValueIdx
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin6 : (![0, 0] : Fin 2 → Nat) = fun _ => 0 := funext fun a => by fin_cases a <;> rfl

theorem spread_row6 (y : S1x128.Idx → EReal) (h : S1x128.Broadcasts S5000x128) (p : Fin 5000) (q : Fin 128) :
    broadcastTo S5000x128 y h (ix2 p q) = y (ix2 (0 : Fin 1) q) :=
  broadcastTo_apply y h (ix2 p q) (ix2 (0 : Fin 1) q) fun ax => by
    match ax with
    | ⟨0, _⟩ =>
      show 0 = if (1 : Nat) = 1 then 0 else p.val
      rw [if_pos rfl]
    | ⟨1, _⟩ =>
      show q.val = if (128 : Nat) = 1 then 0 else q.val
      rw [if_neg (by decide)]

theorem rsqrt_row6 (x : FVec Ideal S1x128 .f32) (i : S1x128.Idx) : rsqrt x i = Ideal.rsqrt (x i) := rfl

theorem pay6_apply (xvar : Vec Ideal S1x128 .f32) (xv : Vec Ideal S5000x128 .f32) (xmean xgam xbet : Vec Ideal S1x128 .f32)
    (p : Fin 5000) (q : Fin 128) :
    k6_pay1 xvar xv xmean xgam xbet (ix2 p q)
      = (xv (ix2 p q) - xmean (ix2 (0 : Fin 1) q)) * Ideal.rsqrt (xvar (ix2 (0 : Fin 1) q) + Ideal.ofBits .f32 0x3727C5AC#32)
          * xgam (ix2 (0 : Fin 1) q) + xbet (ix2 (0 : Fin 1) q) := by
  unfold k6_pay1
  simp only [shapeCast_self]
  rw [addf_apply, mulf_apply, mulf_apply, subf_apply, spread_row6, spread_row6, spread_row6, spread_row6, rsqrt_row6, addf_apply,
    broadcast_apply]
  rfl

theorem idx_facts6 : ∀ t : Fin cfg6.N,
    win6_0.index t (0 : Fin 2) = t.val ∧ win6_0.index t (1 : Fin 2) = 0
    ∧ win6_5.index t (0 : Fin 2) = t.val ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

def rowAt6 (t : Fin cfg6.N) (p : Fin 5000) : Fin 50000 :=
  ⟨t.val * 5000 + p.val, by have ht : t.val < grid6.N := t.isLt; rw [N_6] at ht; have := p.isLt; omega⟩

def G6 (Vv : S50000x128.Idx → EReal) (Mean Var Gam Bet : S1x128.Idx → EReal) : S50000x128.Idx → EReal :=
  fun i => Spec.bn (Ideal.ofBits .f32 0x3727C5AC#32) (Spec.cur2 Vv) (Spec.rowOf Mean) (Spec.rowOf Var) (Spec.rowOf Gam) (Spec.rowOf Bet) (i 0) (i 1)

-- entry y of a block at window index i on an axis of block size s sits at i * s + y
theorem at_block6 {i s y b : ℕ} (h : i = b) : i * s + 1 * y = b * s + y := by subst h; omega
theorem at_origin6 {i s y : ℕ} (h : i = 0) : i * s + 1 * y = y := by subst h; omega

theorem emb6_0 (t : Fin cfg6.N) (p : Fin 5000) (q : Fin 128) :
    (((cfg6.win 0).blk t).view.emb (ix2 p q) : S50000x128.Idx) = ix2 (rowAt6 t p) q :=
  Shape.idx_ext₂ (at_block6 (idx_facts6 t).1) (at_origin6 (idx_facts6 t).2.1)

theorem emb6_5 (t : Fin cfg6.N) (p : Fin 5000) (q : Fin 128) :
    (((cfg6.win 5).blk t).view.emb (ix2 p q) : S50000x128.Idx) = ix2 (rowAt6 t p) q :=
  Shape.idx_ext₂ (at_block6 (idx_facts6 t).2.2.1) (at_origin6 (idx_facts6 t).2.2.2.1)

theorem emb6_1 (t : Fin cfg6.N) (q : Fin 128) : (((cfg6.win 1).blk t).view.emb (ix2 (0 : Fin 1) q) : S1x128.Idx) = ix2 (0 : Fin 1) q :=
  Shape.idx_ext₂ (at_origin6 (idx_facts6 t).2.2.2.2.1) (at_origin6 (idx_facts6 t).2.2.2.2.2.1)
theorem emb6_2 (t : Fin cfg6.N) (q : Fin 128) : (((cfg6.win 2).blk t).view.emb (ix2 (0 : Fin 1) q) : S1x128.Idx) = ix2 (0 : Fin 1) q :=
  Shape.idx_ext₂ (at_origin6 (idx_facts6 t).2.2.2.2.2.2.1) (at_origin6 (idx_facts6 t).2.2.2.2.2.2.2.1)
theorem emb6_3 (t : Fin cfg6.N) (q : Fin 128) : (((cfg6.win 3).blk t).view.emb (ix2 (0 : Fin 1) q) : S1x128.Idx) = ix2 (0 : Fin 1) q :=
  Shape.idx_ext₂ (at_origin6 (idx_facts6 t).2.2.2.2.2.2.2.2.1) (at_origin6 (idx_facts6 t).2.2.2.2.2.2.2.2.2.1)
theorem emb6_4 (t : Fin cfg6.N) (q : Fin 128) : (((cfg6.win 4).blk t).view.emb (ix2 (0 : Fin 1) q) : S1x128.Idx) = ix2 (0 : Fin 1) q :=
  Shape.idx_ext₂ (at_origin6 (idx_facts6 t).2.2.2.2.2.2.2.2.2.2.1) (at_origin6 (idx_facts6 t).2.2.2.2.2.2.2.2.2.2.2)

theorem flushed6_5_eq (c : Dev nD) (t : Fin cfg6.N) :
    (dat6 (F := Ideal) V c).flushed 5 t = ((cfg6.win 5).blk t).view.read (Elt Ideal)
      (G6 (V c main_v56_0) (V c main_v56_1) (V c main_v56_2) (V c main_v19) (V c main_v20)) := by
  show (cfg6.win 5).cut (grid6.coords t) ((dat6 (F := Ideal) V c).after 5 t) = _
  rw [after6_5]
  unfold out6_5
  rw [View.canon_unit_zero origin6]
  simp only [View.ld_unit_zero (S := S5000x128) origin6, View.ld_unit_zero (S := S1x128) origin6]
  funext j
  obtain ⟨p, q, rfl⟩ : ∃ (p : Fin 5000) (q : Fin 128), j = ix2 p q := ⟨j 0, j 1, eq_ix2 j⟩
  show k6_pay1 (iblk6 V c 2 t) (iblk6 V c 0 t) (iblk6 V c 1 t) (iblk6 V c 3 t) (iblk6 V c 4 t) (ix2 p q)
    = G6 (V c main_v56_0) (V c main_v56_1) (V c main_v56_2) (V c main_v19) (V c main_v20) (((cfg6.win 5).blk t).view.emb (ix2 p q))
  rw [pay6_apply, emb6_5]
  show ((show S50000x128.Idx → EReal from V c main_v56_0) (((cfg6.win 0).blk t).view.emb (ix2 p q))
        - (show S1x128.Idx → EReal from V c main_v56_1) (((cfg6.win 1).blk t).view.emb (ix2 (0 : Fin 1) q)))
      * Ideal.rsqrt ((show S1x128.Idx → EReal from V c main_v56_2) (((cfg6.win 2).blk t).view.emb (ix2 (0 : Fin 1) q)) + Ideal.ofBits .f32 0x3727C5AC#32)
      * (show S1x128.Idx → EReal from V c main_v19) (((cfg6.win 3).blk t).view.emb (ix2 (0 : Fin 1) q))
      + (show S1x128.Idx → EReal from V c main_v20) (((cfg6.win 4).blk t).view.emb (ix2 (0 : Fin 1) q))
    = _
  rw [emb6_0, emb6_1, emb6_2, emb6_3, emb6_4]
  rfl

theorem cover6 (i : S50000x128.Idx) : ∃ t : Fin cfg6.N, (cfg6.win 5).flush t = true ∧ i ∈ ((cfg6.win 5).blk t).view.set := by
  have hr : (i 0).val < 50000 := (i 0).isLt
  obtain ⟨t, p, q, rfl⟩ : ∃ (t : Fin cfg6.N) (p : Fin 5000) (q : Fin 128), i = ix2 (rowAt6 t p) q :=
    ⟨⟨(i 0).val / 5000, by show _ < grid6.N; rw [N_6]; omega⟩, ⟨(i 0).val % 5000, Nat.mod_lt _ (by decide)⟩, ⟨(i 1).val, (i 1).isLt⟩,
      Shape.idx_ext₂ (by show (i 0).val = (i 0).val / 5000 * 5000 + (i 0).val % 5000; omega) rfl⟩
  exact ⟨t, flush6_5 t, emb6_5 t p q ▸ View.emb_mem_set _ _⟩

theorem arr6_5 (c : Dev nD) (r : Fin 50000) (q : Fin 128) :
    ((dat6 (F := Ideal) V c).arrAt 5 cfg6.N) (ix2 r q)
      = Spec.bn (Ideal.ofBits .f32 0x3727C5AC#32) (Spec.cur2 (V c main_v56_0 : S50000x128.Idx → EReal))
          (Spec.rowOf (V c main_v56_1 : S1x128.Idx → EReal)) (Spec.rowOf (V c main_v56_2 : S1x128.Idx → EReal))
          (Spec.rowOf (V c main_v19 : S1x128.Idx → EReal)) (Spec.rowOf (V c main_v20 : S1x128.Idx → EReal)) r q := by
  rw [(dat6 (F := Ideal) V c).arrAt_eq_of_cover 5 _ (fun t _ => flushed6_5_eq V c t) cover6]
  rfl

end Cert.KernelIdeal.Val
-- ==== Proof.KI.KComp.lean ====
import proofs.«412806_j54228257079467_3_alg».proof.Proof.KI.Chain
import proofs.«412806_j54228257079467_3_alg».proof.Proof.KI.Host
import proofs.«412806_j54228257079467_3_alg».proof.Proof.KI.Val0
import proofs.«412806_j54228257079467_3_alg».proof.Proof.KI.Val1
import proofs.«412806_j54228257079467_3_alg».proof.Proof.KI.Val2
import proofs.«412806_j54228257079467_3_alg».proof.Proof.KI.Val3
import proofs.«412806_j54228257079467_3_alg».proof.Proof.KI.Val4
import proofs.«412806_j54228257079467_3_alg».proof.Proof.KI.Val5
import proofs.«412806_j54228257079467_3_alg».proof.Proof.KI.Val6
import proofs.«412806_j54228257079467_3_alg».proof.Proof.Net

set_option maxRecDepth 16384

noncomputable section

namespace Cert.KernelIdeal.Val

open Cert.KernelIdeal Cert.KernelIdeal.Gen Cert.KernelIdeal.Frm Idealize.ShloMosaic.ValueIdx
open Idealize.ShloMosaic Idealize.ShloMosaic.TcCoe Idealize.SL.Sem
open Idealize.ShloMosaic.Pipeline (Dat)

variable (m : (ℓ : Loc nD τ sig) → Buf (Elt Ideal) ℓ) (c : Dev nD)

abbrev laterW : List (Ref sig .tc) :=
  [main_v21_0, main_v21_1] ++ (hostOps1_W ++ ([main_v32_0, main_v32_1, main_v32_2] ++ ([main_v33_0, main_v33_1] ++
    (hostOps3_W ++ ([main_v44_0, main_v44_1, main_v44_2] ++ ([main_v45_0, main_v45_1] ++ (hostOps5_W ++
      ([main_v56_0, main_v56_1, main_v56_2] ++ [main_v57]))))))))

theorem keepK (r : Ref sig .tc) (h : r ∉ laterW) : T3 m c r = V1 m c r ∧ T4 m c r = V1 m c r ∧ T6 m c r = V1 m c r
    ∧ T7 m c r = V1 m c r ∧ T9 m c r = V1 m c r ∧ T10 m c r = V1 m c r := by
  simp only [laterW, List.mem_append, not_or] at h
  obtain ⟨h2, h3, h4, h5, h6, h7, h8, h9, h10, -⟩ := h
  have k3 := (V3_of m (outsK m) c r h3).trans (V2_of m (outsK m) c r h2)
  have k4 := (V4_of m (outsK m) c r h4).trans k3
  have k6 := (V6_of m (outsK m) c r h6).trans ((V5_of m (outsK m) c r h5).trans k4)
  have k7 := (V7_of m (outsK m) c r h7).trans k6
  have k9 := (V9_of m (outsK m) c r h9).trans ((V8_of m (outsK m) c r h8).trans k7)
  exact ⟨k3, k4, k6, k7, k9, (V10_of m (outsK m) c r h10).trans k9⟩

theorem launch1 (r : Ref sig .tc) (h : r ∉ hostOps0_W) : V1 m c r = m ((c : Thread nD τ).loc r) := V1_of m c r h

abbrev cntK : EReal := Ideal.ofBits .f32 0x47435000#32
abbrev epsK : EReal := Ideal.ofBits .f32 0x3727C5AC#32
theorem hTBK : 10 * 5000 = 50000 := by decide

abbrev xK : Fin 50000 → Fin 64 → EReal := Spec.cur2 (m ((c : Thread nD τ).loc main_arg0) : S50000x64.Idx → EReal)
abbrev w1K : Fin 64 → Fin 128 → EReal := Spec.cur2 (m ((c : Thread nD τ).loc main_arg5) : S64x128.Idx → EReal)
abbrev b1K : Fin 128 → EReal := Spec.cur1 (m ((c : Thread nD τ).loc main_arg6) : S128.Idx → EReal)
abbrev g1K : Fin 128 → EReal := Spec.cur1 (m ((c : Thread nD τ).loc main_arg11) : S128.Idx → EReal)
abbrev be1K : Fin 128 → EReal := Spec.cur1 (m ((c : Thread nD τ).loc main_arg12) : S128.Idx → EReal)
abbrev w2K : Fin 128 → Fin 128 → EReal := Spec.cur2 (m ((c : Thread nD τ).loc main_arg7) : S128x128.Idx → EReal)
abbrev b2K : Fin 128 → EReal := Spec.cur1 (m ((c : Thread nD τ).loc main_arg8) : S128.Idx → EReal)
abbrev g2K : Fin 128 → EReal := Spec.cur1 (m ((c : Thread nD τ).loc main_arg13) : S128.Idx → EReal)
abbrev be2K : Fin 128 → EReal := Spec.cur1 (m ((c : Thread nD τ).loc main_arg14) : S128.Idx → EReal)
abbrev w3K : Fin 128 → Fin 128 → EReal := Spec.cur2 (m ((c : Thread nD τ).loc main_arg9) : S128x128.Idx → EReal)
abbrev b3K : Fin 128 → EReal := Spec.cur1 (m ((c : Thread nD τ).loc main_arg10) : S128.Idx → EReal)
abbrev g3K : Fin 128 → EReal := Spec.cur1 (m ((c : Thread nD τ).loc main_arg15) : S128.Idx → EReal)
abbrev be3K : Fin 128 → EReal := Spec.cur1 (m ((c : Thread nD τ).loc main_arg16) : S128.Idx → EReal)

variable {E : Nat} (dis : Fin 50000 → EReal) (P : Fin E → Fin 50000 → Prop) [∀ j i, Decidable (P j i)] (src : Fin E → Fin 50000)

structure HostFacts : Prop where
  dis_eq : ∀ r : Fin 50000, (V1 m c main_v10 : S50000.Idx → EReal) (ix1 r) = dis r
  agg1 : ∀ (i : Fin 50000) (q : Fin 128), (U3 m c main_v31 : S50000x128.Idx → EReal) (ix2 i q)
    = Spec.aggK P src (Spec.cur2 (U2 m c main_v21_1 : S50000x128.Idx → EReal)) i q
  agg3 : ∀ (i : Fin 50000) (q : Fin 128), (U6 m c main_v43 : S50000x128.Idx → EReal) (ix2 i q)
    = Spec.aggK P src (Spec.cur2 (U5 m c main_v33_1 : S50000x128.Idx → EReal)) i q
  agg5 : ∀ (i : Fin 50000) (q : Fin 128), (U9 m c main_v55 : S50000x128.Idx → EReal) (ix2 i q)
    = Spec.aggK P src (Spec.cur2 (U8 m c main_v45_1 : S50000x128.Idx → EReal)) i q

abbrev lay1K : Fin 50000 → Fin 128 → EReal := Spec.layerK dis P src (xK m c) (w1K m c) (b1K m c)
abbrev hid1K : Fin 50000 → Fin 128 → EReal := Spec.relu (Spec.normK hTBK cntK epsK (lay1K m c dis P src) (g1K m c) (be1K m c))
abbrev lay2K : Fin 50000 → Fin 128 → EReal := Spec.layerK dis P src (hid1K m c dis P src) (w2K m c) (b2K m c)
abbrev hid2K : Fin 50000 → Fin 128 → EReal := Spec.relu (Spec.normK hTBK cntK epsK (lay2K m c dis P src) (g2K m c) (be2K m c))
abbrev lay3K : Fin 50000 → Fin 128 → EReal := Spec.layerK dis P src (hid2K m c dis P src) (w3K m c) (b3K m c)

theorem col_dis (hf : HostFacts m c dis P src) (T : (b : Ref sig .tc) → Buf (Elt Ideal) ((c : Thread nD τ).loc b))
    (hT : T main_v11 = V1 m c main_v11) : Spec.colOf (T main_v11 : S50000x1.Idx → EReal) = dis := by
  funext r
  show (T main_v11 : S50000x1.Idx → EReal) (ix2 r (0 : Fin 1)) = dis r
  rw [hT, dis_col m c r, hf.dis_eq r]

theorem xw1_eq : Spec.cur2 (U2 m c main_v21_0 : S50000x128.Idx → EReal) = Spec.mm (xK m c) (w1K m c) := by
  funext r q
  show (U2 m c main_v21_0 : S50000x128.Idx → EReal) (ix2 r q) = _
  rw [show (U2 m c main_v21_0 : S50000x128.Idx → EReal) = (dat0 (F := Ideal) (T1 m) c).arrAt 3 cfg0.N from (hF0 m c 3).symm,
    arr0_3 (T1 m) c r q]
  rw [show (T1 m c main_arg0 : S50000x64.Idx → EReal) = m ((c : Thread nD τ).loc main_arg0) from launch1 m c main_arg0 (by decide),
    show (T1 m c main_arg5 : S64x128.Idx → EReal) = m ((c : Thread nD τ).loc main_arg5) from launch1 m c main_arg5 (by decide)]

theorem xws1_eq (hf : HostFacts m c dis P src) :
    Spec.cur2 (U2 m c main_v21_1 : S50000x128.Idx → EReal) = Spec.scaled (Spec.mm (xK m c) (w1K m c)) dis := by
  funext r q
  show (U2 m c main_v21_1 : S50000x128.Idx → EReal) (ix2 r q) = _
  rw [show (U2 m c main_v21_1 : S50000x128.Idx → EReal) = (dat0 (F := Ideal) (T1 m) c).arrAt 4 cfg0.N from (hF0 m c 4).symm,
    arr0_4 (T1 m) c r q]
  rw [show (T1 m c main_arg0 : S50000x64.Idx → EReal) = m ((c : Thread nD τ).loc main_arg0) from launch1 m c main_arg0 (by decide),
    show (T1 m c main_arg5 : S64x128.Idx → EReal) = m ((c : Thread nD τ).loc main_arg5) from launch1 m c main_arg5 (by decide),
    col_dis m c dis P src hf (T1 m c) rfl]

theorem agg1_eq (hf : HostFacts m c dis P src) :
    Spec.cur2 (T3 m c main_v31 : S50000x128.Idx → EReal) = Spec.aggK P src (Spec.scaled (Spec.mm (xK m c) (w1K m c)) dis) := by
  funext i q
  show (U3 m c main_v31 : S50000x128.Idx → EReal) (ix2 i q) = _
  rw [hf.agg1 i q, xws1_eq m c dis P src hf]

theorem pre1_eq (hf : HostFacts m c dis P src) :
    Spec.preK (Spec.colOf (T3 m c main_v11 : S50000x1.Idx → EReal)) (Spec.cur2 (T3 m c main_v31 : S50000x128.Idx → EReal))
      (Spec.cur2 (T3 m c main_v21_0 : S50000x128.Idx → EReal)) (Spec.rowOf (T3 m c main_v12 : S1x128.Idx → EReal)) = lay1K m c dis P src := by
  rw [col_dis m c dis P src hf (T3 m c) ((keepK m c main_v11 (by decide)).1), agg1_eq m c dis P src hf,
    show (T3 m c main_v21_0 : S50000x128.Idx → EReal) = U2 m c main_v21_0 from V3_of m (outsK m) c main_v21_0 (by decide), xw1_eq m c,
    (keepK m c main_v12 (by decide)).1, row_v12 m c]
  rfl

theorem lay1_eq (hf : HostFacts m c dis P src) : Spec.cur2 (T4 m c main_v32_0 : S50000x128.Idx → EReal) = lay1K m c dis P src := by
  rw [← pre1_eq m c dis P src hf]; exact funext₂ fun r q => (congrFun (hF1 m c 4).symm _).trans (arr1_4 (T3 m) c r q)
theorem mean1_eq (hf : HostFacts m c dis P src) :
    Spec.rowOf (T4 m c main_v32_1 : S1x128.Idx → EReal) = Spec.meanK hTBK cntK (lay1K m c dis P src) := by
  rw [← pre1_eq m c dis P src hf]; exact funext fun q => (congrFun (hF1 m c 5).symm _).trans (arr1_5 (T3 m) c q)
theorem var1_eq (hf : HostFacts m c dis P src) :
    Spec.rowOf (T4 m c main_v32_2 : S1x128.Idx → EReal) = Spec.varK hTBK cntK (lay1K m c dis P src) := by
  rw [← pre1_eq m c dis P src hf]; exact funext fun q => (congrFun (hF1 m c 6).symm _).trans (arr1_6 (T3 m) c q)

theorem hid1_eq (hf : HostFacts m c dis P src) :
    Spec.relu (Spec.bn epsK (Spec.cur2 (T4 m c main_v32_0 : S50000x128.Idx → EReal)) (Spec.rowOf (T4 m c main_v32_1 : S1x128.Idx → EReal))
      (Spec.rowOf (T4 m c main_v32_2 : S1x128.Idx → EReal)) (Spec.rowOf (T4 m c main_v15 : S1x128.Idx → EReal)) (Spec.rowOf (T4 m c main_v16 : S1x128.Idx → EReal)))
      = hid1K m c dis P src := by
  rw [lay1_eq m c dis P src hf, mean1_eq m c dis P src hf, var1_eq m c dis P src hf,
    (keepK m c main_v15 (by decide)).2.1, row_v15 m c, (keepK m c main_v16 (by decide)).2.1, row_v16 m c]
  rfl

theorem w2_in : (T4 m c main_arg7 : S128x128.Idx → EReal) = m ((c : Thread nD τ).loc main_arg7) :=
  ((keepK m c main_arg7 (by decide)).2.1).trans (launch1 m c main_arg7 (by decide))

theorem xw2_eq (hf : HostFacts m c dis P src) :
    Spec.cur2 (U5 m c main_v33_0 : S50000x128.Idx → EReal) = Spec.mm (hid1K m c dis P src) (w2K m c) := by
  funext r q
  show (U5 m c main_v33_0 : S50000x128.Idx → EReal) (ix2 r q) = _
  rw [show (U5 m c main_v33_0 : S50000x128.Idx → EReal) = (dat2 (F := Ideal) (T4 m) c).arrAt 7 cfg2.N from (hF2 m c 7).symm,
    arr2_7 (T4 m) c r q]
  rw [hid1_eq m c dis P src hf, w2_in m c]

theorem xws2_eq (hf : HostFacts m c dis P src) :
    Spec.cur2 (U5 m c main_v33_1 : S50000x128.Idx → EReal) = Spec.scaled (Spec.mm (hid1K m c dis P src) (w2K m c)) dis := by
  funext r q
  show (U5 m c main_v33_1 : S50000x128.Idx → EReal) (ix2 r q) = _
  rw [show (U5 m c main_v33_1 : S50000x128.Idx → EReal) = (dat2 (F := Ideal) (T4 m) c).arrAt 8 cfg2.N from (hF2 m c 8).symm,
    arr2_8 (T4 m) c r q]
  rw [hid1_eq m c dis P src hf, w2_in m c, col_dis m c dis P src hf (T4 m c) ((keepK m c main_v11 (by decide)).2.1)]

theorem agg3_eq (hf : HostFacts m c dis P src) :
    Spec.cur2 (T6 m c main_v43 : S50000x128.Idx → EReal) = Spec.aggK P src (Spec.scaled (Spec.mm (hid1K m c dis P src) (w2K m c)) dis) := by
  funext i q
  show (U6 m c main_v43 : S50000x128.Idx → EReal) (ix2 i q) = _
  rw [hf.agg3 i q, xws2_eq m c dis P src hf]

theorem pre3_eq (hf : HostFacts m c dis P src) :
    Spec.preK (Spec.colOf (T6 m c main_v11 : S50000x1.Idx → EReal)) (Spec.cur2 (T6 m c main_v43 : S50000x128.Idx → EReal))
      (Spec.cur2 (T6 m c main_v33_0 : S50000x128.Idx → EReal)) (Spec.rowOf (T6 m c main_v13 : S1x128.Idx → EReal)) = lay2K m c dis P src := by
  rw [col_dis m c dis P src hf (T6 m c) ((keepK m c main_v11 (by decide)).2.2.1), agg3_eq m c dis P src hf,
    show (T6 m c main_v33_0 : S50000x128.Idx → EReal) = U5 m c main_v33_0 from V6_of m (outsK m) c main_v33_0 (by decide), xw2_eq m c dis P src hf,
    (keepK m c main_v13 (by decide)).2.2.1, row_v13 m c]
  rfl

theorem lay2_eq (hf : HostFacts m c dis P src) : Spec.cur2 (T7 m c main_v44_0 : S50000x128.Idx → EReal) = lay2K m c dis P src := by
  rw [← pre3_eq m c dis P src hf]; exact funext₂ fun r q => (congrFun (hF3 m c 4).symm _).trans (arr3_4 (T6 m) c r q)
theorem mean2_eq (hf : HostFacts m c dis P src) :
    Spec.rowOf (T7 m c main_v44_1 : S1x128.Idx → EReal) = Spec.meanK hTBK cntK (lay2K m c dis P src) := by
  rw [← pre3_eq m c dis P src hf]; exact funext fun q => (congrFun (hF3 m c 5).symm _).trans (arr3_5 (T6 m) c q)
theorem var2_eq (hf : HostFacts m c dis P src) :
    Spec.rowOf (T7 m c main_v44_2 : S1x128.Idx → EReal) = Spec.varK hTBK cntK (lay2K m c dis P src) := by
  rw [← pre3_eq m c dis P src hf]; exact funext fun q => (congrFun (hF3 m c 6).symm _).trans (arr3_6 (T6 m) c q)

theorem hid2_eq (hf : HostFacts m c dis P src) :
    Spec.relu (Spec.bn epsK (Spec.cur2 (T7 m c main_v44_0 : S50000x128.Idx → EReal)) (Spec.rowOf (T7 m c main_v44_1 : S1x128.Idx → EReal))
      (Spec.rowOf (T7 m c main_v44_2 : S1x128.Idx → EReal)) (Spec.rowOf (T7 m c main_v17 : S1x128.Idx → EReal)) (Spec.rowOf (T7 m c main_v18 : S1x128.Idx → EReal)))
      = hid2K m c dis P src := by
  rw [lay2_eq m c dis P src hf, mean2_eq m c dis P src hf, var2_eq m c dis P src hf,
    (keepK m c main_v17 (by decide)).2.2.2.1, row_v17 m c, (keepK m c main_v18 (by decide)).2.2.2.1, row_v18 m c]
  rfl

theorem w3_in : (T7 m c main_arg9 : S128x128.Idx → EReal) = m ((c : Thread nD τ).loc main_arg9) :=
  ((keepK m c main_arg9 (by decide)).2.2.2.1).trans (launch1 m c main_arg9 (by decide))

theorem xw3_eq (hf : HostFacts m c dis P src) :
    Spec.cur2 (U8 m c main_v45_0 : S50000x128.Idx → EReal) = Spec.mm (hid2K m c dis P src) (w3K m c) := by
  funext r q
  show (U8 m c main_v45_0 : S50000x128.Idx → EReal) (ix2 r q) = _
  rw [show (U8 m c main_v45_0 : S50000x128.Idx → EReal) = (dat4 (F := Ideal) (T7 m) c).arrAt 7 cfg4.N from (hF4 m c 7).symm,
    arr4_7 (T7 m) c r q]
  rw [hid2_eq m c dis P src hf, w3_in m c]

theorem xws3_eq (hf : HostFacts m c dis P src) :
    Spec.cur2 (U8 m c main_v45_1 : S50000x128.Idx → EReal) = Spec.scaled (Spec.mm (hid2K m c dis P src) (w3K m c)) dis := by
  funext r q
  show (U8 m c main_v45_1 : S50000x128.Idx → EReal) (ix2 r q) = _
  rw [show (U8 m c main_v45_1 : S50000x128.Idx → EReal) = (dat4 (F := Ideal) (T7 m) c).arrAt 8 cfg4.N from (hF4 m c 8).symm,
    arr4_8 (T7 m) c r q]
  rw [hid2_eq m c dis P src hf, w3_in m c, col_dis m c dis P src hf (T7 m c) ((keepK m c main_v11 (by decide)).2.2.2.1)]

theorem agg5_eq (hf : HostFacts m c dis P src) :
    Spec.cur2 (T9 m c main_v55 : S50000x128.Idx → EReal) = Spec.aggK P src (Spec.scaled (Spec.mm (hid2K m c dis P src) (w3K m c)) dis) := by
  funext i q
  show (U9 m c main_v55 : S50000x128.Idx → EReal) (ix2 i q) = _
  rw [hf.agg5 i q, xws3_eq m c dis P src hf]

theorem pre5_eq (hf : HostFacts m c dis P src) :
    Spec.preK (Spec.colOf (T9 m c main_v11 : S50000x1.Idx → EReal)) (Spec.cur2 (T9 m c main_v55 : S50000x128.Idx → EReal))
      (Spec.cur2 (T9 m c main_v45_0 : S50000x128.Idx → EReal)) (Spec.rowOf (T9 m c main_v14 : S1x128.Idx → EReal)) = lay3K m c dis P src := by
  rw [col_dis m c dis P src hf (T9 m c) ((keepK m c main_v11 (by decide)).2.2.2.2.1), agg5_eq m c dis P src hf,
    show (T9 m c main_v45_0 : S50000x128.Idx → EReal) = U8 m c main_v45_0 from V9_of m (outsK m) c main_v45_0 (by decide), xw3_eq m c dis P src hf,
    (keepK m c main_v14 (by decide)).2.2.2.2.1, row_v14 m c]
  rfl

theorem lay3_eq (hf : HostFacts m c dis P src) : Spec.cur2 (T10 m c main_v56_0 : S50000x128.Idx → EReal) = lay3K m c dis P src := by
  rw [← pre5_eq m c dis P src hf]; exact funext₂ fun r q => (congrFun (hF5 m c 4).symm _).trans (arr5_4 (T9 m) c r q)
theorem mean3_eq (hf : HostFacts m c dis P src) :
    Spec.rowOf (T10 m c main_v56_1 : S1x128.Idx → EReal) = Spec.meanK hTBK cntK (lay3K m c dis P src) := by
  rw [← pre5_eq m c dis P src hf]; exact funext fun q => (congrFun (hF5 m c 5).symm _).trans (arr5_5 (T9 m) c q)
theorem var3_eq (hf : HostFacts m c dis P src) :
    Spec.rowOf (T10 m c main_v56_2 : S1x128.Idx → EReal) = Spec.varK hTBK cntK (lay3K m c dis P src) := by
  rw [← pre5_eq m c dis P src hf]; exact funext fun q => (congrFun (hF5 m c 6).symm _).trans (arr5_6 (T9 m) c q)

theorem h3_entry (hf : HostFacts m c dis P src) (r : Fin 50000) (q : Fin 128) :
    (U11 m c main_v57 : S50000x128.Idx → EReal) (ix2 r q)
      = Spec.gnnK hTBK cntK epsK dis P src (xK m c) (w1K m c) (b1K m c) (g1K m c) (be1K m c) (w2K m c) (b2K m c) (g2K m c) (be2K m c)
          (w3K m c) (b3K m c) (g3K m c) (be3K m c) r q := by
  rw [show (U11 m c main_v57 : S50000x128.Idx → EReal) = (dat6 (F := Ideal) (T10 m) c).arrAt 5 cfg6.N from (hF6 m c 5).symm,
    arr6_5 (T10 m) c r q]
  rw [lay3_eq m c dis P src hf, mean3_eq m c dis P src hf, var3_eq m c dis P src hf,
    (keepK m c main_v19 (by decide)).2.2.2.2.2, row_v19 m c, (keepK m c main_v20 (by decide)).2.2.2.2.2, row_v20 m c]
  rfl

end Cert.KernelIdeal.Val

end
-- ==== Proof.KI.HostEdges.lean ====
import proofs.«412806_j54228257079467_3_alg».proof.Proof.Gen.KernelIdeal.Regions
import proofs.«412806_j54228257079467_3_alg».proof.Proof.Edges
import proofs.«412806_j54228257079467_3_alg».proof.Proof.Net
import proofs.«412806_j54228257079467_3_alg».proof.Proof.Cur
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Val

open Cert.KernelIdeal Cert.KernelIdeal.Gen Idealize.ShloMosaic.ValueIdx
open Idealize.ShloMosaic Idealize.ShloMosaic.TcCoe Idealize.SL.Sem

variable (m : (ℓ : Loc nD τ sig) → Buf (Elt Ideal) ℓ) (outs : Gen.Outs (F := Ideal)) (c : Dev nD)

abbrev edgeIdx : S2x800000.Idx → BitVec 32 := m ((c.tc : Thread nD τ).loc main_arg3)

theorem one_f32 : Ideal.ofBits .f32 0x3F800000#32 = 1 := by
  simp [Ideal.ofBits, Ideal.ieee, -EReal.coe_mul]; norm_num

theorem row_flat_apply (x : S2x800000.Idx → BitVec 32) (u : Fin 2) (off : Fin 2 → Nat) (hoff : off = ![u.val, 0])
    (hs : S2x800000.Slices off S1x800000) (hc : S1x800000.ShapeCasts S800000) (j : Fin 800000) :
    shapeCast S800000 (extractStridedSlice S1x800000 off x hs) hc (ix1 j) = x (ix2 u j) := by
  subst hoff
  rw [shapeCast_apply _ hc (ix1 j) (ix2 (0 : Fin 1) j) (by
      rw [Shape.rowMajor_val_two, Shape.rowMajor_val_one]
      show 0 * 800000 + j.val = j.val
      omega)]
  exact extractStridedSlice_apply _ x hs (ix2 (0 : Fin 1) j) (ix2 u j) fun a => by
    match a with
    | ⟨0, _⟩ => show u.val = u.val + 0; omega
    | ⟨1, _⟩ => show j.val = 0 + j.val; omega

theorem srcWord_V1 (j : Fin 800000) : (V1 m c main_v1 : S800000.Idx → BitVec 32) (ix1 j) = edgeIdx m c (ix2 (0 : Fin 2) j) := by
  have e : (V1 m c main_v1 : S800000.Idx → BitVec 32)
      = shapeCast S800000 (extractStridedSlice S1x800000 ![0, 0] (edgeIdx m c) slices_S2x800000_S1x800000_0_0) shapeCasts_S1x800000_S800000 := by
    show StableHlo.after hostOps0 (V0 m c) (Proc.devRef .tc main_v1) = _
    after_results
    rfl
  rw [e]
  exact row_flat_apply (edgeIdx m c) 0 _ rfl _ _ j

theorem dstWord_V1 (j : Fin 800000) : (V1 m c main_v3 : S800000.Idx → BitVec 32) (ix1 j) = edgeIdx m c (ix2 (1 : Fin 2) j) := by
  have e : (V1 m c main_v3 : S800000.Idx → BitVec 32)
      = shapeCast S800000 (extractStridedSlice S1x800000 ![1, 0] (edgeIdx m c) slices_S2x800000_S1x800000_1_0) shapeCasts_S1x800000_S800000 := by
    show StableHlo.after hostOps0 (V0 m c) (Proc.devRef .tc main_v3) = _
    after_results
    rfl
  rw [e]
  exact row_flat_apply (edgeIdx m c) 1 _ rfl _ _ j

theorem srcVec_V2 : V2 m outs c main_v1 = V1 m c main_v1 := V2_of m outs c main_v1 (by decide)
theorem dstVec_V2 : V2 m outs c main_v3 = V1 m c main_v3 := V2_of m outs c main_v3 (by decide)
theorem srcVec_V5 : V5 m outs c main_v1 = V1 m c main_v1 :=
  (V5_of m outs c main_v1 (by decide)).trans ((V4_of m outs c main_v1 (by decide)).trans ((V3_of m outs c main_v1 (by decide)).trans (srcVec_V2 m outs c)))
theorem dstVec_V5 : V5 m outs c main_v3 = V1 m c main_v3 :=
  (V5_of m outs c main_v3 (by decide)).trans ((V4_of m outs c main_v3 (by decide)).trans ((V3_of m outs c main_v3 (by decide)).trans (dstVec_V2 m outs c)))
theorem srcVec_V8 : V8 m outs c main_v1 = V1 m c main_v1 :=
  (V8_of m outs c main_v1 (by decide)).trans ((V7_of m outs c main_v1 (by decide)).trans ((V6_of m outs c main_v1 (by decide)).trans (srcVec_V5 m outs c)))
theorem dstVec_V8 : V8 m outs c main_v3 = V1 m c main_v3 :=
  (V8_of m outs c main_v3 (by decide)).trans ((V7_of m outs c main_v3 (by decide)).trans ((V6_of m outs c main_v3 (by decide)).trans (dstVec_V5 m outs c)))

theorem col_of_vec_apply {α : Type} {M : Nat} (b : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h b (ix2 r u) = b (ix1 r) :=
  broadcastInDim_apply ![0] h b (ix2 r u) (ix1 r) fun ax => by
    match ax with
    | ⟨0, _⟩ =>
      show r.val = if M = 1 then 0 else r.val
      split
      · have := r.isLt; omega
      · rfl

theorem norm_word_apply (x : S800000.Idx → BitVec 32) (j : Fin 800000) :
    select (cmpi .slt x (broadcastInDim S800000 ![] bcast_S_S800000 (constantI S_ 32 0#32)))
        (addi x (broadcastInDim S800000 ![] bcast_S_S800000 (constantI S_ 32 50000#32))) x (ix1 j)
      = Cert.Edges.normWord (x (ix1 j)) := rfl

theorem splat_apply {s : Shape} (h : S_.BroadcastsInDim s ![]) (w : BitVec 32) (i : s.Idx) :
    broadcastInDim s ![] h (constant (F := Ideal) S_ .f32 w) i = Ideal.ofBits .f32 w := rfl

theorem host_rsqrt_apply {s : Shape} (x : FVec Ideal s .f32) (i : s.Idx) : Host.rsqrt x i = Ideal.rsqrt (x i) := rfl

theorem weight_of_count {P Q : Fin 800000 → Prop} [DecidablePred P] [DecidablePred Q] (f : Fin 800000 → Ideal .f32)
    (hPQ : ∀ j, P j ↔ Q j) (hf : ∀ j, f j = (1 : EReal)) :
    Ideal.rsqrt (((0 : Ideal .f32) + ∑ j ∈ Finset.univ.filter P, f j) + (1 : Ideal .f32))
      = Ideal.rsqrt (((0 : EReal) + ∑ _j ∈ Finset.univ.filter Q, (1 : EReal)) + (1 : EReal)) := by
  rw [show (∑ j ∈ Finset.univ.filter P, f j) = ∑ _j ∈ Finset.univ.filter Q, (1 : EReal) from
    Finset.sum_congr (Finset.filter_congr fun j _ => hPQ j) fun j _ => hf j] <;> rfl

set_option maxHeartbeats 1000000 in

theorem dis_term : (V1 m c main_v10 : S50000.Idx → EReal)
    = Host.rsqrt (addf
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 (V1 m c main_v3 : S800000.Idx → BitVec 32))
          (broadcastInDim S800000 ![] bcast_S_S800000 (constant (F := Ideal) S_ .f32 0x3F800000#32)))
        (broadcastInDim S50000 ![] bcast_S_S50000 (constant (F := Ideal) S_ .f32 0x3F800000#32))) := by
  show StableHlo.after hostOps0 (V0 m c) (Proc.devRef .tc main_v10) = _
  after_results_simp

theorem dis_entry (r : Fin 50000) :
    (V1 m c main_v10 : S50000.Idx → EReal) (ix1 r) = Spec.nodeWeight (Cert.Edges.landsOn (edgeIdx m c)) r := by
  unfold Spec.nodeWeight
  rw [dis_term, host_rsqrt_apply, addf_apply, splat_apply, one_f32, Cert.Rows.scatterAdd_vec_apply _ rfl rfl rfl rfl, splat_apply,
    Ideal.ofBits_zero_f32]
  refine weight_of_count _ (fun j => ?_) (fun j => (splat_apply _ _ _).trans one_f32)
  rw [col_of_vec_apply, dstWord_V1]

end Cert.KernelIdeal.Val
-- ==== Proof.KI.HostAgg1.lean ====
import proofs.«412806_j54228257079467_3_alg».proof.Proof.KI.HostEdges

set_option maxRecDepth 16384

noncomputable section

namespace Cert.KernelIdeal.Val

open Cert.KernelIdeal Cert.KernelIdeal.Gen Idealize.ShloMosaic.ValueIdx
open Idealize.ShloMosaic Idealize.ShloMosaic.TcCoe Idealize.SL.Sem

variable (m : (ℓ : Loc nD τ sig) → Buf (Elt Ideal) ℓ) (outs : Gen.Outs (F := Ideal)) (c : Dev nD)

set_option maxHeartbeats 1000000 in

theorem agg1_term : (V3 m outs c main_v31 : S50000x128.Idx → EReal)
    = Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (V2 m outs c main_v3 : S800000.Idx → BitVec 32))
        (Host.gather gather_S50000x128_S800000x1_S800000x128_1_0_n_n_0_1_1128 (V2 m outs c main_v21_1 : S50000x128.Idx → EReal)
          (broadcastInDim S800000x1 ![0] bcast_S800000_S800000x1_0
            (select
              (cmpi .slt (V2 m outs c main_v1 : S800000.Idx → BitVec 32) (broadcastInDim S800000 ![] bcast_S_S800000 (constantI S_ 32 0#32)))
              (addi (V2 m outs c main_v1 : S800000.Idx → BitVec 32) (broadcastInDim S800000 ![] bcast_S_S800000 (constantI S_ 32 50000#32)))
              (V2 m outs c main_v1 : S800000.Idx → BitVec 32)))) := by
  show StableHlo.after hostOps1 (V2 m outs c) (Proc.devRef .tc main_v31) = _
  after_results_simp

theorem agg1_entry (i : Fin 50000) (q : Fin 128) :
    (V3 m outs c main_v31 : S50000x128.Idx → EReal) (ix2 i q)
      = Spec.aggK (Cert.Edges.landsOn (edgeIdx m c)) (Cert.Edges.srcRow (edgeIdx m c))
          (Spec.cur2 (V2 m outs c main_v21_1 : S50000x128.Idx → EReal)) i q := by
  rw [agg1_term, Cert.Rows.scatterAdd_rows_apply _ rfl rfl rfl rfl]
  unfold Spec.aggK
  refine congrArg₂ (· + ·) ((splat_apply _ _ _).trans Ideal.ofBits_zero_f32) ?_
  refine Finset.sum_congr (Finset.filter_congr fun j _ => ?_) fun j _ => ?_
  · rw [col_of_vec_apply, dstVec_V2, dstWord_V1]
  · rw [Cert.Rows.gather_rows_apply _ rfl rfl rfl rfl rfl rfl _ _ j q (by decide), col_of_vec_apply, norm_word_apply,
      srcVec_V2, srcWord_V1]
    rfl

end Cert.KernelIdeal.Val
-- ==== Proof.KI.HostAgg3.lean ====
import proofs.«412806_j54228257079467_3_alg».proof.Proof.KI.HostEdges

set_option maxRecDepth 16384

noncomputable section

namespace Cert.KernelIdeal.Val

open Cert.KernelIdeal Cert.KernelIdeal.Gen Idealize.ShloMosaic.ValueIdx
open Idealize.ShloMosaic Idealize.ShloMosaic.TcCoe Idealize.SL.Sem

variable (m : (ℓ : Loc nD τ sig) → Buf (Elt Ideal) ℓ) (outs : Gen.Outs (F := Ideal)) (c : Dev nD)

set_option maxHeartbeats 1000000 in

theorem agg3_term : (V6 m outs c main_v43 : S50000x128.Idx → EReal)
    = Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (V5 m outs c main_v3 : S800000.Idx → BitVec 32))
        (Host.gather gather_S50000x128_S800000x1_S800000x128_1_0_n_n_0_1_1128 (V5 m outs c main_v33_1 : S50000x128.Idx → EReal)
          (broadcastInDim S800000x1 ![0] bcast_S800000_S800000x1_0
            (select
              (cmpi .slt (V5 m outs c main_v1 : S800000.Idx → BitVec 32) (broadcastInDim S800000 ![] bcast_S_S800000 (constantI S_ 32 0#32)))
              (addi (V5 m outs c main_v1 : S800000.Idx → BitVec 32) (broadcastInDim S800000 ![] bcast_S_S800000 (constantI S_ 32 50000#32)))
              (V5 m outs c main_v1 : S800000.Idx → BitVec 32)))) := by
  show StableHlo.after hostOps3 (V5 m outs c) (Proc.devRef .tc main_v43) = _
  after_results_simp

theorem agg3_entry (i : Fin 50000) (q : Fin 128) :
    (V6 m outs c main_v43 : S50000x128.Idx → EReal) (ix2 i q)
      = Spec.aggK (Cert.Edges.landsOn (edgeIdx m c)) (Cert.Edges.srcRow (edgeIdx m c))
          (Spec.cur2 (V5 m outs c main_v33_1 : S50000x128.Idx → EReal)) i q := by
  rw [agg3_term, Cert.Rows.scatterAdd_rows_apply _ rfl rfl rfl rfl]
  unfold Spec.aggK
  refine congrArg₂ (· + ·) ((splat_apply _ _ _).trans Ideal.ofBits_zero_f32) ?_
  refine Finset.sum_congr (Finset.filter_congr fun j _ => ?_) fun j _ => ?_
  · rw [col_of_vec_apply, dstVec_V5, dstWord_V1]
  · rw [Cert.Rows.gather_rows_apply _ rfl rfl rfl rfl rfl rfl _ _ j q (by decide), col_of_vec_apply, norm_word_apply,
      srcVec_V5, srcWord_V1]
    rfl

end Cert.KernelIdeal.Val
-- ==== Proof.KI.HostAgg5.lean ====
import proofs.«412806_j54228257079467_3_alg».proof.Proof.KI.HostEdges

set_option maxRecDepth 16384

noncomputable section

namespace Cert.KernelIdeal.Val

open Cert.KernelIdeal Cert.KernelIdeal.Gen Idealize.ShloMosaic.ValueIdx
open Idealize.ShloMosaic Idealize.ShloMosaic.TcCoe Idealize.SL.Sem

variable (m : (ℓ : Loc nD τ sig) → Buf (Elt Ideal) ℓ) (outs : Gen.Outs (F := Ideal)) (c : Dev nD)

set_option maxHeartbeats 1000000 in

theorem agg5_term : (V9 m outs c main_v55 : S50000x128.Idx → EReal)
    = Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (V8 m outs c main_v3 : S800000.Idx → BitVec 32))
        (Host.gather gather_S50000x128_S800000x1_S800000x128_1_0_n_n_0_1_1128 (V8 m outs c main_v45_1 : S50000x128.Idx → EReal)
          (broadcastInDim S800000x1 ![0] bcast_S800000_S800000x1_0
            (select
              (cmpi .slt (V8 m outs c main_v1 : S800000.Idx → BitVec 32) (broadcastInDim S800000 ![] bcast_S_S800000 (constantI S_ 32 0#32)))
              (addi (V8 m outs c main_v1 : S800000.Idx → BitVec 32) (broadcastInDim S800000 ![] bcast_S_S800000 (constantI S_ 32 50000#32)))
              (V8 m outs c main_v1 : S800000.Idx → BitVec 32)))) := by
  show StableHlo.after hostOps5 (V8 m outs c) (Proc.devRef .tc main_v55) = _
  after_results_simp

theorem agg5_entry (i : Fin 50000) (q : Fin 128) :
    (V9 m outs c main_v55 : S50000x128.Idx → EReal) (ix2 i q)
      = Spec.aggK (Cert.Edges.landsOn (edgeIdx m c)) (Cert.Edges.srcRow (edgeIdx m c))
          (Spec.cur2 (V8 m outs c main_v45_1 : S50000x128.Idx → EReal)) i q := by
  rw [agg5_term, Cert.Rows.scatterAdd_rows_apply _ rfl rfl rfl rfl]
  unfold Spec.aggK
  refine congrArg₂ (· + ·) ((splat_apply _ _ _).trans Ideal.ofBits_zero_f32) ?_
  refine Finset.sum_congr (Finset.filter_congr fun j _ => ?_) fun j _ => ?_
  · rw [col_of_vec_apply, dstVec_V8, dstWord_V1]
  · rw [Cert.Rows.gather_rows_apply _ rfl rfl rfl rfl rfl rfl _ _ j q (by decide), col_of_vec_apply, norm_word_apply,
      srcVec_V8, srcWord_V1]
    rfl

end Cert.KernelIdeal.Val
-- ==== Proof.KI.KCompE.lean ====
import proofs.«412806_j54228257079467_3_alg».proof.Proof.KI.KComp
import proofs.«412806_j54228257079467_3_alg».proof.Proof.KI.HostEdges
import proofs.«412806_j54228257079467_3_alg».proof.Proof.KI.HostAgg1
import proofs.«412806_j54228257079467_3_alg».proof.Proof.KI.HostAgg3
import proofs.«412806_j54228257079467_3_alg».proof.Proof.KI.HostAgg5

set_option maxRecDepth 16384

noncomputable section

namespace Cert.KernelIdeal.Val

open Cert.KernelIdeal Cert.KernelIdeal.Gen Cert.KernelIdeal.Frm Idealize.ShloMosaic.ValueIdx
open Idealize.ShloMosaic Idealize.ShloMosaic.TcCoe Idealize.SL.Sem

variable (m : (ℓ : Loc nD τ sig) → Buf (Elt Ideal) ℓ) (c : Dev nD)

theorem hostFactsK : HostFacts m c (Spec.nodeWeight (Cert.Edges.landsOn (edgeIdx m c))) (Cert.Edges.landsOn (edgeIdx m c))
    (Cert.Edges.srcRow (edgeIdx m c)) where
  dis_eq := dis_entry m c
  agg1 := agg1_entry m (outsK m) c
  agg3 := agg3_entry m (outsK m) c
  agg5 := agg5_entry m (outsK m) c

theorem h3_entry_edges (r : Fin 50000) (q : Fin 128) :
    (U11 m c main_v57 : S50000x128.Idx → EReal) (ix2 r q)
      = Spec.gnnK hTBK cntK epsK (Spec.nodeWeight (Cert.Edges.landsOn (edgeIdx m c))) (Cert.Edges.landsOn (edgeIdx m c))
          (Cert.Edges.srcRow (edgeIdx m c)) (xK m c) (w1K m c) (b1K m c) (g1K m c) (be1K m c) (w2K m c) (b2K m c) (g2K m c) (be2K m c)
          (w3K m c) (b3K m c) (g3K m c) (be3K m c) r q :=
  h3_entry m c _ _ _ (hostFactsK m c) r q

end Cert.KernelIdeal.Val

end
-- ==== Proof.RefL0.lean ====
import proofs.«412806_j54228257079467_3_alg».proof.Proof.RefRead
import proofs.«412806_j54228257079467_3_alg».proof.Proof.Spec
import proofs.«412806_j54228257079467_3_alg».proof.Proof.Cur
import proofs.«412806_j54228257079467_3_alg».proof.Proof.Net
import proofs.«412806_j54228257079467_3_alg».proof.Proof.LibPlainAny
import proofs.«412806_j54228257079467_3_alg».proof.Proof.Rows
import proofs.«412806_j54228257079467_3_alg».proof.Proof.Edges
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.StageP

open Cert.ReferenceIdeal Cert.ReferenceIdeal.Gen
open Idealize.ShloMosaic Idealize.ShloMosaic.ValueIdx

macro "coords2" : tactic =>
  `(tactic| (funext a; apply Fin.ext; match a with | ⟨0, _⟩ => rfl | ⟨1, _⟩ => rfl))

macro "coords1" : tactic =>
  `(tactic| (funext a; apply Fin.ext; match a with | ⟨0, _⟩ => rfl))

theorem one_word : Ideal.ofBits .f32 0x3F800000#32 = 1 := by
  simp [Ideal.ofBits, Ideal.ieee, -EReal.coe_mul]; norm_num

def sqDev (a m : EReal) : EReal := (a - m) * (a - m)

theorem varR_eq_sqDev {n c : Nat} (N : EReal) (v : Fin n → Fin c → EReal) (q : Fin c) :
    Spec.varR N v q = Ideal.div (0 + ∑ r : Fin n, sqDev (v r q) (Spec.meanR N v q)) N := rfl

theorem aggR_eq {n c e : Nat} (P : Fin e → Fin n → Prop) [∀ j i, Decidable (P j i)] (src dst : Fin e → Fin n)
    (xw : Fin n → Fin c → EReal) (dis : Fin n → EReal) (i : Fin n) (q : Fin c) :
    Spec.aggR P src dst xw dis i q
      = 0 + ∑ j ∈ Finset.univ.filter (fun j => P j i), xw (src j) q * (dis (src j) * dis (dst j)) := rfl

theorem preR_eq {n c : Nat} (dis : Fin n → EReal) (agg xw : Fin n → Fin c → EReal) (b : Fin c → EReal) (r : Fin n) (q : Fin c) :
    Spec.preR dis agg xw b r q = agg r q + xw r q * (dis r * dis r) + b q := rfl

theorem nodeWeight_eq {n e : Nat} (P : Fin e → Fin n → Prop) [∀ j i, Decidable (P j i)] (i : Fin n) :
    Spec.nodeWeight P i = Ideal.rsqrt ((0 + ∑ _j ∈ Finset.univ.filter (fun j : Fin e => P j i), (1 : EReal)) + 1) := rfl

theorem rowRead_fold (h : 0 < 50000) (x : BitVec 32) : Rows.rowOfWord 50000 h (Edges.normWord x) = Edges.rowRead x := rfl

variable (x0 : S50000x64.Idx → EReal) (x3 : S2x800000.Idx → BitVec 32) (x5 : S64x128.Idx → EReal)

theorem srcWord (j : Fin 800000) : ReadP.val_main_v1 (F := Ideal) x3 (ix1 j) = x3 (ix2 (0 : Fin 2) j) := by
  rw [ReadP.val_main_v1_apply, ReadP.val_main_v0_apply]
  congr 1
  funext a; apply Fin.ext
  match a with
  | ⟨0, _⟩ => rfl
  | ⟨1, _⟩ => exact Nat.mod_eq_of_lt j.isLt

theorem dstWord (j : Fin 800000) : ReadP.val_main_v3 (F := Ideal) x3 (ix1 j) = x3 (ix2 (1 : Fin 2) j) := by
  rw [ReadP.val_main_v3_apply, ReadP.val_main_v2_apply]
  congr 1
  funext a; apply Fin.ext
  match a with
  | ⟨0, _⟩ => rfl
  | ⟨1, _⟩ => exact Nat.mod_eq_of_lt j.isLt

theorem degreeIdx (j : Fin 800000) : ReadP.val_main_v6 (F := Ideal) x3 (ix2 j (0 : Fin 1)) = x3 (ix2 (1 : Fin 2) j) := by
  rw [ReadP.val_main_v6_apply, show ReadP.idx_main_v6 (ix2 j (0 : Fin 1)) = ix1 j from by coords1, dstWord]

theorem degree (r : Fin 50000) :
    ReadP.val_main_v7 (F := Ideal) x3 (ix1 r)
      = 0 + ∑ _j ∈ Finset.univ.filter (fun j : Fin 800000 => Edges.landsOn x3 j r), (1 : EReal) := by
  unfold ReadP.val_main_v7
  rw [Rows.scatterAdd_vec_apply _ rfl rfl rfl rfl]
  rw [ReadP.val_main_v5_apply, ReadP.val_main_cst_0_apply]
  simp only [degreeIdx, ReadP.val_main_v4_apply, ReadP.val_main_cst_apply, Ideal.ofBits_def, Ideal.ofBits_zero_f32, one_word]

theorem ref_dis (r : Fin 50000) :
    ReadP.val_main_v10 (F := Ideal) x3 (ix1 r) = Spec.nodeWeight (Edges.landsOn x3) r := by
  rw [nodeWeight_eq, ReadP.val_main_v10_apply, ReadP.val_main_v9_apply, degree, ReadP.val_main_v8_apply, ReadP.val_main_cst_1_apply]
  simp only [Ideal.hostUnary_rsqrt_def, Ideal.addf_def, Ideal.ofBits_def, one_word]

theorem ref_xw1 (r : Fin 50000) (q : Fin 128) :
    ReadP.val_main_v11 (F := Ideal) x0 x5 (ix2 r q) = Spec.mm (Spec.cur2 x0) (Spec.cur2 x5) r q := by
  rw [ReadP.val_main_v11_apply]
  show _ = ∑ k : Fin 64, Spec.cur2 x0 r k * Spec.cur2 x5 k q
  refine Finset.sum_congr rfl fun k _ => ?_
  have hl : ReadP.lidx_main_v11 (ix2 r q) k = ix2 r k := by coords2
  have hr : ReadP.ridx_main_v11 (ix2 r q) k = ix2 k q := by coords2
  rw [hl, hr]; rfl

end Cert.ReferenceIdeal.StageP

end
-- ==== Proof.RefL1.lean ====
import proofs.«412806_j54228257079467_3_alg».proof.Proof.RefL0

noncomputable section

namespace Cert.ReferenceIdeal.StageP

open Cert.ReferenceIdeal Cert.ReferenceIdeal.Gen
open Idealize.ShloMosaic Idealize.ShloMosaic.ValueIdx

variable (x0 : S50000x64.Idx → EReal) (x3 : S2x800000.Idx → BitVec 32) (x5 : S64x128.Idx → EReal) (x6 : S128.Idx → EReal)
  (x7 : S128x128.Idx → EReal) (x8 : S128.Idx → EReal) (x9 : S128x128.Idx → EReal) (x10 x11 x12 x13 x14 x15 x16 : S128.Idx → EReal)
local notation "stXw" => ReadP.val_main_v11 (F := Ideal) x0 x5
local notation "stRowG" => ReadP.val_main_v33 (F := Ideal) x0 x3 x5
local notation "stMsg" => ReadP.val_main_v36 (F := Ideal) x0 x3 x5
local notation "stAgg" => ReadP.val_main_v39 (F := Ideal) x0 x3 x5
local notation "stSelf" => ReadP.val_main_v43 (F := Ideal) x0 x3 x5
local notation "stBias" => ReadP.val_main_v46 (F := Ideal) x6
local notation "stPre" => ReadP.val_main_v47 (F := Ideal) x0 x3 x5 x6
local notation "stMean" => ReadP.val_main_v50 (F := Ideal) x0 x3 x5 x6
local notation "stDev2" => ReadP.val_main_v54 (F := Ideal) x0 x3 x5 x6
local notation "stVar" => ReadP.val_main_v57 (F := Ideal) x0 x3 x5 x6
local notation "stBn" => ReadP.val_main_v72 (F := Ideal) x0 x3 x5 x6 x11 x12
local notation "stAct" => ReadP.val_main_v73 (F := Ideal) x0 x3 x5 x6 x11 x12
local notation "stNext" => ReadP.val_main_v74 (F := Ideal) x0 x3 x5 x6 x7 x11 x12
local notation "aIn" => x0
local notation "aW" => x5
local notation "aBias" => x6
local notation "aGamma" => x11
local notation "aBeta" => x12
local notation "aNextW" => x7
local notation "disHere" => Spec.nodeWeight (Edges.landsOn x3)

def xwOf_L1 : Fin 50000 → Fin 128 → EReal := Spec.cur2 (stXw : S50000x128.Idx → EReal)
local notation "xwHere" => xwOf_L1 x0 x5

theorem idxSrcDis_L1 (j : Fin 800000) : ReadP.val_main_v17 (F := Ideal) x3 (ix2 j (0 : Fin 1)) = Edges.normWord (x3 (ix2 (0 : Fin 2) j)) := by
  rw [ReadP.val_main_v17_apply, show ReadP.idx_main_v17 (ix2 j (0 : Fin 1)) = ix1 j from by coords1, ReadP.val_main_v16_apply,
    ReadP.val_main_v13_apply, ReadP.val_main_v15_apply, ReadP.val_main_v12_apply, ReadP.val_main_v14_apply,
    ReadP.val_main_c_apply, ReadP.val_main_c_2_apply, srcWord]
  rfl
theorem idxDstDis_L1 (j : Fin 800000) : ReadP.val_main_v24 (F := Ideal) x3 (ix2 j (0 : Fin 1)) = Edges.normWord (x3 (ix2 (1 : Fin 2) j)) := by
  rw [ReadP.val_main_v24_apply, show ReadP.idx_main_v24 (ix2 j (0 : Fin 1)) = ix1 j from by coords1, ReadP.val_main_v23_apply,
    ReadP.val_main_v20_apply, ReadP.val_main_v22_apply, ReadP.val_main_v19_apply, ReadP.val_main_v21_apply,
    ReadP.val_main_c_3_apply, ReadP.val_main_c_4_apply, dstWord]
  rfl
theorem idxSrcRows_L1 (j : Fin 800000) : ReadP.val_main_v32 (F := Ideal) x3 (ix2 j (0 : Fin 1)) = Edges.normWord (x3 (ix2 (0 : Fin 2) j)) := by
  rw [ReadP.val_main_v32_apply, show ReadP.idx_main_v32 (ix2 j (0 : Fin 1)) = ix1 j from by coords1, ReadP.val_main_v31_apply,
    ReadP.val_main_v28_apply, ReadP.val_main_v30_apply, ReadP.val_main_v27_apply, ReadP.val_main_v29_apply,
    ReadP.val_main_c_5_apply, ReadP.val_main_c_6_apply, srcWord]
  rfl
theorem idxScatter_L1 (j : Fin 800000) : ReadP.val_main_v38 (F := Ideal) x3 (ix2 j (0 : Fin 1)) = x3 (ix2 (1 : Fin 2) j) := by
  rw [ReadP.val_main_v38_apply, show ReadP.idx_main_v38 (ix2 j (0 : Fin 1)) = ix1 j from by coords1, dstWord]

theorem gatherSrcDis_L1 (j : Fin 800000) :
    ReadP.val_main_v18 (F := Ideal) x3 (ix1 j) = disHere (Edges.srcRow x3 j) := by
  unfold ReadP.val_main_v18
  rw [Rows.gather_vec_apply _ rfl rfl rfl rfl _ _ j (by decide), idxSrcDis_L1, rowRead_fold, ref_dis]

theorem gatherDstDis_L1 (j : Fin 800000) :
    ReadP.val_main_v25 (F := Ideal) x3 (ix1 j) = disHere (Edges.dstRow x3 j) := by
  unfold ReadP.val_main_v25
  rw [Rows.gather_vec_apply _ rfl rfl rfl rfl _ _ j (by decide), idxDstDis_L1, rowRead_fold, ref_dis]

theorem gatherSrcRow_L1 (j : Fin 800000) (q : Fin 128) :
    stRowG (ix2 j q) = xwHere (Edges.srcRow x3 j) q := by
  unfold ReadP.val_main_v33
  rw [Rows.gather_rows_apply _ rfl rfl rfl rfl rfl rfl _ _ j q (by decide), idxSrcRows_L1, rowRead_fold]
  rfl

theorem message_L1 (j : Fin 800000) (q : Fin 128) :
    stMsg (ix2 j q) = xwHere (Edges.srcRow x3 j) q * (disHere (Edges.srcRow x3 j) * disHere (Edges.dstRow x3 j)) := by
  have hcol : ReadP.idx_main_v34 (ReadP.idx_main_v35 (ix2 j q)) = ix1 j := by coords1
  rw [ReadP.val_main_v36_apply, gatherSrcRow_L1, ReadP.val_main_v35_apply, ReadP.val_main_v34_apply, hcol,
    ReadP.val_main_v26_apply, gatherSrcDis_L1, gatherDstDis_L1]
  rfl

theorem aggregate_L1 (r : Fin 50000) (q : Fin 128) :
    stAgg (ix2 r q) = Spec.aggR (Edges.landsOn x3) (Edges.srcRow x3) (Edges.dstRow x3) xwHere disHere r q := by
  unfold ReadP.val_main_v39
  rw [Rows.scatterAdd_rows_apply _ rfl rfl rfl rfl, aggR_eq, ReadP.val_main_v37_apply, ReadP.val_main_cst_7_apply]
  simp only [idxScatter_L1, message_L1, Ideal.ofBits_def, Ideal.ofBits_zero_f32]

theorem selfTerm_L1 (r : Fin 50000) (q : Fin 128) :
    stSelf (ix2 r q) = xwHere r q * (disHere r * disHere r) := by
  have h : ReadP.idx_main_v41 (ReadP.idx_main_v42 (ix2 r q)) = ix1 r := by coords1
  rw [ReadP.val_main_v43_apply, ReadP.val_main_v42_apply, ReadP.val_main_v41_apply, h, ReadP.val_main_v40_apply, ref_dis]
  rfl

theorem biasTerm_L1 (r : Fin 50000) (q : Fin 128) : stBias (ix2 r q) = Spec.cur1 aBias q := by
  have h : ReadP.idx_main_v45 (ReadP.idx_main_v46 (ix2 r q)) = ix1 q := by coords1
  rw [ReadP.val_main_v46_apply, ReadP.val_main_v45_apply, h]
  rfl

theorem ref_pre1 (r : Fin 50000) (q : Fin 128) :
    stPre (ix2 r q) = Spec.preR disHere (Spec.aggR (Edges.landsOn x3) (Edges.srcRow x3) (Edges.dstRow x3) xwHere disHere) xwHere
      (Spec.cur1 aBias) r q := by
  rw [ReadP.val_main_v47_apply, ReadP.val_main_v44_apply, aggregate_L1, selfTerm_L1, biasTerm_L1, preR_eq]
  simp only [Ideal.addf_def]

theorem ref_layer1 (r : Fin 50000) (q : Fin 128) :
    stPre (ix2 r q) = Spec.layerR disHere (Edges.landsOn x3) (Edges.srcRow x3) (Edges.dstRow x3)
      (Spec.cur2 (aIn)) (Spec.cur2 aW) (Spec.cur1 aBias) r q := by
  have hxw : xwHere = Spec.mm (Spec.cur2 (aIn)) (Spec.cur2 aW) := by
    funext r q
    show stXw (ix2 r q) = _
    rw [ref_xw1]
  rw [ref_pre1, hxw]
  rfl

theorem ref_mean1 (q : Fin 128) :
    stMean (ix1 q) = Spec.meanR (Ideal.ofBits .f32 0x47435000#32) (Spec.cur2 (stPre : S50000x128.Idx → EReal)) q := by
  rw [ReadP.val_main_v50_apply, ReadP.val_main_v48_apply, ReadP.val_main_v49_apply, ReadP.val_main_cst_8_apply, ReadP.val_main_cst_9_apply]
  simp only [Ideal.hostDivf_def, Ideal.ofBits_def, Ideal.ofBits_zero_f32]
  have hk : ∀ k : Fin 50000, ReadP.idx_main_v48 (ix1 q) k = ix2 k q := fun k => by coords2
  simp only [hk]
  rfl

theorem ref_sqdev1 (k : Fin 50000) (q : Fin 128) :
    stDev2 (ix2 k q)
      = sqDev (Spec.cur2 (stPre : S50000x128.Idx → EReal) k q)
          (Spec.meanR (Ideal.ofBits .f32 0x47435000#32) (Spec.cur2 (stPre : S50000x128.Idx → EReal)) q) := by
  have hm : ReadP.idx_main_v51 (ReadP.idx_main_v52 (ix2 k q)) = ix1 q := by coords1
  rw [ReadP.val_main_v54_apply, ReadP.val_main_v53_apply, ReadP.val_main_v52_apply, ReadP.val_main_v51_apply, hm, ref_mean1]
  rfl

theorem ref_var1 (q : Fin 128) :
    stVar (ix1 q) = Spec.varR (Ideal.ofBits .f32 0x47435000#32) (Spec.cur2 (stPre : S50000x128.Idx → EReal)) q := by
  rw [ReadP.val_main_v57_apply, ReadP.val_main_v55_apply, ReadP.val_main_v56_apply, ReadP.val_main_cst_10_apply, ReadP.val_main_cst_11_apply]
  simp only [Ideal.hostDivf_def, Ideal.ofBits_def, Ideal.ofBits_zero_f32]
  rw [varR_eq_sqDev]
  rw [Finset.sum_congr rfl fun k _ => by rw [show ReadP.idx_main_v55 (ix1 q) k = ix2 k q from by coords2, ref_sqdev1]]

theorem ref_bn1 (r : Fin 50000) (q : Fin 128) :
    stBn (ix2 r q) = Spec.bn (Ideal.ofBits .f32 0x3727C5AC#32) (Spec.cur2 (stPre : S50000x128.Idx → EReal))
      (Spec.cur1 (stMean : S128.Idx → EReal)) (Spec.cur1 (stVar : S128.Idx → EReal)) (Spec.cur1 aGamma) (Spec.cur1 aBeta) r q := by
  rw [ReadP.val_main_v72_apply, ReadP.val_main_v69_apply, ReadP.val_main_v66_apply, ReadP.val_main_v60_apply,
    ReadP.val_main_v59_apply, ReadP.val_main_v58_apply, ReadP.val_main_v65_apply, ReadP.val_main_v64_apply,
    ReadP.val_main_v63_apply, ReadP.val_main_v62_apply, ReadP.val_main_v61_apply, ReadP.val_main_cst_12_apply,
    ReadP.val_main_v68_apply, ReadP.val_main_v67_apply, ReadP.val_main_v71_apply, ReadP.val_main_v70_apply]
  have h58 : ReadP.idx_main_v58 (ReadP.idx_main_v59 (ix2 r q)) = ix1 q := by coords1
  have h64 : ReadP.idx_main_v64 (ReadP.idx_main_v65 (ix2 r q)) = ix1 q := by coords1
  have h67 : ReadP.idx_main_v67 (ReadP.idx_main_v68 (ix2 r q)) = ix1 q := by coords1
  have h70 : ReadP.idx_main_v70 (ReadP.idx_main_v71 (ix2 r q)) = ix1 q := by coords1
  rw [h58, h64, h67, h70]
  rfl

-- the cut-off at zero and the next layer's product (a layer that is followed by another)
theorem ref_h1 (r : Fin 50000) (q : Fin 128) :
    stAct (ix2 r q) = Spec.relu (Spec.bn (Ideal.ofBits .f32 0x3727C5AC#32) (Spec.cur2 (stPre : S50000x128.Idx → EReal))
      (Spec.cur1 (stMean : S128.Idx → EReal)) (Spec.cur1 (stVar : S128.Idx → EReal)) (Spec.cur1 aGamma) (Spec.cur1 aBeta)) r q := by
  rw [ReadP.val_main_v73_apply, ReadP.val_main_call0_v0_apply, ReadP.val_main_call0_cst_apply, ref_bn1]
  simp only [Ideal.maximumf_def, Ideal.ofBits_def, Ideal.ofBits_zero_f32]
  rfl

theorem ref_xw2 (r : Fin 50000) (q : Fin 128) :
    stNext (ix2 r q) = Spec.mm (Spec.cur2 (stAct : S50000x128.Idx → EReal)) (Spec.cur2 aNextW) r q := by
  rw [ReadP.val_main_v74_apply]
  unfold Spec.mm
  refine Finset.sum_congr rfl fun k _ => ?_
  have hl : ReadP.lidx_main_v74 (ix2 r q) k = ix2 r k := by coords2
  have hr : ReadP.ridx_main_v74 (ix2 r q) k = ix2 k q := by coords2
  rw [hl, hr]; rfl
-- end of the cut-off and the next product

end Cert.ReferenceIdeal.StageP

end
-- ==== Proof.RefL2.lean ====
import proofs.«412806_j54228257079467_3_alg».proof.Proof.RefL1

noncomputable section

namespace Cert.ReferenceIdeal.StageP

open Cert.ReferenceIdeal Cert.ReferenceIdeal.Gen
open Idealize.ShloMosaic Idealize.ShloMosaic.ValueIdx

variable (x0 : S50000x64.Idx → EReal) (x3 : S2x800000.Idx → BitVec 32) (x5 : S64x128.Idx → EReal) (x6 : S128.Idx → EReal)
  (x7 : S128x128.Idx → EReal) (x8 : S128.Idx → EReal) (x9 : S128x128.Idx → EReal) (x10 x11 x12 x13 x14 x15 x16 : S128.Idx → EReal)
local notation "stXw" => ReadP.val_main_v74 (F := Ideal) x0 x3 x5 x6 x7 x11 x12
local notation "stRowG" => ReadP.val_main_v96 (F := Ideal) x0 x3 x5 x6 x7 x11 x12
local notation "stMsg" => ReadP.val_main_v99 (F := Ideal) x0 x3 x5 x6 x7 x11 x12
local notation "stAgg" => ReadP.val_main_v102 (F := Ideal) x0 x3 x5 x6 x7 x11 x12
local notation "stSelf" => ReadP.val_main_v106 (F := Ideal) x0 x3 x5 x6 x7 x11 x12
local notation "stBias" => ReadP.val_main_v109 (F := Ideal) x8
local notation "stPre" => ReadP.val_main_v110 (F := Ideal) x0 x3 x5 x6 x7 x8 x11 x12
local notation "stMean" => ReadP.val_main_v113 (F := Ideal) x0 x3 x5 x6 x7 x8 x11 x12
local notation "stDev2" => ReadP.val_main_v117 (F := Ideal) x0 x3 x5 x6 x7 x8 x11 x12
local notation "stVar" => ReadP.val_main_v120 (F := Ideal) x0 x3 x5 x6 x7 x8 x11 x12
local notation "stBn" => ReadP.val_main_v135 (F := Ideal) x0 x3 x5 x6 x7 x8 x11 x12 x13 x14
local notation "stAct" => ReadP.val_main_v136 (F := Ideal) x0 x3 x5 x6 x7 x8 x11 x12 x13 x14
local notation "stNext" => ReadP.val_main_v137 (F := Ideal) x0 x3 x5 x6 x7 x8 x9 x11 x12 x13 x14
local notation "aIn" => (ReadP.val_main_v73 (F := Ideal) x0 x3 x5 x6 x11 x12 : S50000x128.Idx → EReal)
local notation "aW" => x7
local notation "aBias" => x8
local notation "aGamma" => x13
local notation "aBeta" => x14
local notation "aNextW" => x9
local notation "disHere" => Spec.nodeWeight (Edges.landsOn x3)

def xwOf_L2 : Fin 50000 → Fin 128 → EReal := Spec.cur2 (stXw : S50000x128.Idx → EReal)
local notation "xwHere" => xwOf_L2 x0 x3 x5 x6 x7 x11 x12

theorem idxSrcDis_L2 (j : Fin 800000) : ReadP.val_main_v80 (F := Ideal) x3 (ix2 j (0 : Fin 1)) = Edges.normWord (x3 (ix2 (0 : Fin 2) j)) := by
  rw [ReadP.val_main_v80_apply, show ReadP.idx_main_v80 (ix2 j (0 : Fin 1)) = ix1 j from by coords1, ReadP.val_main_v79_apply,
    ReadP.val_main_v76_apply, ReadP.val_main_v78_apply, ReadP.val_main_v75_apply, ReadP.val_main_v77_apply,
    ReadP.val_main_c_13_apply, ReadP.val_main_c_14_apply, srcWord]
  rfl
theorem idxDstDis_L2 (j : Fin 800000) : ReadP.val_main_v87 (F := Ideal) x3 (ix2 j (0 : Fin 1)) = Edges.normWord (x3 (ix2 (1 : Fin 2) j)) := by
  rw [ReadP.val_main_v87_apply, show ReadP.idx_main_v87 (ix2 j (0 : Fin 1)) = ix1 j from by coords1, ReadP.val_main_v86_apply,
    ReadP.val_main_v83_apply, ReadP.val_main_v85_apply, ReadP.val_main_v82_apply, ReadP.val_main_v84_apply,
    ReadP.val_main_c_15_apply, ReadP.val_main_c_16_apply, dstWord]
  rfl
theorem idxSrcRows_L2 (j : Fin 800000) : ReadP.val_main_v95 (F := Ideal) x3 (ix2 j (0 : Fin 1)) = Edges.normWord (x3 (ix2 (0 : Fin 2) j)) := by
  rw [ReadP.val_main_v95_apply, show ReadP.idx_main_v95 (ix2 j (0 : Fin 1)) = ix1 j from by coords1, ReadP.val_main_v94_apply,
    ReadP.val_main_v91_apply, ReadP.val_main_v93_apply, ReadP.val_main_v90_apply, ReadP.val_main_v92_apply,
    ReadP.val_main_c_17_apply, ReadP.val_main_c_18_apply, srcWord]
  rfl
theorem idxScatter_L2 (j : Fin 800000) : ReadP.val_main_v101 (F := Ideal) x3 (ix2 j (0 : Fin 1)) = x3 (ix2 (1 : Fin 2) j) := by
  rw [ReadP.val_main_v101_apply, show ReadP.idx_main_v101 (ix2 j (0 : Fin 1)) = ix1 j from by coords1, dstWord]

theorem gatherSrcDis_L2 (j : Fin 800000) :
    ReadP.val_main_v81 (F := Ideal) x3 (ix1 j) = disHere (Edges.srcRow x3 j) := by
  unfold ReadP.val_main_v81
  rw [Rows.gather_vec_apply _ rfl rfl rfl rfl _ _ j (by decide), idxSrcDis_L2, rowRead_fold, ref_dis]

theorem gatherDstDis_L2 (j : Fin 800000) :
    ReadP.val_main_v88 (F := Ideal) x3 (ix1 j) = disHere (Edges.dstRow x3 j) := by
  unfold ReadP.val_main_v88
  rw [Rows.gather_vec_apply _ rfl rfl rfl rfl _ _ j (by decide), idxDstDis_L2, rowRead_fold, ref_dis]

theorem gatherSrcRow_L2 (j : Fin 800000) (q : Fin 128) :
    stRowG (ix2 j q) = xwHere (Edges.srcRow x3 j) q := by
  unfold ReadP.val_main_v96
  rw [Rows.gather_rows_apply _ rfl rfl rfl rfl rfl rfl _ _ j q (by decide), idxSrcRows_L2, rowRead_fold]
  rfl

theorem message_L2 (j : Fin 800000) (q : Fin 128) :
    stMsg (ix2 j q) = xwHere (Edges.srcRow x3 j) q * (disHere (Edges.srcRow x3 j) * disHere (Edges.dstRow x3 j)) := by
  have hcol : ReadP.idx_main_v97 (ReadP.idx_main_v98 (ix2 j q)) = ix1 j := by coords1
  rw [ReadP.val_main_v99_apply, gatherSrcRow_L2, ReadP.val_main_v98_apply, ReadP.val_main_v97_apply, hcol,
    ReadP.val_main_v89_apply, gatherSrcDis_L2, gatherDstDis_L2]
  rfl

theorem aggregate_L2 (r : Fin 50000) (q : Fin 128) :
    stAgg (ix2 r q) = Spec.aggR (Edges.landsOn x3) (Edges.srcRow x3) (Edges.dstRow x3) xwHere disHere r q := by
  unfold ReadP.val_main_v102
  rw [Rows.scatterAdd_rows_apply _ rfl rfl rfl rfl, aggR_eq, ReadP.val_main_v100_apply, ReadP.val_main_cst_19_apply]
  simp only [idxScatter_L2, message_L2, Ideal.ofBits_def, Ideal.ofBits_zero_f32]

theorem selfTerm_L2 (r : Fin 50000) (q : Fin 128) :
    stSelf (ix2 r q) = xwHere r q * (disHere r * disHere r) := by
  have h : ReadP.idx_main_v104 (ReadP.idx_main_v105 (ix2 r q)) = ix1 r := by coords1
  rw [ReadP.val_main_v106_apply, ReadP.val_main_v105_apply, ReadP.val_main_v104_apply, h, ReadP.val_main_v103_apply, ref_dis]
  rfl

theorem biasTerm_L2 (r : Fin 50000) (q : Fin 128) : stBias (ix2 r q) = Spec.cur1 aBias q := by
  have h : ReadP.idx_main_v108 (ReadP.idx_main_v109 (ix2 r q)) = ix1 q := by coords1
  rw [ReadP.val_main_v109_apply, ReadP.val_main_v108_apply, h]
  rfl

theorem ref_pre2 (r : Fin 50000) (q : Fin 128) :
    stPre (ix2 r q) = Spec.preR disHere (Spec.aggR (Edges.landsOn x3) (Edges.srcRow x3) (Edges.dstRow x3) xwHere disHere) xwHere
      (Spec.cur1 aBias) r q := by
  rw [ReadP.val_main_v110_apply, ReadP.val_main_v107_apply, aggregate_L2, selfTerm_L2, biasTerm_L2, preR_eq]
  simp only [Ideal.addf_def]

theorem ref_layer2 (r : Fin 50000) (q : Fin 128) :
    stPre (ix2 r q) = Spec.layerR disHere (Edges.landsOn x3) (Edges.srcRow x3) (Edges.dstRow x3)
      (Spec.cur2 (aIn)) (Spec.cur2 aW) (Spec.cur1 aBias) r q := by
  have hxw : xwHere = Spec.mm (Spec.cur2 (aIn)) (Spec.cur2 aW) := by
    funext r q
    show stXw (ix2 r q) = _
    rw [ref_xw2]
  rw [ref_pre2, hxw]
  rfl

theorem ref_mean2 (q : Fin 128) :
    stMean (ix1 q) = Spec.meanR (Ideal.ofBits .f32 0x47435000#32) (Spec.cur2 (stPre : S50000x128.Idx → EReal)) q := by
  rw [ReadP.val_main_v113_apply, ReadP.val_main_v111_apply, ReadP.val_main_v112_apply, ReadP.val_main_cst_20_apply, ReadP.val_main_cst_21_apply]
  simp only [Ideal.hostDivf_def, Ideal.ofBits_def, Ideal.ofBits_zero_f32]
  have hk : ∀ k : Fin 50000, ReadP.idx_main_v111 (ix1 q) k = ix2 k q := fun k => by coords2
  simp only [hk]
  rfl

theorem ref_sqdev2 (k : Fin 50000) (q : Fin 128) :
    stDev2 (ix2 k q)
      = sqDev (Spec.cur2 (stPre : S50000x128.Idx → EReal) k q)
          (Spec.meanR (Ideal.ofBits .f32 0x47435000#32) (Spec.cur2 (stPre : S50000x128.Idx → EReal)) q) := by
  have hm : ReadP.idx_main_v114 (ReadP.idx_main_v115 (ix2 k q)) = ix1 q := by coords1
  rw [ReadP.val_main_v117_apply, ReadP.val_main_v116_apply, ReadP.val_main_v115_apply, ReadP.val_main_v114_apply, hm, ref_mean2]
  rfl

theorem ref_var2 (q : Fin 128) :
    stVar (ix1 q) = Spec.varR (Ideal.ofBits .f32 0x47435000#32) (Spec.cur2 (stPre : S50000x128.Idx → EReal)) q := by
  rw [ReadP.val_main_v120_apply, ReadP.val_main_v118_apply, ReadP.val_main_v119_apply, ReadP.val_main_cst_22_apply, ReadP.val_main_cst_23_apply]
  simp only [Ideal.hostDivf_def, Ideal.ofBits_def, Ideal.ofBits_zero_f32]
  rw [varR_eq_sqDev]
  rw [Finset.sum_congr rfl fun k _ => by rw [show ReadP.idx_main_v118 (ix1 q) k = ix2 k q from by coords2, ref_sqdev2]]

theorem ref_bn2 (r : Fin 50000) (q : Fin 128) :
    stBn (ix2 r q) = Spec.bn (Ideal.ofBits .f32 0x3727C5AC#32) (Spec.cur2 (stPre : S50000x128.Idx → EReal))
      (Spec.cur1 (stMean : S128.Idx → EReal)) (Spec.cur1 (stVar : S128.Idx → EReal)) (Spec.cur1 aGamma) (Spec.cur1 aBeta) r q := by
  rw [ReadP.val_main_v135_apply, ReadP.val_main_v132_apply, ReadP.val_main_v129_apply, ReadP.val_main_v123_apply,
    ReadP.val_main_v122_apply, ReadP.val_main_v121_apply, ReadP.val_main_v128_apply, ReadP.val_main_v127_apply,
    ReadP.val_main_v126_apply, ReadP.val_main_v125_apply, ReadP.val_main_v124_apply, ReadP.val_main_cst_24_apply,
    ReadP.val_main_v131_apply, ReadP.val_main_v130_apply, ReadP.val_main_v134_apply, ReadP.val_main_v133_apply]
  have h58 : ReadP.idx_main_v121 (ReadP.idx_main_v122 (ix2 r q)) = ix1 q := by coords1
  have h64 : ReadP.idx_main_v127 (ReadP.idx_main_v128 (ix2 r q)) = ix1 q := by coords1
  have h67 : ReadP.idx_main_v130 (ReadP.idx_main_v131 (ix2 r q)) = ix1 q := by coords1
  have h70 : ReadP.idx_main_v133 (ReadP.idx_main_v134 (ix2 r q)) = ix1 q := by coords1
  rw [h58, h64, h67, h70]
  rfl

-- the cut-off at zero and the next layer's product (a layer that is followed by another)
theorem ref_h2 (r : Fin 50000) (q : Fin 128) :
    stAct (ix2 r q) = Spec.relu (Spec.bn (Ideal.ofBits .f32 0x3727C5AC#32) (Spec.cur2 (stPre : S50000x128.Idx → EReal))
      (Spec.cur1 (stMean : S128.Idx → EReal)) (Spec.cur1 (stVar : S128.Idx → EReal)) (Spec.cur1 aGamma) (Spec.cur1 aBeta)) r q := by
  rw [ReadP.val_main_v136_apply, ReadP.val_main_call1_v0_apply, ReadP.val_main_call1_cst_apply, ref_bn2]
  simp only [Ideal.maximumf_def, Ideal.ofBits_def, Ideal.ofBits_zero_f32]
  rfl

theorem ref_xw3 (r : Fin 50000) (q : Fin 128) :
    stNext (ix2 r q) = Spec.mm (Spec.cur2 (stAct : S50000x128.Idx → EReal)) (Spec.cur2 aNextW) r q := by
  rw [ReadP.val_main_v137_apply]
  unfold Spec.mm
  refine Finset.sum_congr rfl fun k _ => ?_
  have hl : ReadP.lidx_main_v137 (ix2 r q) k = ix2 r k := by coords2
  have hr : ReadP.ridx_main_v137 (ix2 r q) k = ix2 k q := by coords2
  rw [hl, hr]; rfl
-- end of the cut-off and the next product

end Cert.ReferenceIdeal.StageP

end
-- ==== Proof.RefL3.lean ====
import proofs.«412806_j54228257079467_3_alg».proof.Proof.RefL2

noncomputable section

namespace Cert.ReferenceIdeal.StageP

open Cert.ReferenceIdeal Cert.ReferenceIdeal.Gen
open Idealize.ShloMosaic Idealize.ShloMosaic.ValueIdx

variable (x0 : S50000x64.Idx → EReal) (x3 : S2x800000.Idx → BitVec 32) (x5 : S64x128.Idx → EReal) (x6 : S128.Idx → EReal)
  (x7 : S128x128.Idx → EReal) (x8 : S128.Idx → EReal) (x9 : S128x128.Idx → EReal) (x10 x11 x12 x13 x14 x15 x16 : S128.Idx → EReal)
local notation "stXw" => ReadP.val_main_v137 (F := Ideal) x0 x3 x5 x6 x7 x8 x9 x11 x12 x13 x14
local notation "stRowG" => ReadP.val_main_v159 (F := Ideal) x0 x3 x5 x6 x7 x8 x9 x11 x12 x13 x14
local notation "stMsg" => ReadP.val_main_v162 (F := Ideal) x0 x3 x5 x6 x7 x8 x9 x11 x12 x13 x14
local notation "stAgg" => ReadP.val_main_v165 (F := Ideal) x0 x3 x5 x6 x7 x8 x9 x11 x12 x13 x14
local notation "stSelf" => ReadP.val_main_v169 (F := Ideal) x0 x3 x5 x6 x7 x8 x9 x11 x12 x13 x14
local notation "stBias" => ReadP.val_main_v172 (F := Ideal) x10
local notation "stPre" => ReadP.val_main_v173 (F := Ideal) x0 x3 x5 x6 x7 x8 x9 x10 x11 x12 x13 x14
local notation "stMean" => ReadP.val_main_v176 (F := Ideal) x0 x3 x5 x6 x7 x8 x9 x10 x11 x12 x13 x14
local notation "stDev2" => ReadP.val_main_v180 (F := Ideal) x0 x3 x5 x6 x7 x8 x9 x10 x11 x12 x13 x14
local notation "stVar" => ReadP.val_main_v183 (F := Ideal) x0 x3 x5 x6 x7 x8 x9 x10 x11 x12 x13 x14
local notation "stBn" => ReadP.val_main_v198 (F := Ideal) x0 x3 x5 x6 x7 x8 x9 x10 x11 x12 x13 x14 x15 x16
local notation "aIn" => (ReadP.val_main_v136 (F := Ideal) x0 x3 x5 x6 x7 x8 x11 x12 x13 x14 : S50000x128.Idx → EReal)
local notation "aW" => x9
local notation "aBias" => x10
local notation "aGamma" => x15
local notation "aBeta" => x16
local notation "disHere" => Spec.nodeWeight (Edges.landsOn x3)

def xwOf_L3 : Fin 50000 → Fin 128 → EReal := Spec.cur2 (stXw : S50000x128.Idx → EReal)
local notation "xwHere" => xwOf_L3 x0 x3 x5 x6 x7 x8 x9 x11 x12 x13 x14

theorem idxSrcDis_L3 (j : Fin 800000) : ReadP.val_main_v143 (F := Ideal) x3 (ix2 j (0 : Fin 1)) = Edges.normWord (x3 (ix2 (0 : Fin 2) j)) := by
  rw [ReadP.val_main_v143_apply, show ReadP.idx_main_v143 (ix2 j (0 : Fin 1)) = ix1 j from by coords1, ReadP.val_main_v142_apply,
    ReadP.val_main_v139_apply, ReadP.val_main_v141_apply, ReadP.val_main_v138_apply, ReadP.val_main_v140_apply,
    ReadP.val_main_c_25_apply, ReadP.val_main_c_26_apply, srcWord]
  rfl
theorem idxDstDis_L3 (j : Fin 800000) : ReadP.val_main_v150 (F := Ideal) x3 (ix2 j (0 : Fin 1)) = Edges.normWord (x3 (ix2 (1 : Fin 2) j)) := by
  rw [ReadP.val_main_v150_apply, show ReadP.idx_main_v150 (ix2 j (0 : Fin 1)) = ix1 j from by coords1, ReadP.val_main_v149_apply,
    ReadP.val_main_v146_apply, ReadP.val_main_v148_apply, ReadP.val_main_v145_apply, ReadP.val_main_v147_apply,
    ReadP.val_main_c_27_apply, ReadP.val_main_c_28_apply, dstWord]
  rfl
theorem idxSrcRows_L3 (j : Fin 800000) : ReadP.val_main_v158 (F := Ideal) x3 (ix2 j (0 : Fin 1)) = Edges.normWord (x3 (ix2 (0 : Fin 2) j)) := by
  rw [ReadP.val_main_v158_apply, show ReadP.idx_main_v158 (ix2 j (0 : Fin 1)) = ix1 j from by coords1, ReadP.val_main_v157_apply,
    ReadP.val_main_v154_apply, ReadP.val_main_v156_apply, ReadP.val_main_v153_apply, ReadP.val_main_v155_apply,
    ReadP.val_main_c_29_apply, ReadP.val_main_c_30_apply, srcWord]
  rfl
theorem idxScatter_L3 (j : Fin 800000) : ReadP.val_main_v164 (F := Ideal) x3 (ix2 j (0 : Fin 1)) = x3 (ix2 (1 : Fin 2) j) := by
  rw [ReadP.val_main_v164_apply, show ReadP.idx_main_v164 (ix2 j (0 : Fin 1)) = ix1 j from by coords1, dstWord]

theorem gatherSrcDis_L3 (j : Fin 800000) :
    ReadP.val_main_v144 (F := Ideal) x3 (ix1 j) = disHere (Edges.srcRow x3 j) := by
  unfold ReadP.val_main_v144
  rw [Rows.gather_vec_apply _ rfl rfl rfl rfl _ _ j (by decide), idxSrcDis_L3, rowRead_fold, ref_dis]

theorem gatherDstDis_L3 (j : Fin 800000) :
    ReadP.val_main_v151 (F := Ideal) x3 (ix1 j) = disHere (Edges.dstRow x3 j) := by
  unfold ReadP.val_main_v151
  rw [Rows.gather_vec_apply _ rfl rfl rfl rfl _ _ j (by decide), idxDstDis_L3, rowRead_fold, ref_dis]

theorem gatherSrcRow_L3 (j : Fin 800000) (q : Fin 128) :
    stRowG (ix2 j q) = xwHere (Edges.srcRow x3 j) q := by
  unfold ReadP.val_main_v159
  rw [Rows.gather_rows_apply _ rfl rfl rfl rfl rfl rfl _ _ j q (by decide), idxSrcRows_L3, rowRead_fold]
  rfl

theorem message_L3 (j : Fin 800000) (q : Fin 128) :
    stMsg (ix2 j q) = xwHere (Edges.srcRow x3 j) q * (disHere (Edges.srcRow x3 j) * disHere (Edges.dstRow x3 j)) := by
  have hcol : ReadP.idx_main_v160 (ReadP.idx_main_v161 (ix2 j q)) = ix1 j := by coords1
  rw [ReadP.val_main_v162_apply, gatherSrcRow_L3, ReadP.val_main_v161_apply, ReadP.val_main_v160_apply, hcol,
    ReadP.val_main_v152_apply, gatherSrcDis_L3, gatherDstDis_L3]
  rfl

theorem aggregate_L3 (r : Fin 50000) (q : Fin 128) :
    stAgg (ix2 r q) = Spec.aggR (Edges.landsOn x3) (Edges.srcRow x3) (Edges.dstRow x3) xwHere disHere r q := by
  unfold ReadP.val_main_v165
  rw [Rows.scatterAdd_rows_apply _ rfl rfl rfl rfl, aggR_eq, ReadP.val_main_v163_apply, ReadP.val_main_cst_31_apply]
  simp only [idxScatter_L3, message_L3, Ideal.ofBits_def, Ideal.ofBits_zero_f32]

theorem selfTerm_L3 (r : Fin 50000) (q : Fin 128) :
    stSelf (ix2 r q) = xwHere r q * (disHere r * disHere r) := by
  have h : ReadP.idx_main_v167 (ReadP.idx_main_v168 (ix2 r q)) = ix1 r := by coords1
  rw [ReadP.val_main_v169_apply, ReadP.val_main_v168_apply, ReadP.val_main_v167_apply, h, ReadP.val_main_v166_apply, ref_dis]
  rfl

theorem biasTerm_L3 (r : Fin 50000) (q : Fin 128) : stBias (ix2 r q) = Spec.cur1 aBias q := by
  have h : ReadP.idx_main_v171 (ReadP.idx_main_v172 (ix2 r q)) = ix1 q := by coords1
  rw [ReadP.val_main_v172_apply, ReadP.val_main_v171_apply, h]
  rfl

theorem ref_pre3 (r : Fin 50000) (q : Fin 128) :
    stPre (ix2 r q) = Spec.preR disHere (Spec.aggR (Edges.landsOn x3) (Edges.srcRow x3) (Edges.dstRow x3) xwHere disHere) xwHere
      (Spec.cur1 aBias) r q := by
  rw [ReadP.val_main_v173_apply, ReadP.val_main_v170_apply, aggregate_L3, selfTerm_L3, biasTerm_L3, preR_eq]
  simp only [Ideal.addf_def]

theorem ref_layer3 (r : Fin 50000) (q : Fin 128) :
    stPre (ix2 r q) = Spec.layerR disHere (Edges.landsOn x3) (Edges.srcRow x3) (Edges.dstRow x3)
      (Spec.cur2 (aIn)) (Spec.cur2 aW) (Spec.cur1 aBias) r q := by
  have hxw : xwHere = Spec.mm (Spec.cur2 (aIn)) (Spec.cur2 aW) := by
    funext r q
    show stXw (ix2 r q) = _
    rw [ref_xw3]
  rw [ref_pre3, hxw]
  rfl

theorem ref_mean3 (q : Fin 128) :
    stMean (ix1 q) = Spec.meanR (Ideal.ofBits .f32 0x47435000#32) (Spec.cur2 (stPre : S50000x128.Idx → EReal)) q := by
  rw [ReadP.val_main_v176_apply, ReadP.val_main_v174_apply, ReadP.val_main_v175_apply, ReadP.val_main_cst_32_apply, ReadP.val_main_cst_33_apply]
  simp only [Ideal.hostDivf_def, Ideal.ofBits_def, Ideal.ofBits_zero_f32]
  have hk : ∀ k : Fin 50000, ReadP.idx_main_v174 (ix1 q) k = ix2 k q := fun k => by coords2
  simp only [hk]
  rfl

theorem ref_sqdev3 (k : Fin 50000) (q : Fin 128) :
    stDev2 (ix2 k q)
      = sqDev (Spec.cur2 (stPre : S50000x128.Idx → EReal) k q)
          (Spec.meanR (Ideal.ofBits .f32 0x47435000#32) (Spec.cur2 (stPre : S50000x128.Idx → EReal)) q) := by
  have hm : ReadP.idx_main_v177 (ReadP.idx_main_v178 (ix2 k q)) = ix1 q := by coords1
  rw [ReadP.val_main_v180_apply, ReadP.val_main_v179_apply, ReadP.val_main_v178_apply, ReadP.val_main_v177_apply, hm, ref_mean3]
  rfl

theorem ref_var3 (q : Fin 128) :
    stVar (ix1 q) = Spec.varR (Ideal.ofBits .f32 0x47435000#32) (Spec.cur2 (stPre : S50000x128.Idx → EReal)) q := by
  rw [ReadP.val_main_v183_apply, ReadP.val_main_v181_apply, ReadP.val_main_v182_apply, ReadP.val_main_cst_34_apply, ReadP.val_main_cst_35_apply]
  simp only [Ideal.hostDivf_def, Ideal.ofBits_def, Ideal.ofBits_zero_f32]
  rw [varR_eq_sqDev]
  rw [Finset.sum_congr rfl fun k _ => by rw [show ReadP.idx_main_v181 (ix1 q) k = ix2 k q from by coords2, ref_sqdev3]]

theorem ref_bn3 (r : Fin 50000) (q : Fin 128) :
    stBn (ix2 r q) = Spec.bn (Ideal.ofBits .f32 0x3727C5AC#32) (Spec.cur2 (stPre : S50000x128.Idx → EReal))
      (Spec.cur1 (stMean : S128.Idx → EReal)) (Spec.cur1 (stVar : S128.Idx → EReal)) (Spec.cur1 aGamma) (Spec.cur1 aBeta) r q := by
  rw [ReadP.val_main_v198_apply, ReadP.val_main_v195_apply, ReadP.val_main_v192_apply, ReadP.val_main_v186_apply,
    ReadP.val_main_v185_apply, ReadP.val_main_v184_apply, ReadP.val_main_v191_apply, ReadP.val_main_v190_apply,
    ReadP.val_main_v189_apply, ReadP.val_main_v188_apply, ReadP.val_main_v187_apply, ReadP.val_main_cst_36_apply,
    ReadP.val_main_v194_apply, ReadP.val_main_v193_apply, ReadP.val_main_v197_apply, ReadP.val_main_v196_apply]
  have h58 : ReadP.idx_main_v184 (ReadP.idx_main_v185 (ix2 r q)) = ix1 q := by coords1
  have h64 : ReadP.idx_main_v190 (ReadP.idx_main_v191 (ix2 r q)) = ix1 q := by coords1
  have h67 : ReadP.idx_main_v193 (ReadP.idx_main_v194 (ix2 r q)) = ix1 q := by coords1
  have h70 : ReadP.idx_main_v196 (ReadP.idx_main_v197 (ix2 r q)) = ix1 q := by coords1
  rw [h58, h64, h67, h70]
  rfl

end Cert.ReferenceIdeal.StageP

end
-- ==== Proof.RComp.lean ====
import proofs.«412806_j54228257079467_3_alg».proof.Proof.RefTail
import proofs.«412806_j54228257079467_3_alg».proof.Proof.RefL1
import proofs.«412806_j54228257079467_3_alg».proof.Proof.RefL2
import proofs.«412806_j54228257079467_3_alg».proof.Proof.RefL3
import proofs.«412806_j54228257079467_3_alg».proof.Proof.Edges
import proofs.«412806_j54228257079467_3_alg».proof.Proof.Net

noncomputable section

namespace Cert.ReferenceIdeal.StageP

open Cert.ReferenceIdeal Cert.ReferenceIdeal.Gen Idealize.ShloMosaic Idealize.ShloMosaic.ValueIdx

variable (x0 : S50000x64.Idx → EReal) (x1 x2 : S256x3.Idx → EReal) (x3 : S2x800000.Idx → BitVec 32) (x4 : S50000.Idx → BitVec 32)
  (x5 : S64x128.Idx → EReal) (x6 : S128.Idx → EReal) (x7 : S128x128.Idx → EReal) (x8 : S128.Idx → EReal) (x9 : S128x128.Idx → EReal)
  (x10 x11 x12 x13 x14 x15 x16 : S128.Idx → EReal)
  (x17 : S134x1024.Idx → EReal) (x18 : S1024.Idx → EReal) (x19 : S1024x1024.Idx → EReal) (x20 : S1024.Idx → EReal)
  (x21 : S1024x1024.Idx → EReal) (x22 : S1024.Idx → EReal) (x23 : S1024x3.Idx → EReal) (x24 : S3.Idx → EReal)

local notation "nodes198" => ReadP.val_main_v198 (F := Ideal) x0 x3 x5 x6 x7 x8 x9 x10 x11 x12 x13 x14 x15 x16
local notation "pooled210" => ReadP.val_main_v210 (F := Ideal) x0 x3 x4 x5 x6 x7 x8 x9 x10 x11 x12 x13 x14 x15 x16
local notation "z211" => ReadP.val_main_v211 (F := Ideal) x0 x1 x2 x3 x4 x5 x6 x7 x8 x9 x10 x11 x12 x13 x14 x15 x16
local notation "out230" => ReadP.val_main_v230 (F := Ideal) x0 x1 x2 x3 x4 x5 x6 x7 x8 x9 x10 x11 x12 x13 x14 x15 x16 x17 x18 x19 x20 x21 x22 x23 x24

local notation "pre47" => (ReadP.val_main_v47 (F := Ideal) x0 x3 x5 x6 : S50000x128.Idx → EReal)
local notation "mean50" => (ReadP.val_main_v50 (F := Ideal) x0 x3 x5 x6 : S128.Idx → EReal)
local notation "var57" => (ReadP.val_main_v57 (F := Ideal) x0 x3 x5 x6 : S128.Idx → EReal)
local notation "act73" => (ReadP.val_main_v73 (F := Ideal) x0 x3 x5 x6 x11 x12 : S50000x128.Idx → EReal)
local notation "pre110" => (ReadP.val_main_v110 (F := Ideal) x0 x3 x5 x6 x7 x8 x11 x12 : S50000x128.Idx → EReal)
local notation "mean113" => (ReadP.val_main_v113 (F := Ideal) x0 x3 x5 x6 x7 x8 x11 x12 : S128.Idx → EReal)
local notation "var120" => (ReadP.val_main_v120 (F := Ideal) x0 x3 x5 x6 x7 x8 x11 x12 : S128.Idx → EReal)
local notation "act136" => (ReadP.val_main_v136 (F := Ideal) x0 x3 x5 x6 x7 x8 x11 x12 x13 x14 : S50000x128.Idx → EReal)
local notation "pre173" => (ReadP.val_main_v173 (F := Ideal) x0 x3 x5 x6 x7 x8 x9 x10 x11 x12 x13 x14 : S50000x128.Idx → EReal)
local notation "mean176" => (ReadP.val_main_v176 (F := Ideal) x0 x3 x5 x6 x7 x8 x9 x10 x11 x12 x13 x14 : S128.Idx → EReal)
local notation "var183" => (ReadP.val_main_v183 (F := Ideal) x0 x3 x5 x6 x7 x8 x9 x10 x11 x12 x13 x14 : S128.Idx → EReal)

local notation "N0" => Ideal.ofBits FTy.f32 0x47435000#32
local notation "eps0" => Ideal.ofBits FTy.f32 0x3727C5AC#32
local notation "P0" => Edges.landsOn x3
local notation "src0" => Edges.srcRow x3
local notation "dst0" => Edges.dstRow x3
local notation "dis0" => Spec.nodeWeight (Edges.landsOn x3)

theorem entry_of_nodes (G : Fin 50000 → Fin 128 → EReal) (hG : Spec.cur2 nodes198 = G) (a : Fin 256) (q : Fin 3) :
    out230 (ix2 a q)
      = Spec.head (Spec.poolR (graphOf x4) G) (Spec.cur2 x1) (Spec.cur2 x2) (Spec.cur2 x17) (Spec.cur1 x18)
          (Spec.cur2 x19) (Spec.cur1 x20) (Spec.cur2 x21) (Spec.cur1 x22) (Spec.cur2 x23) (Spec.cur1 x24) a q := by
  have hp : Spec.cur2 pooled210 = Spec.poolR (graphOf x4) G := by
    rw [← hG]; funext a q; apply ref_pooled
  have hz : Spec.cur2 z211 = Spec.cat3 (Spec.poolR (graphOf x4) G) (Spec.cur2 x1) (Spec.cur2 x2) := by
    rw [← hp]; funext a q; apply ref_z
  rw [ref_out, hz]
  unfold Spec.head
  exact Eq.refl _

theorem gnn_of_layers {n e f c : Nat} {N eps : EReal} {dis : Fin n → EReal} {P : Fin e → Fin n → Prop} [∀ j i, Decidable (P j i)]
    {src dst : Fin e → Fin n} {X : Fin n → Fin f → EReal}
    {W1 : Fin f → Fin c → EReal} {b1 g1 be1 : Fin c → EReal} {W2 : Fin c → Fin c → EReal} {b2 g2 be2 : Fin c → EReal}
    {W3 : Fin c → Fin c → EReal} {b3 g3 be3 : Fin c → EReal}
    {pre1 act1 pre2 act2 pre3 out : Fin n → Fin c → EReal} {m1 v1 m2 v2 m3 v3 : Fin c → EReal}
    (hl1 : pre1 = Spec.layerR dis P src dst X W1 b1)
    (hm1 : m1 = Spec.meanR N pre1) (hv1 : v1 = Spec.varR N pre1) (hact1 : act1 = Spec.relu (Spec.bn eps pre1 m1 v1 g1 be1))
    (hl2 : pre2 = Spec.layerR dis P src dst act1 W2 b2)
    (hm2 : m2 = Spec.meanR N pre2) (hv2 : v2 = Spec.varR N pre2) (hact2 : act2 = Spec.relu (Spec.bn eps pre2 m2 v2 g2 be2))
    (hl3 : pre3 = Spec.layerR dis P src dst act2 W3 b3)
    (hm3 : m3 = Spec.meanR N pre3) (hv3 : v3 = Spec.varR N pre3) (hout : out = Spec.bn eps pre3 m3 v3 g3 be3) :
    out = Spec.gnnR N eps dis P src dst X W1 b1 g1 be1 W2 b2 g2 be2 W3 b3 g3 be3 := by
  subst hl1 hm1 hv1 hact1 hl2 hm2 hv2 hact2 hl3 hm3 hv3 hout
  unfold Spec.gnnR Spec.normR
  exact Eq.refl _

theorem ref_h3 (r : Fin 50000) (q : Fin 128) :
    nodes198 (ix2 r q)
      = Spec.gnnR N0 eps0 dis0 P0 src0 dst0 (Spec.cur2 x0) (Spec.cur2 x5) (Spec.cur1 x6) (Spec.cur1 x11) (Spec.cur1 x12)
          (Spec.cur2 x7) (Spec.cur1 x8) (Spec.cur1 x13) (Spec.cur1 x14) (Spec.cur2 x9) (Spec.cur1 x10) (Spec.cur1 x15) (Spec.cur1 x16) r q := by
  have hl1 : Spec.cur2 pre47 = Spec.layerR dis0 P0 src0 dst0 (Spec.cur2 x0) (Spec.cur2 x5) (Spec.cur1 x6) := by
    funext r q; apply ref_layer1
  have hm1 : Spec.cur1 mean50 = Spec.meanR N0 (Spec.cur2 pre47) := by funext q; apply ref_mean1
  have hv1 : Spec.cur1 var57 = Spec.varR N0 (Spec.cur2 pre47) := by funext q; apply ref_var1
  have ha1 : Spec.cur2 act73 = Spec.relu (Spec.bn eps0 (Spec.cur2 pre47) (Spec.cur1 mean50) (Spec.cur1 var57) (Spec.cur1 x11) (Spec.cur1 x12)) := by
    funext r q; apply ref_h1
  have hl2 : Spec.cur2 pre110 = Spec.layerR dis0 P0 src0 dst0 (Spec.cur2 act73) (Spec.cur2 x7) (Spec.cur1 x8) := by
    funext r q; apply ref_layer2
  have hm2 : Spec.cur1 mean113 = Spec.meanR N0 (Spec.cur2 pre110) := by funext q; apply ref_mean2
  have hv2 : Spec.cur1 var120 = Spec.varR N0 (Spec.cur2 pre110) := by funext q; apply ref_var2
  have ha2 : Spec.cur2 act136 = Spec.relu (Spec.bn eps0 (Spec.cur2 pre110) (Spec.cur1 mean113) (Spec.cur1 var120) (Spec.cur1 x13) (Spec.cur1 x14)) := by
    funext r q; apply ref_h2
  have hl3 : Spec.cur2 pre173 = Spec.layerR dis0 P0 src0 dst0 (Spec.cur2 act136) (Spec.cur2 x9) (Spec.cur1 x10) := by
    funext r q; apply ref_layer3
  have hm3 : Spec.cur1 mean176 = Spec.meanR N0 (Spec.cur2 pre173) := by funext q; apply ref_mean3
  have hv3 : Spec.cur1 var183 = Spec.varR N0 (Spec.cur2 pre173) := by funext q; apply ref_var3
  have ho3 : Spec.cur2 (nodes198 : S50000x128.Idx → EReal)
      = Spec.bn eps0 (Spec.cur2 pre173) (Spec.cur1 mean176) (Spec.cur1 var183) (Spec.cur1 x15) (Spec.cur1 x16) := by
    funext r q; apply ref_bn3
  exact congrFun (congrFun (gnn_of_layers hl1 hm1 hv1 ha1 hl2 hm2 hv2 ha2 hl3 hm3 hv3 ho3) r) q

theorem ref_entry (a : Fin 256) (q : Fin 3) :
    out230 (ix2 a q)
      = Spec.head (Spec.poolR (graphOf x4)
          (Spec.gnnR N0 eps0 dis0 P0 src0 dst0 (Spec.cur2 x0) (Spec.cur2 x5) (Spec.cur1 x6) (Spec.cur1 x11) (Spec.cur1 x12)
          (Spec.cur2 x7) (Spec.cur1 x8) (Spec.cur1 x13) (Spec.cur1 x14) (Spec.cur2 x9) (Spec.cur1 x10) (Spec.cur1 x15) (Spec.cur1 x16)))
          (Spec.cur2 x1) (Spec.cur2 x2) (Spec.cur2 x17) (Spec.cur1 x18) (Spec.cur2 x19) (Spec.cur1 x20) (Spec.cur2 x21) (Spec.cur1 x22)
          (Spec.cur2 x23) (Spec.cur1 x24) a q := by
  apply entry_of_nodes; funext r q; apply ref_h3

end Cert.ReferenceIdeal.StageP

end
-- ==== Proof.Final.lean ====
import proofs.«412806_j54228257079467_3_alg».proof.Defs
import proofs.«412806_j54228257079467_3_alg».proof.Proof.Gen.KernelIdeal
import proofs.«412806_j54228257079467_3_alg».proof.Proof.Gen.ReferenceIdeal
import proofs.«412806_j54228257079467_3_alg».proof.Proof.Gen.Pre_finite_inputs
import proofs.«412806_j54228257079467_3_alg».proof.Proof.RefRead
import proofs.«412806_j54228257079467_3_alg».proof.Proof.RefTail
import proofs.«412806_j54228257079467_3_alg».proof.Proof.LawsFinal
import proofs.«412806_j54228257079467_3_alg».proof.Proof.LawsBn
import proofs.«412806_j54228257079467_3_alg».proof.Proof.Edges
import proofs.«412806_j54228257079467_3_alg».proof.Proof.Finite
import proofs.«412806_j54228257079467_3_alg».proof.Proof.KI.Chain
import proofs.«412806_j54228257079467_3_alg».proof.Proof.KI.Run
import proofs.«412806_j54228257079467_3_alg».proof.Proof.KI.KTail
import proofs.«412806_j54228257079467_3_alg».proof.Proof.KI.KCompE
import proofs.«412806_j54228257079467_3_alg».proof.Proof.RefRun
import proofs.«412806_j54228257079467_3_alg».proof.Proof.RComp

noncomputable section

namespace Cert.Proof.Final

open Idealize.ShloMosaic Idealize.ShloMosaic.TcCoe Idealize.SL.Sem Idealize.ShloMosaic.ValueIdx
open Cert

theorem count_nat : Ideal.ofBits .f32 0x47435000#32 = (((50000 : ℕ) : ℝ) : EReal) := by
  rw [Cert.Spec.count_word]; norm_num

theorem poolR_congr {n g c : Nat} (Pb Pb' : Fin n → Fin g → Prop) [∀ i a, Decidable (Pb i a)] [∀ i a, Decidable (Pb' i a)]
    (h : ∀ i a, Pb i a ↔ Pb' i a) (x : Fin n → Fin c → EReal) : Spec.poolR Pb x = Spec.poolR Pb' x := by
  funext a q
  have e : Finset.univ.filter (fun i => Pb i a) = Finset.univ.filter (fun i => Pb' i a) :=
    Finset.filter_congr (fun i _ => h i a)
  unfold Spec.poolR
  rw [e]

variable (x0 : Cert.KernelIdeal.S50000x64.Idx → EReal) (x1 : Cert.KernelIdeal.S256x3.Idx → EReal) (x2 : Cert.KernelIdeal.S256x3.Idx → EReal) (x3 : Cert.KernelIdeal.S2x800000.Idx → BitVec 32) (x4 : Cert.KernelIdeal.S50000.Idx → BitVec 32) (x5 : Cert.KernelIdeal.S64x128.Idx → EReal) (x6 : Cert.KernelIdeal.S128.Idx → EReal) (x7 : Cert.KernelIdeal.S128x128.Idx → EReal) (x8 : Cert.KernelIdeal.S128.Idx → EReal) (x9 : Cert.KernelIdeal.S128x128.Idx → EReal) (x10 : Cert.KernelIdeal.S128.Idx → EReal) (x11 : Cert.KernelIdeal.S128.Idx → EReal) (x12 : Cert.KernelIdeal.S128.Idx → EReal) (x13 : Cert.KernelIdeal.S128.Idx → EReal) (x14 : Cert.KernelIdeal.S128.Idx → EReal) (x15 : Cert.KernelIdeal.S128.Idx → EReal) (x16 : Cert.KernelIdeal.S128.Idx → EReal) (x17 : Cert.KernelIdeal.S134x1024.Idx → EReal) (x18 : Cert.KernelIdeal.S1024.Idx → EReal) (x19 : Cert.KernelIdeal.S1024x1024.Idx → EReal) (x20 : Cert.KernelIdeal.S1024.Idx → EReal) (x21 : Cert.KernelIdeal.S1024x1024.Idx → EReal) (x22 : Cert.KernelIdeal.S1024.Idx → EReal) (x23 : Cert.KernelIdeal.S1024x3.Idx → EReal) (x24 : Cert.KernelIdeal.S3.Idx → EReal)

theorem result_eq_of
    (R : Cert.Finite.ArgsReal x0 x1 x2 x5 x6 x7 x8 x9 x10 x11 x12 x13 x14 x15 x16 x17 x18 x19 x20 x21 x22 x23 x24)
    (vK : Cert.KernelIdeal.S256x3.Idx → EReal)
    (OH : Fin 256 → Fin 50176 → EReal) (HP : Fin 50176 → Fin 128 → EReal)
    (hRef : ∀ (a : Fin 256) (q : Fin 3), Cert.ReferenceIdeal.ReadP.val_main_v230 (F := Ideal) x0 x1 x2 x3 x4 x5 x6 x7 x8 x9 x10 x11 x12 x13 x14 x15 x16 x17 x18 x19 x20 x21 x22 x23 x24 (ix2 a q)
      = Spec.head (Spec.poolR (Cert.ReferenceIdeal.StageP.graphOf x4) (Spec.gnnR (Ideal.ofBits .f32 0x47435000#32) (Ideal.ofBits .f32 0x3727C5AC#32) (Spec.nodeWeight (Cert.Edges.landsOn x3)) (Cert.Edges.landsOn x3)
          (Cert.Edges.srcRow x3) (Cert.Edges.dstRow x3) (Spec.cur2 x0) (Spec.cur2 x5) (Spec.cur1 x6) (Spec.cur1 x11) (Spec.cur1 x12) (Spec.cur2 x7) (Spec.cur1 x8) (Spec.cur1 x13) (Spec.cur1 x14) (Spec.cur2 x9) (Spec.cur1 x10) (Spec.cur1 x15) (Spec.cur1 x16))) (Spec.cur2 x1) (Spec.cur2 x2) (Spec.cur2 x17) (Spec.cur1 x18) (Spec.cur2 x19) (Spec.cur1 x20) (Spec.cur2 x21) (Spec.cur1 x22) (Spec.cur2 x23) (Spec.cur1 x24) a q)
    (hTail : ∀ (a : Fin 256) (q : Fin 3), vK (ix2 a q)
      = Spec.head (Spec.poolK (by decide : 14 * 3584 = 50176) OH HP) (Spec.cur2 x1) (Spec.cur2 x2) (Spec.cur2 x17) (Spec.cur1 x18) (Spec.cur2 x19) (Spec.cur1 x20) (Spec.cur2 x21) (Spec.cur1 x22) (Spec.cur2 x23) (Spec.cur1 x24) a q)
    (hoh : ∀ (a : Fin 256) (mm : Fin 50176), OH a mm
      = if hm : mm.val < 50000 then (if Cert.Rows.lands (x4 (ix1 ⟨mm.val, hm⟩)) a then 1 else 0) else 0)
    (hhp : ∀ (mm : Fin 50176) (q : Fin 128), HP mm q = if hm : mm.val < 50000 then
      Spec.gnnK (by decide : 10 * 5000 = 50000) (Ideal.ofBits .f32 0x47435000#32) (Ideal.ofBits .f32 0x3727C5AC#32) (Spec.nodeWeight (Cert.Edges.landsOn x3)) (Cert.Edges.landsOn x3)
        (Cert.Edges.srcRow x3) (Spec.cur2 x0) (Spec.cur2 x5) (Spec.cur1 x6) (Spec.cur1 x11) (Spec.cur1 x12) (Spec.cur2 x7) (Spec.cur1 x8) (Spec.cur1 x13) (Spec.cur1 x14) (Spec.cur2 x9) (Spec.cur1 x10) (Spec.cur1 x15) (Spec.cur1 x16) ⟨mm.val, hm⟩ q else 0) :
    Cert.ReferenceIdeal.ReadP.val_main_v230 (F := Ideal) x0 x1 x2 x3 x4 x5 x6 x7 x8 x9 x10 x11 x12 x13 x14 x15 x16 x17 x18 x19 x20 x21 x22 x23 x24 = vK := by
  funext i
  obtain ⟨a, q, rfl⟩ : ∃ (a : Fin 256) (q : Fin 3), i = ix2 a q := ⟨i 0, i 1, eq_ix2 i⟩
  rw [hRef a q, hTail a q,
    poolR_congr (Cert.ReferenceIdeal.StageP.graphOf x4) (fun n a => Cert.Rows.lands (x4 (ix1 n)) a) (fun _ _ => Iff.rfl)]
  obtain ⟨ε, hε, heps⟩ := Cert.Spec.eps_word
  exact (congrFun (congrFun (Cert.Spec.net_eq (by decide : 10 * 5000 = 50000) (by decide) _ count_nat _ ε hε heps
    (Cert.Edges.landsOn x3) (Cert.Edges.srcRow x3) (Cert.Edges.dstRow x3) (fun j i h => Cert.Edges.dst_of_lands x3 j i h)
    (Spec.cur2 x0) R.r0 (Spec.cur2 x5) (Spec.cur1 x6) (Spec.cur1 x11) (Spec.cur1 x12) (Spec.cur2 x7) (Spec.cur1 x8) (Spec.cur1 x13)
    (Spec.cur1 x14) (Spec.cur2 x9) (Spec.cur1 x10) (Spec.cur1 x15) (Spec.cur1 x16)
    R.r5 R.r6 R.r11 R.r12 R.r7 R.r8 R.r13 R.r14 R.r9 R.r10 R.r15 R.r16
    (by decide : 14 * 3584 = 50176) (by decide) OH HP (fun n a => Cert.Rows.lands (x4 (ix1 n)) a) hoh hhp
    (Spec.cur2 x1) (Spec.cur2 x2) (Spec.cur2 x17) (Spec.cur1 x18) (Spec.cur2 x19) (Spec.cur1 x20) (Spec.cur2 x21) (Spec.cur1 x22)
    (Spec.cur2 x23) (Spec.cur1 x24)) a) q).symm

abbrev argAt (m : (ℓ : Loc Cert.KernelIdeal.nD Cert.KernelIdeal.τ Cert.KernelIdeal.sig) → Buf (Elt Ideal) ℓ) (c : Dev Cert.KernelIdeal.nD) (b : Ref Cert.KernelIdeal.sig .tc) :
    Buf (Elt Ideal) ((c.tc : Thread Cert.KernelIdeal.nD Cert.KernelIdeal.τ).loc b) := m ((c.tc : Thread Cert.KernelIdeal.nD Cert.KernelIdeal.τ).loc b)

abbrev argR (m' : (ℓ : Loc Cert.ReferenceIdeal.nD Cert.ReferenceIdeal.τ Cert.ReferenceIdeal.sig) → Buf (Elt Ideal) ℓ) (c : Dev Cert.ReferenceIdeal.nD) (b : Ref Cert.ReferenceIdeal.sig .tc) :
    Buf (Elt Ideal) ((c.tc : Thread Cert.ReferenceIdeal.nD Cert.ReferenceIdeal.τ).loc b) := m' ((c.tc : Thread Cert.ReferenceIdeal.nD Cert.ReferenceIdeal.τ).loc b)

theorem result_eq (m : (ℓ : Loc Cert.KernelIdeal.nD Cert.KernelIdeal.τ Cert.KernelIdeal.sig) → Buf (Elt Ideal) ℓ) (hpre : Cert.Pre_KernelIdeal m) (c : Dev Cert.KernelIdeal.nD) :
    Cert.ReferenceIdeal.ReadP.val_main_v230 (F := Ideal) (argAt m c Cert.KernelIdeal.main_arg0) (argAt m c Cert.KernelIdeal.main_arg1) (argAt m c Cert.KernelIdeal.main_arg2) (argAt m c Cert.KernelIdeal.main_arg3) (argAt m c Cert.KernelIdeal.main_arg4) (argAt m c Cert.KernelIdeal.main_arg5) (argAt m c Cert.KernelIdeal.main_arg6) (argAt m c Cert.KernelIdeal.main_arg7) (argAt m c Cert.KernelIdeal.main_arg8) (argAt m c Cert.KernelIdeal.main_arg9) (argAt m c Cert.KernelIdeal.main_arg10) (argAt m c Cert.KernelIdeal.main_arg11) (argAt m c Cert.KernelIdeal.main_arg12) (argAt m c Cert.KernelIdeal.main_arg13) (argAt m c Cert.KernelIdeal.main_arg14) (argAt m c Cert.KernelIdeal.main_arg15) (argAt m c Cert.KernelIdeal.main_arg16) (argAt m c Cert.KernelIdeal.main_arg17) (argAt m c Cert.KernelIdeal.main_arg18) (argAt m c Cert.KernelIdeal.main_arg19) (argAt m c Cert.KernelIdeal.main_arg20) (argAt m c Cert.KernelIdeal.main_arg21) (argAt m c Cert.KernelIdeal.main_arg22) (argAt m c Cert.KernelIdeal.main_arg23) (argAt m c Cert.KernelIdeal.main_arg24)
      = (Cert.KernelIdeal.Frm.dat8 (F := Ideal) (Cert.KernelIdeal.Frm.T18 m) c).arrAt (⟨9, Nat.lt_succ_self 9⟩ : Fin Cert.KernelIdeal.cfg8.W) Cert.KernelIdeal.cfg8.N :=
  result_eq_of _ _ _ _ _ _ _ _ _ _ _ _ _ _ _ _ _ _ _ _ _ _ _ _ _ (Cert.Finite.args_real _ _ _ _ _ _ _ _ _ _ _ _ _ _ _ _ _ _ _ _ _ _ _ _ _ (hpre c)) _ _ _
    (fun a q => Cert.ReferenceIdeal.StageP.ref_entry _ _ _ _ _ _ _ _ _ _ _ _ _ _ _ _ _ _ _ _ _ _ _ _ _ a q)
    (fun a q => Cert.KernelIdeal.Val.kernel_tail m c a q)
    (fun a n => Cert.KernelIdeal.Val.tail_oh m c a n)
    (fun n q => Cert.KernelIdeal.Val.tail_hp m c _ (fun r q => Cert.KernelIdeal.Val.h3_entry_edges m c r q) n q)

-- the reference's value on arguments equal to the kernel's is the kernel's value
theorem agree_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (h : argR m' c Cert.ReferenceIdeal.main_arg0 = argAt m c Cert.KernelIdeal.main_arg0
      ∧ argR m' c Cert.ReferenceIdeal.main_arg1 = argAt m c Cert.KernelIdeal.main_arg1
      ∧ argR m' c Cert.ReferenceIdeal.main_arg2 = argAt m c Cert.KernelIdeal.main_arg2
      ∧ argR m' c Cert.ReferenceIdeal.main_arg3 = argAt m c Cert.KernelIdeal.main_arg3
      ∧ argR m' c Cert.ReferenceIdeal.main_arg4 = argAt m c Cert.KernelIdeal.main_arg4
      ∧ argR m' c Cert.ReferenceIdeal.main_arg5 = argAt m c Cert.KernelIdeal.main_arg5
      ∧ argR m' c Cert.ReferenceIdeal.main_arg6 = argAt m c Cert.KernelIdeal.main_arg6
      ∧ argR m' c Cert.ReferenceIdeal.main_arg7 = argAt m c Cert.KernelIdeal.main_arg7
      ∧ argR m' c Cert.ReferenceIdeal.main_arg8 = argAt m c Cert.KernelIdeal.main_arg8
      ∧ argR m' c Cert.ReferenceIdeal.main_arg9 = argAt m c Cert.KernelIdeal.main_arg9
      ∧ argR m' c Cert.ReferenceIdeal.main_arg10 = argAt m c Cert.KernelIdeal.main_arg10
      ∧ argR m' c Cert.ReferenceIdeal.main_arg11 = argAt m c Cert.KernelIdeal.main_arg11
      ∧ argR m' c Cert.ReferenceIdeal.main_arg12 = argAt m c Cert.KernelIdeal.main_arg12
      ∧ argR m' c Cert.ReferenceIdeal.main_arg13 = argAt m c Cert.KernelIdeal.main_arg13
      ∧ argR m' c Cert.ReferenceIdeal.main_arg14 = argAt m c Cert.KernelIdeal.main_arg14
      ∧ argR m' c Cert.ReferenceIdeal.main_arg15 = argAt m c Cert.KernelIdeal.main_arg15
      ∧ argR m' c Cert.ReferenceIdeal.main_arg16 = argAt m c Cert.KernelIdeal.main_arg16
      ∧ argR m' c Cert.ReferenceIdeal.main_arg17 = argAt m c Cert.KernelIdeal.main_arg17
      ∧ argR m' c Cert.ReferenceIdeal.main_arg18 = argAt m c Cert.KernelIdeal.main_arg18
      ∧ argR m' c Cert.ReferenceIdeal.main_arg19 = argAt m c Cert.KernelIdeal.main_arg19
      ∧ argR m' c Cert.ReferenceIdeal.main_arg20 = argAt m c Cert.KernelIdeal.main_arg20
      ∧ argR m' c Cert.ReferenceIdeal.main_arg21 = argAt m c Cert.KernelIdeal.main_arg21
      ∧ argR m' c Cert.ReferenceIdeal.main_arg22 = argAt m c Cert.KernelIdeal.main_arg22
      ∧ argR m' c Cert.ReferenceIdeal.main_arg23 = argAt m c Cert.KernelIdeal.main_arg23
      ∧ argR m' c Cert.ReferenceIdeal.main_arg24 = argAt m c Cert.KernelIdeal.main_arg24) :
    Cert.ReferenceIdeal.ReadP.val_main_v230 (F := Ideal) (argR m' c Cert.ReferenceIdeal.main_arg0) (argR m' c Cert.ReferenceIdeal.main_arg1) (argR m' c Cert.ReferenceIdeal.main_arg2) (argR m' c Cert.ReferenceIdeal.main_arg3) (argR m' c Cert.ReferenceIdeal.main_arg4) (argR m' c Cert.ReferenceIdeal.main_arg5) (argR m' c Cert.ReferenceIdeal.main_arg6) (argR m' c Cert.ReferenceIdeal.main_arg7) (argR m' c Cert.ReferenceIdeal.main_arg8) (argR m' c Cert.ReferenceIdeal.main_arg9) (argR m' c Cert.ReferenceIdeal.main_arg10) (argR m' c Cert.ReferenceIdeal.main_arg11) (argR m' c Cert.ReferenceIdeal.main_arg12) (argR m' c Cert.ReferenceIdeal.main_arg13) (argR m' c Cert.ReferenceIdeal.main_arg14) (argR m' c Cert.ReferenceIdeal.main_arg15) (argR m' c Cert.ReferenceIdeal.main_arg16) (argR m' c Cert.ReferenceIdeal.main_arg17) (argR m' c Cert.ReferenceIdeal.main_arg18) (argR m' c Cert.ReferenceIdeal.main_arg19) (argR m' c Cert.ReferenceIdeal.main_arg20) (argR m' c Cert.ReferenceIdeal.main_arg21) (argR m' c Cert.ReferenceIdeal.main_arg22) (argR m' c Cert.ReferenceIdeal.main_arg23) (argR m' c Cert.ReferenceIdeal.main_arg24)
      = (Cert.KernelIdeal.Frm.dat8 (F := Ideal) (Cert.KernelIdeal.Frm.T18 m) c).arrAt (⟨9, Nat.lt_succ_self 9⟩ : Fin Cert.KernelIdeal.cfg8.W) Cert.KernelIdeal.cfg8.N := by
  obtain ⟨e0, e1, e2, e3, e4, e5, e6, e7, e8, e9, e10, e11, e12, e13, e14, e15, e16, e17, e18, e19, e20, e21, e22, e23, e24⟩ := h
  exact (congr (congr (congr (congr (congr (congr (congr (congr (congr (congr (congr (congr (congr (congr (congr (congr (congr (congr (congr (congr (congr (congr (congr (congr (congrArg (Cert.ReferenceIdeal.ReadP.val_main_v230 (F := Ideal)) e0) e1) e2) e3) e4) e5) e6) e7) e8) e9) e10) e11) e12) e13) e14) e15) e16) e17) e18) e19) e20) e21) e22) e23) e24).trans (result_eq m hpre c)

theorem algebraic : Cert.algebraic_KernelIdeal_ReferenceIdeal := fun m g m' g' hpre hagree =>
  ⟨_, Cert.KernelIdeal.Frm.run_value (F := Ideal) m g, (θ_run Cert.ReferenceIdeal.defs _ _).mono
    (fun _ h c => ⟨(h c).1.trans (agree_eq m m' hpre c (hagree c)), (h c).2⟩) (Cert.ReferenceIdeal.RunP.run (F := Ideal) m' g')⟩

end Cert.Proof.Final

end
-- ==== Proof.lean ====
import proofs.«412806_j54228257079467_3_alg».proof.Defs
import proofs.«412806_j54228257079467_3_alg».proof.Proof.Gen.Kernel
import proofs.«412806_j54228257079467_3_alg».proof.Proof.Gen.KernelIdeal
import proofs.«412806_j54228257079467_3_alg».proof.Proof.Gen.ReferenceIdeal
import proofs.«412806_j54228257079467_3_alg».proof.Proof.Gen.Pre_finite_inputs
import proofs.«412806_j54228257079467_3_alg».proof.Proof.KB.Run
import proofs.«412806_j54228257079467_3_alg».proof.Proof.KI.Run
import proofs.«412806_j54228257079467_3_alg».proof.Proof.RefRun
import proofs.«412806_j54228257079467_3_alg».proof.Proof.Final
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frm.frame m ρ

theorem frame_ki : Cert.frame_KernelIdeal (hKernelIdeal := Cert.KernelIdeal.Gen.facts) (hPre_finite_inputs := Cert.Pre_finite_inputs.Gen.facts) :=
  fun m ρ _ => Cert.KernelIdeal.Frm.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunP.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Final.algebraic⟩

end Cert.Proof

end
